-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x4096 : Shape := ⟨2, ![1024, 4096]⟩
abbrev S4096x2048 : Shape := ⟨2, ![4096, 2048]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_

variable [Facts]

def fn {F : FTy → Type} [FloatOps F] (main_arg0 : FVec F S1024x4096 .f32) (main_arg1 : FVec F S4096x2048 .f32) : IVec S_ 1 :=
  let main_v0 : FVec F S1024x4096 .f32 := Host.absf main_arg0
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_c : IVec S_ 1 := constantI S_ 1 1#1
  let main_v3 : IVec S_ 1 := (fun x v => Host.reduce IntOp.andi x v reducesTo_S1024x4096_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  main_v8
-- ==== Pre_finite_inputs_ReferenceIdeal.lean ====
abbrev S4096x4096 : Shape := ⟨2, ![4096, 4096]⟩
abbrev S4096x2048 : Shape := ⟨2, ![4096, 2048]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_

variable [Facts]

def fn {F : FTy → Type} [FloatOps F] (main_arg0 : FVec F S4096x4096 .f32) (main_arg1 : FVec F S4096x2048 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  main_v8
-- ==== Kernel.lean ====
abbrev S1024x4096 : Shape := ⟨2, ![1024, 4096]⟩
abbrev S4096x2048 : Shape := ⟨2, ![4096, 2048]⟩
abbrev S4096x512 : Shape := ⟨2, ![4096, 512]⟩
abbrev S2x4096x512 : Shape := ⟨3, ![2, 4096, 512]⟩
abbrev S3x1024x512 : Shape := ⟨3, ![3, 1024, 512]⟩
abbrev S4x1024x512 : Shape := ⟨3, ![4, 1024, 512]⟩
abbrev S4 : Shape := ⟨1, ![4]⟩
abbrev S2x2 : Shape := ⟨2, ![2, 2]⟩
abbrev S3x4 : Shape := ⟨2, ![3, 4]⟩
abbrev S4x4 : Shape := ⟨2, ![4, 4]⟩
abbrev S1 : Shape := ⟨1, ![1]⟩
abbrev S_ : Shape := ⟨0, ![]⟩
abbrev S256x4096 : Shape := ⟨2, ![256, 4096]⟩
abbrev S1x1 : Shape := ⟨2, ![1, 1]⟩
abbrev S1x2048x512 : Shape := ⟨3, ![1, 2048, 512]⟩
abbrev S2048x512 : Shape := ⟨2, ![2048, 512]⟩
abbrev S1x4096x512 : Shape := ⟨3, ![1, 4096, 512]⟩
abbrev S256x512 : Shape := ⟨2, ![256, 512]⟩
abbrev S1x256x512 : Shape := ⟨3, ![1, 256, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S1024x4096, .f32⟩
  | .hbm, ⟨1, _⟩ => ⟨S4096x2048, .f32⟩
  | .hbm, ⟨2, _⟩ => ⟨S4096x512, .f32⟩
  | .local _ .vmem, ⟨0, _⟩ => ⟨S4096x512, .f32⟩
  | .local _ .vmem, ⟨1, _⟩ => ⟨S1024x4096, .f32⟩
  | .local _ .vmem, ⟨2, _⟩ => ⟨S2x4096x512, .f32⟩
  | .local _ .vmem, ⟨3, _⟩ => ⟨S3x1024x512, .bf16⟩
  | .local _ .vmem, ⟨4, _⟩ => ⟨S4x1024x512, .bf16⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_off1 (d0 : Dev nD) (c2_i32_14 : BitVec 32) : Fin 2 → Nat :=
  let c0_i32_28 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v19 : BitVec 32 := Scalar.addi v2 c2_i32_14
  let c4_i32_15 : BitVec 32 := 4#32
  let c0_i32_16 : BitVec 32 := 0#32
  let v20 : BitVec 1 := Scalar.cmpi .eq c4_i32_15 c0_i32_16
  let c1_i32_17 : BitVec 32 := 1#32
  let v21 : BitVec 32 := Scalar.select v20 c1_i32_17 c4_i32_15
  let v22 : BitVec 32 := Scalar.remsi v19 v21
  let c0_i32_19 : BitVec 32 := 0#32
  let v24 : BitVec 1 := Scalar.cmpi .slt v22 c0_i32_19
  let c0_i32_20 : BitVec 32 := 0#32
  let v25 : BitVec 1 := Scalar.cmpi .slt v21 c0_i32_20
  let v26 : BitVec 1 := Scalar.xori v24 v25
  let c0_i32_18 : BitVec 32 := 0#32
  let v23 : BitVec 1 := Scalar.cmpi .ne v22 c0_i32_18
  let v27 : BitVec 1 := Scalar.andi v26 v23
  let v28 : BitVec 32 := Scalar.addi v22 v21
  let v29 : BitVec 32 := Scalar.select v27 v28 v22
  let c512_i32_21 : BitVec 32 := 512#32
  let v30 : BitVec 32 := Scalar.muli v29 c512_i32_21
  ![0, v30.toNat]
def k0_off2 (d0 : Dev nD) (c2_i32_14 : BitVec 32) : Fin 2 → Nat :=
  let c2048_i32_33 : BitVec 32 := 2048#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v19 : BitVec 32 := Scalar.addi v2 c2_i32_14
  let c4_i32_15 : BitVec 32 := 4#32
  let c0_i32_16 : BitVec 32 := 0#32
  let v20 : BitVec 1 := Scalar.cmpi .eq c4_i32_15 c0_i32_16
  let c1_i32_17 : BitVec 32 := 1#32
  let v21 : BitVec 32 := Scalar.select v20 c1_i32_17 c4_i32_15
  let v22 : BitVec 32 := Scalar.remsi v19 v21
  let c0_i32_19 : BitVec 32 := 0#32
  let v24 : BitVec 1 := Scalar.cmpi .slt v22 c0_i32_19
  let c0_i32_20 : BitVec 32 := 0#32
  let v25 : BitVec 1 := Scalar.cmpi .slt v21 c0_i32_20
  let v26 : BitVec 1 := Scalar.xori v24 v25
  let c0_i32_18 : BitVec 32 := 0#32
  let v23 : BitVec 1 := Scalar.cmpi .ne v22 c0_i32_18
  let v27 : BitVec 1 := Scalar.andi v26 v23
  let v28 : BitVec 32 := Scalar.addi v22 v21
  let v29 : BitVec 32 := Scalar.select v27 v28 v22
  let c512_i32_22 : BitVec 32 := 512#32
  let v31 : BitVec 32 := Scalar.muli v29 c512_i32_22
  ![2048, v31.toNat]
def k0_dev1 (d0 : Dev nD) : Nat :=
  let c0_i32_43 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_34 : BitVec 32 := 1#32
  let v43 : BitVec 32 := Scalar.addi v2 c1_i32_34
  let c4_i32_35 : BitVec 32 := 4#32
  let c0_i32_36 : BitVec 32 := 0#32
  let v44 : BitVec 1 := Scalar.cmpi .eq c4_i32_35 c0_i32_36
  let c1_i32_37 : BitVec 32 := 1#32
  let v45 : BitVec 32 := Scalar.select v44 c1_i32_37 c4_i32_35
  let v46 : BitVec 32 := Scalar.remsi v43 v45
  let c0_i32_39 : BitVec 32 := 0#32
  let v48 : BitVec 1 := Scalar.cmpi .slt v46 c0_i32_39
  let c0_i32_40 : BitVec 32 := 0#32
  let v49 : BitVec 1 := Scalar.cmpi .slt v45 c0_i32_40
  let v50 : BitVec 1 := Scalar.xori v48 v49
  let c0_i32_38 : BitVec 32 := 0#32
  let v47 : BitVec 1 := Scalar.cmpi .ne v46 c0_i32_38
  let v51 : BitVec 1 := Scalar.andi v50 v47
  let v52 : BitVec 32 := Scalar.addi v46 v45
  let v53 : BitVec 32 := Scalar.select v51 v52 v46
  let c1_i32_42 : BitVec 32 := 1#32
  let v54 : BitVec 32 := Scalar.muli v53 c1_i32_42
  let v55 : BitVec 32 := Scalar.addi c0_i32_43 v54
  v55.toNat
def k0_dev2 (d0 : Dev nD) : Nat :=
  let c0_i32_53 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_44 : BitVec 32 := 2#32
  let v56 : BitVec 32 := Scalar.addi v2 c2_i32_44
  let c4_i32_45 : BitVec 32 := 4#32
  let c0_i32_46 : BitVec 32 := 0#32
  let v57 : BitVec 1 := Scalar.cmpi .eq c4_i32_45 c0_i32_46
  let c1_i32_47 : BitVec 32 := 1#32
  let v58 : BitVec 32 := Scalar.select v57 c1_i32_47 c4_i32_45
  let v59 : BitVec 32 := Scalar.remsi v56 v58
  let c0_i32_49 : BitVec 32 := 0#32
  let v61 : BitVec 1 := Scalar.cmpi .slt v59 c0_i32_49
  let c0_i32_50 : BitVec 32 := 0#32
  let v62 : BitVec 1 := Scalar.cmpi .slt v58 c0_i32_50
  let v63 : BitVec 1 := Scalar.xori v61 v62
  let c0_i32_48 : BitVec 32 := 0#32
  let v60 : BitVec 1 := Scalar.cmpi .ne v59 c0_i32_48
  let v64 : BitVec 1 := Scalar.andi v63 v60
  let v65 : BitVec 32 := Scalar.addi v59 v58
  let v66 : BitVec 32 := Scalar.select v64 v65 v59
  let c1_i32_52 : BitVec 32 := 1#32
  let v67 : BitVec 32 := Scalar.muli v66 c1_i32_52
  let v68 : BitVec 32 := Scalar.addi c0_i32_53 v67
  v68.toNat
def k0_dev3 (d0 : Dev nD) : Nat :=
  let c0_i32_63 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_54 : BitVec 32 := 3#32
  let v69 : BitVec 32 := Scalar.addi v2 c3_i32_54
  let c4_i32_55 : BitVec 32 := 4#32
  let c0_i32_56 : BitVec 32 := 0#32
  let v70 : BitVec 1 := Scalar.cmpi .eq c4_i32_55 c0_i32_56
  let c1_i32_57 : BitVec 32 := 1#32
  let v71 : BitVec 32 := Scalar.select v70 c1_i32_57 c4_i32_55
  let v72 : BitVec 32 := Scalar.remsi v69 v71
  let c0_i32_59 : BitVec 32 := 0#32
  let v74 : BitVec 1 := Scalar.cmpi .slt v72 c0_i32_59
  let c0_i32_60 : BitVec 32 := 0#32
  let v75 : BitVec 1 := Scalar.cmpi .slt v71 c0_i32_60
  let v76 : BitVec 1 := Scalar.xori v74 v75
  let c0_i32_58 : BitVec 32 := 0#32
  let v73 : BitVec 1 := Scalar.cmpi .ne v72 c0_i32_58
  let v77 : BitVec 1 := Scalar.andi v76 v73
  let v78 : BitVec 32 := Scalar.addi v72 v71
  let v79 : BitVec 32 := Scalar.select v77 v78 v72
  let c1_i32_62 : BitVec 32 := 1#32
  let v80 : BitVec 32 := Scalar.muli v79 c1_i32_62
  let v81 : BitVec 32 := Scalar.addi c0_i32_63 v80
  v81.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_124 : BitVec 32 := 0#32
  ![v2.toNat, 0]
def k0_off4 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_129 : BitVec 32 := 0#32
  let c0_i32_130 : BitVec 32 := 0#32
  ![v2.toNat, 0, 0]
def k0_dev4 (d0 : Dev nD) : Nat :=
  let c0_i32_128 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_65 : BitVec 32 := 2#32
  let v82 : BitVec 32 := Scalar.addi v2 c2_i32_65
  let c4_i32_66 : BitVec 32 := 4#32
  let c0_i32_67 : BitVec 32 := 0#32
  let v83 : BitVec 1 := Scalar.cmpi .eq c4_i32_66 c0_i32_67
  let c1_i32_68 : BitVec 32 := 1#32
  let v84 : BitVec 32 := Scalar.select v83 c1_i32_68 c4_i32_66
  let v85 : BitVec 32 := Scalar.remsi v82 v84
  let c0_i32_70 : BitVec 32 := 0#32
  let v87 : BitVec 1 := Scalar.cmpi .slt v85 c0_i32_70
  let c0_i32_71 : BitVec 32 := 0#32
  let v88 : BitVec 1 := Scalar.cmpi .slt v84 c0_i32_71
  let v89 : BitVec 1 := Scalar.xori v87 v88
  let c0_i32_69 : BitVec 32 := 0#32
  let v86 : BitVec 1 := Scalar.cmpi .ne v85 c0_i32_69
  let v90 : BitVec 1 := Scalar.andi v89 v86
  let v91 : BitVec 32 := Scalar.addi v85 v84
  let v92 : BitVec 32 := Scalar.select v90 v91 v85
  let c1_i32_127 : BitVec 32 := 1#32
  let v153 : BitVec 32 := Scalar.muli v92 c1_i32_127
  let v154 : BitVec 32 := Scalar.addi c0_i32_128 v153
  v154.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_151 : BitVec 32 := 1#32
  ![v2.toNat, 1]
def k0_off6 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_156 : BitVec 32 := 256#32
  let c0_i32_157 : BitVec 32 := 0#32
  ![v2.toNat, 256, 0]
def k0_dev5 (d0 : Dev nD) : Nat :=
  let c0_i32_155 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_65 : BitVec 32 := 2#32
  let v82 : BitVec 32 := Scalar.addi v2 c2_i32_65
  let c4_i32_66 : BitVec 32 := 4#32
  let c0_i32_67 : BitVec 32 := 0#32
  let v83 : BitVec 1 := Scalar.cmpi .eq c4_i32_66 c0_i32_67
  let c1_i32_68 : BitVec 32 := 1#32
  let v84 : BitVec 32 := Scalar.select v83 c1_i32_68 c4_i32_66
  let v85 : BitVec 32 := Scalar.remsi v82 v84
  let c0_i32_70 : BitVec 32 := 0#32
  let v87 : BitVec 1 := Scalar.cmpi .slt v85 c0_i32_70
  let c0_i32_71 : BitVec 32 := 0#32
  let v88 : BitVec 1 := Scalar.cmpi .slt v84 c0_i32_71
  let v89 : BitVec 1 := Scalar.xori v87 v88
  let c0_i32_69 : BitVec 32 := 0#32
  let v86 : BitVec 1 := Scalar.cmpi .ne v85 c0_i32_69
  let v90 : BitVec 1 := Scalar.andi v89 v86
  let v91 : BitVec 32 := Scalar.addi v85 v84
  let v92 : BitVec 32 := Scalar.select v90 v91 v85
  let c1_i32_154 : BitVec 32 := 1#32
  let v188 : BitVec 32 := Scalar.muli v92 c1_i32_154
  let v189 : BitVec 32 := Scalar.addi c0_i32_155 v188
  v189.toNat
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_178 : BitVec 32 := 2#32
  ![v2.toNat, 2]
def k0_off8 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_183 : BitVec 32 := 512#32
  let c0_i32_184 : BitVec 32 := 0#32
  ![v2.toNat, 512, 0]
def k0_dev6 (d0 : Dev nD) : Nat :=
  let c0_i32_182 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_65 : BitVec 32 := 2#32
  let v82 : BitVec 32 := Scalar.addi v2 c2_i32_65
  let c4_i32_66 : BitVec 32 := 4#32
  let c0_i32_67 : BitVec 32 := 0#32
  let v83 : BitVec 1 := Scalar.cmpi .eq c4_i32_66 c0_i32_67
  let c1_i32_68 : BitVec 32 := 1#32
  let v84 : BitVec 32 := Scalar.select v83 c1_i32_68 c4_i32_66
  let v85 : BitVec 32 := Scalar.remsi v82 v84
  let c0_i32_70 : BitVec 32 := 0#32
  let v87 : BitVec 1 := Scalar.cmpi .slt v85 c0_i32_70
  let c0_i32_71 : BitVec 32 := 0#32
  let v88 : BitVec 1 := Scalar.cmpi .slt v84 c0_i32_71
  let v89 : BitVec 1 := Scalar.xori v87 v88
  let c0_i32_69 : BitVec 32 := 0#32
  let v86 : BitVec 1 := Scalar.cmpi .ne v85 c0_i32_69
  let v90 : BitVec 1 := Scalar.andi v89 v86
  let v91 : BitVec 32 := Scalar.addi v85 v84
  let v92 : BitVec 32 := Scalar.select v90 v91 v85
  let c1_i32_181 : BitVec 32 := 1#32
  let v223 : BitVec 32 := Scalar.muli v92 c1_i32_181
  let v224 : BitVec 32 := Scalar.addi c0_i32_182 v223
  v224.toNat
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_205 : BitVec 32 := 3#32
  ![v2.toNat, 3]
def k0_off10 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c768_i32_210 : BitVec 32 := 768#32
  let c0_i32_211 : BitVec 32 := 0#32
  ![v2.toNat, 768, 0]
def k0_dev7 (d0 : Dev nD) : Nat :=
  let c0_i32_209 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_65 : BitVec 32 := 2#32
  let v82 : BitVec 32 := Scalar.addi v2 c2_i32_65
  let c4_i32_66 : BitVec 32 := 4#32
  let c0_i32_67 : BitVec 32 := 0#32
  let v83 : BitVec 1 := Scalar.cmpi .eq c4_i32_66 c0_i32_67
  let c1_i32_68 : BitVec 32 := 1#32
  let v84 : BitVec 32 := Scalar.select v83 c1_i32_68 c4_i32_66
  let v85 : BitVec 32 := Scalar.remsi v82 v84
  let c0_i32_70 : BitVec 32 := 0#32
  let v87 : BitVec 1 := Scalar.cmpi .slt v85 c0_i32_70
  let c0_i32_71 : BitVec 32 := 0#32
  let v88 : BitVec 1 := Scalar.cmpi .slt v84 c0_i32_71
  let v89 : BitVec 1 := Scalar.xori v87 v88
  let c0_i32_69 : BitVec 32 := 0#32
  let v86 : BitVec 1 := Scalar.cmpi .ne v85 c0_i32_69
  let v90 : BitVec 1 := Scalar.andi v89 v86
  let v91 : BitVec 32 := Scalar.addi v85 v84
  let v92 : BitVec 32 := Scalar.select v90 v91 v85
  let c1_i32_208 : BitVec 32 := 1#32
  let v258 : BitVec 32 := Scalar.muli v92 c1_i32_208
  let v259 : BitVec 32 := Scalar.addi c0_i32_209 v258
  v259.toNat
def k0_dev8 (d0 : Dev nD) : Nat :=
  let c0_i32_273 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_214 : BitVec 32 := 1#32
  let v268 : BitVec 32 := Scalar.addi v2 c1_i32_214
  let c4_i32_215 : BitVec 32 := 4#32
  let c0_i32_216 : BitVec 32 := 0#32
  let v269 : BitVec 1 := Scalar.cmpi .eq c4_i32_215 c0_i32_216
  let c1_i32_217 : BitVec 32 := 1#32
  let v270 : BitVec 32 := Scalar.select v269 c1_i32_217 c4_i32_215
  let v271 : BitVec 32 := Scalar.remsi v268 v270
  let c0_i32_219 : BitVec 32 := 0#32
  let v273 : BitVec 1 := Scalar.cmpi .slt v271 c0_i32_219
  let c0_i32_220 : BitVec 32 := 0#32
  let v274 : BitVec 1 := Scalar.cmpi .slt v270 c0_i32_220
  let v275 : BitVec 1 := Scalar.xori v273 v274
  let c0_i32_218 : BitVec 32 := 0#32
  let v272 : BitVec 1 := Scalar.cmpi .ne v271 c0_i32_218
  let v276 : BitVec 1 := Scalar.andi v275 v272
  let v277 : BitVec 32 := Scalar.addi v271 v270
  let v278 : BitVec 32 := Scalar.select v276 v277 v271
  let c1_i32_272 : BitVec 32 := 1#32
  let v335 : BitVec 32 := Scalar.muli v278 c1_i32_272
  let v336 : BitVec 32 := Scalar.addi c0_i32_273 v335
  v336.toNat
def k0_dev9 (d0 : Dev nD) : Nat :=
  let c0_i32_296 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_214 : BitVec 32 := 1#32
  let v268 : BitVec 32 := Scalar.addi v2 c1_i32_214
  let c4_i32_215 : BitVec 32 := 4#32
  let c0_i32_216 : BitVec 32 := 0#32
  let v269 : BitVec 1 := Scalar.cmpi .eq c4_i32_215 c0_i32_216
  let c1_i32_217 : BitVec 32 := 1#32
  let v270 : BitVec 32 := Scalar.select v269 c1_i32_217 c4_i32_215
  let v271 : BitVec 32 := Scalar.remsi v268 v270
  let c0_i32_219 : BitVec 32 := 0#32
  let v273 : BitVec 1 := Scalar.cmpi .slt v271 c0_i32_219
  let c0_i32_220 : BitVec 32 := 0#32
  let v274 : BitVec 1 := Scalar.cmpi .slt v270 c0_i32_220
  let v275 : BitVec 1 := Scalar.xori v273 v274
  let c0_i32_218 : BitVec 32 := 0#32
  let v272 : BitVec 1 := Scalar.cmpi .ne v271 c0_i32_218
  let v276 : BitVec 1 := Scalar.andi v275 v272
  let v277 : BitVec 32 := Scalar.addi v271 v270
  let v278 : BitVec 32 := Scalar.select v276 v277 v271
  let c1_i32_295 : BitVec 32 := 1#32
  let v366 : BitVec 32 := Scalar.muli v278 c1_i32_295
  let v367 : BitVec 32 := Scalar.addi c0_i32_296 v366
  v367.toNat
def k0_dev10 (d0 : Dev nD) : Nat :=
  let c0_i32_319 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_214 : BitVec 32 := 1#32
  let v268 : BitVec 32 := Scalar.addi v2 c1_i32_214
  let c4_i32_215 : BitVec 32 := 4#32
  let c0_i32_216 : BitVec 32 := 0#32
  let v269 : BitVec 1 := Scalar.cmpi .eq c4_i32_215 c0_i32_216
  let c1_i32_217 : BitVec 32 := 1#32
  let v270 : BitVec 32 := Scalar.select v269 c1_i32_217 c4_i32_215
  let v271 : BitVec 32 := Scalar.remsi v268 v270
  let c0_i32_219 : BitVec 32 := 0#32
  let v273 : BitVec 1 := Scalar.cmpi .slt v271 c0_i32_219
  let c0_i32_220 : BitVec 32 := 0#32
  let v274 : BitVec 1 := Scalar.cmpi .slt v270 c0_i32_220
  let v275 : BitVec 1 := Scalar.xori v273 v274
  let c0_i32_218 : BitVec 32 := 0#32
  let v272 : BitVec 1 := Scalar.cmpi .ne v271 c0_i32_218
  let v276 : BitVec 1 := Scalar.andi v275 v272
  let v277 : BitVec 32 := Scalar.addi v271 v270
  let v278 : BitVec 32 := Scalar.select v276 v277 v271
  let c1_i32_318 : BitVec 32 := 1#32
  let v397 : BitVec 32 := Scalar.muli v278 c1_i32_318
  let v398 : BitVec 32 := Scalar.addi c0_i32_319 v397
  v398.toNat
def k0_dev11 (d0 : Dev nD) : Nat :=
  let c0_i32_342 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_214 : BitVec 32 := 1#32
  let v268 : BitVec 32 := Scalar.addi v2 c1_i32_214
  let c4_i32_215 : BitVec 32 := 4#32
  let c0_i32_216 : BitVec 32 := 0#32
  let v269 : BitVec 1 := Scalar.cmpi .eq c4_i32_215 c0_i32_216
  let c1_i32_217 : BitVec 32 := 1#32
  let v270 : BitVec 32 := Scalar.select v269 c1_i32_217 c4_i32_215
  let v271 : BitVec 32 := Scalar.remsi v268 v270
  let c0_i32_219 : BitVec 32 := 0#32
  let v273 : BitVec 1 := Scalar.cmpi .slt v271 c0_i32_219
  let c0_i32_220 : BitVec 32 := 0#32
  let v274 : BitVec 1 := Scalar.cmpi .slt v270 c0_i32_220
  let v275 : BitVec 1 := Scalar.xori v273 v274
  let c0_i32_218 : BitVec 32 := 0#32
  let v272 : BitVec 1 := Scalar.cmpi .ne v271 c0_i32_218
  let v276 : BitVec 1 := Scalar.andi v275 v272
  let v277 : BitVec 32 := Scalar.addi v271 v270
  let v278 : BitVec 32 := Scalar.select v276 v277 v271
  let c1_i32_341 : BitVec 32 := 1#32
  let v428 : BitVec 32 := Scalar.muli v278 c1_i32_341
  let v429 : BitVec 32 := Scalar.addi c0_i32_342 v428
  v429.toNat
def k0_dev12 (d0 : Dev nD) : Nat :=
  let c0_i32_406 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_347 : BitVec 32 := 3#32
  let v438 : BitVec 32 := Scalar.addi v2 c3_i32_347
  let c4_i32_348 : BitVec 32 := 4#32
  let c0_i32_349 : BitVec 32 := 0#32
  let v439 : BitVec 1 := Scalar.cmpi .eq c4_i32_348 c0_i32_349
  let c1_i32_350 : BitVec 32 := 1#32
  let v440 : BitVec 32 := Scalar.select v439 c1_i32_350 c4_i32_348
  let v441 : BitVec 32 := Scalar.remsi v438 v440
  let c0_i32_352 : BitVec 32 := 0#32
  let v443 : BitVec 1 := Scalar.cmpi .slt v441 c0_i32_352
  let c0_i32_353 : BitVec 32 := 0#32
  let v444 : BitVec 1 := Scalar.cmpi .slt v440 c0_i32_353
  let v445 : BitVec 1 := Scalar.xori v443 v444
  let c0_i32_351 : BitVec 32 := 0#32
  let v442 : BitVec 1 := Scalar.cmpi .ne v441 c0_i32_351
  let v446 : BitVec 1 := Scalar.andi v445 v442
  let v447 : BitVec 32 := Scalar.addi v441 v440
  let v448 : BitVec 32 := Scalar.select v446 v447 v441
  let c1_i32_405 : BitVec 32 := 1#32
  let v505 : BitVec 32 := Scalar.muli v448 c1_i32_405
  let v506 : BitVec 32 := Scalar.addi c0_i32_406 v505
  v506.toNat
def k0_dev13 (d0 : Dev nD) : Nat :=
  let c0_i32_429 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_347 : BitVec 32 := 3#32
  let v438 : BitVec 32 := Scalar.addi v2 c3_i32_347
  let c4_i32_348 : BitVec 32 := 4#32
  let c0_i32_349 : BitVec 32 := 0#32
  let v439 : BitVec 1 := Scalar.cmpi .eq c4_i32_348 c0_i32_349
  let c1_i32_350 : BitVec 32 := 1#32
  let v440 : BitVec 32 := Scalar.select v439 c1_i32_350 c4_i32_348
  let v441 : BitVec 32 := Scalar.remsi v438 v440
  let c0_i32_352 : BitVec 32 := 0#32
  let v443 : BitVec 1 := Scalar.cmpi .slt v441 c0_i32_352
  let c0_i32_353 : BitVec 32 := 0#32
  let v444 : BitVec 1 := Scalar.cmpi .slt v440 c0_i32_353
  let v445 : BitVec 1 := Scalar.xori v443 v444
  let c0_i32_351 : BitVec 32 := 0#32
  let v442 : BitVec 1 := Scalar.cmpi .ne v441 c0_i32_351
  let v446 : BitVec 1 := Scalar.andi v445 v442
  let v447 : BitVec 32 := Scalar.addi v441 v440
  let v448 : BitVec 32 := Scalar.select v446 v447 v441
  let c1_i32_428 : BitVec 32 := 1#32
  let v536 : BitVec 32 := Scalar.muli v448 c1_i32_428
  let v537 : BitVec 32 := Scalar.addi c0_i32_429 v536
  v537.toNat
def k0_dev14 (d0 : Dev nD) : Nat :=
  let c0_i32_452 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_347 : BitVec 32 := 3#32
  let v438 : BitVec 32 := Scalar.addi v2 c3_i32_347
  let c4_i32_348 : BitVec 32 := 4#32
  let c0_i32_349 : BitVec 32 := 0#32
  let v439 : BitVec 1 := Scalar.cmpi .eq c4_i32_348 c0_i32_349
  let c1_i32_350 : BitVec 32 := 1#32
  let v440 : BitVec 32 := Scalar.select v439 c1_i32_350 c4_i32_348
  let v441 : BitVec 32 := Scalar.remsi v438 v440
  let c0_i32_352 : BitVec 32 := 0#32
  let v443 : BitVec 1 := Scalar.cmpi .slt v441 c0_i32_352
  let c0_i32_353 : BitVec 32 := 0#32
  let v444 : BitVec 1 := Scalar.cmpi .slt v440 c0_i32_353
  let v445 : BitVec 1 := Scalar.xori v443 v444
  let c0_i32_351 : BitVec 32 := 0#32
  let v442 : BitVec 1 := Scalar.cmpi .ne v441 c0_i32_351
  let v446 : BitVec 1 := Scalar.andi v445 v442
  let v447 : BitVec 32 := Scalar.addi v441 v440
  let v448 : BitVec 32 := Scalar.select v446 v447 v441
  let c1_i32_451 : BitVec 32 := 1#32
  let v567 : BitVec 32 := Scalar.muli v448 c1_i32_451
  let v568 : BitVec 32 := Scalar.addi c0_i32_452 v567
  v568.toNat
def k0_dev15 (d0 : Dev nD) : Nat :=
  let c0_i32_475 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_347 : BitVec 32 := 3#32
  let v438 : BitVec 32 := Scalar.addi v2 c3_i32_347
  let c4_i32_348 : BitVec 32 := 4#32
  let c0_i32_349 : BitVec 32 := 0#32
  let v439 : BitVec 1 := Scalar.cmpi .eq c4_i32_348 c0_i32_349
  let c1_i32_350 : BitVec 32 := 1#32
  let v440 : BitVec 32 := Scalar.select v439 c1_i32_350 c4_i32_348
  let v441 : BitVec 32 := Scalar.remsi v438 v440
  let c0_i32_352 : BitVec 32 := 0#32
  let v443 : BitVec 1 := Scalar.cmpi .slt v441 c0_i32_352
  let c0_i32_353 : BitVec 32 := 0#32
  let v444 : BitVec 1 := Scalar.cmpi .slt v440 c0_i32_353
  let v445 : BitVec 1 := Scalar.xori v443 v444
  let c0_i32_351 : BitVec 32 := 0#32
  let v442 : BitVec 1 := Scalar.cmpi .ne v441 c0_i32_351
  let v446 : BitVec 1 := Scalar.andi v445 v442
  let v447 : BitVec 32 := Scalar.addi v441 v440
  let v448 : BitVec 32 := Scalar.select v446 v447 v441
  let c1_i32_474 : BitVec 32 := 1#32
  let v598 : BitVec 32 := Scalar.muli v448 c1_i32_474
  let v599 : BitVec 32 := Scalar.addi c0_i32_475 v598
  v599.toNat
def k0_off11 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v648 : BitVec 32 := Scalar.muli v2 c1024_i32
  let v649 : Index := Scalar.indexCast v648
  let c0_511 : Index := 0#32
  ![v649.toNat, 0]
def k0_off12 (d0 : Dev nD) (c2_i32_620 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v723 : BitVec 32 := Scalar.addi v2 c2_i32_620
  let c4_i32_621 : BitVec 32 := 4#32
  let c0_i32_622 : BitVec 32 := 0#32
  let v724 : BitVec 1 := Scalar.cmpi .eq c4_i32_621 c0_i32_622
  let c1_i32_623 : BitVec 32 := 1#32
  let v725 : BitVec 32 := Scalar.select v724 c1_i32_623 c4_i32_621
  let v726 : BitVec 32 := Scalar.remsi v723 v725
  let c0_i32_625 : BitVec 32 := 0#32
  let v728 : BitVec 1 := Scalar.cmpi .slt v726 c0_i32_625
  let c0_i32_626 : BitVec 32 := 0#32
  let v729 : BitVec 1 := Scalar.cmpi .slt v725 c0_i32_626
  let v730 : BitVec 1 := Scalar.xori v728 v729
  let c0_i32_624 : BitVec 32 := 0#32
  let v727 : BitVec 1 := Scalar.cmpi .ne v726 c0_i32_624
  let v731 : BitVec 1 := Scalar.andi v730 v727
  let v732 : BitVec 32 := Scalar.addi v726 v725
  let v733 : BitVec 32 := Scalar.select v731 v732 v726
  let c0_i32_628 : BitVec 32 := 0#32
  ![v733.toNat, 0]
def k0_off13 (d0 : Dev nD) (c2_i32_620 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v723 : BitVec 32 := Scalar.addi v2 c2_i32_620
  let c4_i32_621 : BitVec 32 := 4#32
  let c0_i32_622 : BitVec 32 := 0#32
  let v724 : BitVec 1 := Scalar.cmpi .eq c4_i32_621 c0_i32_622
  let c1_i32_623 : BitVec 32 := 1#32
  let v725 : BitVec 32 := Scalar.select v724 c1_i32_623 c4_i32_621
  let v726 : BitVec 32 := Scalar.remsi v723 v725
  let c0_i32_625 : BitVec 32 := 0#32
  let v728 : BitVec 1 := Scalar.cmpi .slt v726 c0_i32_625
  let c0_i32_626 : BitVec 32 := 0#32
  let v729 : BitVec 1 := Scalar.cmpi .slt v725 c0_i32_626
  let v730 : BitVec 1 := Scalar.xori v728 v729
  let c0_i32_624 : BitVec 32 := 0#32
  let v727 : BitVec 1 := Scalar.cmpi .ne v726 c0_i32_624
  let v731 : BitVec 1 := Scalar.andi v730 v727
  let v732 : BitVec 32 := Scalar.addi v726 v725
  let v733 : BitVec 32 := Scalar.select v731 v732 v726
  let c0_i32_633 : BitVec 32 := 0#32
  let c0_i32_634 : BitVec 32 := 0#32
  ![v733.toNat, 0, 0]
def k0_off14 (d0 : Dev nD) (c2_i32_620 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v723 : BitVec 32 := Scalar.addi v2 c2_i32_620
  let c4_i32_621 : BitVec 32 := 4#32
  let c0_i32_622 : BitVec 32 := 0#32
  let v724 : BitVec 1 := Scalar.cmpi .eq c4_i32_621 c0_i32_622
  let c1_i32_623 : BitVec 32 := 1#32
  let v725 : BitVec 32 := Scalar.select v724 c1_i32_623 c4_i32_621
  let v726 : BitVec 32 := Scalar.remsi v723 v725
  let c0_i32_625 : BitVec 32 := 0#32
  let v728 : BitVec 1 := Scalar.cmpi .slt v726 c0_i32_625
  let c0_i32_626 : BitVec 32 := 0#32
  let v729 : BitVec 1 := Scalar.cmpi .slt v725 c0_i32_626
  let v730 : BitVec 1 := Scalar.xori v728 v729
  let c0_i32_624 : BitVec 32 := 0#32
  let v727 : BitVec 1 := Scalar.cmpi .ne v726 c0_i32_624
  let v731 : BitVec 1 := Scalar.andi v730 v727
  let v732 : BitVec 32 := Scalar.addi v726 v725
  let v733 : BitVec 32 := Scalar.select v731 v732 v726
  let v742 : Index := Scalar.indexCast v733
  let c0_637 : Index := 0#32
  let c0_638 : Index := 0#32
  ![v742.toNat, 0, 0]
def k0_off15 (d0 : Dev nD) (c2_i32_620 : BitVec 32) (c0_i32_640 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v723 : BitVec 32 := Scalar.addi v2 c2_i32_620
  let c4_i32_621 : BitVec 32 := 4#32
  let c0_i32_622 : BitVec 32 := 0#32
  let v724 : BitVec 1 := Scalar.cmpi .eq c4_i32_621 c0_i32_622
  let c1_i32_623 : BitVec 32 := 1#32
  let v725 : BitVec 32 := Scalar.select v724 c1_i32_623 c4_i32_621
  let v726 : BitVec 32 := Scalar.remsi v723 v725
  let c0_i32_625 : BitVec 32 := 0#32
  let v728 : BitVec 1 := Scalar.cmpi .slt v726 c0_i32_625
  let c0_i32_626 : BitVec 32 := 0#32
  let v729 : BitVec 1 := Scalar.cmpi .slt v725 c0_i32_626
  let v730 : BitVec 1 := Scalar.xori v728 v729
  let c0_i32_624 : BitVec 32 := 0#32
  let v727 : BitVec 1 := Scalar.cmpi .ne v726 c0_i32_624
  let v731 : BitVec 1 := Scalar.andi v730 v727
  let v732 : BitVec 32 := Scalar.addi v726 v725
  let v733 : BitVec 32 := Scalar.select v731 v732 v726
  let c1024_i32_639 : BitVec 32 := 1024#32
  let v746 : BitVec 32 := Scalar.muli v733 c1024_i32_639
  let v747 : BitVec 32 := Scalar.addi v746 c0_i32_640
  let v748 : Index := Scalar.indexCast v747
  let c0_641 : Index := 0#32
  ![v748.toNat, 0]
def k0_off16 (d0 : Dev nD) (c2_i32_620 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v723 : BitVec 32 := Scalar.addi v2 c2_i32_620
  let c4_i32_621 : BitVec 32 := 4#32
  let c0_i32_622 : BitVec 32 := 0#32
  let v724 : BitVec 1 := Scalar.cmpi .eq c4_i32_621 c0_i32_622
  let c1_i32_623 : BitVec 32 := 1#32
  let v725 : BitVec 32 := Scalar.select v724 c1_i32_623 c4_i32_621
  let v726 : BitVec 32 := Scalar.remsi v723 v725
  let c0_i32_625 : BitVec 32 := 0#32
  let v728 : BitVec 1 := Scalar.cmpi .slt v726 c0_i32_625
  let c0_i32_626 : BitVec 32 := 0#32
  let v729 : BitVec 1 := Scalar.cmpi .slt v725 c0_i32_626
  let v730 : BitVec 1 := Scalar.xori v728 v729
  let c0_i32_624 : BitVec 32 := 0#32
  let v727 : BitVec 1 := Scalar.cmpi .ne v726 c0_i32_624
  let v731 : BitVec 1 := Scalar.andi v730 v727
  let v732 : BitVec 32 := Scalar.addi v726 v725
  let v733 : BitVec 32 := Scalar.select v731 v732 v726
  let c1_i32_643 : BitVec 32 := 1#32
  ![v733.toNat, 1]
def k0_off17 (d0 : Dev nD) (c2_i32_620 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v723 : BitVec 32 := Scalar.addi v2 c2_i32_620
  let c4_i32_621 : BitVec 32 := 4#32
  let c0_i32_622 : BitVec 32 := 0#32
  let v724 : BitVec 1 := Scalar.cmpi .eq c4_i32_621 c0_i32_622
  let c1_i32_623 : BitVec 32 := 1#32
  let v725 : BitVec 32 := Scalar.select v724 c1_i32_623 c4_i32_621
  let v726 : BitVec 32 := Scalar.remsi v723 v725
  let c0_i32_625 : BitVec 32 := 0#32
  let v728 : BitVec 1 := Scalar.cmpi .slt v726 c0_i32_625
  let c0_i32_626 : BitVec 32 := 0#32
  let v729 : BitVec 1 := Scalar.cmpi .slt v725 c0_i32_626
  let v730 : BitVec 1 := Scalar.xori v728 v729
  let c0_i32_624 : BitVec 32 := 0#32
  let v727 : BitVec 1 := Scalar.cmpi .ne v726 c0_i32_624
  let v731 : BitVec 1 := Scalar.andi v730 v727
  let v732 : BitVec 32 := Scalar.addi v726 v725
  let v733 : BitVec 32 := Scalar.select v731 v732 v726
  let c256_i32_648 : BitVec 32 := 256#32
  let c0_i32_649 : BitVec 32 := 0#32
  ![v733.toNat, 256, 0]
def k0_off18 (d0 : Dev nD) (c2_i32_620 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v723 : BitVec 32 := Scalar.addi v2 c2_i32_620
  let c4_i32_621 : BitVec 32 := 4#32
  let c0_i32_622 : BitVec 32 := 0#32
  let v724 : BitVec 1 := Scalar.cmpi .eq c4_i32_621 c0_i32_622
  let c1_i32_623 : BitVec 32 := 1#32
  let v725 : BitVec 32 := Scalar.select v724 c1_i32_623 c4_i32_621
  let v726 : BitVec 32 := Scalar.remsi v723 v725
  let c0_i32_625 : BitVec 32 := 0#32
  let v728 : BitVec 1 := Scalar.cmpi .slt v726 c0_i32_625
  let c0_i32_626 : BitVec 32 := 0#32
  let v729 : BitVec 1 := Scalar.cmpi .slt v725 c0_i32_626
  let v730 : BitVec 1 := Scalar.xori v728 v729
  let c0_i32_624 : BitVec 32 := 0#32
  let v727 : BitVec 1 := Scalar.cmpi .ne v726 c0_i32_624
  let v731 : BitVec 1 := Scalar.andi v730 v727
  let v732 : BitVec 32 := Scalar.addi v726 v725
  let v733 : BitVec 32 := Scalar.select v731 v732 v726
  let v758 : Index := Scalar.indexCast v733
  let c256_652 : Index := 256#32
  let c0_653 : Index := 0#32
  ![v758.toNat, 256, 0]
def k0_off19 (d0 : Dev nD) (c2_i32_620 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v723 : BitVec 32 := Scalar.addi v2 c2_i32_620
  let c4_i32_621 : BitVec 32 := 4#32
  let c0_i32_622 : BitVec 32 := 0#32
  let v724 : BitVec 1 := Scalar.cmpi .eq c4_i32_621 c0_i32_622
  let c1_i32_623 : BitVec 32 := 1#32
  let v725 : BitVec 32 := Scalar.select v724 c1_i32_623 c4_i32_621
  let v726 : BitVec 32 := Scalar.remsi v723 v725
  let c0_i32_625 : BitVec 32 := 0#32
  let v728 : BitVec 1 := Scalar.cmpi .slt v726 c0_i32_625
  let c0_i32_626 : BitVec 32 := 0#32
  let v729 : BitVec 1 := Scalar.cmpi .slt v725 c0_i32_626
  let v730 : BitVec 1 := Scalar.xori v728 v729
  let c0_i32_624 : BitVec 32 := 0#32
  let v727 : BitVec 1 := Scalar.cmpi .ne v726 c0_i32_624
  let v731 : BitVec 1 := Scalar.andi v730 v727
  let v732 : BitVec 32 := Scalar.addi v726 v725
  let v733 : BitVec 32 := Scalar.select v731 v732 v726
  let c2_i32_658 : BitVec 32 := 2#32
  ![v733.toNat, 2]
def k0_off20 (d0 : Dev nD) (c2_i32_620 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v723 : BitVec 32 := Scalar.addi v2 c2_i32_620
  let c4_i32_621 : BitVec 32 := 4#32
  let c0_i32_622 : BitVec 32 := 0#32
  let v724 : BitVec 1 := Scalar.cmpi .eq c4_i32_621 c0_i32_622
  let c1_i32_623 : BitVec 32 := 1#32
  let v725 : BitVec 32 := Scalar.select v724 c1_i32_623 c4_i32_621
  let v726 : BitVec 32 := Scalar.remsi v723 v725
  let c0_i32_625 : BitVec 32 := 0#32
  let v728 : BitVec 1 := Scalar.cmpi .slt v726 c0_i32_625
  let c0_i32_626 : BitVec 32 := 0#32
  let v729 : BitVec 1 := Scalar.cmpi .slt v725 c0_i32_626
  let v730 : BitVec 1 := Scalar.xori v728 v729
  let c0_i32_624 : BitVec 32 := 0#32
  let v727 : BitVec 1 := Scalar.cmpi .ne v726 c0_i32_624
  let v731 : BitVec 1 := Scalar.andi v730 v727
  let v732 : BitVec 32 := Scalar.addi v726 v725
  let v733 : BitVec 32 := Scalar.select v731 v732 v726
  let c512_i32_663 : BitVec 32 := 512#32
  let c0_i32_664 : BitVec 32 := 0#32
  ![v733.toNat, 512, 0]
def k0_off21 (d0 : Dev nD) (c2_i32_620 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v723 : BitVec 32 := Scalar.addi v2 c2_i32_620
  let c4_i32_621 : BitVec 32 := 4#32
  let c0_i32_622 : BitVec 32 := 0#32
  let v724 : BitVec 1 := Scalar.cmpi .eq c4_i32_621 c0_i32_622
  let c1_i32_623 : BitVec 32 := 1#32
  let v725 : BitVec 32 := Scalar.select v724 c1_i32_623 c4_i32_621
  let v726 : BitVec 32 := Scalar.remsi v723 v725
  let c0_i32_625 : BitVec 32 := 0#32
  let v728 : BitVec 1 := Scalar.cmpi .slt v726 c0_i32_625
  let c0_i32_626 : BitVec 32 := 0#32
  let v729 : BitVec 1 := Scalar.cmpi .slt v725 c0_i32_626
  let v730 : BitVec 1 := Scalar.xori v728 v729
  let c0_i32_624 : BitVec 32 := 0#32
  let v727 : BitVec 1 := Scalar.cmpi .ne v726 c0_i32_624
  let v731 : BitVec 1 := Scalar.andi v730 v727
  let v732 : BitVec 32 := Scalar.addi v726 v725
  let v733 : BitVec 32 := Scalar.select v731 v732 v726
  let v774 : Index := Scalar.indexCast v733
  let c512_667 : Index := 512#32
  let c0_668 : Index := 0#32
  ![v774.toNat, 512, 0]
def k0_off22 (d0 : Dev nD) (c2_i32_620 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v723 : BitVec 32 := Scalar.addi v2 c2_i32_620
  let c4_i32_621 : BitVec 32 := 4#32
  let c0_i32_622 : BitVec 32 := 0#32
  let v724 : BitVec 1 := Scalar.cmpi .eq c4_i32_621 c0_i32_622
  let c1_i32_623 : BitVec 32 := 1#32
  let v725 : BitVec 32 := Scalar.select v724 c1_i32_623 c4_i32_621
  let v726 : BitVec 32 := Scalar.remsi v723 v725
  let c0_i32_625 : BitVec 32 := 0#32
  let v728 : BitVec 1 := Scalar.cmpi .slt v726 c0_i32_625
  let c0_i32_626 : BitVec 32 := 0#32
  let v729 : BitVec 1 := Scalar.cmpi .slt v725 c0_i32_626
  let v730 : BitVec 1 := Scalar.xori v728 v729
  let c0_i32_624 : BitVec 32 := 0#32
  let v727 : BitVec 1 := Scalar.cmpi .ne v726 c0_i32_624
  let v731 : BitVec 1 := Scalar.andi v730 v727
  let v732 : BitVec 32 := Scalar.addi v726 v725
  let v733 : BitVec 32 := Scalar.select v731 v732 v726
  let c3_i32_673 : BitVec 32 := 3#32
  ![v733.toNat, 3]
def k0_off23 (d0 : Dev nD) (c2_i32_620 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v723 : BitVec 32 := Scalar.addi v2 c2_i32_620
  let c4_i32_621 : BitVec 32 := 4#32
  let c0_i32_622 : BitVec 32 := 0#32
  let v724 : BitVec 1 := Scalar.cmpi .eq c4_i32_621 c0_i32_622
  let c1_i32_623 : BitVec 32 := 1#32
  let v725 : BitVec 32 := Scalar.select v724 c1_i32_623 c4_i32_621
  let v726 : BitVec 32 := Scalar.remsi v723 v725
  let c0_i32_625 : BitVec 32 := 0#32
  let v728 : BitVec 1 := Scalar.cmpi .slt v726 c0_i32_625
  let c0_i32_626 : BitVec 32 := 0#32
  let v729 : BitVec 1 := Scalar.cmpi .slt v725 c0_i32_626
  let v730 : BitVec 1 := Scalar.xori v728 v729
  let c0_i32_624 : BitVec 32 := 0#32
  let v727 : BitVec 1 := Scalar.cmpi .ne v726 c0_i32_624
  let v731 : BitVec 1 := Scalar.andi v730 v727
  let v732 : BitVec 32 := Scalar.addi v726 v725
  let v733 : BitVec 32 := Scalar.select v731 v732 v726
  let c768_i32_678 : BitVec 32 := 768#32
  let c0_i32_679 : BitVec 32 := 0#32
  ![v733.toNat, 768, 0]
def k0_off24 (d0 : Dev nD) (c2_i32_620 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v723 : BitVec 32 := Scalar.addi v2 c2_i32_620
  let c4_i32_621 : BitVec 32 := 4#32
  let c0_i32_622 : BitVec 32 := 0#32
  let v724 : BitVec 1 := Scalar.cmpi .eq c4_i32_621 c0_i32_622
  let c1_i32_623 : BitVec 32 := 1#32
  let v725 : BitVec 32 := Scalar.select v724 c1_i32_623 c4_i32_621
  let v726 : BitVec 32 := Scalar.remsi v723 v725
  let c0_i32_625 : BitVec 32 := 0#32
  let v728 : BitVec 1 := Scalar.cmpi .slt v726 c0_i32_625
  let c0_i32_626 : BitVec 32 := 0#32
  let v729 : BitVec 1 := Scalar.cmpi .slt v725 c0_i32_626
  let v730 : BitVec 1 := Scalar.xori v728 v729
  let c0_i32_624 : BitVec 32 := 0#32
  let v727 : BitVec 1 := Scalar.cmpi .ne v726 c0_i32_624
  let v731 : BitVec 1 := Scalar.andi v730 v727
  let v732 : BitVec 32 := Scalar.addi v726 v725
  let v733 : BitVec 32 := Scalar.select v731 v732 v726
  let v790 : Index := Scalar.indexCast v733
  let c768_682 : Index := 768#32
  let c0_683 : Index := 0#32
  ![v790.toNat, 768, 0]
abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

class Facts₀ : Prop where
  inb_S4_S1_0 : ∀ a, (![0] : Fin 1 → Nat) a + S1.size a ≤ S4.size a
  squeezes_S1_S_ : S1.Squeezes S_
  inb_S1024x4096_S256x4096_0_0 : ∀ a, (![0, 0] : Fin 2 → Nat) a + S256x4096.size a ≤ S1024x4096.size a
  inb_S4_S1_1 : ∀ a, (![1] : Fin 1 → Nat) a + S1.size a ≤ S4.size a
  inb_S1024x4096_S256x4096_256_0 : ∀ a, (![256, 0] : Fin 2 → Nat) a + S256x4096.size a ≤ S1024x4096.size a
  inb_S4_S1_2 : ∀ a, (![2] : Fin 1 → Nat) a + S1.size a ≤ S4.size a
  inb_S1024x4096_S256x4096_512_0 : ∀ a, (![512, 0] : Fin 2 → Nat) a + S256x4096.size a ≤ S1024x4096.size a
  inb_S4_S1_3 : ∀ a, (![3] : Fin 1 → Nat) a + S1.size a ≤ S4.size a
  inb_S1024x4096_S256x4096_768_0 : ∀ a, (![768, 0] : Fin 2 → Nat) a + S256x4096.size a ≤ S1024x4096.size a
  inb_S2x2_S1x1_0_0 : ∀ a, (![0, 0] : Fin 2 → Nat) a + S1x1.size a ≤ S2x2.size a
  squeezes_S1x1_S_ : S1x1.Squeezes S_
  inb_S2x4096x512_S1x2048x512_0_0_0 : ∀ a, (![0, 0, 0] : Fin 3 → Nat) a + S1x2048x512.size a ≤ S2x4096x512.size a
  squeezes_S1x2048x512_S2048x512 : S1x2048x512.Squeezes S2048x512
  inb_S2x2_S1x1_0_1 : ∀ a, (![0, 1] : Fin 2 → Nat) a + S1x1.size a ≤ S2x2.size a
  inb_S2x4096x512_S1x2048x512_0_2048_0 : ∀ a, (![0, 2048, 0] : Fin 3 → Nat) a + S1x2048x512.size a ≤ S2x4096x512.size a
  hamt_1 : (1#32 : BitVec 32).msb = false
  hamt_3 : (3#32 : BitVec 32).msb = false
  inb_S2x2_S1x1_1_0 : ∀ a, (![1, 0] : Fin 2 → Nat) a + S1x1.size a ≤ S2x2.size a
  inb_S2x4096x512_S1x2048x512_1_0_0 : ∀ a, (![1, 0, 0] : Fin 3 → Nat) a + S1x2048x512.size a ≤ S2x4096x512.size a
  inb_S2x2_S1x1_1_1 : ∀ a, (![1, 1] : Fin 2 → Nat) a + S1x1.size a ≤ S2x2.size a
  inb_S2x4096x512_S1x2048x512_1_2048_0 : ∀ a, (![1, 2048, 0] : Fin 3 → Nat) a + S1x2048x512.size a ≤ S2x4096x512.size a
  h_S256x4096 : 0 < S256x4096.numel
  inb_S2x4096x512_S1x4096x512_0_0_0 : ∀ a, (![0, 0, 0] : Fin 3 → Nat) a + S1x4096x512.size a ≤ S2x4096x512.size a
  h_S1x4096x512 : 0 < S1x4096x512.numel
  shapeCasts_S1x4096x512_S4096x512 : S1x4096x512.ShapeCasts S4096x512
  bitsLt_bf16_f32 : FTy.bits .bf16 < FTy.bits .f32
  inb_S3x1024x512_S1x256x512_0_0_0 : ∀ a, (![0, 0, 0] : Fin 3 → Nat) a + S1x256x512.size a ≤ S3x1024x512.size a
  h_S1x256x512 : 0 < S1x256x512.numel
  shapeCasts_S1x256x512_S256x512 : S1x256x512.ShapeCasts S256x512
  shapeCasts_S256x512_S1x256x512 : S256x512.ShapeCasts S1x256x512
  packedbf16_S3x1024x512_S1x256x512_0_0_0 : (Rect.unit (s := S3x1024x512) ![0, 0, 0] S1x256x512.size inb_S3x1024x512_S1x256x512_0_0_0).PackedRows (EltTy.packing .bf16)
  inb_S3x4_S1x1_0_0 : ∀ a, (![0, 0] : Fin 2 → Nat) a + S1x1.size a ≤ S3x4.size a
  squeezes_S1x256x512_S256x512 : S1x256x512.Squeezes S256x512
  wordsbf16_S3x1024x512_S1x256x512_0_0_0 : (Rect.unit (s := S3x1024x512) ![0, 0, 0] S1x256x512.size inb_S3x1024x512_S1x256x512_0_0_0).WholeWords (EltTy.packing .bf16)
  inb_S3x1024x512_S1x256x512_0_256_0 : ∀ a, (![0, 256, 0] : Fin 3 → Nat) a + S1x256x512.size a ≤ S3x1024x512.size a
  packedbf16_S3x1024x512_S1x256x512_0_256_0 : (Rect.unit (s := S3x1024x512) ![0, 256, 0] S1x256x512.size inb_S3x1024x512_S1x256x512_0_256_0).PackedRows (EltTy.packing .bf16)
  inb_S3x4_S1x1_0_1 : ∀ a, (![0, 1] : Fin 2 → Nat) a + S1x1.size a ≤ S3x4.size a
  wordsbf16_S3x1024x512_S1x256x512_0_256_0 : (Rect.unit (s := S3x1024x512) ![0, 256, 0] S1x256x512.size inb_S3x1024x512_S1x256x512_0_256_0).WholeWords (EltTy.packing .bf16)
  inb_S3x1024x512_S1x256x512_0_512_0 : ∀ a, (![0, 512, 0] : Fin 3 → Nat) a + S1x256x512.size a ≤ S3x1024x512.size a
  packedbf16_S3x1024x512_S1x256x512_0_512_0 : (Rect.unit (s := S3x1024x512) ![0, 512, 0] S1x256x512.size inb_S3x1024x512_S1x256x512_0_512_0).PackedRows (EltTy.packing .bf16)
  inb_S3x4_S1x1_0_2 : ∀ a, (![0, 2] : Fin 2 → Nat) a + S1x1.size a ≤ S3x4.size a
  wordsbf16_S3x1024x512_S1x256x512_0_512_0 : (Rect.unit (s := S3x1024x512) ![0, 512, 0] S1x256x512.size inb_S3x1024x512_S1x256x512_0_512_0).WholeWords (EltTy.packing .bf16)
  inb_S3x1024x512_S1x256x512_0_768_0 : ∀ a, (![0, 768, 0] : Fin 3 → Nat) a + S1x256x512.size a ≤ S3x1024x512.size a
  packedbf16_S3x1024x512_S1x256x512_0_768_0 : (Rect.unit (s := S3x1024x512) ![0, 768, 0] S1x256x512.size inb_S3x1024x512_S1x256x512_0_768_0).PackedRows (EltTy.packing .bf16)
  inb_S3x4_S1x1_0_3 : ∀ a, (![0, 3] : Fin 2 → Nat) a + S1x1.size a ≤ S3x4.size a
  wordsbf16_S3x1024x512_S1x256x512_0_768_0 : (Rect.unit (s := S3x1024x512) ![0, 768, 0] S1x256x512.size inb_S3x1024x512_S1x256x512_0_768_0).WholeWords (EltTy.packing .bf16)
  inb_S2x4096x512_S1x4096x512_1_0_0 : ∀ a, (![1, 0, 0] : Fin 3 → Nat) a + S1x4096x512.size a ≤ S2x4096x512.size a
  inb_S3x1024x512_S1x256x512_1_0_0 : ∀ a, (![1, 0, 0] : Fin 3 → Nat) a + S1x256x512.size a ≤ S3x1024x512.size a
  packedbf16_S3x1024x512_S1x256x512_1_0_0 : (Rect.unit (s := S3x1024x512) ![1, 0, 0] S1x256x512.size inb_S3x1024x512_S1x256x512_1_0_0).PackedRows (EltTy.packing .bf16)
  inb_S3x4_S1x1_1_0 : ∀ a, (![1, 0] : Fin 2 → Nat) a + S1x1.size a ≤ S3x4.size a
  wordsbf16_S3x1024x512_S1x256x512_1_0_0 : (Rect.unit (s := S3x1024x512) ![1, 0, 0] S1x256x512.size inb_S3x1024x512_S1x256x512_1_0_0).WholeWords (EltTy.packing .bf16)
  inb_S3x1024x512_S1x256x512_1_256_0 : ∀ a, (![1, 256, 0] : Fin 3 → Nat) a + S1x256x512.size a ≤ S3x1024x512.size a
  packedbf16_S3x1024x512_S1x256x512_1_256_0 : (Rect.unit (s := S3x1024x512) ![1, 256, 0] S1x256x512.size inb_S3x1024x512_S1x256x512_1_256_0).PackedRows (EltTy.packing .bf16)
  inb_S3x4_S1x1_1_1 : ∀ a, (![1, 1] : Fin 2 → Nat) a + S1x1.size a ≤ S3x4.size a
  wordsbf16_S3x1024x512_S1x256x512_1_256_0 : (Rect.unit (s := S3x1024x512) ![1, 256, 0] S1x256x512.size inb_S3x1024x512_S1x256x512_1_256_0).WholeWords (EltTy.packing .bf16)
  inb_S3x1024x512_S1x256x512_1_512_0 : ∀ a, (![1, 512, 0] : Fin 3 → Nat) a + S1x256x512.size a ≤ S3x1024x512.size a
  packedbf16_S3x1024x512_S1x256x512_1_512_0 : (Rect.unit (s := S3x1024x512) ![1, 512, 0] S1x256x512.size inb_S3x1024x512_S1x256x512_1_512_0).PackedRows (EltTy.packing .bf16)
  inb_S3x4_S1x1_1_2 : ∀ a, (![1, 2] : Fin 2 → Nat) a + S1x1.size a ≤ S3x4.size a
  wordsbf16_S3x1024x512_S1x256x512_1_512_0 : (Rect.unit (s := S3x1024x512) ![1, 512, 0] S1x256x512.size inb_S3x1024x512_S1x256x512_1_512_0).WholeWords (EltTy.packing .bf16)
  inb_S3x1024x512_S1x256x512_1_768_0 : ∀ a, (![1, 768, 0] : Fin 3 → Nat) a + S1x256x512.size a ≤ S3x1024x512.size a
  packedbf16_S3x1024x512_S1x256x512_1_768_0 : (Rect.unit (s := S3x1024x512) ![1, 768, 0] S1x256x512.size inb_S3x1024x512_S1x256x512_1_768_0).PackedRows (EltTy.packing .bf16)
  inb_S3x4_S1x1_1_3 : ∀ a, (![1, 3] : Fin 2 → Nat) a + S1x1.size a ≤ S3x4.size a
  wordsbf16_S3x1024x512_S1x256x512_1_768_0 : (Rect.unit (s := S3x1024x512) ![1, 768, 0] S1x256x512.size inb_S3x1024x512_S1x256x512_1_768_0).WholeWords (EltTy.packing .bf16)
  inb_S3x1024x512_S1x256x512_2_0_0 : ∀ a, (![2, 0, 0] : Fin 3 → Nat) a + S1x256x512.size a ≤ S3x1024x512.size a
  packedbf16_S3x1024x512_S1x256x512_2_0_0 : (Rect.unit (s := S3x1024x512) ![2, 0, 0] S1x256x512.size inb_S3x1024x512_S1x256x512_2_0_0).PackedRows (EltTy.packing .bf16)
  inb_S3x4_S1x1_2_0 : ∀ a, (![2, 0] : Fin 2 → Nat) a + S1x1.size a ≤ S3x4.size a
  wordsbf16_S3x1024x512_S1x256x512_2_0_0 : (Rect.unit (s := S3x1024x512) ![2, 0, 0] S1x256x512.size inb_S3x1024x512_S1x256x512_2_0_0).WholeWords (EltTy.packing .bf16)
  inb_S3x1024x512_S1x256x512_2_256_0 : ∀ a, (![2, 256, 0] : Fin 3 → Nat) a + S1x256x512.size a ≤ S3x1024x512.size a
  packedbf16_S3x1024x512_S1x256x512_2_256_0 : (Rect.unit (s := S3x1024x512) ![2, 256, 0] S1x256x512.size inb_S3x1024x512_S1x256x512_2_256_0).PackedRows (EltTy.packing .bf16)
  inb_S3x4_S1x1_2_1 : ∀ a, (![2, 1] : Fin 2 → Nat) a + S1x1.size a ≤ S3x4.size a
  wordsbf16_S3x1024x512_S1x256x512_2_256_0 : (Rect.unit (s := S3x1024x512) ![2, 256, 0] S1x256x512.size inb_S3x1024x512_S1x256x512_2_256_0).WholeWords (EltTy.packing .bf16)
  inb_S3x1024x512_S1x256x512_2_512_0 : ∀ a, (![2, 512, 0] : Fin 3 → Nat) a + S1x256x512.size a ≤ S3x1024x512.size a
  packedbf16_S3x1024x512_S1x256x512_2_512_0 : (Rect.unit (s := S3x1024x512) ![2, 512, 0] S1x256x512.size inb_S3x1024x512_S1x256x512_2_512_0).PackedRows (EltTy.packing .bf16)
  inb_S3x4_S1x1_2_2 : ∀ a, (![2, 2] : Fin 2 → Nat) a + S1x1.size a ≤ S3x4.size a
  wordsbf16_S3x1024x512_S1x256x512_2_512_0 : (Rect.unit (s := S3x1024x512) ![2, 512, 0] S1x256x512.size inb_S3x1024x512_S1x256x512_2_512_0).WholeWords (EltTy.packing .bf16)
  inb_S3x1024x512_S1x256x512_2_768_0 : ∀ a, (![2, 768, 0] : Fin 3 → Nat) a + S1x256x512.size a ≤ S3x1024x512.size a
  packedbf16_S3x1024x512_S1x256x512_2_768_0 : (Rect.unit (s := S3x1024x512) ![2, 768, 0] S1x256x512.size inb_S3x1024x512_S1x256x512_2_768_0).PackedRows (EltTy.packing .bf16)
  inb_S3x4_S1x1_2_3 : ∀ a, (![2, 3] : Fin 2 → Nat) a + S1x1.size a ≤ S3x4.size a
  wordsbf16_S3x1024x512_S1x256x512_2_768_0 : (Rect.unit (s := S3x1024x512) ![2, 768, 0] S1x256x512.size inb_S3x1024x512_S1x256x512_2_768_0).WholeWords (EltTy.packing .bf16)
  inb_S1024x4096_S1024x4096_0_0 : ∀ a, (![0, 0] : Fin 2 → Nat) a + S1024x4096.size a ≤ S1024x4096.size a
  h_S1024x4096 : 0 < S1024x4096.numel
  h_S1024x512 : 0 < S1024x512.numel
  h_S256x512 : 0 < S256x512.numel
  dot_S256x4096_S4096x512_S256x512_1_0_0_1_n_n_wf : DotDims.WF S256x4096 S4096x512 S256x512 [1] [0] [0] [1] [] []
  dot_S1024x4096_S4096x512_S1024x512_1_0_0_1_n_n_wf : DotDims.WF S1024x4096 S4096x512 S1024x512 [1] [0] [0] [1] [] []
  hcc0_scratch4 : 1 + S4.numel ≤ 37
  hcc0_scratch5 : 5 + S2x2.numel ≤ 37
  hcc0_scratch6 : 9 + S3x4.numel ≤ 37
  hcc0_scratch7 : 21 + S4x4.numel ≤ 37
  k0_off1_inb : ∀ d0 : Dev nD, ∀ (r : Fin 4), ∀ a, (k0_off1 d0 (BitVec.ofNat 32 r.val)) a + S2048x512.size a ≤ S4096x2048.size a
  k0_off2_inb : ∀ d0 : Dev nD, ∀ (r : Fin 4), ∀ a, (k0_off2 d0 (BitVec.ofNat 32 r.val)) a + S2048x512.size a ≤ S4096x2048.size a
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off3_inb : ∀ d0 : Dev nD, ∀ a, (k0_off3 d0) a + S1x1.size a ≤ S4x4.size a
  k0_off4_inb : ∀ d0 : Dev nD, ∀ a, (k0_off4 d0) a + S1x256x512.size a ≤ S4x1024x512.size a
  k0_off4_wordsbf16 : ∀ d0 : Dev nD, (Rect.unit (s := S4x1024x512) (k0_off4 d0) S1x256x512.size (k0_off4_inb d0)).WholeWords (EltTy.packing .bf16)
  k0_dev4_lt : ∀ d0 : Dev nD, (k0_dev4 d0) < nD
  k0_off5_inb : ∀ d0 : Dev nD, ∀ a, (k0_off5 d0) a + S1x1.size a ≤ S4x4.size a
  k0_off6_inb : ∀ d0 : Dev nD, ∀ a, (k0_off6 d0) a + S1x256x512.size a ≤ S4x1024x512.size a
  k0_off6_wordsbf16 : ∀ d0 : Dev nD, (Rect.unit (s := S4x1024x512) (k0_off6 d0) S1x256x512.size (k0_off6_inb d0)).WholeWords (EltTy.packing .bf16)
  k0_dev5_lt : ∀ d0 : Dev nD, (k0_dev5 d0) < nD
  k0_off7_inb : ∀ d0 : Dev nD, ∀ a, (k0_off7 d0) a + S1x1.size a ≤ S4x4.size a
  k0_off8_inb : ∀ d0 : Dev nD, ∀ a, (k0_off8 d0) a + S1x256x512.size a ≤ S4x1024x512.size a
  k0_off8_wordsbf16 : ∀ d0 : Dev nD, (Rect.unit (s := S4x1024x512) (k0_off8 d0) S1x256x512.size (k0_off8_inb d0)).WholeWords (EltTy.packing .bf16)
  k0_dev6_lt : ∀ d0 : Dev nD, (k0_dev6 d0) < nD
  k0_off9_inb : ∀ d0 : Dev nD, ∀ a, (k0_off9 d0) a + S1x1.size a ≤ S4x4.size a
  k0_off10_inb : ∀ d0 : Dev nD, ∀ a, (k0_off10 d0) a + S1x256x512.size a ≤ S4x1024x512.size a
  k0_off10_wordsbf16 : ∀ d0 : Dev nD, (Rect.unit (s := S4x1024x512) (k0_off10 d0) S1x256x512.size (k0_off10_inb d0)).WholeWords (EltTy.packing .bf16)
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_off11_inb : ∀ d0 : Dev nD, ∀ a, (k0_off11 d0) a + S1024x512.size a ≤ S4096x512.size a
  k0_off12_inb : ∀ d0 : Dev nD, ∀ (r : Fin 3), ∀ a, (k0_off12 d0 (BitVec.ofNat 32 (1 + r.val))) a + S1x1.size a ≤ S4x4.size a
  k0_off13_inb : ∀ d0 : Dev nD, ∀ (r : Fin 3), ∀ a, (k0_off13 d0 (BitVec.ofNat 32 (1 + r.val))) a + S1x256x512.size a ≤ S4x1024x512.size a
  k0_off13_wordsbf16 : ∀ d0 : Dev nD, ∀ (r : Fin 3), (Rect.unit (s := S4x1024x512) (k0_off13 d0 (BitVec.ofNat 32 (1 + r.val))) S1x256x512.size (k0_off13_inb d0 r)).WholeWords (EltTy.packing .bf16)
  k0_off14_inb : ∀ d0 : Dev nD, ∀ (r : Fin 3), ∀ a, (k0_off14 d0 (BitVec.ofNat 32 (1 + r.val))) a + S1x256x512.size a ≤ S4x1024x512.size a
  k0_off15_inb : ∀ d0 : Dev nD, ∀ (r₁ : Fin 3) (r₂ : Fin 4), ∀ a, (k0_off15 d0 (BitVec.ofNat 32 (1 + r₁.val)) (BitVec.ofNat 32 (256 * r₂.val))) a + S256x512.size a ≤ S4096x512.size a
  k0_off16_inb : ∀ d0 : Dev nD, ∀ (r : Fin 3), ∀ a, (k0_off16 d0 (BitVec.ofNat 32 (1 + r.val))) a + S1x1.size a ≤ S4x4.size a
  k0_off17_inb : ∀ d0 : Dev nD, ∀ (r : Fin 3), ∀ a, (k0_off17 d0 (BitVec.ofNat 32 (1 + r.val))) a + S1x256x512.size a ≤ S4x1024x512.size a
  k0_off17_wordsbf16 : ∀ d0 : Dev nD, ∀ (r : Fin 3), (Rect.unit (s := S4x1024x512) (k0_off17 d0 (BitVec.ofNat 32 (1 + r.val))) S1x256x512.size (k0_off17_inb d0 r)).WholeWords (EltTy.packing .bf16)
  k0_off18_inb : ∀ d0 : Dev nD, ∀ (r : Fin 3), ∀ a, (k0_off18 d0 (BitVec.ofNat 32 (1 + r.val))) a + S1x256x512.size a ≤ S4x1024x512.size a
  k0_off19_inb : ∀ d0 : Dev nD, ∀ (r : Fin 3), ∀ a, (k0_off19 d0 (BitVec.ofNat 32 (1 + r.val))) a + S1x1.size a ≤ S4x4.size a
  k0_off20_inb : ∀ d0 : Dev nD, ∀ (r : Fin 3), ∀ a, (k0_off20 d0 (BitVec.ofNat 32 (1 + r.val))) a + S1x256x512.size a ≤ S4x1024x512.size a
  k0_off20_wordsbf16 : ∀ d0 : Dev nD, ∀ (r : Fin 3), (Rect.unit (s := S4x1024x512) (k0_off20 d0 (BitVec.ofNat 32 (1 + r.val))) S1x256x512.size (k0_off20_inb d0 r)).WholeWords (EltTy.packing .bf16)
  k0_off21_inb : ∀ d0 : Dev nD, ∀ (r : Fin 3), ∀ a, (k0_off21 d0 (BitVec.ofNat 32 (1 + r.val))) a + S1x256x512.size a ≤ S4x1024x512.size a
  k0_off22_inb : ∀ d0 : Dev nD, ∀ (r : Fin 3), ∀ a, (k0_off22 d0 (BitVec.ofNat 32 (1 + r.val))) a + S1x1.size a ≤ S4x4.size a
  k0_off23_inb : ∀ d0 : Dev nD, ∀ (r : Fin 3), ∀ a, (k0_off23 d0 (BitVec.ofNat 32 (1 + r.val))) a + S1x256x512.size a ≤ S4x1024x512.size a
  k0_off23_wordsbf16 : ∀ d0 : Dev nD, ∀ (r : Fin 3), (Rect.unit (s := S4x1024x512) (k0_off23 d0 (BitVec.ofNat 32 (1 + r.val))) S1x256x512.size (k0_off23_inb d0 r)).WholeWords (EltTy.packing .bf16)
  k0_off24_inb : ∀ d0 : Dev nD, ∀ (r : Fin 3), ∀ a, (k0_off24 d0 (BitVec.ofNat 32 (1 + r.val))) a + S1x256x512.size a ≤ S4x1024x512.size a
  hstage0_0 : ∀ j, (stage0_0 j).IsWhole

variable [Facts₀]

abbrev cc0_scratch4 : DmaSems sig S4 := SemArray.consecutive 1 S4 hcc0_scratch4
abbrev cc0_scratch5 : DmaSems sig S2x2 := SemArray.consecutive 5 S2x2 hcc0_scratch5
abbrev cc0_scratch6 : DmaSems sig S3x4 := SemArray.consecutive 9 S3x4 hcc0_scratch6
abbrev cc0_scratch7 : DmaSems sig S4x4 := SemArray.consecutive 21 S4x4 hcc0_scratch7
def dot_S256x4096_S4096x512_S256x512_1_0_0_1_n_n : DotDims S256x4096 S4096x512 S256x512 where
  lhsContracting := [1]
  rhsContracting := [0]
  lhsNonContracting := [0]
  rhsNonContracting := [1]
  lhsBatch := []
  rhsBatch := []
  wf := dot_S256x4096_S4096x512_S256x512_1_0_0_1_n_n_wf
def dot_S1024x4096_S4096x512_S1024x512_1_0_0_1_n_n : DotDims S1024x4096 S4096x512 S1024x512 where
  lhsContracting := [1]
  rhsContracting := [0]
  lhsNonContracting := [0]
  rhsNonContracting := [1]
  lhsBatch := []
  rhsBatch := []
  wf := dot_S1024x4096_S4096x512_S1024x512_1_0_0_1_n_n_wf

abbrev win0_0 : Pipeline.Window sig grid0 :=
  Pipeline.Window.whole (Memref.whole main_v1) true false (stage0_0 0) (sem0_0 0) (Memref.isWhole_whole _) (hstage0_0 0)

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  bcast_S_S4096x2048 : S_.BroadcastsInDim S4096x2048 (![] : Fin 0 → Fin S4096x2048.rank)
  dot_S4096x4096_S4096x2048_S4096x2048_1_0_0_1_n_n_wf : DotDims.WF S4096x4096 S4096x2048 S4096x2048 [1] [0] [0] [1] [] []

variable [Facts₀]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf

class Facts : Prop extends Facts₀ where

variable [Facts]
-- ==== Proof.Proto.lean ====
import proofs.«900531_g7700000000000532_dist_gemm_a2a_m4096_k4096_n2048_f32_gelu_v7x_i4_1_alg».proof.Proof.Gen.KernelIdeal
import proofs.«900531_g7700000000000532_dist_gemm_a2a_m4096_k4096_n2048_f32_gelu_v7x_i4_1_alg».proof.Proof.Gen.KernelIdeal.Skeleton
import proofs.«900531_g7700000000000532_dist_gemm_a2a_m4096_k4096_n2048_f32_gelu_v7x_i4_1_alg».proof.Proof.Gen.KernelIdeal.Launch
import proofs.«900531_g7700000000000532_dist_gemm_a2a_m4096_k4096_n2048_f32_gelu_v7x_i4_1_alg».proof.Proof.Gen.KernelIdeal.Points
import Idealize.ShloMosaic.Lib.Pipeline.Launch
import Idealize.ShloMosaic.Lib.Pipeline.Kit
import Idealize.ShloMosaic.Lib.Transfers
import Idealize.ShloMosaic.Lib.Tactic

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 4)
abbrev UU : Type := UR sig nD τ × (UB × Counters)

abbrev EP : Emb (UR sig nD τ) (MT nD τ sig Unit (Elt F) ℕ UU ℕ) := embL
abbrev ER : Emb UB (MT nD τ sig Unit (Elt F) ℕ UU ℕ) := (Emb.inl : Emb UB (UB × Counters)).trans embR

instance ER_landsIn : (ER (F := F)).LandsIn (upEmb : UEmb _ (MT nD τ sig Unit (Elt F) ℕ UU ℕ)) := by unfold ER; infer_instance

-- The device k places after c around the ring of four.
def peer (c : Dev nD) (k : ℕ) : Dev nD := ⟨(c.val + k) % 4, Nat.mod_lt _ (by decide)⟩

-- Step s sends to the device at cyclic distance 2, 1, 3.
def offOf (s : Fin 3) : ℕ := ![2, 1, 3] s

theorem peer_peer (c : Dev nD) (j k : ℕ) : peer (peer c j) k = peer c (j + k) := by
  apply Fin.ext; simp only [peer]; omega

theorem peer_zero (c : Dev nD) : peer c 0 = c := by revert c; decide

theorem dev1_val : ∀ d0 : Dev nD, k0_dev1 d0 = (d0.val + 1) % 4 := by decide +kernel
theorem dev2_val : ∀ d0 : Dev nD, k0_dev2 d0 = (d0.val + 2) % 4 := by decide +kernel
theorem dev3_val : ∀ d0 : Dev nD, k0_dev3 d0 = (d0.val + 3) % 4 := by decide +kernel
theorem dev4_val : ∀ d0 : Dev nD, k0_dev4 d0 = (d0.val + 2) % 4 := by decide +kernel
theorem dev5_val : ∀ d0 : Dev nD, k0_dev5 d0 = (d0.val + 2) % 4 := by decide +kernel
theorem dev6_val : ∀ d0 : Dev nD, k0_dev6 d0 = (d0.val + 2) % 4 := by decide +kernel
theorem dev7_val : ∀ d0 : Dev nD, k0_dev7 d0 = (d0.val + 2) % 4 := by decide +kernel
theorem dev8_val : ∀ d0 : Dev nD, k0_dev8 d0 = (d0.val + 1) % 4 := by decide +kernel
theorem dev9_val : ∀ d0 : Dev nD, k0_dev9 d0 = (d0.val + 1) % 4 := by decide +kernel
theorem dev10_val : ∀ d0 : Dev nD, k0_dev10 d0 = (d0.val + 1) % 4 := by decide +kernel
theorem dev11_val : ∀ d0 : Dev nD, k0_dev11 d0 = (d0.val + 1) % 4 := by decide +kernel
theorem dev12_val : ∀ d0 : Dev nD, k0_dev12 d0 = (d0.val + 3) % 4 := by decide +kernel
theorem dev13_val : ∀ d0 : Dev nD, k0_dev13 d0 = (d0.val + 3) % 4 := by decide +kernel
theorem dev14_val : ∀ d0 : Dev nD, k0_dev14 d0 = (d0.val + 3) % 4 := by decide +kernel
theorem dev15_val : ∀ d0 : Dev nD, k0_dev15 d0 = (d0.val + 3) % 4 := by decide +kernel

@[sl_canon] theorem dev1_eq (c : Dev nD) : (⟨k0_dev1 c, k0_dev1_lt c⟩ : Dev nD) = peer c 1 := Fin.ext (dev1_val c)
@[sl_canon] theorem dev2_eq (c : Dev nD) : (⟨k0_dev2 c, k0_dev2_lt c⟩ : Dev nD) = peer c 2 := Fin.ext (dev2_val c)
@[sl_canon] theorem dev3_eq (c : Dev nD) : (⟨k0_dev3 c, k0_dev3_lt c⟩ : Dev nD) = peer c 3 := Fin.ext (dev3_val c)
@[sl_canon] theorem dev4_eq (c : Dev nD) : (⟨k0_dev4 c, k0_dev4_lt c⟩ : Dev nD) = peer c 2 := Fin.ext (dev4_val c)
@[sl_canon] theorem dev5_eq (c : Dev nD) : (⟨k0_dev5 c, k0_dev5_lt c⟩ : Dev nD) = peer c 2 := Fin.ext (dev5_val c)
@[sl_canon] theorem dev6_eq (c : Dev nD) : (⟨k0_dev6 c, k0_dev6_lt c⟩ : Dev nD) = peer c 2 := Fin.ext (dev6_val c)
@[sl_canon] theorem dev7_eq (c : Dev nD) : (⟨k0_dev7 c, k0_dev7_lt c⟩ : Dev nD) = peer c 2 := Fin.ext (dev7_val c)
@[sl_canon] theorem dev8_eq (c : Dev nD) : (⟨k0_dev8 c, k0_dev8_lt c⟩ : Dev nD) = peer c 1 := Fin.ext (dev8_val c)
@[sl_canon] theorem dev9_eq (c : Dev nD) : (⟨k0_dev9 c, k0_dev9_lt c⟩ : Dev nD) = peer c 1 := Fin.ext (dev9_val c)
@[sl_canon] theorem dev10_eq (c : Dev nD) : (⟨k0_dev10 c, k0_dev10_lt c⟩ : Dev nD) = peer c 1 := Fin.ext (dev10_val c)
@[sl_canon] theorem dev11_eq (c : Dev nD) : (⟨k0_dev11 c, k0_dev11_lt c⟩ : Dev nD) = peer c 1 := Fin.ext (dev11_val c)
@[sl_canon] theorem dev12_eq (c : Dev nD) : (⟨k0_dev12 c, k0_dev12_lt c⟩ : Dev nD) = peer c 3 := Fin.ext (dev12_val c)
@[sl_canon] theorem dev13_eq (c : Dev nD) : (⟨k0_dev13 c, k0_dev13_lt c⟩ : Dev nD) = peer c 3 := Fin.ext (dev13_val c)
@[sl_canon] theorem dev14_eq (c : Dev nD) : (⟨k0_dev14 c, k0_dev14_lt c⟩ : Dev nD) = peer c 3 := Fin.ext (dev14_val c)
@[sl_canon] theorem dev15_eq (c : Dev nD) : (⟨k0_dev15 c, k0_dev15_lt c⟩ : Dev nD) = peer c 3 := Fin.ext (dev15_val c)

abbrev barS : Sem sig := (SemArray.scalar (sig.barrier 0 rfl) : Sems sig S_).sem

def sendQ (s : Fin 3) (r : Fin 4) : DmaSem sig := ⟨9 + 4 * s.val + r.val, by have := s.isLt; have := r.isLt; show _ < 37; omega⟩

def recvQ (src r : Fin 4) : DmaSem sig := ⟨21 + 4 * src.val + r.val, by have := src.isLt; have := r.isLt; show _ < 37; omega⟩

abbrev barCell (c : Dev nD) : GSem nD τ sig := ((c : Thread nD τ), .reg barS)
abbrev sendCell (c : Dev nD) (s : Fin 3) (r : Fin 4) : GSem nD τ sig := ((c : Thread nD τ), .dma (sendQ s r))
abbrev recvCell (c : Dev nD) (src r : Fin 4) : GSem nD τ sig := ((c : Thread nD τ), .dma (recvQ src r))

inductive Role : Type
  | bar
  | send (s : Fin 3) (r : Fin 4)
  | recv (src r : Fin 4)
  | other
  deriving DecidableEq

def roleOf : SemLoc sig → Role
  | .reg s => if s = barS then .bar else .other
  | .dma q =>
    if h : 9 ≤ q.val ∧ q.val < 21 then .send ⟨(q.val - 9) / 4, by omega⟩ ⟨(q.val - 9) % 4, Nat.mod_lt _ (by decide)⟩
    else if h' : 21 ≤ q.val then .recv ⟨(q.val - 21) / 4, by have := q.isLt; have : q.val < 37 := this; omega⟩ ⟨(q.val - 21) % 4, Nat.mod_lt _ (by decide)⟩
    else .other

theorem role_bar : roleOf (.reg barS : SemLoc sig) = .bar := by simp [roleOf]
theorem role_bar' : roleOf (.reg (sig.barrier 0 rfl) : SemLoc sig) = .bar := role_bar
theorem role_send : ∀ (s : Fin 3) (r : Fin 4), roleOf (.dma (sendQ s r) : SemLoc sig) = .send s r := by decide
theorem role_recv : ∀ (src r : Fin 4), roleOf (.dma (recvQ src r) : SemLoc sig) = .recv src r := by decide

theorem inb_chunk : ∀ (s : Fin 3) (r : Fin 4), ∀ a, (![s.val, 256 * r.val, 0] : Fin 3 → Nat) a + S1x256x512.size a ≤ S3x1024x512.size a := by decide
theorem inb_recv : ∀ (src r : Fin 4), ∀ a, (![src.val, 256 * r.val, 0] : Fin 3 → Nat) a + S1x256x512.size a ≤ S4x1024x512.size a := by decide

def chunkSlot (s : Fin 3) (r : Fin 4) : Memref sig .tc .vmem S256x512 .bf16 :=
  ((Memref.whole cc0_scratch2 : Memref sig .tc .vmem S3x1024x512 .bf16).slice (Rect.unit (s := S3x1024x512) ![s.val, 256 * r.val, 0] S1x256x512.size (inb_chunk s r)) (fun _ => rfl)).squeeze S256x512 squeezes_S1x256x512_S256x512

def recvSlot (src r : Fin 4) : Memref sig .tc .vmem S256x512 .bf16 :=
  ((Memref.whole cc0_scratch3 : Memref sig .tc .vmem S4x1024x512 .bf16).slice (Rect.unit (s := S4x1024x512) ![src.val, 256 * r.val, 0] S1x256x512.size (inb_recv src r)) (fun _ => rfl)).squeeze S256x512 squeezes_S1x256x512_S256x512

abbrev N : ℕ := (recvSlot 0 0).view.dmaCredit
theorem N_pos : 0 < N := View.dmaCredit_pos _ (by decide)

variable (RF : (c : Dev nD) → Buf (Elt F) ((c : Thread nD τ).loc cc0_scratch3))
variable (CF : (c : Dev nD) → Buf (Elt F) ((c : Thread nD τ).loc cc0_scratch2))

local notation "𝕄" => MT nD τ sig Unit (Elt F) ℕ UU ℕ

def landing (p : Dev nD) (src r : Fin 4) : sProp 𝕄 :=
  iprop(∃ f : Buf (Elt F) ((recvSlot src r).view.loc (p : Thread nD τ)), (recvSlot src r).view.loc (p : Thread nD τ) ↦[(recvSlot src r).view.set]{fullShare} f)

def barPay (c p : Dev nD) : sProp 𝕄 :=
  iprop(landing (F := F) p c 0 ∗ landing (F := F) p c 1 ∗ landing (F := F) p c 2 ∗ landing (F := F) p c 3
    ∗ reached ER (recvCell p c 0) 0 ∗ reached ER (recvCell p c 1) 0 ∗ reached ER (recvCell p c 2) 0 ∗ reached ER (recvCell p c 3) 0)

def RFs (c : Dev nD) (src r : Fin 4) : Buf (Elt F) ((recvSlot src r).view.loc (c : Thread nD τ)) := RF c

def CFs (c : Dev nD) (s : Fin 3) (r : Fin 4) : Buf (Elt F) ((chunkSlot s r).view.loc (c : Thread nD τ)) := CF c

def recvPay (c : Dev nD) (src r : Fin 4) : sProp 𝕄 :=
  (recvSlot src r).view.loc (c : Thread nD τ) ↦[(recvSlot src r).view.set]{fullShare} RFs RF c src r
def sendPay (c : Dev nD) (s : Fin 3) (r : Fin 4) : sProp 𝕄 :=
  (chunkSlot s r).view.loc (c : Thread nD τ) ↦[(chunkSlot s r).view.set]{fullShare} CFs CF c s r

-- One round per semaphore: a barrier takes one unit from each other device; each transfer completes on a send and on a receive semaphore of its own.
def a2aRd : Rounds.Schedule (GSem nD τ sig) (Fin 4) 𝕄 where
  duties g r :=
    if r = 0 ∧ g.1.2 = .tc then
      match roleOf g.2 with
      | .bar => Finset.univ.erase g.1.1
      | .send _ _ => {g.1.1}
      | .recv src _ => if src = g.1.1 then ∅ else {src}
      | .other => ∅
    else ∅
  unitless _ := False
  amount g _ _ := if g.2 = .reg barS then 1 else N
  payload g _ d :=
    match roleOf g.2 with
    | .bar => barPay g.1.1 d
    | .send s r => sendPay CF g.1.1 s r
    | .recv src r => recvPay RF g.1.1 src r
    | .other => iprop(emp)
  amount_pos g _ _ _ := by
    by_cases h : g.2 = .reg barS
    · rw [if_pos h]; exact Nat.one_pos
    · rw [if_neg h]; exact N_pos

instance a2aRd_payload_storable (g : GSem nD τ sig) (r : ℕ) (d : Fin 4) :
    BI.Storable (upEmb : UEmb _ 𝕄) ((a2aRd (F := F) RF CF).payload g r d) := by
  show BI.Storable upEmb (match roleOf g.2 with
    | .bar => barPay g.1.1 d
    | .send s r => sendPay CF g.1.1 s r
    | .recv src r => recvPay RF g.1.1 src r
    | .other => iprop(emp))
  unfold barPay landing recvPay sendPay
  split <;> infer_instance

section Tables
variable (c : Dev nD)

theorem duties_bar : (a2aRd (F := F) RF CF).duties (barCell c) 0 = Finset.univ.erase c := by
  simp [a2aRd, role_bar']
theorem duties_send (s : Fin 3) (r : Fin 4) : (a2aRd (F := F) RF CF).duties (sendCell c s r) 0 = {c} := by
  simp [a2aRd, role_send]
theorem duties_recv (src r : Fin 4) (h : src ≠ c) : (a2aRd (F := F) RF CF).duties (recvCell c src r) 0 = {src} := by
  simp [a2aRd, role_recv, h]
theorem duties_recv_own (r : Fin 4) (n : ℕ) : (a2aRd (F := F) RF CF).duties (recvCell c c r) n = ∅ := by
  simp [a2aRd, role_recv]
theorem duties_later (g : GSem nD τ sig) : ∀ r, 1 ≤ r → (a2aRd (F := F) RF CF).duties g r = ∅ :=
  fun r hr => by dsimp only [a2aRd]; rw [if_neg fun h => by omega]

theorem amount_bar (d : Fin 4) : (a2aRd (F := F) RF CF).amount (barCell c) 0 d = 1 := by dsimp only [a2aRd]; exact if_pos rfl
theorem amount_send (s : Fin 3) (r : Fin 4) (d : Fin 4) : (a2aRd (F := F) RF CF).amount (sendCell c s r) 0 d = N := by
  dsimp only [a2aRd]; exact if_neg (fun h => by cases h)
theorem amount_recv (src r : Fin 4) (d : Fin 4) : (a2aRd (F := F) RF CF).amount (recvCell c src r) 0 d = N := by
  dsimp only [a2aRd]; exact if_neg (fun h => by cases h)

theorem expect_bar : (a2aRd (F := F) RF CF).expect (barCell c) 0 = 3 := by
  unfold Schedule.expect Schedule.amountOf
  rw [duties_bar, Finset.sum_congr rfl fun d _ => amount_bar RF CF c d, Finset.sum_const, Finset.card_erase_of_mem (Finset.mem_univ _), Finset.card_univ, Fintype.card_fin, smul_eq_mul]
theorem expect_send (s : Fin 3) (r : Fin 4) : (a2aRd (F := F) RF CF).expect (sendCell c s r) 0 = N := by
  unfold Schedule.expect Schedule.amountOf; rw [duties_send, Finset.sum_singleton, amount_send]
theorem expect_recv (src r : Fin 4) (h : src ≠ c) : (a2aRd (F := F) RF CF).expect (recvCell c src r) 0 = N := by
  unfold Schedule.expect Schedule.amountOf; rw [duties_recv RF CF c src r h, Finset.sum_singleton, amount_recv]

theorem payload_bar (d : Fin 4) : (a2aRd (F := F) RF CF).payload (barCell c) 0 d = barPay c d := by
  simp only [a2aRd, role_bar, role_bar']
theorem payload_send (s : Fin 3) (r : Fin 4) (d : Fin 4) : (a2aRd (F := F) RF CF).payload (sendCell c s r) 0 d = sendPay CF c s r := by
  simp only [a2aRd, role_send]
theorem payload_recv (src r : Fin 4) (d : Fin 4) : (a2aRd (F := F) RF CF).payload (recvCell c src r) 0 d = recvPay RF c src r := by
  simp only [a2aRd, role_recv]

end Tables

def owedStep (c : Dev nD) (s : Fin 3) : CellTallies nD τ sig Unit :=
  tallyAt (recvCell (peer c (offOf s)) c 0) () N + tallyAt (recvCell (peer c (offOf s)) c 1) () N
    + tallyAt (recvCell (peer c (offOf s)) c 2) () N + tallyAt (recvCell (peer c (offOf s)) c 3) () N

def owedBar (c : Dev nD) : CellTallies nD τ sig Unit :=
  tallyAt (barCell (peer c 1)) () 1 + tallyAt (barCell (peer c 2)) () 1 + tallyAt (barCell (peer c 3)) () 1

-- What device c owes at its start: twelve arrivals at its three destinations, and one barrier unit to each of them.
def O₀ (c : Dev nD) : CellTallies nD τ sig Unit := owedStep c 2 + owedStep c 1 + owedStep c 0 + owedBar c

def L (g : GSem nD τ sig) : Finset Unit := if g.1.2 = .tc then {()} else ∅

-- Waits are ordered: the barrier above the local and send semaphores, the receive semaphores above the barrier.
def lv (g : GSem nD τ sig) (_ : Unit) : ℕ := match roleOf g.2 with | .bar => 1 | .recv _ _ => 2 | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := by simp only [lv, role_bar, role_bar']
theorem O₀_pos {c : Dev nD} {g : GSem nD τ sig} {u : Unit} (h : 0 < O₀ c g u) :
    g.1.2 = .tc ∧ (roleOf g.2 = .bar ∨ ∃ src r, roleOf g.2 = .recv src r) := by
  unfold O₀ owedStep owedBar at h
  simp only [Pi.add_apply, Finsupp.add_apply, tallyAt_apply] at h
  by_contra hn
  have key : ∀ (g' : GSem nD τ sig), (g'.1.2 = .tc ∧ (roleOf g'.2 = .bar ∨ ∃ src r, roleOf g'.2 = .recv src r)) → ¬ (g = g' ∧ True) :=
    fun g' hg' hh => hn (hh.1 ▸ hg')
  have hb : ∀ d : Dev nD, ¬ (g = barCell d ∧ True) := fun d => key _ ⟨rfl, Or.inl role_bar⟩
  have hr : ∀ (d : Dev nD) (src r : Fin 4), ¬ (g = recvCell d src r ∧ True) := fun d src r => key _ ⟨rfl, Or.inr ⟨src, r, role_recv src r⟩⟩
  rw [if_neg (hr _ _ _), if_neg (hr _ _ _), if_neg (hr _ _ _), if_neg (hr _ _ _), if_neg (hr _ _ _), if_neg (hr _ _ _), if_neg (hr _ _ _), if_neg (hr _ _ _),
    if_neg (hr _ _ _), if_neg (hr _ _ _), if_neg (hr _ _ _), if_neg (hr _ _ _), if_neg (hb _), if_neg (hb _), if_neg (hb _)] at h
  exact Nat.lt_irrefl 0 h

-- A wait at the lowest level is allowed whatever is still owed: everything owed lies strictly above it.
theorem mayWait_low (c : Dev nD) (sm : SemLoc sig) (hsm : lv ((c : Thread nD τ), sm) () = 0) (O : CellTallies nD τ sig Unit)
    (hO : ∀ g u, 0 < O g u → 0 < O₀ c g u) :
    (levAts L lv : sProp (MT nD τ sig Unit (Elt F) ℕ UU ℕ)) ⊢ MayWait (c : Thread nD τ) sm () O :=
  MayOwe.of_cut (L := L) (lev := lv) 0 (fun p hp => by rw [Finset.mem_singleton.mp hp, L_tc]; exact Finset.mem_singleton_self _)
    (fun g u hg => by
      have := (O₀_pos (hO g u hg)).1
      obtain ⟨⟨d, k⟩, sm'⟩ := g
      cases this
      exact Finset.mem_singleton_self _)
    (fun p hp => by rw [Finset.mem_singleton.mp hp]; exact Nat.le_of_eq hsm)
    (fun g u hg => by
      rcases (O₀_pos (hO g u hg)).2 with h | ⟨src, r, h⟩
      · simp only [lv, h]; decide
      · simp only [lv, h]; decide)

end Cert.KernelIdeal.A2A
end
-- ==== Proof.Data.lean ====
import proofs.«900531_g7700000000000532_dist_gemm_a2a_m4096_k4096_n2048_f32_gelu_v7x_i4_1_alg».proof.Proof.Proto
import proofs.«900531_g7700000000000532_dist_gemm_a2a_m4096_k4096_n2048_f32_gelu_v7x_i4_1_alg».proof.Proof.Gen.KernelIdeal
import proofs.«900531_g7700000000000532_dist_gemm_a2a_m4096_k4096_n2048_f32_gelu_v7x_i4_1_alg».proof.Proof.Gen.KernelIdeal.Skeleton
import proofs.«900531_g7700000000000532_dist_gemm_a2a_m4096_k4096_n2048_f32_gelu_v7x_i4_1_alg».proof.Proof.Gen.KernelIdeal.Launch
import proofs.«900531_g7700000000000532_dist_gemm_a2a_m4096_k4096_n2048_f32_gelu_v7x_i4_1_alg».proof.Proof.Gen.KernelIdeal.Points
import Idealize.ShloMosaic.Lib.Pipeline.Launch
import Idealize.ShloMosaic.Lib.Pipeline.Kit
import Idealize.ShloMosaic.Lib.Transfers
import Idealize.ShloMosaic.Lib.Tactic

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev CK : Type := Fin 29

def ckBar : CK := 0
def ckSend (s : Fin 3) (r : Fin 4) : CK := ⟨1 + 4 * s.val + r.val, by have := s.isLt; have := r.isLt; omega⟩
def ckRecv (src r : Fin 4) : CK := ⟨13 + 4 * src.val + r.val, by have := src.isLt; have := r.isLt; omega⟩

def csem (k : CK) : SemLoc sig :=
  if k.val = 0 then .reg barS else .dma ⟨8 + k.val, by have := k.isLt; show _ < 37; omega⟩

theorem csem_send : ∀ (s : Fin 3) (r : Fin 4), csem (ckSend s r) = (.dma (sendQ s r) : SemLoc sig) := by decide
theorem csem_recv : ∀ (src r : Fin 4), csem (ckRecv src r) = (.dma (recvQ src r) : SemLoc sig) := by decide

abbrev kcell (ck : Dev nD × CK) : GSem nD τ sig := ((ck.1 : Thread nD τ), csem ck.2)

def localQ (j : Fin 8) : DmaSem sig := ⟨1 + j.val, by have := j.isLt; show _ < 37; omega⟩

variable (m : (ℓ : Loc nD τ sig) → Buf (Elt F) ℓ) (ρ : Dev nD → PrngReg)
variable (RF : (c : Dev nD) → Buf (Elt F) ((c : Thread nD τ).loc cc0_scratch3))
variable (CF : (c : Dev nD) → Buf (Elt F) ((c : Thread nD τ).loc cc0_scratch2))
variable (OUT : (c : Dev nD) → (cc0_stg0_0 : Ref sig .tc).ty.Contents (Elt F))

local notation "𝕄" => MT nD τ sig Unit (Elt F) ℕ UU ℕ

def s₀ : MemSt nD τ sig (Elt F) := ⟨m, fun _ => 0, ρ⟩

-- The persistent part of the exchange's state: every cell's invariant and the round it has reached.
def records (K : Dev nD × CK → ℕ) : sProp 𝕄 :=
  iprop((bigSep Finset.univ fun ck : Dev nD × CK => cellInv ER (a2aRd RF CF) (K ck) (kcell ck))
    ∗ bigSep Finset.univ fun ck : Dev nD × CK => reached ER (kcell ck) 0)

instance records_persistent (K : Dev nD × CK → ℕ) : BI.Persistent (records (F := F) RF CF K) := by unfold records; infer_instance

def payToks (c : Dev nD) : sProp 𝕄 :=
  iprop((bigSep Finset.univ fun k : Fin 3 => dutyTok ER (barCell (peer c (k.val + 1))) 0 c)
    ∗ (bigSep Finset.univ fun sr : Fin 3 × Fin 4 => dutyTok ER (sendCell c sr.1 sr.2) 0 c)
    ∗ (bigSep Finset.univ fun sr : Fin 3 × Fin 4 => dutyTok ER (recvCell (peer c (offOf sr.1)) c sr.2) 0 c))

def linear (c : Dev nD) : sProp 𝕄 :=
  iprop((bigSep Finset.univ fun k : CK => atPos ER (kcell (c, k)) 0 ∅ 0) ∗ payToks (F := F) c)

def ghost (K : Dev nD × CK → ℕ) (c : Dev nD) : sProp 𝕄 := iprop(records (F := F) RF CF K ∗ linear (F := F) c)

def creds (c : Dev nD) : sProp 𝕄 :=
  iprop(cred (tallyAt (barCell c) () 3)
    ∗ bigSep Finset.univ fun kr : Fin 3 × Fin 4 => cred (tallyAt (recvCell c (peer c (kr.1.val + 1)) kr.2) () N))

def locals0 (c : Dev nD) : sProp 𝕄 := bigSep Finset.univ fun j : Fin 8 => semVal ((c : Thread nD τ), .dma (localQ j)) 0

def args (c : Dev nD) : sProp 𝕄 :=
  iprop((((c : Thread nD τ).loc main_arg0) ↦{fullShare} m ((c : Thread nD τ).loc main_arg0)) ∗ (((c : Thread nD τ).loc main_arg1) ↦{fullShare} m ((c : Thread nD τ).loc main_arg1)))

def scratch (c : Dev nD) : sProp 𝕄 :=
  iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f))

def start (c : Dev nD) : sProp 𝕄 :=
  iprop((∃ K, ghost (F := F) RF CF K c) ∗ creds (F := F) c ∗ levAts L lv ∗ locals0 (F := F) c ∗ args m c)

def Φ₀ (c : Dev nD) : sProp 𝕄 := iprop(start m RF CF c ∗ scratch (F := F) c)

def ownQ (j : Fin 36) : DmaSem sig := ⟨1 + j.val, by have := j.isLt; show _ < 37; omega⟩

def Φ₁ (c : Dev nD) : sProp 𝕄 :=
  iprop(args m c ∗ scratch (F := F) c ∗ bigSep Finset.univ fun j : Fin 36 => semVal ((c : Thread nD τ), .dma (ownQ j)) 0)

-- The proof data of the one grid point: what a device holds before and after its body, at final contents RF, CF, OUT.
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => OUT c
  Φ t := match t with
    | ⟨0, _⟩ => Φ₀ m RF CF c
    | ⟨_ + 1, _⟩ => Φ₁ m c
  q _ := fullShare
  owed t := match t with
    | ⟨0, _⟩ => O₀ c
    | ⟨_ + 1, _⟩ => 0

abbrev 𝒱₀ : Variants := Variants.none

end Cert.KernelIdeal.A2A
end
-- ==== Proof.Launch.lean ====
import proofs.«900531_g7700000000000532_dist_gemm_a2a_m4096_k4096_n2048_f32_gelu_v7x_i4_1_alg».proof.Proof.Data
import proofs.«900531_g7700000000000532_dist_gemm_a2a_m4096_k4096_n2048_f32_gelu_v7x_i4_1_alg».proof.Proof.Gen.KernelIdeal
import proofs.«900531_g7700000000000532_dist_gemm_a2a_m4096_k4096_n2048_f32_gelu_v7x_i4_1_alg».proof.Proof.Gen.KernelIdeal.Skeleton
import proofs.«900531_g7700000000000532_dist_gemm_a2a_m4096_k4096_n2048_f32_gelu_v7x_i4_1_alg».proof.Proof.Gen.KernelIdeal.Launch
import proofs.«900531_g7700000000000532_dist_gemm_a2a_m4096_k4096_n2048_f32_gelu_v7x_i4_1_alg».proof.Proof.Gen.KernelIdeal.Points
import Idealize.ShloMosaic.Lib.Pipeline.Launch
import Idealize.ShloMosaic.Lib.Pipeline.Kit
import Idealize.ShloMosaic.Lib.Transfers
import Idealize.ShloMosaic.Lib.Tactic

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
variable (RF : (c : Dev nD) → Buf (Elt F) ((c : Thread nD τ).loc cc0_scratch3))
variable (CF : (c : Dev nD) → Buf (Elt F) ((c : Thread nD τ).loc cc0_scratch2))
variable (OUT : (c : Dev nD) → (cc0_stg0_0 : Ref sig .tc).ty.Contents (Elt F))

local notation "𝕄" => MT nD τ sig Unit (Elt F) ℕ UU ℕ

omit [FloatOps F] in
theorem launchCred_at (sm : Dev nD → SemLoc sig) (f finv : Dev nD → Dev nD) (h1 : ∀ c, f (finv c) = c) (h2 : ∀ d, finv (f d) = d)
    (n : ℕ) (c : Dev nD) :
    (Pipeline.launchCred (fun d => tallyAt (((f d) : Thread nD τ), sm d) () n) c : sProp 𝕄)
      ⊢ cred (tallyAt ((c : Thread nD τ), sm (finv c)) () n) := by
  refine (Pipeline.launchCred_elim _ c (sm (finv c))).trans (Entails.of_eq (congrArg cred ?_))
  rw [Pipeline.tallyOn_launchCredit_owing]
  unfold tallyAt
  refine congrArg _ ?_
  rw [Finset.sum_apply]
  have h0 : ∀ d ∈ (Finset.univ : Finset (Dev nD)), d ≠ finv c →
      tallyOn (nD := nD) (sig := sig) (((f d) : Thread nD τ), sm d) (Finsupp.single () n) ((c : Thread nD τ), sm (finv c)) = 0 := fun d _ hd => by
    unfold tallyOn
    refine Pi.single_eq_of_ne (fun h => hd ?_) _
    have h3 : c = f d := congrArg (fun g : GSem nD τ sig => g.1.1) h
    rw [h3, h2]
  rw [Finset.sum_eq_single (finv c) h0 (fun h => absurd (Finset.mem_univ _) h)]
  unfold tallyOn
  rw [h1, Pi.single_eq_same]

theorem peer_round (k k' : ℕ) (h : (k + k') % 4 = 0) (c : Dev nD) : peer (peer c k) k' = c := by
  rw [peer_peer]; apply Fin.ext
  have hc : c.val < 4 := c.isLt
  simp only [peer]; omega

omit [FloatOps F] in
theorem launch_bar (k k' : ℕ) (h : (k + k') % 4 = 0) (c : Dev nD) :
    (Pipeline.launchCred (fun d => tallyAt (barCell (peer d k)) () 1) c : sProp 𝕄) ⊢ cred (tallyAt (barCell c) () 1) :=
  launchCred_at (F := F) (fun _ => .reg barS) (fun d => peer d k) (fun c => peer c k')
    (peer_round k' k (by omega)) (peer_round k k' h) 1 c

omit [FloatOps F] in
theorem launch_recv (k k' : ℕ) (h : (k + k') % 4 = 0) (r : Fin 4) (c : Dev nD) :
    (Pipeline.launchCred (fun d => tallyAt (recvCell (peer d k) d r) () N) c : sProp 𝕄)
      ⊢ cred (tallyAt (recvCell c (peer c k') r) () N) :=
  launchCred_at (F := F) (fun d => .dma (recvQ d r)) (fun d => peer d k) (fun c => peer c k')
    (peer_round k' k (by omega)) (peer_round k k' h) N c

omit [FloatOps F] in
private theorem bigSep_fin3 (Φ : Fin 3 → sProp 𝕄) : bigSep Finset.univ Φ = iprop(Φ 0 ∗ Φ 1 ∗ Φ 2) :=
  bigSep_univ_eq_bigSepL [0, 1, 2] (by decide) (by decide) Φ
omit [FloatOps F] in
private theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
theorem launch_step (s : Fin 3) (k' : ℕ) (h : (offOf s + k') % 4 = 0) (c : Dev nD) :
    (Pipeline.launchCred (fun d => owedStep d s) c : sProp 𝕄)
      ⊢ bigSep Finset.univ fun r : Fin 4 => cred (tallyAt (recvCell c (peer c k') r) () N) := by
  rw [bigSep_fin4]
  show (Pipeline.launchCred (fun d => ((tallyAt (recvCell (peer d (offOf s)) d 0) () N + tallyAt (recvCell (peer d (offOf s)) d 1) () N)
      + tallyAt (recvCell (peer d (offOf s)) d 2) () N) + tallyAt (recvCell (peer d (offOf s)) d 3) () N) c : sProp 𝕄) ⊢ _
  rw [Pipeline.launchCred_add, Pipeline.launchCred_add, Pipeline.launchCred_add]
  iintro ⟨⟨⟨H0, H1⟩, H2⟩, H3⟩
  isplitl [H0]; · iapply (launch_recv (F := F) (offOf s) k' h 0 c); iexact H0
  isplitl [H1]; · iapply (launch_recv (F := F) (offOf s) k' h 1 c); iexact H1
  isplitl [H2]; · iapply (launch_recv (F := F) (offOf s) k' h 2 c); iexact H2
  iapply (launch_recv (F := F) (offOf s) k' h 3 c); iexact H3

omit [FloatOps F] in
theorem launch_bars (c : Dev nD) :
    (Pipeline.launchCred (fun d => owedBar d) c : sProp 𝕄) ⊢ cred (tallyAt (barCell c) () 3) := by
  show (Pipeline.launchCred (fun d => (tallyAt (barCell (peer d 1)) () 1 + tallyAt (barCell (peer d 2)) () 1) + tallyAt (barCell (peer d 3)) () 1) c : sProp 𝕄) ⊢ _
  rw [Pipeline.launchCred_add, Pipeline.launchCred_add,
    show (tallyAt (barCell c) () 3 : CellTallies nD τ sig Unit) = (tallyAt (barCell c) () 1 + tallyAt (barCell c) () 1) + tallyAt (barCell c) () 1 from by
      rw [tallyAt_add, tallyAt_add]]
  refine (sep_mono (sep_mono (launch_bar (F := F) 1 3 (by decide) c) (launch_bar (F := F) 2 2 (by decide) c)) (launch_bar (F := F) 3 1 (by decide) c)).trans ?_
  exact (sep_mono_left (cred_add _ _).2).trans (cred_add _ _).2

omit [FloatOps F] in
-- Around the ring, what the other devices owe c at launch is exactly the credit c expects.
theorem creds_of_launch (c : Dev nD) : (Pipeline.launchCred O₀ c : sProp 𝕄) ⊢ creds (F := F) c := by
  show (Pipeline.launchCred (fun d => ((owedStep d 2 + owedStep d 1) + owedStep d 0) + owedBar d) c : sProp 𝕄) ⊢ _
  rw [Pipeline.launchCred_add, Pipeline.launchCred_add, Pipeline.launchCred_add]
  unfold creds
  rw [bigSep_univ_prod (fun kr : Fin 3 × Fin 4 => (cred (tallyAt (recvCell c (peer c (kr.1.val + 1)) kr.2) () N) : sProp 𝕄)), bigSep_fin3]
  iintro ⟨⟨⟨H2, H1⟩, H0⟩, HB⟩
  isplitl [HB]; · iapply (launch_bars (F := F) c); iexact HB
  isplitl [H2]; · iapply (launch_step (F := F) 2 1 (by decide) c); iexact H2
  isplitl [H0]; · iapply (launch_step (F := F) 0 2 (by decide) c); iexact H0
  iapply (launch_step (F := F) 1 3 (by decide) c); iexact H1

local notation "ownSem" => (fun j : Fin 36 => (SemLoc.dma (ownQ j) : SemLoc sig))

theorem share_eq (c : Dev nD) (w : Fin cfg0.W) : (dats m ρ RF CF OUT 0 c).share w = fullShare := by
  unfold Dat.share; split <;> rfl

theorem start_intro (G' : Dev nD → sProp 𝕄)
    (hG' : ∀ c, G' c ⊢ iprop((∃ K, ghost (F := F) RF CF K c) ∗ locals0 (F := F) c)) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' c)
      ⊢ |={Set.univ}=> iprop(start m RF CF c ∗ emp) := by
  rw [Pipeline.unscopedRestP_none, unscopedRest0_eq]
  iintro ⟨Ha, Hlev, Hcr, -, HG⟩
  ihave Hc := (creds_of_launch (F := F) c) $$ Hcr
  ihave HG2 := (hG' c) $$ HG
  icases HG2 with ⟨Hg, Hl⟩
  imodintro
  unfold start args
  isplitl
  · isplitl [Hg]; · iexact Hg
    isplitl [Hc]; · iexact Hc
    isplitl [Hlev]; · iexact Hlev
    isplitl [Hl]; · iexact Hl
    iexact Ha
  · iempintro

theorem phi0_intro (c : Dev nD) :
    iprop(start m RF CF c ∗ Pipeline.prefHeld Pipeline.Prefetch.none c (fun _ => fullShare.right) (fun k => k.elim0) ∗ Pipeline.scopedRest cfg0.spec c)
      ⊢ (dats m ρ RF CF OUT 0 c).Φ 0 := by
  rw [show (dats m ρ RF CF OUT 0 c).Φ 0 = Φ₀ m RF CF c from rfl, scopedRest0_eq]
  unfold Φ₀ scratch
  iintro ⟨Hs, -, Hr⟩
  isplitl [Hs]; · iexact Hs
  iexact Hr

theorem phi1_exit (c : Dev nD) :
    (dats m ρ RF CF OUT 0 c).Φ (Fin.last cfg0.N) ⊢ iprop(args m c ∗ Pipeline.ownSems0 ownSem c ∗ Pipeline.scopedRest cfg0.spec c) := by
  rw [show (dats m ρ RF CF OUT 0 c).Φ (Fin.last cfg0.N) = Φ₁ m c from rfl, scopedRest0_eq]
  unfold Φ₁ scratch Pipeline.ownSems0
  iintro ⟨Ha, Hs, Hz⟩
  isplitl [Ha]; · iexact Ha
  isplitl [Hz]; · iexact Hz
  iexact Hs

theorem waits (c : Dev nD) : (levAts L lv : sProp 𝕄) ⊢ Pipeline.cellsWaits cfgs (dats m ρ RF CF OUT) () 0 c :=
  Pipeline.cellsWaits_intro cfgs (dats m ρ RF CF OUT) () 0 c fun w s t =>
    mayWait_low c _ (by fin_cases w; fin_cases s; decide +revert) _ (by
      rcases t with ⟨_ | _, ht⟩
      · exact fun g u h => h
      · exact fun g u h => absurd h (Nat.lt_irrefl 0))

def outArr (c : Dev nD) : Buf (Elt F) ((c : Thread nD τ).loc main_v1) := OUT c

theorem arrAt_final (c : Dev nD) : (dats m ρ RF CF OUT 0 c).arrAt 0 cfg0.N = outArr OUT c := by
  have h := (dats m ρ RF CF OUT 0 c).arrAt_succ (0 : Fin 1) t0_0
  rw [flush0_0 t0_0, if_pos rfl] at h
  refine h.trans ?_
  exact Memref.write_access_unit_zero_univ (Elt F) main_v1 (funext fun a => Nat.zero_mul _) _ _ _

-- The run on the four devices from each device's body: the result ends at OUT, the arguments unchanged.
set_option maxRecDepth 8000 in
theorem run_main (G G' : Dev nD → sProp 𝕄) (u₀ : UU)
    (hG' : ∀ c, G' c ⊢ iprop((∃ K, ghost (F := F) RF CF K c) ∗ locals0 (F := F) c))
    (ownSemFacts : Pipeline.OwnSemFacts cfg0.spec ownSem)
    (hu₀ : (ownU u₀ : sProp 𝕄)
      ⊢ |={Set.univ}=> iprop(BI.own (EP (initOf (Pipeline.cells cfgs cellOf_inj) (Pipeline.launchToks cfgs cellOf_inj))) ∗ bigSep Finset.univ G))
    (hglob : (bigSep Finset.univ fun c => iprop(Pipeline.ownSems0 ownSem c ∗ unscopedSems0 c ∗ G c) : sProp 𝕄) ⊢ |={Set.univ}=> bigSep Finset.univ G')
    (hbody : ∀ c, BodyObligation (dats m ρ RF CF OUT 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outArr OUT c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_region_owing_glob_pf (fun p => (cfgs p).toPCfg) (fun p => (cfgs p).toPCfg_adm) (dats m ρ RF CF OUT) () cellOf_inj (0 : Fin 1)
    winFacts0.to₀ ownSemFacts (Pipeline.PreFacts.none _) EP defs₀ 𝒱₀ m ρ main
    (hmain := fun _ => rfl)
    (hbody := fun c => (hbody c).loose) (hne := block_pos0) (harr := arr_whole0) (hstage := stage_whole0) (hshare := share_eq m ρ RF CF OUT)
    (hdistinct := winFacts0.arr_inj)
    (O₀ := O₀) (howed₀ := fun _ => rfl) (howedN := fun _ => rfl)
    (L := L) (lv := lv) (hL := L_of_ne) (hwaits := waits m ρ RF CF OUT)
    (G := G) (G' := G') (u₀ := u₀)
    (hu₀ := hu₀)
    (hglob := hglob)
    (hA := fun _ _ => rfl) (hpf := fun _ k => k.elim0)
    (X := start m RF CF) (Y := args m) (Z := fun _ => iprop(emp))
    (hX := start_intro m ρ RF CF G' hG') (hin := phi0_intro m ρ RF CF OUT) (hout := phi1_exit m ρ RF CF OUT)
    (QY := fun c s => s.mem ((c.tc : Thread nD τ).loc main_arg0) = m ((c.tc : Thread nD τ).loc main_arg0)
      ∧ s.mem ((c.tc : Thread nD τ).loc main_arg1) = m ((c.tc : Thread nD τ).loc main_arg1))
    (hY := fun c s' => by
      unfold args
      iintro ⟨⟨H0, H1⟩, -, HSI⟩
      icombine HSI H0 gives %h0
      icombine HSI H1 gives %h1
      imodintro
      isplitr; · ipureintro; exact ⟨Buf.eq_of_forall_mem_univ h0, Buf.eq_of_forall_mem_univ h1⟩
      iexact HSI)
    (hQ := fun s h c => ⟨((h c).1 0).trans (arrAt_final m ρ RF CF OUT c), (h c).2.2⟩)

end Cert.KernelIdeal.A2A
end
-- ==== Proof.Ghost.lean ====
import proofs.«900531_g7700000000000532_dist_gemm_a2a_m4096_k4096_n2048_f32_gelu_v7x_i4_1_alg».proof.Proof.Data

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev osem : Fin 36 → SemLoc sig := fun j => .dma (ownQ j)

theorem ownSemFacts : Pipeline.OwnSemFacts cfg0.spec osem := by decide

theorem csem_injective : Function.Injective csem := by
  intro k k' h
  unfold csem at h
  by_cases h1 : k.val = 0 <;> by_cases h2 : k'.val = 0
  · exact Fin.ext (h1.trans h2.symm)
  · rw [if_pos h1, if_neg h2] at h; cases h
  · rw [if_neg h1, if_pos h2] at h; cases h
  · rw [if_neg h1, if_neg h2] at h
    have h3 := Fin.mk.inj (SemLoc.dma.inj h)
    exact Fin.ext (by omega)

theorem kcell_injective : Function.Injective (kcell : Dev nD × CK → GSem nD τ sig) := by
  rintro ⟨c, k⟩ ⟨c', k'⟩ h
  have h1 : c = c' := congrArg (fun g : GSem nD τ sig => g.1.1) h
  have h2 : k = k' := csem_injective (congrArg Prod.snd h)
  rw [h1, h2]

def allCells : Finset (GSem nD τ sig) := Finset.univ.map ⟨kcell, kcell_injective⟩

abbrev TK : Type := Fin 3 ⊕ (Fin 3 × Fin 4) ⊕ (Fin 3 × Fin 4)

def srcOf (c : Dev nD) (s : Fin 3) : Dev nD := peer c (4 - offOf s)

def tokSD (c : Dev nD) : TK → SemLoc sig × Fin 4
  | .inl j => (.reg barS, peer c (3 - j.val))
  | .inr (.inl sr) => (.dma (sendQ sr.1 sr.2), c)
  | .inr (.inr sr) => (.dma (recvQ (srcOf c sr.1) sr.2), srcOf c sr.1)

def tokOf (cj : Dev nD × TK) : GSem nD τ sig × ℕ × Fin 4 := (((cj.1 : Thread nD τ), (tokSD cj.1 cj.2).1), 0, (tokSD cj.1 cj.2).2)

theorem tokSD_injective : ∀ c : Dev nD, Function.Injective (tokSD c) := by decide

theorem tokOf_injective : Function.Injective tokOf := by
  rintro ⟨c, j⟩ ⟨c', j'⟩ h
  have h1 : c = c' := congrArg (fun x : GSem nD τ sig × ℕ × Fin 4 => x.1.1.1) h
  subst h1
  have h2 : tokSD c j = tokSD c j' := Prod.ext (congrArg (fun x : GSem nD τ sig × ℕ × Fin 4 => x.1.2) h) (congrArg (fun x : GSem nD τ sig × ℕ × Fin 4 => x.2.2) h)
  rw [tokSD_injective c h2]

def allToks : Finset (GSem nD τ sig × ℕ × Fin 4) := Finset.univ.map ⟨tokOf, tokOf_injective⟩

def u₀ : UU :=
  (initOf (Pipeline.cells cfgs cellOf_inj) (Pipeline.launchToks cfgs cellOf_inj), (initOf allCells allToks, 1))

variable (RF : (c : Dev nD) → Buf (Elt F) ((c : Thread nD τ).loc cc0_scratch3))
variable (CF : (c : Dev nD) → Buf (Elt F) ((c : Thread nD τ).loc cc0_scratch2))

def toks (c : Dev nD) : sProp 𝕄 :=
  iprop((bigSep Finset.univ fun j : Fin 3 => dutyTok ER (barCell c) 0 (peer c (3 - j.val)))
    ∗ (bigSep Finset.univ fun sr : Fin 3 × Fin 4 => dutyTok ER (sendCell c sr.1 sr.2) 0 c)
    ∗ (bigSep Finset.univ fun sr : Fin 3 × Fin 4 => dutyTok ER (recvCell c (srcOf c sr.1) sr.2) 0 (srcOf c sr.1)))

def G (c : Dev nD) : sProp 𝕄 :=
  iprop((bigSep Finset.univ fun k : CK => roundState ER (a2aRd RF CF) (kcell (c, k)) 0)
    ∗ (bigSep Finset.univ fun k : CK => iprop(atPos ER (kcell (c, k)) 0 ∅ 0 ∗ reached ER (kcell (c, k)) 0)) ∗ toks (F := F) c)

def G' (c : Dev nD) : sProp 𝕄 := iprop((∃ K, ghost RF CF K c) ∗ locals0 c)

-- All cells and tokens are allocated at once and dealt out device by device.
theorem fund_a2a : BI.own (ER (initOf allCells allToks)) ⊢ (|==> bigSep Finset.univ (G RF CF) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum, bigSep_univ_sum]; rfl
  iintro HX
  imod (Rounds.fund ER (a2aRd RF CF) allCells allToks) $$ HX with ⟨Hst, Hr, Hat, Htok⟩
  imodintro
  ihave Hst' := (Entails.of_eq (hX fun g => roundState ER (a2aRd RF CF) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem hu₀ : (ownU u₀ : sProp 𝕄)
    ⊢ |={Set.univ}=> iprop(BI.own (EP (initOf (Pipeline.cells cfgs cellOf_inj) (Pipeline.launchToks cfgs cellOf_inj))) ∗ bigSep Finset.univ (G RF CF)) := by
  unfold u₀
  iintro Hu
  ihave H := (ownU_pair _ _) $$ Hu
  icases H with ⟨HP, HX⟩
  ihave HX' := (own_pair_emb embR _ _) $$ HX
  icases HX' with ⟨HX, -⟩
  imod (fund_a2a RF CF) $$ HX with HG
  imodintro
  isplitl [HP] <;> iassumption

omit [FloatOps F] in
theorem bigSep_fin_succ {n : ℕ} (Φ : Fin (n + 1) → sProp 𝕄) :
    bigSep Finset.univ Φ = iprop(Φ 0 ∗ bigSep Finset.univ fun i : Fin n => Φ i.succ) := by
  rw [Fin.univ_succ, Finset.cons_eq_insert, bigSep_insert (by simp [Fin.succ_ne_zero]), bigSep_map]; rfl

def semSplit : Fin 8 ⊕ Fin 28 ≃ Fin 36 := finSumFinEquiv

theorem osem_local : ∀ a : Fin 8, osem (semSplit (.inl a)) = (.dma (localQ a) : SemLoc sig) := by decide
theorem osem_cell : ∀ b : Fin 28, osem (semSplit (.inr b)) = csem b.succ := by decide

omit [FloatOps F] in
theorem ownSems0_eq (c : Dev nD) : (Pipeline.ownSems0 (Ix := Unit) (Name := ℕ) (U := UU) (Lvl := ℕ) (Val := Elt F) (τ := τ) osem c : sProp 𝕄)
    = iprop(locals0 c ∗ bigSep Finset.univ fun b : Fin 28 => semVal (kcell (c, b.succ)) 0) := by
  unfold Pipeline.ownSems0 locals0
  rw [bigSep_univ_equiv semSplit, bigSep_univ_sum]
  simp only [osem_local, osem_cell]
  rfl

omit [FloatOps F] in
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun k : CK => semVal (kcell (c, k)) 0) ∗ locals0 c : sProp 𝕄) := by
  rw [ownSems0_eq, unscopedSems0_eq, bigSep_fin_succ (fun k : CK => (semVal (kcell (c, k)) 0 : sProp 𝕄))]
  iintro ⟨⟨HL, HC⟩, HB⟩
  isplitr [HL]
  · isplitl [HB] <;> iassumption
  iexact HL

theorem core_alloc (c : Dev nD) :
    iprop(Pipeline.ownSems0 (Ix := Unit) (Name := ℕ) (U := UU) (Lvl := ℕ) (Val := Elt F) (τ := τ) osem c ∗ unscopedSems0 c ∗ G RF CF c)
      ⊢ |={Set.univ}=> iprop((bigSep Finset.univ fun k : CK => iprop(∃ κ : ℕ, cellInv ER (a2aRd RF CF) κ (kcell (c, k))))
          ∗ (bigSep Finset.univ fun k : CK => iprop(atPos ER (kcell (c, k)) 0 ∅ 0 ∗ reached ER (kcell (c, k)) 0)) ∗ toks c ∗ locals0 c) := by
  unfold G
  iintro ⟨Hos, Hus, Hst, Hat, Htok⟩
  ihave Hv := (sems0_eq (F := F) c) $$ [Hos Hus]
  · isplitl [Hos] <;> iassumption
  icases Hv with ⟨Hv, Hloc⟩
  imod (show iprop((bigSep Finset.univ fun k : CK => semVal (kcell (c, k)) 0) ∗ bigSep Finset.univ fun k : CK => roundState ER (a2aRd RF CF) (kcell (c, k)) 0)
      ⊢ (|={Set.univ}=> bigSep Finset.univ fun k : CK => iprop(∃ κ : ℕ, cellInv ER (a2aRd RF CF) κ (kcell (c, k))) : sProp 𝕄) from by
        rw [← bigSep_sep']
        exact (bigSep_mono fun k _ => (Rounds.body_intro ER (a2aRd RF CF) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hloc

theorem bar_back : ∀ (c : Dev nD) (j : Fin 3), peer (peer c (j.val + 1)) (3 - j.val) = c := by decide
theorem bar_forth : ∀ (c : Dev nD) (j : Fin 3), peer (peer c (3 - j.val)) (j.val + 1) = c := by decide
theorem src_dst : ∀ (c : Dev nD) (s : Fin 3), srcOf (peer c (offOf s)) s = c := by decide
theorem dst_src : ∀ (c : Dev nD) (s : Fin 3), peer (srcOf c s) (offOf s) = c := by decide

def barE : Dev nD × Fin 3 ≃ Dev nD × Fin 3 where
  toFun x := (peer x.1 (x.2.val + 1), x.2)
  invFun x := (peer x.1 (3 - x.2.val), x.2)
  left_inv x := Prod.ext (bar_back x.1 x.2) rfl
  right_inv x := Prod.ext (bar_forth x.1 x.2) rfl

def recvE : Dev nD × (Fin 3 × Fin 4) ≃ Dev nD × (Fin 3 × Fin 4) where
  toFun x := (peer x.1 (offOf x.2.1), x.2)
  invFun x := (srcOf x.1 x.2.1, x.2)
  left_inv x := Prod.ext (src_dst x.1 x.2.1) rfl
  right_inv x := Prod.ext (dst_src x.1 x.2.1) rfl

omit [FloatOps F] in
theorem bar_around :
    (bigSep Finset.univ fun c : Dev nD => bigSep Finset.univ fun j : Fin 3 => (dutyTok ER (barCell c) 0 (peer c (3 - j.val)) : sProp 𝕄))
      = bigSep Finset.univ fun c : Dev nD => bigSep Finset.univ fun k : Fin 3 => (dutyTok ER (barCell (peer c (k.val + 1))) 0 c : sProp 𝕄) := by
  rw [← bigSep_univ_prod (fun x : Dev nD × Fin 3 => (dutyTok ER (barCell x.1) 0 (peer x.1 (3 - x.2.val)) : sProp 𝕄)),
    ← bigSep_univ_prod (fun x : Dev nD × Fin 3 => (dutyTok ER (barCell (peer x.1 (x.2.val + 1))) 0 x.1 : sProp 𝕄)),
    bigSep_univ_equiv barE]
  exact bigSep_congr fun x _ => by
    show (dutyTok ER (barCell (peer x.1 (x.2.val + 1))) 0 (peer (peer x.1 (x.2.val + 1)) (3 - x.2.val)) : sProp 𝕄) = _
    rw [bar_back]

omit [FloatOps F] in
theorem recv_around :
    (bigSep Finset.univ fun c : Dev nD => bigSep Finset.univ fun sr : Fin 3 × Fin 4 => (dutyTok ER (recvCell c (srcOf c sr.1) sr.2) 0 (srcOf c sr.1) : sProp 𝕄))
      = bigSep Finset.univ fun c : Dev nD => bigSep Finset.univ fun sr : Fin 3 × Fin 4 => (dutyTok ER (recvCell (peer c (offOf sr.1)) c sr.2) 0 c : sProp 𝕄) := by
  rw [← bigSep_univ_prod (fun x : Dev nD × (Fin 3 × Fin 4) => (dutyTok ER (recvCell x.1 (srcOf x.1 x.2.1) x.2.2) 0 (srcOf x.1 x.2.1) : sProp 𝕄)),
    ← bigSep_univ_prod (fun x : Dev nD × (Fin 3 × Fin 4) => (dutyTok ER (recvCell (peer x.1 (offOf x.2.1)) x.1 x.2.2) 0 x.1 : sProp 𝕄)),
    bigSep_univ_equiv recvE]
  exact bigSep_congr fun x _ => by
    show (dutyTok ER (recvCell (peer x.1 (offOf x.2.1)) (srcOf (peer x.1 (offOf x.2.1)) x.2.1) x.2.2) 0 (srcOf (peer x.1 (offOf x.2.1)) x.2.1) : sProp 𝕄) = _
    rw [src_dst]

omit [FloatOps F] in
theorem toks_around : (bigSep Finset.univ fun c : Dev nD => (toks c : sProp 𝕄)) ⊢ bigSep Finset.univ fun c : Dev nD => payToks c := by
  unfold toks payToks
  rw [bigSep_sep', bigSep_sep', bigSep_sep', bigSep_sep', bar_around, recv_around]

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × CK → ℕ) (c : Dev nD) : iprop(records RF CF K ∗ (linear c ∗ locals0 c)) ⊢ G' RF CF c := by
  unfold G' ghost
  iintro ⟨#HR, HL, Hloc⟩
  isplitl [HL]
  · iexists K
    isplitr; · iexact HR
    iexact HL
  iexact Hloc

theorem regroup :
    (bigSep Finset.univ fun c : Dev nD => iprop((bigSep Finset.univ fun k : CK => iprop(∃ κ : ℕ, cellInv ER (a2aRd RF CF) κ (kcell (c, k))))
          ∗ (bigSep Finset.univ fun k : CK => iprop(atPos ER (kcell (c, k)) 0 ∅ 0 ∗ reached ER (kcell (c, k)) 0)) ∗ toks c ∗ locals0 c) : sProp 𝕄)
      ⊢ bigSep Finset.univ (G' RF CF) := by
  rw [bigSep_sep', bigSep_sep', bigSep_sep', ← bigSep_univ_prod (fun ck : Dev nD × CK => iprop(∃ κ : ℕ, cellInv ER (a2aRd RF CF) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok, Hloc⟩
  ihave HK := (BI.bigSep_exists_pi Finset.univ (fun (ck : Dev nD × CK) (κ : ℕ) => (cellInv ER (a2aRd RF CF) κ (kcell ck) : sProp 𝕄))) $$ HI
  icases HK with ⟨%K, #HI⟩
  ihave Htk := (toks_around (F := F)) $$ Htok
  iapply (bigSep_with_persistent (R := records RF CF K) fun c _ => ghost_intro RF CF K c)
  isplitr
  · unfold records; isplitl; · iexact HI
    iexact HR
  · rw [bigSep_sep']
    isplitr [Hloc]
    · unfold linear; rw [bigSep_sep']
      isplitl [Hat]; · iexact Hat
      iexact Htk
    iexact Hloc

-- From zeroed semaphores every device receives its cells' invariants and its tokens.
theorem glob : (bigSep Finset.univ fun c => iprop(Pipeline.ownSems0 (Ix := Unit) (Name := ℕ) (U := UU) (Lvl := ℕ) (Val := Elt F) (τ := τ) osem c ∗ unscopedSems0 c ∗ G RF CF c) : sProp 𝕄)
    ⊢ |={Set.univ}=> bigSep Finset.univ (G' RF CF) :=
  ((bigSep_mono fun c _ => core_alloc RF CF c).trans (bigSep_fupd _ _)).trans (BI.fupd_mono (regroup RF CF))

end Cert.KernelIdeal.A2A
end
-- ==== Proof.Contents.lean ====
import proofs.«900531_g7700000000000532_dist_gemm_a2a_m4096_k4096_n2048_f32_gelu_v7x_i4_1_alg».proof.Proof.Proto
import proofs.«900531_g7700000000000532_dist_gemm_a2a_m4096_k4096_n2048_f32_gelu_v7x_i4_1_alg».proof.Proof.Gen.KernelIdeal
import proofs.«900531_g7700000000000532_dist_gemm_a2a_m4096_k4096_n2048_f32_gelu_v7x_i4_1_alg».proof.Proof.Gen.KernelIdeal.Skeleton
import Idealize.ShloMosaic.Lib.ValueIdx

noncomputable section

namespace Cert.KernelIdeal.A2A

open Cert.KernelIdeal Cert.KernelIdeal.Gen
open Idealize.ShloMosaic Idealize.ShloMosaic.TcCoe Idealize.ShloMosaic.ValueIdx

variable {F : FTy → Type} [FloatOps F]

section Spellings
variable (x : Vec F S256x4096 .f32) (w : Vec F S1x4096x512 .f32)

theorem pay3_pay2_eq15 : k0_pay3 (k0_pay2 x w) = k0_pay15 x w := rfl
theorem pay7_eq15 : k0_pay7 (k0_pay5 x w) (k0_pay6 x w) (Scalar.ofBits .f32 0x3F800000#32) = k0_pay15 x w := rfl
theorem pay11_eq15 : k0_pay11 (k0_pay8 x w) (k0_pay9 x w) (k0_pay10 x w) = k0_pay15 x w := rfl
theorem pay14_eq15 : k0_pay14 (k0_pay12 x w) (k0_pay13 (F := F)) = k0_pay15 x w := rfl
theorem pay16_eq15 : k0_pay16 x w = k0_pay15 x w := rfl
theorem pay17_eq15 : k0_pay17 x w = k0_pay15 x w := rfl
theorem pay18_eq15 : k0_pay18 x w = k0_pay15 x w := rfl
theorem pay20_pay19_eq15 : k0_pay20 (k0_pay19 x w) = k0_pay15 x w := rfl
theorem pay22_pay21_eq15 : k0_pay22 (k0_pay21 x w) = k0_pay15 x w := rfl
theorem pay23_eq15 : k0_pay23 x w = k0_pay15 x w := rfl
theorem pay24_eq15 : k0_pay24 x w = k0_pay15 x w := rfl

end Spellings

variable (m : (ℓ : Loc nD τ sig) → Buf (Elt F) ℓ)

def xRows (c : Dev nD) (r : Fin 4) : Vec F S256x4096 .f32 :=
  fun j => m ((c : Thread nD τ).loc main_arg0)
    (ix2 (⟨256 * r.val + (j 0).val, by have := idx2_lt0 j; have := r.isLt; omega⟩ : Fin 1024) (j 1))

def xAll (c : Dev nD) : Vec F S1024x4096 .f32 := m ((c : Thread nD τ).loc main_arg0)

def wCols (c dst : Dev nD) : Vec F S1x4096x512 .f32 :=
  fun j => m ((c : Thread nD τ).loc main_arg1)
    (ix2 (j 1) (⟨512 * dst.val + (j 2).val, by
      have h : (j 2).val < 512 := (j 2).isLt
      have : dst.val < 4 := dst.isLt
      omega⟩ : Fin 2048))

-- The tile device src computes for device dst from its r-th group of 256 rows.
def ys (src dst : Dev nD) (r : Fin 4) : FVec F S1x256x512 .bf16 :=
  k0_pay15 (xRows m src r) (wCols m src dst)

-- The incoming buffer of c at the end: plane src holds the four tiles src computed for c.
def RFv (c : Dev nD) : Buf (Elt F) ((c : Thread nD τ).loc cc0_scratch3) :=
  fun (i : S4x1024x512.Idx) =>
    ys m (⟨(i 0).val, (i 0).isLt⟩ : Dev nD) c
      (⟨(i 1).val / 256, by have h : (i 1).val < 1024 := (i 1).isLt; omega⟩ : Fin 4)
      (ix3 (0 : Fin 1) (⟨(i 1).val % 256, Nat.mod_lt _ (by decide)⟩ : Fin 256) (⟨(i 2).val, (i 2).isLt⟩ : Fin 512))

-- The outgoing buffer of c at the end: plane s holds the four tiles for the destination of step s.
def CFv (c : Dev nD) : Buf (Elt F) ((c : Thread nD τ).loc cc0_scratch2) :=
  fun (i : S3x1024x512.Idx) =>
    ys m c (peer c (offOf (⟨(i 0).val, (i 0).isLt⟩ : Fin 3)))
      (⟨(i 1).val / 256, by have h : (i 1).val < 1024 := (i 1).isLt; omega⟩ : Fin 4)
      (ix3 (0 : Fin 1) (⟨(i 1).val % 256, Nat.mod_lt _ (by decide)⟩ : Fin 256) (⟨(i 2).val, (i 2).isLt⟩ : Fin 512))

def rfTile (c : Dev nD) (s g : Fin 4) : Vec F S1x256x512 .bf16 :=
  fun j => RFv m c (ix3 s (⟨256 * g.val + (j 1).val, by
      have h : (j 1).val < 256 := (j 1).isLt
      have := g.isLt
      omega⟩ : Fin 1024) (⟨(j 2).val, (j 2).isLt⟩ : Fin 512))

-- The result on c: its own tile in its own rows, the received tiles widened in the other devices' rows.
def OUTv (c : Dev nD) : (cc0_stg0_0 : Ref sig .tc).ty.Contents (Elt F) :=
  fun (i : S4096x512.Idx) =>
    if (i 0).val / 1024 = c.val then
      k0_pay25 (xAll m c) (wCols m c c)
        (ix2 (⟨(i 0).val % 1024, Nat.mod_lt _ (by decide)⟩ : Fin 1024) (⟨(i 1).val, idx2_lt1 i⟩ : Fin 512))
    else
      k0_pay1 (rfTile m c (⟨(i 0).val / 1024, by have := idx2_lt0 i; omega⟩ : Fin 4)
          (⟨(i 0).val % 1024 / 256, by have := Nat.mod_lt (i 0).val (show 0 < 1024 by decide); omega⟩ : Fin 4))
        (ix2 (⟨(i 0).val % 256, Nat.mod_lt _ (by decide)⟩ : Fin 256) (⟨(i 1).val, idx2_lt1 i⟩ : Fin 512))

theorem RFv_apply (c : Dev nD) (s : Fin 4) (p : Fin 1024) (q : Fin 512) :
    RFv m c (ix3 s p q) = ys m s c (⟨p.val / 256, by have := p.isLt; omega⟩ : Fin 4)
      (ix3 (0 : Fin 1) (⟨p.val % 256, Nat.mod_lt _ (by decide)⟩ : Fin 256) q) := rfl

theorem CFv_apply (c : Dev nD) (s : Fin 3) (p : Fin 1024) (q : Fin 512) :
    CFv m c (ix3 s p q) = ys m c (peer c (offOf s)) (⟨p.val / 256, by have := p.isLt; omega⟩ : Fin 4)
      (ix3 (0 : Fin 1) (⟨p.val % 256, Nat.mod_lt _ (by decide)⟩ : Fin 256) q) := rfl

theorem rfTile_apply (c : Dev nD) (s g : Fin 4) (a : Fin 1) (p : Fin 256) (q : Fin 512) :
    rfTile m c s g (ix3 a p q) = RFv m c (ix3 s (⟨256 * g.val + p.val, by have := p.isLt; have := g.isLt; omega⟩ : Fin 1024) q) := rfl

theorem rfTile_eq (c : Dev nD) (s g : Fin 4) : rfTile m c s g = ys m s c g := by
  funext j
  obtain ⟨a, p, q, rfl⟩ : ∃ (a : Fin 1) (p : Fin 256) (q : Fin 512), j = ix3 a p q := ⟨j 0, j 1, j 2, eq_ix3 j⟩
  rw [rfTile_apply, RFv_apply]
  have ha : a = 0 := Subsingleton.elim _ _
  subst ha
  have e1 : (⟨(256 * g.val + p.val) / 256, by have := p.isLt; have := g.isLt; omega⟩ : Fin 4) = g :=
    Fin.ext (by have := p.isLt; show (256 * g.val + p.val) / 256 = g.val; omega)
  have e2 : (⟨(256 * g.val + p.val) % 256, Nat.mod_lt _ (by decide)⟩ : Fin 256) = p :=
    Fin.ext (by have := p.isLt; show (256 * g.val + p.val) % 256 = p.val; omega)
  rw [e1, e2]

theorem OUTv_own (c : Dev nD) (p : Fin 1024) (q : Fin 512) :
    OUTv m c (ix2 (⟨1024 * c.val + p.val, by have := p.isLt; have : c.val < 4 := c.isLt; omega⟩ : Fin 4096) q)
      = k0_pay25 (xAll m c) (wCols m c c) (ix2 p q) := by
  have h1 : (1024 * c.val + p.val) / 1024 = c.val := by have := p.isLt; omega
  have h2 : (⟨(1024 * c.val + p.val) % 1024, Nat.mod_lt _ (by decide)⟩ : Fin 1024) = p :=
    Fin.ext (by have := p.isLt; show (1024 * c.val + p.val) % 1024 = p.val; omega)
  show (if (1024 * c.val + p.val) / 1024 = c.val then
      k0_pay25 (xAll m c) (wCols m c c) (ix2 (⟨(1024 * c.val + p.val) % 1024, Nat.mod_lt _ (by decide)⟩ : Fin 1024) q) else _) = _
  rw [if_pos h1, h2]

theorem OUTv_other (c s : Dev nD) (hs : s ≠ c) (g : Fin 4) (p : Fin 256) (q : Fin 512) :
    OUTv m c (ix2 (⟨1024 * s.val + 256 * g.val + p.val, by
        have := p.isLt; have := g.isLt; have : s.val < 4 := s.isLt; omega⟩ : Fin 4096) q)
      = k0_pay1 (ys m s c g) (ix2 p q) := by
  have h1 : (1024 * s.val + 256 * g.val + p.val) / 1024 = s.val := by have := p.isLt; have := g.isLt; omega
  have hne : ¬ (1024 * s.val + 256 * g.val + p.val) / 1024 = c.val := by
    rw [h1]; exact fun h => hs (Fin.ext h)
  have e0 : (⟨(1024 * s.val + 256 * g.val + p.val) / 1024, by
      have := p.isLt; have := g.isLt; have : s.val < 4 := s.isLt; omega⟩ : Fin 4) = s := Fin.ext h1
  have e1 : (⟨(1024 * s.val + 256 * g.val + p.val) % 1024 / 256, by
      have := Nat.mod_lt (1024 * s.val + 256 * g.val + p.val) (show 0 < 1024 by decide); omega⟩ : Fin 4) = g :=
    Fin.ext (by have := p.isLt; have := g.isLt; show (1024 * s.val + 256 * g.val + p.val) % 1024 / 256 = g.val; omega)
  have e2 : (⟨(1024 * s.val + 256 * g.val + p.val) % 256, Nat.mod_lt _ (by decide)⟩ : Fin 256) = p :=
    Fin.ext (by have := p.isLt; show (1024 * s.val + 256 * g.val + p.val) % 256 = p.val; omega)
  show (if (1024 * s.val + 256 * g.val + p.val) / 1024 = c.val then _ else
      k0_pay1 (rfTile m c (⟨(1024 * s.val + 256 * g.val + p.val) / 1024, _⟩ : Fin 4)
          (⟨(1024 * s.val + 256 * g.val + p.val) % 1024 / 256, _⟩ : Fin 4))
        (ix2 (⟨(1024 * s.val + 256 * g.val + p.val) % 256, Nat.mod_lt _ (by decide)⟩ : Fin 256) q)) = _
  rw [if_neg hne, e0, e1, e2, rfTile_eq]

end Cert.KernelIdeal.A2A

end
-- ==== Proof.Run.lean ====
import proofs.«900531_g7700000000000532_dist_gemm_a2a_m4096_k4096_n2048_f32_gelu_v7x_i4_1_alg».proof.Proof.Launch
import proofs.«900531_g7700000000000532_dist_gemm_a2a_m4096_k4096_n2048_f32_gelu_v7x_i4_1_alg».proof.Proof.Ghost
import proofs.«900531_g7700000000000532_dist_gemm_a2a_m4096_k4096_n2048_f32_gelu_v7x_i4_1_alg».proof.Proof.Contents

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- The run at the concrete final contents, for any float values.
theorem kernel_run (m : (ℓ : Loc nD τ sig) → Buf (Elt F) ℓ) (ρ : Dev nD → PrngReg)
    (hbody : ∀ c, BodyObligation (dats m ρ (RFv m) (CFv m) (OUTv m) 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = OUTv m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_main m ρ (RFv m) (CFv m) (OUTv m) (G (RFv m) (CFv m)) (G' (RFv m) (CFv m)) u₀ (fun _ => .rfl) ownSemFacts
    (hu₀ (RFv m) (CFv m)) (glob (RFv m) (CFv m)) hbody

end Cert.KernelIdeal.A2A
end
-- ==== Proof.Slots.lean ====
import proofs.«900531_g7700000000000532_dist_gemm_a2a_m4096_k4096_n2048_f32_gelu_v7x_i4_1_alg».proof.Proof.Proto

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

namespace Slots

variable {F : FTy → Type} [FloatOps F]

local notation "𝕄" => MT nD τ sig Unit (Elt F) ℕ UU ℕ

theorem bigSep_fin3 (Φ : Fin 3 → sProp 𝕄) : bigSep Finset.univ Φ = iprop(Φ 0 ∗ Φ 1 ∗ Φ 2) := by
  rw [show (Finset.univ : Finset (Fin 3)) = {0, 1, 2} by decide, bigSep_insert (by decide), bigSep_insert (by decide),
    bigSep_singleton]
  rfl

theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} by decide, bigSep_insert (by decide), bigSep_insert (by decide),
    bigSep_insert (by decide), bigSep_singleton]
  rfl

theorem bigSep_fin3x4 (Φ : Fin 3 × Fin 4 → sProp 𝕄) :
    bigSep Finset.univ Φ
      = iprop((Φ (0, 0) ∗ Φ (0, 1) ∗ Φ (0, 2) ∗ Φ (0, 3)) ∗ (Φ (1, 0) ∗ Φ (1, 1) ∗ Φ (1, 2) ∗ Φ (1, 3))
          ∗ (Φ (2, 0) ∗ Φ (2, 1) ∗ Φ (2, 2) ∗ Φ (2, 3))) := by
  rw [bigSep_univ_prod, bigSep_fin3, bigSep_fin4, bigSep_fin4, bigSep_fin4]

section Pieces
variable {T : Type} [Fintype T] [DecidableEq T] {ℓ : Loc nD τ sig} (K : T → Finset (Idx ℓ))

theorem univ_eq_biUnion_of_cover (hc : ∀ i : Idx ℓ, ∃ t, i ∈ K t) :
    (Finset.univ : Finset (Idx ℓ)) = Finset.univ.biUnion K :=
  (Finset.eq_univ_of_forall fun i => by
    obtain ⟨t, h⟩ := hc i
    exact Finset.mem_biUnion.mpr ⟨t, Finset.mem_univ _, h⟩).symm

-- Holding a buffer whole is holding the parts of a disjoint cover of its indices.
theorem split_of_cover (hd : ∀ t t', t ≠ t' → Disjoint (K t) (K t')) (hc : ∀ i : Idx ℓ, ∃ t, i ∈ K t)
    (f : Buf (Elt F) ℓ) :
    (ℓ ↦{fullShare} f : sProp 𝕄) = bigSep Finset.univ fun t => ℓ ↦[K t]{fullShare} f := by
  rw [univ_eq_biUnion_of_cover K hc]
  exact pointsTo_biUnion Finset.univ K fun t _ t' _ h => hd t t' h

theorem join_of_cover [Inhabited T] (hd : ∀ t t', t ≠ t' → Disjoint (K t) (K t')) (hc : ∀ i : Idx ℓ, ∃ t, i ∈ K t)
    (fs : T → Buf (Elt F) ℓ) :
    (bigSep Finset.univ fun t => ℓ ↦[K t]{fullShare} fs t : sProp 𝕄)
      ⊢ iprop(∃ g : Buf (Elt F) ℓ, ⌜∀ t, ∀ i ∈ K t, g i = fs t i⌝ ∗ (ℓ ↦{fullShare} g)) := by
  refine (pointsTo_biUnion_join Finset.univ K fs (fs default) fun t _ t' _ h => hd t t' h).trans ?_
  rw [← univ_eq_biUnion_of_cover K hc]
  iintro ⟨%g, %hg, H⟩
  iexists g
  isplitr
  · ipureintro; exact fun t => hg t (Finset.mem_univ _)
  · iexact H

end Pieces

def recvRect (src r : Fin 4) : Rect S4x1024x512 :=
  Rect.unit (s := S4x1024x512) ![src.val, 256 * r.val, 0] S1x256x512.size (inb_recv src r)

theorem recvSlot_set (src r : Fin 4) : (recvSlot src r).view.set = (recvRect src r).set :=
  (View.set_reshape _ _).trans (View.set_slice_whole cc0_scratch3 (recvRect src r))

theorem recvRect_disjoint {sr sr' : Fin 4 × Fin 4} (h : sr ≠ sr') :
    Disjoint (recvRect sr.1 sr.2).set (recvRect sr'.1 sr'.2).set := by
  obtain ⟨s, r⟩ := sr; obtain ⟨s', r'⟩ := sr'
  by_cases hs : s = s'
  · subst hs
    have hr : r.val ≠ r'.val := fun e => h (by rw [Fin.ext e])
    refine Rect.unit_disjoint (1 : Fin 3) ?_
    show 256 * r.val + 256 ≤ 256 * r'.val ∨ 256 * r'.val + 256 ≤ 256 * r.val
    omega
  · have hs' : s.val ≠ s'.val := fun e => hs (Fin.ext e)
    refine Rect.unit_disjoint (0 : Fin 3) ?_
    show s.val + 1 ≤ s'.val ∨ s'.val + 1 ≤ s.val
    omega

theorem recvRect_cover (i : S4x1024x512.Idx) : ∃ sr : Fin 4 × Fin 4, i ∈ (recvRect sr.1 sr.2).set := by
  have h0 : (i 0).val < 4 := (i 0).isLt
  have h1 : (i 1).val < 1024 := (i 1).isLt
  have h2 : (i 2).val < 512 := (i 2).isLt
  refine ⟨(⟨(i 0).val, h0⟩, ⟨(i 1).val / 256, by omega⟩), ?_⟩
  unfold recvRect
  rw [Rect.mem_set_unit]
  intro a
  fin_cases a
  · show (i 0).val ≤ (i 0).val ∧ (i 0).val < (i 0).val + 1; omega
  · show 256 * ((i 1).val / 256) ≤ (i 1).val ∧ (i 1).val < 256 * ((i 1).val / 256) + 256; omega
  · show 0 ≤ (i 2).val ∧ (i 2).val < 0 + 512; omega

theorem recvSlot_disjoint {sr sr' : Fin 4 × Fin 4} (h : sr ≠ sr') :
    Disjoint (recvSlot sr.1 sr.2).view.set (recvSlot sr'.1 sr'.2).view.set := by
  rw [recvSlot_set, recvSlot_set]; exact recvRect_disjoint h

theorem recvSlot_cover (i : S4x1024x512.Idx) : ∃ sr : Fin 4 × Fin 4, i ∈ (recvSlot sr.1 sr.2).view.set := by
  obtain ⟨sr, h⟩ := recvRect_cover i
  exact ⟨sr, by rw [recvSlot_set]; exact h⟩

theorem recv_split (c : Dev nD) (f : Buf (Elt F) ((c : Thread nD τ).loc cc0_scratch3)) :
    ((c : Thread nD τ).loc cc0_scratch3 ↦{fullShare} f : sProp 𝕄)
      = bigSep Finset.univ fun sr : Fin 4 × Fin 4 =>
          ((recvSlot sr.1 sr.2).view.loc (c : Thread nD τ) ↦[(recvSlot sr.1 sr.2).view.set]{fullShare} f) :=
  split_of_cover (ℓ := (c : Thread nD τ).loc cc0_scratch3) (fun sr : Fin 4 × Fin 4 => (recvSlot sr.1 sr.2).view.set)
    (fun _ _ h => recvSlot_disjoint h) recvSlot_cover f

theorem recv_split_fwd (c : Dev nD) (f : Buf (Elt F) ((c : Thread nD τ).loc cc0_scratch3)) :
    ((c : Thread nD τ).loc cc0_scratch3 ↦{fullShare} f : sProp 𝕄)
      ⊢ bigSep Finset.univ fun sr : Fin 4 × Fin 4 =>
          ((recvSlot sr.1 sr.2).view.loc (c : Thread nD τ) ↦[(recvSlot sr.1 sr.2).view.set]{fullShare} f) :=
  Entails.of_eq (recv_split c f)

theorem recv_join (c : Dev nD) (fs : Fin 4 × Fin 4 → Buf (Elt F) ((c : Thread nD τ).loc cc0_scratch3)) :
    (bigSep Finset.univ fun sr : Fin 4 × Fin 4 =>
        ((recvSlot sr.1 sr.2).view.loc (c : Thread nD τ) ↦[(recvSlot sr.1 sr.2).view.set]{fullShare} fs sr) : sProp 𝕄)
      ⊢ iprop(∃ g : Buf (Elt F) ((c : Thread nD τ).loc cc0_scratch3),
          ⌜∀ sr : Fin 4 × Fin 4, ∀ i ∈ (recvSlot sr.1 sr.2).view.set, g i = fs sr i⌝
            ∗ ((c : Thread nD τ).loc cc0_scratch3 ↦{fullShare} g)) :=
  join_of_cover (ℓ := (c : Thread nD τ).loc cc0_scratch3) (fun sr : Fin 4 × Fin 4 => (recvSlot sr.1 sr.2).view.set)
    (fun _ _ h => recvSlot_disjoint h) recvSlot_cover fs

set_option quotPrecheck false in
local notation "RS[" c ", " s ", " r ", " f "]" =>
  (pointsTo ((recvSlot s r).view.loc (c : Thread nD τ)) (recvSlot s r).view.set fullShare f : sProp 𝕄)

def chunkRect (s : Fin 3) (r : Fin 4) : Rect S3x1024x512 :=
  Rect.unit (s := S3x1024x512) ![s.val, 256 * r.val, 0] S1x256x512.size (inb_chunk s r)

theorem chunkSlot_set (s : Fin 3) (r : Fin 4) : (chunkSlot s r).view.set = (chunkRect s r).set :=
  (View.set_reshape _ _).trans (View.set_slice_whole cc0_scratch2 (chunkRect s r))

theorem chunkRect_disjoint {sr sr' : Fin 3 × Fin 4} (h : sr ≠ sr') :
    Disjoint (chunkRect sr.1 sr.2).set (chunkRect sr'.1 sr'.2).set := by
  obtain ⟨s, r⟩ := sr; obtain ⟨s', r'⟩ := sr'
  by_cases hs : s = s'
  · subst hs
    have hr : r.val ≠ r'.val := fun e => h (by rw [Fin.ext e])
    refine Rect.unit_disjoint (1 : Fin 3) ?_
    show 256 * r.val + 256 ≤ 256 * r'.val ∨ 256 * r'.val + 256 ≤ 256 * r.val
    omega
  · have hs' : s.val ≠ s'.val := fun e => hs (Fin.ext e)
    refine Rect.unit_disjoint (0 : Fin 3) ?_
    show s.val + 1 ≤ s'.val ∨ s'.val + 1 ≤ s.val
    omega

theorem chunkRect_cover (i : S3x1024x512.Idx) : ∃ sr : Fin 3 × Fin 4, i ∈ (chunkRect sr.1 sr.2).set := by
  have h0 : (i 0).val < 3 := (i 0).isLt
  have h1 : (i 1).val < 1024 := (i 1).isLt
  have h2 : (i 2).val < 512 := (i 2).isLt
  refine ⟨(⟨(i 0).val, h0⟩, ⟨(i 1).val / 256, by omega⟩), ?_⟩
  unfold chunkRect
  rw [Rect.mem_set_unit]
  intro a
  fin_cases a
  · show (i 0).val ≤ (i 0).val ∧ (i 0).val < (i 0).val + 1; omega
  · show 256 * ((i 1).val / 256) ≤ (i 1).val ∧ (i 1).val < 256 * ((i 1).val / 256) + 256; omega
  · show 0 ≤ (i 2).val ∧ (i 2).val < 0 + 512; omega

theorem chunkSlot_disjoint {sr sr' : Fin 3 × Fin 4} (h : sr ≠ sr') :
    Disjoint (chunkSlot sr.1 sr.2).view.set (chunkSlot sr'.1 sr'.2).view.set := by
  rw [chunkSlot_set, chunkSlot_set]; exact chunkRect_disjoint h

theorem chunkSlot_cover (i : S3x1024x512.Idx) : ∃ sr : Fin 3 × Fin 4, i ∈ (chunkSlot sr.1 sr.2).view.set := by
  obtain ⟨sr, h⟩ := chunkRect_cover i
  exact ⟨sr, by rw [chunkSlot_set]; exact h⟩

theorem chunk_split (c : Dev nD) (f : Buf (Elt F) ((c : Thread nD τ).loc cc0_scratch2)) :
    ((c : Thread nD τ).loc cc0_scratch2 ↦{fullShare} f : sProp 𝕄)
      = bigSep Finset.univ fun sr : Fin 3 × Fin 4 =>
          ((chunkSlot sr.1 sr.2).view.loc (c : Thread nD τ) ↦[(chunkSlot sr.1 sr.2).view.set]{fullShare} f) :=
  split_of_cover (ℓ := (c : Thread nD τ).loc cc0_scratch2) (fun sr : Fin 3 × Fin 4 => (chunkSlot sr.1 sr.2).view.set)
    (fun _ _ h => chunkSlot_disjoint h) chunkSlot_cover f

set_option quotPrecheck false in
local notation "CS[" c ", " s ", " r ", " f "]" =>
  (pointsTo ((chunkSlot s r).view.loc (c : Thread nD τ)) (chunkSlot s r).view.set fullShare f : sProp 𝕄)

theorem chunk_split12 (c : Dev nD) (f : Buf (Elt F) ((c : Thread nD τ).loc cc0_scratch2)) :
    ((c : Thread nD τ).loc cc0_scratch2 ↦{fullShare} f : sProp 𝕄)
      = iprop((CS[c, 0, 0, f] ∗ CS[c, 0, 1, f] ∗ CS[c, 0, 2, f] ∗ CS[c, 0, 3, f])
          ∗ (CS[c, 1, 0, f] ∗ CS[c, 1, 1, f] ∗ CS[c, 1, 2, f] ∗ CS[c, 1, 3, f])
          ∗ (CS[c, 2, 0, f] ∗ CS[c, 2, 1, f] ∗ CS[c, 2, 2, f] ∗ CS[c, 2, 3, f])) :=
  (chunk_split c f).trans (bigSep_fin3x4 _)

theorem recvSlot_set_access (src r : Fin 4) :
    (recvSlot src r).view.set = ((Memref.whole cc0_scratch3 : Memref sig .tc .vmem S4x1024x512 .bf16).access (recvRect src r)).set :=
  View.set_reshape _ _

end Slots

end Cert.KernelIdeal.A2A
end
-- ==== Proof.BodyGlue.lean ====
import proofs.«900531_g7700000000000532_dist_gemm_a2a_m4096_k4096_n2048_f32_gelu_v7x_i4_1_alg».proof.Proof.Data
import proofs.«900531_g7700000000000532_dist_gemm_a2a_m4096_k4096_n2048_f32_gelu_v7x_i4_1_alg».proof.Proof.Ghost
import proofs.«900531_g7700000000000532_dist_gemm_a2a_m4096_k4096_n2048_f32_gelu_v7x_i4_1_alg».proof.Proof.Slots
import proofs.«900531_g7700000000000532_dist_gemm_a2a_m4096_k4096_n2048_f32_gelu_v7x_i4_1_alg».proof.Proof.Gen.KernelIdeal
import proofs.«900531_g7700000000000532_dist_gemm_a2a_m4096_k4096_n2048_f32_gelu_v7x_i4_1_alg».proof.Proof.Gen.KernelIdeal.Skeleton
import proofs.«900531_g7700000000000532_dist_gemm_a2a_m4096_k4096_n2048_f32_gelu_v7x_i4_1_alg».proof.Proof.Gen.KernelIdeal.Launch
import proofs.«900531_g7700000000000532_dist_gemm_a2a_m4096_k4096_n2048_f32_gelu_v7x_i4_1_alg».proof.Proof.Gen.KernelIdeal.Points
import Idealize.ShloMosaic.Lib.Pipeline.Launch
import Idealize.ShloMosaic.Lib.Pipeline.Kit
import Idealize.ShloMosaic.Lib.Transfers
import Idealize.ShloMosaic.Lib.Tactic

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

def RecvOnly (O : CellTallies nD τ sig Unit) : Prop :=
  ∀ (g : GSem nD τ sig) (u : Unit), 0 < O g u → g.1.2 = .tc ∧ ∃ src r, roleOf g.2 = .recv src r

theorem recvOnly_tally (d : Dev nD) (src r : Fin 4) (n : ℕ) : RecvOnly (tallyAt (recvCell d src r) () n) := fun g u h => by
  obtain ⟨rfl, -⟩ := Pipeline.tallyAt_pos h
  exact ⟨rfl, src, r, role_recv src r⟩

theorem RecvOnly.add {A B : CellTallies nD τ sig Unit} (hA : RecvOnly A) (hB : RecvOnly B) : RecvOnly (A + B) := fun g u h => by
  have h' : 0 < A g u + B g u := h
  by_cases ha : 0 < A g u
  · exact hA g u ha
  · exact hB g u (by omega)

theorem lv_local (c : Dev nD) (q : DmaSem sig) (hq : q.val < 9) : lv ((c : Thread nD τ), .dma q) () = 0 := by
  have h1 : ¬ (9 ≤ q.val ∧ q.val < 21) := by omega
  have h2 : ¬ (21 ≤ q.val) := by omega
  simp only [lv, roleOf, dif_neg h1, dif_neg h2]

theorem mayWait_local (c : Dev nD) (q : DmaSem sig) (hq : q.val < 9) (S : CellTallies nD τ sig Unit) (hS : S ≤ O₀ c) :
    (levAts L lv : sProp 𝕄) ⊢ MayWait (c : Thread nD τ) (.dma q) () S :=
  mayWait_low c (.dma q) (lv_local c q hq) S (fun g u h => Nat.lt_of_lt_of_le h (Finsupp.le_def.mp (hS g) u))

theorem mayWait_bar (c : Dev nD) (S : CellTallies nD τ sig Unit) (hS : RecvOnly S) :
    (levAts L lv : sProp 𝕄) ⊢ MayWait (c : Thread nD τ) (.reg barS) () S :=
  MayOwe.of_cut (L := L) (lev := lv) 1 (fun p hp => by rw [Finset.mem_singleton.mp hp, L_tc]; exact Finset.mem_singleton_self _)
    (fun g u hg => by
      have := (hS g u hg).1
      obtain ⟨⟨d, k⟩, sm'⟩ := g
      cases this
      exact Finset.mem_singleton_self _)
    (fun p hp => by rw [Finset.mem_singleton.mp hp]; exact Nat.le_of_eq (lv_bar c ()))
    (fun g u hg => by
      obtain ⟨src, r, h⟩ := (hS g u hg).2
      simp only [lv, h]; decide)

theorem le_O₀_of (c : Dev nD) {S : CellTallies nD τ sig Unit} (h : ∀ g u, S g u ≤ O₀ c g u) : S ≤ O₀ c :=
  fun g => Finsupp.le_def.mpr (h g)

section Ledger
variable (c : Dev nD) (q : DmaSem sig) (hq : q.val < 9)

theorem offOf_zero : offOf 0 = 2 := rfl
theorem offOf_one : offOf 1 = 1 := rfl
theorem offOf_two : offOf 2 = 3 := rfl

include hq in
theorem mw_local_0 : (levAts L lv : sProp 𝕄) ⊢ MayWait (c : Thread nD τ) (.dma q) () (tallyAt (recvCell (peer c 3) c 0) () N + tallyAt (recvCell (peer c 3) c 1) () N + tallyAt (recvCell (peer c 3) c 2) () N + tallyAt (recvCell (peer c 3) c 3) () N + tallyAt (recvCell (peer c 1) c 0) () N + tallyAt (recvCell (peer c 1) c 1) () N + tallyAt (recvCell (peer c 1) c 2) () N + tallyAt (recvCell (peer c 1) c 3) () N + tallyAt (recvCell (peer c 2) c 0) () N + tallyAt (recvCell (peer c 2) c 1) () N + tallyAt (recvCell (peer c 2) c 2) () N + tallyAt (recvCell (peer c 2) c 3) () N) :=
  mayWait_local c q hq _ (le_O₀_of c fun g u => by
    unfold O₀ owedStep owedBar
    simp only [offOf_zero, offOf_one, offOf_two, Pi.add_apply, Finsupp.add_apply, Pi.zero_apply, Finsupp.zero_apply]
    omega)
include hq in
theorem mw_local_1 : (levAts L lv : sProp 𝕄) ⊢ MayWait (c : Thread nD τ) (.dma q) () (tallyAt (recvCell (peer c 3) c 0) () N + tallyAt (recvCell (peer c 3) c 1) () N + tallyAt (recvCell (peer c 3) c 2) () N + tallyAt (recvCell (peer c 3) c 3) () N + tallyAt (recvCell (peer c 1) c 0) () N + tallyAt (recvCell (peer c 1) c 1) () N + tallyAt (recvCell (peer c 1) c 2) () N + tallyAt (recvCell (peer c 1) c 3) () N + tallyAt (recvCell (peer c 2) c 1) () N + tallyAt (recvCell (peer c 2) c 2) () N + tallyAt (recvCell (peer c 2) c 3) () N) :=
  mayWait_local c q hq _ (le_O₀_of c fun g u => by
    unfold O₀ owedStep owedBar
    simp only [offOf_zero, offOf_one, offOf_two, Pi.add_apply, Finsupp.add_apply, Pi.zero_apply, Finsupp.zero_apply]
    omega)
include hq in
theorem mw_local_2 : (levAts L lv : sProp 𝕄) ⊢ MayWait (c : Thread nD τ) (.dma q) () (tallyAt (recvCell (peer c 3) c 0) () N + tallyAt (recvCell (peer c 3) c 1) () N + tallyAt (recvCell (peer c 3) c 2) () N + tallyAt (recvCell (peer c 3) c 3) () N + tallyAt (recvCell (peer c 1) c 0) () N + tallyAt (recvCell (peer c 1) c 1) () N + tallyAt (recvCell (peer c 1) c 2) () N + tallyAt (recvCell (peer c 1) c 3) () N + tallyAt (recvCell (peer c 2) c 2) () N + tallyAt (recvCell (peer c 2) c 3) () N) :=
  mayWait_local c q hq _ (le_O₀_of c fun g u => by
    unfold O₀ owedStep owedBar
    simp only [offOf_zero, offOf_one, offOf_two, Pi.add_apply, Finsupp.add_apply, Pi.zero_apply, Finsupp.zero_apply]
    omega)
include hq in
theorem mw_local_3 : (levAts L lv : sProp 𝕄) ⊢ MayWait (c : Thread nD τ) (.dma q) () (tallyAt (recvCell (peer c 3) c 0) () N + tallyAt (recvCell (peer c 3) c 1) () N + tallyAt (recvCell (peer c 3) c 2) () N + tallyAt (recvCell (peer c 3) c 3) () N + tallyAt (recvCell (peer c 1) c 0) () N + tallyAt (recvCell (peer c 1) c 1) () N + tallyAt (recvCell (peer c 1) c 2) () N + tallyAt (recvCell (peer c 1) c 3) () N + tallyAt (recvCell (peer c 2) c 3) () N) :=
  mayWait_local c q hq _ (le_O₀_of c fun g u => by
    unfold O₀ owedStep owedBar
    simp only [offOf_zero, offOf_one, offOf_two, Pi.add_apply, Finsupp.add_apply, Pi.zero_apply, Finsupp.zero_apply]
    omega)
include hq in
theorem mw_local_4 : (levAts L lv : sProp 𝕄) ⊢ MayWait (c : Thread nD τ) (.dma q) () (tallyAt (recvCell (peer c 3) c 0) () N + tallyAt (recvCell (peer c 3) c 1) () N + tallyAt (recvCell (peer c 3) c 2) () N + tallyAt (recvCell (peer c 3) c 3) () N + tallyAt (recvCell (peer c 1) c 0) () N + tallyAt (recvCell (peer c 1) c 1) () N + tallyAt (recvCell (peer c 1) c 2) () N + tallyAt (recvCell (peer c 1) c 3) () N) :=
  mayWait_local c q hq _ (le_O₀_of c fun g u => by
    unfold O₀ owedStep owedBar
    simp only [offOf_zero, offOf_one, offOf_two, Pi.add_apply, Finsupp.add_apply, Pi.zero_apply, Finsupp.zero_apply]
    omega)
include hq in
theorem mw_local_5 : (levAts L lv : sProp 𝕄) ⊢ MayWait (c : Thread nD τ) (.dma q) () (tallyAt (recvCell (peer c 3) c 0) () N + tallyAt (recvCell (peer c 3) c 1) () N + tallyAt (recvCell (peer c 3) c 2) () N + tallyAt (recvCell (peer c 3) c 3) () N + tallyAt (recvCell (peer c 1) c 1) () N + tallyAt (recvCell (peer c 1) c 2) () N + tallyAt (recvCell (peer c 1) c 3) () N) :=
  mayWait_local c q hq _ (le_O₀_of c fun g u => by
    unfold O₀ owedStep owedBar
    simp only [offOf_zero, offOf_one, offOf_two, Pi.add_apply, Finsupp.add_apply, Pi.zero_apply, Finsupp.zero_apply]
    omega)
include hq in
theorem mw_local_6 : (levAts L lv : sProp 𝕄) ⊢ MayWait (c : Thread nD τ) (.dma q) () (tallyAt (recvCell (peer c 3) c 0) () N + tallyAt (recvCell (peer c 3) c 1) () N + tallyAt (recvCell (peer c 3) c 2) () N + tallyAt (recvCell (peer c 3) c 3) () N + tallyAt (recvCell (peer c 1) c 2) () N + tallyAt (recvCell (peer c 1) c 3) () N) :=
  mayWait_local c q hq _ (le_O₀_of c fun g u => by
    unfold O₀ owedStep owedBar
    simp only [offOf_zero, offOf_one, offOf_two, Pi.add_apply, Finsupp.add_apply, Pi.zero_apply, Finsupp.zero_apply]
    omega)
include hq in
theorem mw_local_7 : (levAts L lv : sProp 𝕄) ⊢ MayWait (c : Thread nD τ) (.dma q) () (tallyAt (recvCell (peer c 3) c 0) () N + tallyAt (recvCell (peer c 3) c 1) () N + tallyAt (recvCell (peer c 3) c 2) () N + tallyAt (recvCell (peer c 3) c 3) () N + tallyAt (recvCell (peer c 1) c 3) () N) :=
  mayWait_local c q hq _ (le_O₀_of c fun g u => by
    unfold O₀ owedStep owedBar
    simp only [offOf_zero, offOf_one, offOf_two, Pi.add_apply, Finsupp.add_apply, Pi.zero_apply, Finsupp.zero_apply]
    omega)
include hq in
theorem mw_local_8 : (levAts L lv : sProp 𝕄) ⊢ MayWait (c : Thread nD τ) (.dma q) () (tallyAt (recvCell (peer c 3) c 0) () N + tallyAt (recvCell (peer c 3) c 1) () N + tallyAt (recvCell (peer c 3) c 2) () N + tallyAt (recvCell (peer c 3) c 3) () N) :=
  mayWait_local c q hq _ (le_O₀_of c fun g u => by
    unfold O₀ owedStep owedBar
    simp only [offOf_zero, offOf_one, offOf_two, Pi.add_apply, Finsupp.add_apply, Pi.zero_apply, Finsupp.zero_apply]
    omega)
include hq in
theorem mw_local_9 : (levAts L lv : sProp 𝕄) ⊢ MayWait (c : Thread nD τ) (.dma q) () (tallyAt (recvCell (peer c 3) c 1) () N + tallyAt (recvCell (peer c 3) c 2) () N + tallyAt (recvCell (peer c 3) c 3) () N) :=
  mayWait_local c q hq _ (le_O₀_of c fun g u => by
    unfold O₀ owedStep owedBar
    simp only [offOf_zero, offOf_one, offOf_two, Pi.add_apply, Finsupp.add_apply, Pi.zero_apply, Finsupp.zero_apply]
    omega)
include hq in
theorem mw_local_10 : (levAts L lv : sProp 𝕄) ⊢ MayWait (c : Thread nD τ) (.dma q) () (tallyAt (recvCell (peer c 3) c 2) () N + tallyAt (recvCell (peer c 3) c 3) () N) :=
  mayWait_local c q hq _ (le_O₀_of c fun g u => by
    unfold O₀ owedStep owedBar
    simp only [offOf_zero, offOf_one, offOf_two, Pi.add_apply, Finsupp.add_apply, Pi.zero_apply, Finsupp.zero_apply]
    omega)
include hq in
theorem mw_local_11 : (levAts L lv : sProp 𝕄) ⊢ MayWait (c : Thread nD τ) (.dma q) () (tallyAt (recvCell (peer c 3) c 3) () N) :=
  mayWait_local c q hq _ (le_O₀_of c fun g u => by
    unfold O₀ owedStep owedBar
    simp only [offOf_zero, offOf_one, offOf_two, Pi.add_apply, Finsupp.add_apply, Pi.zero_apply, Finsupp.zero_apply]
    omega)
include hq in
theorem mw_local_12 : (levAts L lv : sProp 𝕄) ⊢ MayWait (c : Thread nD τ) (.dma q) () (0) :=
  mayWait_local c q hq _ (le_O₀_of c fun g u => by
    unfold O₀ owedStep owedBar
    simp only [offOf_zero, offOf_one, offOf_two, Pi.add_apply, Finsupp.add_apply, Pi.zero_apply, Finsupp.zero_apply]
    omega)

theorem mw_bar : (levAts L lv : sProp 𝕄) ⊢ MayWait (c : Thread nD τ) (.reg barS) () (tallyAt (recvCell (peer c 3) c 0) () N + tallyAt (recvCell (peer c 3) c 1) () N + tallyAt (recvCell (peer c 3) c 2) () N + tallyAt (recvCell (peer c 3) c 3) () N + tallyAt (recvCell (peer c 1) c 0) () N + tallyAt (recvCell (peer c 1) c 1) () N + tallyAt (recvCell (peer c 1) c 2) () N + tallyAt (recvCell (peer c 1) c 3) () N + tallyAt (recvCell (peer c 2) c 0) () N + tallyAt (recvCell (peer c 2) c 1) () N + tallyAt (recvCell (peer c 2) c 2) () N + tallyAt (recvCell (peer c 2) c 3) () N) :=
  mayWait_bar c _ (by repeat (first | exact recvOnly_tally _ _ _ _ | apply RecvOnly.add))

end Ledger

variable (RF : (c : Dev nD) → Buf (Elt F) ((c : Thread nD τ).loc cc0_scratch3))
variable (CF : (c : Dev nD) → Buf (Elt F) ((c : Thread nD τ).loc cc0_scratch2))

def Kx (K : Dev nD × CK → ℕ) : GSem nD τ sig → ℕ := Function.extend kcell K 0

theorem Kx_kcell (K : Dev nD × CK → ℕ) (ck : Dev nD × CK) : Kx K (kcell ck) = K ck :=
  kcell_injective.extend_apply K 0 ck

theorem kcell_bar (d : Dev nD) : kcell (d, ckBar) = barCell d := rfl
theorem kcell_send (d : Dev nD) (s : Fin 3) (r : Fin 4) : kcell (d, ckSend s r) = sendCell d s r := by
  show ((d : Thread nD τ), csem (ckSend s r)) = _; rw [csem_send]
theorem kcell_recv (d : Dev nD) (src r : Fin 4) : kcell (d, ckRecv src r) = recvCell d src r := by
  show ((d : Thread nD τ), csem (ckRecv src r)) = _; rw [csem_recv]

theorem inv_of_records (K : Dev nD × CK → ℕ) (ck : Dev nD × CK) :
    records (F := F) RF CF K ⊢ cellInv ER (a2aRd RF CF) (Kx K (kcell ck)) (kcell ck) := by
  rw [Kx_kcell]; unfold records
  have h1 : (bigSep Finset.univ fun ck : Dev nD × CK => (cellInv ER (a2aRd RF CF) (K ck) (kcell ck) : sProp 𝕄))
      ⊢ cellInv ER (a2aRd RF CF) (K ck) (kcell ck) := bigSep_elim (Finset.mem_univ ck)
  iintro ⟨H, -⟩
  iapply h1; iexact H

theorem reached_of_records (K : Dev nD × CK → ℕ) (ck : Dev nD × CK) :
    records (F := F) RF CF K ⊢ reached ER (kcell ck) 0 := by
  unfold records
  have h1 : (bigSep Finset.univ fun ck : Dev nD × CK => (reached ER (kcell ck) 0 : sProp 𝕄)) ⊢ reached ER (kcell ck) 0 :=
    bigSep_elim (Finset.mem_univ ck)
  iintro ⟨-, H⟩
  iapply h1; iexact H

theorem inv_bar (K : Dev nD × CK → ℕ) (d : Dev nD) :
    records (F := F) RF CF K ⊢ cellInv ER (a2aRd RF CF) (Kx K (barCell d)) (barCell d) := inv_of_records RF CF K (d, ckBar)
theorem inv_send (K : Dev nD × CK → ℕ) (d : Dev nD) (s : Fin 3) (r : Fin 4) :
    records (F := F) RF CF K ⊢ cellInv ER (a2aRd RF CF) (Kx K (sendCell d s r)) (sendCell d s r) := by
  rw [← kcell_send]; exact inv_of_records RF CF K (d, ckSend s r)
theorem inv_recv (K : Dev nD × CK → ℕ) (d : Dev nD) (src r : Fin 4) :
    records (F := F) RF CF K ⊢ cellInv ER (a2aRd RF CF) (Kx K (recvCell d src r)) (recvCell d src r) := by
  rw [← kcell_recv]; exact inv_of_records RF CF K (d, ckRecv src r)
theorem reached_bar (K : Dev nD × CK → ℕ) (d : Dev nD) : records (F := F) RF CF K ⊢ reached ER (barCell d) 0 :=
  reached_of_records RF CF K (d, ckBar)
theorem reached_send (K : Dev nD × CK → ℕ) (d : Dev nD) (s : Fin 3) (r : Fin 4) : records (F := F) RF CF K ⊢ reached ER (sendCell d s r) 0 := by
  rw [← kcell_send]; exact reached_of_records RF CF K (d, ckSend s r)
theorem reached_recv (K : Dev nD × CK → ℕ) (d : Dev nD) (src r : Fin 4) : records (F := F) RF CF K ⊢ reached ER (recvCell d src r) 0 := by
  rw [← kcell_recv]; exact reached_of_records RF CF K (d, ckRecv src r)

omit [FloatOps F] in
theorem bigSep_take {I : Type} [Fintype I] [DecidableEq I] (l : List I) (hl : l.Nodup) (Φ : I → sProp 𝕄) :
    bigSep Finset.univ Φ ⊢ bigSepL l Φ := by
  rw [← bigSep_eq_bigSepL l hl Φ, bigSep_sdiff_split (Finset.subset_univ l.toFinset)]
  exact (sep_mono_right affine).trans Laws.sep_emp.1

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

abbrev xS (r : Fin 4) : DmaSem sig := ⟨1 + r.val, by have := r.isLt; show _ < 37; omega⟩
abbrev wS (s h : Fin 2) : DmaSem sig := ⟨5 + 2 * s.val + h.val, by have := s.isLt; have := h.isLt; show _ < 37; omega⟩

-- Everything the body starts from, as one separating conjunction.
def flatPre (c : Dev nD) (W : Waits sig Unit) (K : GSem nD τ sig → ℕ)
    (f0 : Bf (F := F) c (Memref.whole main_arg0)) (f1 : Bf (F := F) c (Memref.whole main_arg1)) (f2 : Bf (F := F) c (Memref.whole cc0_stg0_0))
    (f3 : Bf (F := F) c (Memref.whole cc0_scratch0)) (f4 : Bf (F := F) c (Memref.whole cc0_scratch1)) (f5 : Bf (F := F) c (Memref.whole cc0_scratch2))
    (f6 : (c : Dev nD) → Buf (Elt F) ((c : Thread nD τ).loc cc0_scratch3)) : sProp 𝕄 :=
  iprop(pt c (Memref.whole main_arg0) f0
        ∗ pt c (Memref.whole main_arg1) f1
        ∗ pt c (Memref.whole cc0_stg0_0) f2
        ∗ pt c (Memref.whole cc0_scratch0) f3
        ∗ pt c (Memref.whole cc0_scratch1) f4
        ∗ pt c (Memref.whole cc0_scratch2) f5
        ∗ ((recvSlot c 0).view.loc (c : Thread nD τ) ↦[(recvSlot c 0).view.set]{fullShare} RFs f6 c c 0)
        ∗ ((recvSlot c 1).view.loc (c : Thread nD τ) ↦[(recvSlot c 1).view.set]{fullShare} RFs f6 c c 1)
        ∗ ((recvSlot c 2).view.loc (c : Thread nD τ) ↦[(recvSlot c 2).view.set]{fullShare} RFs f6 c c 2)
        ∗ ((recvSlot c 3).view.loc (c : Thread nD τ) ↦[(recvSlot c 3).view.set]{fullShare} RFs f6 c c 3)
        ∗ cellInv ER (a2aRd RF CF) (K (recvCell c c 0)) (recvCell c c 0)
        ∗ atPos ER (recvCell c c 0) 0 ∅ 0
        ∗ cellInv ER (a2aRd RF CF) (K (recvCell c c 1)) (recvCell c c 1)
        ∗ atPos ER (recvCell c c 1) 0 ∅ 0
        ∗ cellInv ER (a2aRd RF CF) (K (recvCell c c 2)) (recvCell c c 2)
        ∗ atPos ER (recvCell c c 2) 0 ∅ 0
        ∗ cellInv ER (a2aRd RF CF) (K (recvCell c c 3)) (recvCell c c 3)
        ∗ atPos ER (recvCell c c 3) 0 ∅ 0
        ∗ ((recvSlot (peer c 1) 0).view.loc (c : Thread nD τ) ↦[(recvSlot (peer c 1) 0).view.set]{fullShare} RFs f6 c (peer c 1) 0)
        ∗ ((recvSlot (peer c 1) 1).view.loc (c : Thread nD τ) ↦[(recvSlot (peer c 1) 1).view.set]{fullShare} RFs f6 c (peer c 1) 1)
        ∗ ((recvSlot (peer c 1) 2).view.loc (c : Thread nD τ) ↦[(recvSlot (peer c 1) 2).view.set]{fullShare} RFs f6 c (peer c 1) 2)
        ∗ ((recvSlot (peer c 1) 3).view.loc (c : Thread nD τ) ↦[(recvSlot (peer c 1) 3).view.set]{fullShare} RFs f6 c (peer c 1) 3)
        ∗ ((recvSlot (peer c 2) 0).view.loc (c : Thread nD τ) ↦[(recvSlot (peer c 2) 0).view.set]{fullShare} RFs f6 c (peer c 2) 0)
        ∗ ((recvSlot (peer c 2) 1).view.loc (c : Thread nD τ) ↦[(recvSlot (peer c 2) 1).view.set]{fullShare} RFs f6 c (peer c 2) 1)
        ∗ ((recvSlot (peer c 2) 2).view.loc (c : Thread nD τ) ↦[(recvSlot (peer c 2) 2).view.set]{fullShare} RFs f6 c (peer c 2) 2)
        ∗ ((recvSlot (peer c 2) 3).view.loc (c : Thread nD τ) ↦[(recvSlot (peer c 2) 3).view.set]{fullShare} RFs f6 c (peer c 2) 3)
        ∗ ((recvSlot (peer c 3) 0).view.loc (c : Thread nD τ) ↦[(recvSlot (peer c 3) 0).view.set]{fullShare} RFs f6 c (peer c 3) 0)
        ∗ ((recvSlot (peer c 3) 1).view.loc (c : Thread nD τ) ↦[(recvSlot (peer c 3) 1).view.set]{fullShare} RFs f6 c (peer c 3) 1)
        ∗ ((recvSlot (peer c 3) 2).view.loc (c : Thread nD τ) ↦[(recvSlot (peer c 3) 2).view.set]{fullShare} RFs f6 c (peer c 3) 2)
        ∗ ((recvSlot (peer c 3) 3).view.loc (c : Thread nD τ) ↦[(recvSlot (peer c 3) 3).view.set]{fullShare} RFs f6 c (peer c 3) 3)
        ∗ semVal ((c : Thread nD τ), .dma (xS 0)) 0
        ∗ semVal ((c : Thread nD τ), .dma (xS 1)) 0
        ∗ semVal ((c : Thread nD τ), .dma (xS 2)) 0
        ∗ semVal ((c : Thread nD τ), .dma (xS 3)) 0
        ∗ semVal ((c : Thread nD τ), .dma (wS 0 0)) 0
        ∗ semVal ((c : Thread nD τ), .dma (wS 0 1)) 0
        ∗ semVal ((c : Thread nD τ), .dma (wS 1 0)) 0
        ∗ semVal ((c : Thread nD τ), .dma (wS 1 1)) 0
        ∗ owes (c : Thread nD τ) (O₀ c) W
        ∗ levAts L lv
        ∗ cellInv ER (a2aRd RF CF) (K (barCell c)) (barCell c)
        ∗ atPos ER (barCell c) 0 ∅ 0
        ∗ cred (tallyAt (barCell c) () 3)
        ∗ cellInv ER (a2aRd RF CF) (K (barCell (peer c 1))) (barCell (peer c 1))
        ∗ dutyTok ER (barCell (peer c 1)) 0 c
        ∗ reached ER (barCell (peer c 1)) 0
        ∗ cellInv ER (a2aRd RF CF) (K (barCell (peer c 2))) (barCell (peer c 2))
        ∗ dutyTok ER (barCell (peer c 2)) 0 c
        ∗ reached ER (barCell (peer c 2)) 0
        ∗ cellInv ER (a2aRd RF CF) (K (barCell (peer c 3))) (barCell (peer c 3))
        ∗ dutyTok ER (barCell (peer c 3)) 0 c
        ∗ reached ER (barCell (peer c 3)) 0
        ∗ reached ER (recvCell c (peer c 1) 0) 0
        ∗ reached ER (recvCell c (peer c 1) 1) 0
        ∗ reached ER (recvCell c (peer c 1) 2) 0
        ∗ reached ER (recvCell c (peer c 1) 3) 0
        ∗ reached ER (recvCell c (peer c 2) 0) 0
        ∗ reached ER (recvCell c (peer c 2) 1) 0
        ∗ reached ER (recvCell c (peer c 2) 2) 0
        ∗ reached ER (recvCell c (peer c 2) 3) 0
        ∗ reached ER (recvCell c (peer c 3) 0) 0
        ∗ reached ER (recvCell c (peer c 3) 1) 0
        ∗ reached ER (recvCell c (peer c 3) 2) 0
        ∗ reached ER (recvCell c (peer c 3) 3) 0
        ∗ cellInv ER (a2aRd RF CF) (K (sendCell c 0 0)) (sendCell c 0 0)
        ∗ dutyTok ER (sendCell c 0 0) 0 c
        ∗ reached ER (sendCell c 0 0) 0
        ∗ atPos ER (sendCell c 0 0) 0 ∅ 0
        ∗ cellInv ER (a2aRd RF CF) (K (recvCell (peer c 2) c 0)) (recvCell (peer c 2) c 0)
        ∗ dutyTok ER (recvCell (peer c 2) c 0) 0 c
        ∗ cellInv ER (a2aRd RF CF) (K (sendCell c 0 1)) (sendCell c 0 1)
        ∗ dutyTok ER (sendCell c 0 1) 0 c
        ∗ reached ER (sendCell c 0 1) 0
        ∗ atPos ER (sendCell c 0 1) 0 ∅ 0
        ∗ cellInv ER (a2aRd RF CF) (K (recvCell (peer c 2) c 1)) (recvCell (peer c 2) c 1)
        ∗ dutyTok ER (recvCell (peer c 2) c 1) 0 c
        ∗ cellInv ER (a2aRd RF CF) (K (sendCell c 0 2)) (sendCell c 0 2)
        ∗ dutyTok ER (sendCell c 0 2) 0 c
        ∗ reached ER (sendCell c 0 2) 0
        ∗ atPos ER (sendCell c 0 2) 0 ∅ 0
        ∗ cellInv ER (a2aRd RF CF) (K (recvCell (peer c 2) c 2)) (recvCell (peer c 2) c 2)
        ∗ dutyTok ER (recvCell (peer c 2) c 2) 0 c
        ∗ cellInv ER (a2aRd RF CF) (K (sendCell c 0 3)) (sendCell c 0 3)
        ∗ dutyTok ER (sendCell c 0 3) 0 c
        ∗ reached ER (sendCell c 0 3) 0
        ∗ atPos ER (sendCell c 0 3) 0 ∅ 0
        ∗ cellInv ER (a2aRd RF CF) (K (recvCell (peer c 2) c 3)) (recvCell (peer c 2) c 3)
        ∗ dutyTok ER (recvCell (peer c 2) c 3) 0 c
        ∗ cellInv ER (a2aRd RF CF) (K (sendCell c 1 0)) (sendCell c 1 0)
        ∗ dutyTok ER (sendCell c 1 0) 0 c
        ∗ reached ER (sendCell c 1 0) 0
        ∗ atPos ER (sendCell c 1 0) 0 ∅ 0
        ∗ cellInv ER (a2aRd RF CF) (K (recvCell (peer c 1) c 0)) (recvCell (peer c 1) c 0)
        ∗ dutyTok ER (recvCell (peer c 1) c 0) 0 c
        ∗ cellInv ER (a2aRd RF CF) (K (sendCell c 1 1)) (sendCell c 1 1)
        ∗ dutyTok ER (sendCell c 1 1) 0 c
        ∗ reached ER (sendCell c 1 1) 0
        ∗ atPos ER (sendCell c 1 1) 0 ∅ 0
        ∗ cellInv ER (a2aRd RF CF) (K (recvCell (peer c 1) c 1)) (recvCell (peer c 1) c 1)
        ∗ dutyTok ER (recvCell (peer c 1) c 1) 0 c
        ∗ cellInv ER (a2aRd RF CF) (K (sendCell c 1 2)) (sendCell c 1 2)
        ∗ dutyTok ER (sendCell c 1 2) 0 c
        ∗ reached ER (sendCell c 1 2) 0
        ∗ atPos ER (sendCell c 1 2) 0 ∅ 0
        ∗ cellInv ER (a2aRd RF CF) (K (recvCell (peer c 1) c 2)) (recvCell (peer c 1) c 2)
        ∗ dutyTok ER (recvCell (peer c 1) c 2) 0 c
        ∗ cellInv ER (a2aRd RF CF) (K (sendCell c 1 3)) (sendCell c 1 3)
        ∗ dutyTok ER (sendCell c 1 3) 0 c
        ∗ reached ER (sendCell c 1 3) 0
        ∗ atPos ER (sendCell c 1 3) 0 ∅ 0
        ∗ cellInv ER (a2aRd RF CF) (K (recvCell (peer c 1) c 3)) (recvCell (peer c 1) c 3)
        ∗ dutyTok ER (recvCell (peer c 1) c 3) 0 c
        ∗ cellInv ER (a2aRd RF CF) (K (sendCell c 2 0)) (sendCell c 2 0)
        ∗ dutyTok ER (sendCell c 2 0) 0 c
        ∗ reached ER (sendCell c 2 0) 0
        ∗ atPos ER (sendCell c 2 0) 0 ∅ 0
        ∗ cellInv ER (a2aRd RF CF) (K (recvCell (peer c 3) c 0)) (recvCell (peer c 3) c 0)
        ∗ dutyTok ER (recvCell (peer c 3) c 0) 0 c
        ∗ cellInv ER (a2aRd RF CF) (K (sendCell c 2 1)) (sendCell c 2 1)
        ∗ dutyTok ER (sendCell c 2 1) 0 c
        ∗ reached ER (sendCell c 2 1) 0
        ∗ atPos ER (sendCell c 2 1) 0 ∅ 0
        ∗ cellInv ER (a2aRd RF CF) (K (recvCell (peer c 3) c 1)) (recvCell (peer c 3) c 1)
        ∗ dutyTok ER (recvCell (peer c 3) c 1) 0 c
        ∗ cellInv ER (a2aRd RF CF) (K (sendCell c 2 2)) (sendCell c 2 2)
        ∗ dutyTok ER (sendCell c 2 2) 0 c
        ∗ reached ER (sendCell c 2 2) 0
        ∗ atPos ER (sendCell c 2 2) 0 ∅ 0
        ∗ cellInv ER (a2aRd RF CF) (K (recvCell (peer c 3) c 2)) (recvCell (peer c 3) c 2)
        ∗ dutyTok ER (recvCell (peer c 3) c 2) 0 c
        ∗ cellInv ER (a2aRd RF CF) (K (sendCell c 2 3)) (sendCell c 2 3)
        ∗ dutyTok ER (sendCell c 2 3) 0 c
        ∗ reached ER (sendCell c 2 3) 0
        ∗ atPos ER (sendCell c 2 3) 0 ∅ 0
        ∗ cellInv ER (a2aRd RF CF) (K (recvCell (peer c 3) c 3)) (recvCell (peer c 3) c 3)
        ∗ dutyTok ER (recvCell (peer c 3) c 3) 0 c
        ∗ cellInv ER (a2aRd RF CF) (K (recvCell c (peer c 1) 0)) (recvCell c (peer c 1) 0)
        ∗ atPos ER (recvCell c (peer c 1) 0) 0 ∅ 0
        ∗ cred (tallyAt (recvCell c (peer c 1) 0) () N)
        ∗ cellInv ER (a2aRd RF CF) (K (recvCell c (peer c 1) 1)) (recvCell c (peer c 1) 1)
        ∗ atPos ER (recvCell c (peer c 1) 1) 0 ∅ 0
        ∗ cred (tallyAt (recvCell c (peer c 1) 1) () N)
        ∗ cellInv ER (a2aRd RF CF) (K (recvCell c (peer c 1) 2)) (recvCell c (peer c 1) 2)
        ∗ atPos ER (recvCell c (peer c 1) 2) 0 ∅ 0
        ∗ cred (tallyAt (recvCell c (peer c 1) 2) () N)
        ∗ cellInv ER (a2aRd RF CF) (K (recvCell c (peer c 1) 3)) (recvCell c (peer c 1) 3)
        ∗ atPos ER (recvCell c (peer c 1) 3) 0 ∅ 0
        ∗ cred (tallyAt (recvCell c (peer c 1) 3) () N)
        ∗ cellInv ER (a2aRd RF CF) (K (recvCell c (peer c 2) 0)) (recvCell c (peer c 2) 0)
        ∗ atPos ER (recvCell c (peer c 2) 0) 0 ∅ 0
        ∗ cred (tallyAt (recvCell c (peer c 2) 0) () N)
        ∗ cellInv ER (a2aRd RF CF) (K (recvCell c (peer c 2) 1)) (recvCell c (peer c 2) 1)
        ∗ atPos ER (recvCell c (peer c 2) 1) 0 ∅ 0
        ∗ cred (tallyAt (recvCell c (peer c 2) 1) () N)
        ∗ cellInv ER (a2aRd RF CF) (K (recvCell c (peer c 2) 2)) (recvCell c (peer c 2) 2)
        ∗ atPos ER (recvCell c (peer c 2) 2) 0 ∅ 0
        ∗ cred (tallyAt (recvCell c (peer c 2) 2) () N)
        ∗ cellInv ER (a2aRd RF CF) (K (recvCell c (peer c 2) 3)) (recvCell c (peer c 2) 3)
        ∗ atPos ER (recvCell c (peer c 2) 3) 0 ∅ 0
        ∗ cred (tallyAt (recvCell c (peer c 2) 3) () N)
        ∗ cellInv ER (a2aRd RF CF) (K (recvCell c (peer c 3) 0)) (recvCell c (peer c 3) 0)
        ∗ atPos ER (recvCell c (peer c 3) 0) 0 ∅ 0
        ∗ cred (tallyAt (recvCell c (peer c 3) 0) () N)
        ∗ cellInv ER (a2aRd RF CF) (K (recvCell c (peer c 3) 1)) (recvCell c (peer c 3) 1)
        ∗ atPos ER (recvCell c (peer c 3) 1) 0 ∅ 0
        ∗ cred (tallyAt (recvCell c (peer c 3) 1) () N)
        ∗ cellInv ER (a2aRd RF CF) (K (recvCell c (peer c 3) 2)) (recvCell c (peer c 3) 2)
        ∗ atPos ER (recvCell c (peer c 3) 2) 0 ∅ 0
        ∗ cred (tallyAt (recvCell c (peer c 3) 2) () N)
        ∗ cellInv ER (a2aRd RF CF) (K (recvCell c (peer c 3) 3)) (recvCell c (peer c 3) 3)
        ∗ atPos ER (recvCell c (peer c 3) 3) 0 ∅ 0
        ∗ cred (tallyAt (recvCell c (peer c 3) 3) () N))

theorem cells_nodup : ∀ c : Dev nD, ([ckBar, ckSend 0 0, ckSend 0 1, ckSend 0 2, ckSend 0 3, ckSend 1 0, ckSend 1 1, ckSend 1 2, ckSend 1 3, ckSend 2 0, ckSend 2 1, ckSend 2 2, ckSend 2 3, ckRecv c 0, ckRecv c 1, ckRecv c 2, ckRecv c 3, ckRecv (peer c 1) 0, ckRecv (peer c 1) 1, ckRecv (peer c 1) 2, ckRecv (peer c 1) 3, ckRecv (peer c 2) 0, ckRecv (peer c 2) 1, ckRecv (peer c 2) 2, ckRecv (peer c 2) 3, ckRecv (peer c 3) 0, ckRecv (peer c 3) 1, ckRecv (peer c 3) 2, ckRecv (peer c 3) 3] : List CK).Nodup := by decide

omit [FloatOps F] in
theorem atPos_cells (c : Dev nD) :
    (bigSep Finset.univ fun k : CK => (atPos ER (kcell (c, k)) 0 ∅ 0 : sProp 𝕄))
      ⊢ iprop(atPos ER (barCell c) 0 ∅ 0
        ∗ atPos ER (sendCell c 0 0) 0 ∅ 0
        ∗ atPos ER (sendCell c 0 1) 0 ∅ 0
        ∗ atPos ER (sendCell c 0 2) 0 ∅ 0
        ∗ atPos ER (sendCell c 0 3) 0 ∅ 0
        ∗ atPos ER (sendCell c 1 0) 0 ∅ 0
        ∗ atPos ER (sendCell c 1 1) 0 ∅ 0
        ∗ atPos ER (sendCell c 1 2) 0 ∅ 0
        ∗ atPos ER (sendCell c 1 3) 0 ∅ 0
        ∗ atPos ER (sendCell c 2 0) 0 ∅ 0
        ∗ atPos ER (sendCell c 2 1) 0 ∅ 0
        ∗ atPos ER (sendCell c 2 2) 0 ∅ 0
        ∗ atPos ER (sendCell c 2 3) 0 ∅ 0
        ∗ atPos ER (recvCell c c 0) 0 ∅ 0
        ∗ atPos ER (recvCell c c 1) 0 ∅ 0
        ∗ atPos ER (recvCell c c 2) 0 ∅ 0
        ∗ atPos ER (recvCell c c 3) 0 ∅ 0
        ∗ atPos ER (recvCell c (peer c 1) 0) 0 ∅ 0
        ∗ atPos ER (recvCell c (peer c 1) 1) 0 ∅ 0
        ∗ atPos ER (recvCell c (peer c 1) 2) 0 ∅ 0
        ∗ atPos ER (recvCell c (peer c 1) 3) 0 ∅ 0
        ∗ atPos ER (recvCell c (peer c 2) 0) 0 ∅ 0
        ∗ atPos ER (recvCell c (peer c 2) 1) 0 ∅ 0
        ∗ atPos ER (recvCell c (peer c 2) 2) 0 ∅ 0
        ∗ atPos ER (recvCell c (peer c 2) 3) 0 ∅ 0
        ∗ atPos ER (recvCell c (peer c 3) 0) 0 ∅ 0
        ∗ atPos ER (recvCell c (peer c 3) 1) 0 ∅ 0
        ∗ atPos ER (recvCell c (peer c 3) 2) 0 ∅ 0
        ∗ atPos ER (recvCell c (peer c 3) 3) 0 ∅ 0) := by
  refine (bigSep_take [ckBar, ckSend 0 0, ckSend 0 1, ckSend 0 2, ckSend 0 3, ckSend 1 0, ckSend 1 1, ckSend 1 2, ckSend 1 3, ckSend 2 0, ckSend 2 1, ckSend 2 2, ckSend 2 3, ckRecv c 0, ckRecv c 1, ckRecv c 2, ckRecv c 3, ckRecv (peer c 1) 0, ckRecv (peer c 1) 1, ckRecv (peer c 1) 2, ckRecv (peer c 1) 3, ckRecv (peer c 2) 0, ckRecv (peer c 2) 1, ckRecv (peer c 2) 2, ckRecv (peer c 2) 3, ckRecv (peer c 3) 0, ckRecv (peer c 3) 1, ckRecv (peer c 3) 2, ckRecv (peer c 3) 3] (cells_nodup c) _).trans (Entails.of_eq ?_)
  rw [← kcell_bar c, ← kcell_send c 0 0, ← kcell_send c 0 1, ← kcell_send c 0 2, ← kcell_send c 0 3, ← kcell_send c 1 0, ← kcell_send c 1 1, ← kcell_send c 1 2, ← kcell_send c 1 3, ← kcell_send c 2 0, ← kcell_send c 2 1, ← kcell_send c 2 2, ← kcell_send c 2 3, ← kcell_recv c c 0, ← kcell_recv c c 1, ← kcell_recv c c 2, ← kcell_recv c c 3, ← kcell_recv c (peer c 1) 0, ← kcell_recv c (peer c 1) 1, ← kcell_recv c (peer c 1) 2, ← kcell_recv c (peer c 1) 3, ← kcell_recv c (peer c 2) 0, ← kcell_recv c (peer c 2) 1, ← kcell_recv c (peer c 2) 2, ← kcell_recv c (peer c 2) 3, ← kcell_recv c (peer c 3) 0, ← kcell_recv c (peer c 3) 1, ← kcell_recv c (peer c 3) 2, ← kcell_recv c (peer c 3) 3]
  rfl

theorem slots_nodup : ∀ c : Dev nD, ([(c, 0), (c, 1), (c, 2), (c, 3), (peer c 1, 0), (peer c 1, 1), (peer c 1, 2), (peer c 1, 3), (peer c 2, 0), (peer c 2, 1), (peer c 2, 2), (peer c 2, 3), (peer c 3, 0), (peer c 3, 1), (peer c 3, 2), (peer c 3, 3)] : List (Fin 4 × Fin 4)).Nodup := by decide

theorem recv_slots (c : Dev nD) (f : Buf (Elt F) ((c : Thread nD τ).loc cc0_scratch3)) :
    ((c : Thread nD τ).loc cc0_scratch3 ↦{fullShare} f : sProp 𝕄)
      ⊢ iprop(((recvSlot c 0).view.loc (c : Thread nD τ) ↦[(recvSlot c 0).view.set]{fullShare} f)
        ∗ ((recvSlot c 1).view.loc (c : Thread nD τ) ↦[(recvSlot c 1).view.set]{fullShare} f)
        ∗ ((recvSlot c 2).view.loc (c : Thread nD τ) ↦[(recvSlot c 2).view.set]{fullShare} f)
        ∗ ((recvSlot c 3).view.loc (c : Thread nD τ) ↦[(recvSlot c 3).view.set]{fullShare} f)
        ∗ ((recvSlot (peer c 1) 0).view.loc (c : Thread nD τ) ↦[(recvSlot (peer c 1) 0).view.set]{fullShare} f)
        ∗ ((recvSlot (peer c 1) 1).view.loc (c : Thread nD τ) ↦[(recvSlot (peer c 1) 1).view.set]{fullShare} f)
        ∗ ((recvSlot (peer c 1) 2).view.loc (c : Thread nD τ) ↦[(recvSlot (peer c 1) 2).view.set]{fullShare} f)
        ∗ ((recvSlot (peer c 1) 3).view.loc (c : Thread nD τ) ↦[(recvSlot (peer c 1) 3).view.set]{fullShare} f)
        ∗ ((recvSlot (peer c 2) 0).view.loc (c : Thread nD τ) ↦[(recvSlot (peer c 2) 0).view.set]{fullShare} f)
        ∗ ((recvSlot (peer c 2) 1).view.loc (c : Thread nD τ) ↦[(recvSlot (peer c 2) 1).view.set]{fullShare} f)
        ∗ ((recvSlot (peer c 2) 2).view.loc (c : Thread nD τ) ↦[(recvSlot (peer c 2) 2).view.set]{fullShare} f)
        ∗ ((recvSlot (peer c 2) 3).view.loc (c : Thread nD τ) ↦[(recvSlot (peer c 2) 3).view.set]{fullShare} f)
        ∗ ((recvSlot (peer c 3) 0).view.loc (c : Thread nD τ) ↦[(recvSlot (peer c 3) 0).view.set]{fullShare} f)
        ∗ ((recvSlot (peer c 3) 1).view.loc (c : Thread nD τ) ↦[(recvSlot (peer c 3) 1).view.set]{fullShare} f)
        ∗ ((recvSlot (peer c 3) 2).view.loc (c : Thread nD τ) ↦[(recvSlot (peer c 3) 2).view.set]{fullShare} f)
        ∗ ((recvSlot (peer c 3) 3).view.loc (c : Thread nD τ) ↦[(recvSlot (peer c 3) 3).view.set]{fullShare} f)) :=
  (Slots.recv_split_fwd c f).trans ((bigSep_take ([(c, 0), (c, 1), (c, 2), (c, 3), (peer c 1, 0), (peer c 1, 1), (peer c 1, 2), (peer c 1, 3), (peer c 2, 0), (peer c 2, 1), (peer c 2, 2), (peer c 2, 3), (peer c 3, 0), (peer c 3, 1), (peer c 3, 2), (peer c 3, 3)] : List (Fin 4 × Fin 4)) (slots_nodup c) _).trans (Entails.of_eq rfl))

omit [FloatOps F] in
theorem locals_cells (c : Dev nD) :
    locals0 (F := F) c ⊢ iprop(semVal ((c : Thread nD τ), .dma (xS 0)) 0
        ∗ semVal ((c : Thread nD τ), .dma (xS 1)) 0
        ∗ semVal ((c : Thread nD τ), .dma (xS 2)) 0
        ∗ semVal ((c : Thread nD τ), .dma (xS 3)) 0
        ∗ semVal ((c : Thread nD τ), .dma (wS 0 0)) 0
        ∗ semVal ((c : Thread nD τ), .dma (wS 0 1)) 0
        ∗ semVal ((c : Thread nD τ), .dma (wS 1 0)) 0
        ∗ semVal ((c : Thread nD τ), .dma (wS 1 1)) 0) := by
  unfold locals0
  rw [bigSep_univ_eq_bigSepL [0, 1, 2, 3, 4, 5, 6, 7] (by decide) (by decide)]
  exact Entails.of_eq rfl

variable (m : (ℓ : Loc nD τ sig) → Buf (Elt F) ℓ)

set_option maxHeartbeats 1600000 in
theorem flat_intro (c : Dev nD) (W : Waits sig Unit) (K0 : Dev nD × CK → ℕ)
    (f2 : Bf (F := F) c (Memref.whole cc0_stg0_0)) (f3 : Bf (F := F) c (Memref.whole cc0_scratch0))
    (f4 : Bf (F := F) c (Memref.whole cc0_scratch1)) (f5 : Bf (F := F) c (Memref.whole cc0_scratch2))
    (f6 : (c : Dev nD) → Buf (Elt F) ((c : Thread nD τ).loc cc0_scratch3)) :
    iprop(records (F := F) RF CF K0 ∗ linear (F := F) c ∗ creds (F := F) c ∗ levAts L lv ∗ locals0 (F := F) c ∗ args m c
        ∗ pt c (Memref.whole cc0_stg0_0) f2 ∗ pt c (Memref.whole cc0_scratch0) f3 ∗ pt c (Memref.whole cc0_scratch1) f4
        ∗ pt c (Memref.whole cc0_scratch2) f5 ∗ ((c : Thread nD τ).loc cc0_scratch3 ↦{fullShare} f6 c)
        ∗ owes (c : Thread nD τ) (O₀ c) W)
      ⊢ flatPre RF CF c W (Kx K0) (m ((c : Thread nD τ).loc main_arg0)) (m ((c : Thread nD τ).loc main_arg1)) f2 f3 f4 f5 f6 := by
  unfold flatPre linear payToks creds args
  rw [Slots.bigSep_fin3, Slots.bigSep_fin3x4, Slots.bigSep_fin3x4, Slots.bigSep_fin3x4]
  iintro ⟨#HR, ⟨Hat, ⟨Htb1, Htb2, Htb3⟩, ⟨⟨Hts00, Hts01, Hts02, Hts03⟩, ⟨Hts10, Hts11, Hts12, Hts13⟩, ⟨Hts20, Hts21, Hts22, Hts23⟩⟩, ⟨⟨Htd00, Htd01, Htd02, Htd03⟩, ⟨Htd10, Htd11, Htd12, Htd13⟩, ⟨Htd20, Htd21, Htd22, Htd23⟩⟩⟩, ⟨Hcb, ⟨⟨Hcr10, Hcr11, Hcr12, Hcr13⟩, ⟨Hcr20, Hcr21, Hcr22, Hcr23⟩, ⟨Hcr30, Hcr31, Hcr32, Hcr33⟩⟩⟩, #Hlev, Hloc, ⟨H0, H1⟩, H2, H3, H4, H5, H6, HO⟩
  ihave Hat' := (atPos_cells (F := F) c) $$ Hat
  icases Hat' with ⟨Hatb, Hats00, Hats01, Hats02, Hats03, Hats10, Hats11, Hats12, Hats13, Hats20, Hats21, Hats22, Hats23, Hatr00, Hatr01, Hatr02, Hatr03, Hatr10, Hatr11, Hatr12, Hatr13, Hatr20, Hatr21, Hatr22, Hatr23, Hatr30, Hatr31, Hatr32, Hatr33⟩
  ihave Hs := (recv_slots c (f6 c)) $$ H6
  icases Hs with ⟨Hown0, Hown1, Hown2, Hown3, Hl10, Hl11, Hl12, Hl13, Hl20, Hl21, Hl22, Hl23, Hl30, Hl31, Hl32, Hl33⟩
  ihave Hl := (locals_cells (F := F) c) $$ Hloc
  icases Hl with ⟨Hx0, Hx1, Hx2, Hx3, Hw00, Hw01, Hw10, Hw11⟩
  isplitl [H0]; · iexact H0
  isplitl [H1]; · iexact H1
  isplitl [H2]; · iexact H2
  isplitl [H3]; · iexact H3
  isplitl [H4]; · iexact H4
  isplitl [H5]; · iexact H5
  isplitl [Hown0]; · iexact Hown0
  isplitl [Hown1]; · iexact Hown1
  isplitl [Hown2]; · iexact Hown2
  isplitl [Hown3]; · iexact Hown3
  isplitr; · iapply (inv_recv RF CF K0 c c 0); iexact HR
  isplitl [Hatr00]; · iexact Hatr00
  isplitr; · iapply (inv_recv RF CF K0 c c 1); iexact HR
  isplitl [Hatr01]; · iexact Hatr01
  isplitr; · iapply (inv_recv RF CF K0 c c 2); iexact HR
  isplitl [Hatr02]; · iexact Hatr02
  isplitr; · iapply (inv_recv RF CF K0 c c 3); iexact HR
  isplitl [Hatr03]; · iexact Hatr03
  isplitl [Hl10]; · iexact Hl10
  isplitl [Hl11]; · iexact Hl11
  isplitl [Hl12]; · iexact Hl12
  isplitl [Hl13]; · iexact Hl13
  isplitl [Hl20]; · iexact Hl20
  isplitl [Hl21]; · iexact Hl21
  isplitl [Hl22]; · iexact Hl22
  isplitl [Hl23]; · iexact Hl23
  isplitl [Hl30]; · iexact Hl30
  isplitl [Hl31]; · iexact Hl31
  isplitl [Hl32]; · iexact Hl32
  isplitl [Hl33]; · iexact Hl33
  isplitl [Hx0]; · iexact Hx0
  isplitl [Hx1]; · iexact Hx1
  isplitl [Hx2]; · iexact Hx2
  isplitl [Hx3]; · iexact Hx3
  isplitl [Hw00]; · iexact Hw00
  isplitl [Hw01]; · iexact Hw01
  isplitl [Hw10]; · iexact Hw10
  isplitl [Hw11]; · iexact Hw11
  isplitl [HO]; · iexact HO
  isplitr; · iexact Hlev
  isplitr; · iapply (inv_bar RF CF K0 c); iexact HR
  isplitl [Hatb]; · iexact Hatb
  isplitl [Hcb]; · iexact Hcb
  isplitr; · iapply (inv_bar RF CF K0 (peer c 1)); iexact HR
  isplitl [Htb1]; · iexact Htb1
  isplitr; · iapply (reached_bar RF CF K0 (peer c 1)); iexact HR
  isplitr; · iapply (inv_bar RF CF K0 (peer c 2)); iexact HR
  isplitl [Htb2]; · iexact Htb2
  isplitr; · iapply (reached_bar RF CF K0 (peer c 2)); iexact HR
  isplitr; · iapply (inv_bar RF CF K0 (peer c 3)); iexact HR
  isplitl [Htb3]; · iexact Htb3
  isplitr; · iapply (reached_bar RF CF K0 (peer c 3)); iexact HR
  isplitr; · iapply (reached_recv RF CF K0 c (peer c 1) 0); iexact HR
  isplitr; · iapply (reached_recv RF CF K0 c (peer c 1) 1); iexact HR
  isplitr; · iapply (reached_recv RF CF K0 c (peer c 1) 2); iexact HR
  isplitr; · iapply (reached_recv RF CF K0 c (peer c 1) 3); iexact HR
  isplitr; · iapply (reached_recv RF CF K0 c (peer c 2) 0); iexact HR
  isplitr; · iapply (reached_recv RF CF K0 c (peer c 2) 1); iexact HR
  isplitr; · iapply (reached_recv RF CF K0 c (peer c 2) 2); iexact HR
  isplitr; · iapply (reached_recv RF CF K0 c (peer c 2) 3); iexact HR
  isplitr; · iapply (reached_recv RF CF K0 c (peer c 3) 0); iexact HR
  isplitr; · iapply (reached_recv RF CF K0 c (peer c 3) 1); iexact HR
  isplitr; · iapply (reached_recv RF CF K0 c (peer c 3) 2); iexact HR
  isplitr; · iapply (reached_recv RF CF K0 c (peer c 3) 3); iexact HR
  isplitr; · iapply (inv_send RF CF K0 c 0 0); iexact HR
  isplitl [Hts00]; · iexact Hts00
  isplitr; · iapply (reached_send RF CF K0 c 0 0); iexact HR
  isplitl [Hats00]; · iexact Hats00
  isplitr; · iapply (inv_recv RF CF K0 (peer c 2) c 0); iexact HR
  isplitl [Htd00]; · iexact Htd00
  isplitr; · iapply (inv_send RF CF K0 c 0 1); iexact HR
  isplitl [Hts01]; · iexact Hts01
  isplitr; · iapply (reached_send RF CF K0 c 0 1); iexact HR
  isplitl [Hats01]; · iexact Hats01
  isplitr; · iapply (inv_recv RF CF K0 (peer c 2) c 1); iexact HR
  isplitl [Htd01]; · iexact Htd01
  isplitr; · iapply (inv_send RF CF K0 c 0 2); iexact HR
  isplitl [Hts02]; · iexact Hts02
  isplitr; · iapply (reached_send RF CF K0 c 0 2); iexact HR
  isplitl [Hats02]; · iexact Hats02
  isplitr; · iapply (inv_recv RF CF K0 (peer c 2) c 2); iexact HR
  isplitl [Htd02]; · iexact Htd02
  isplitr; · iapply (inv_send RF CF K0 c 0 3); iexact HR
  isplitl [Hts03]; · iexact Hts03
  isplitr; · iapply (reached_send RF CF K0 c 0 3); iexact HR
  isplitl [Hats03]; · iexact Hats03
  isplitr; · iapply (inv_recv RF CF K0 (peer c 2) c 3); iexact HR
  isplitl [Htd03]; · iexact Htd03
  isplitr; · iapply (inv_send RF CF K0 c 1 0); iexact HR
  isplitl [Hts10]; · iexact Hts10
  isplitr; · iapply (reached_send RF CF K0 c 1 0); iexact HR
  isplitl [Hats10]; · iexact Hats10
  isplitr; · iapply (inv_recv RF CF K0 (peer c 1) c 0); iexact HR
  isplitl [Htd10]; · iexact Htd10
  isplitr; · iapply (inv_send RF CF K0 c 1 1); iexact HR
  isplitl [Hts11]; · iexact Hts11
  isplitr; · iapply (reached_send RF CF K0 c 1 1); iexact HR
  isplitl [Hats11]; · iexact Hats11
  isplitr; · iapply (inv_recv RF CF K0 (peer c 1) c 1); iexact HR
  isplitl [Htd11]; · iexact Htd11
  isplitr; · iapply (inv_send RF CF K0 c 1 2); iexact HR
  isplitl [Hts12]; · iexact Hts12
  isplitr; · iapply (reached_send RF CF K0 c 1 2); iexact HR
  isplitl [Hats12]; · iexact Hats12
  isplitr; · iapply (inv_recv RF CF K0 (peer c 1) c 2); iexact HR
  isplitl [Htd12]; · iexact Htd12
  isplitr; · iapply (inv_send RF CF K0 c 1 3); iexact HR
  isplitl [Hts13]; · iexact Hts13
  isplitr; · iapply (reached_send RF CF K0 c 1 3); iexact HR
  isplitl [Hats13]; · iexact Hats13
  isplitr; · iapply (inv_recv RF CF K0 (peer c 1) c 3); iexact HR
  isplitl [Htd13]; · iexact Htd13
  isplitr; · iapply (inv_send RF CF K0 c 2 0); iexact HR
  isplitl [Hts20]; · iexact Hts20
  isplitr; · iapply (reached_send RF CF K0 c 2 0); iexact HR
  isplitl [Hats20]; · iexact Hats20
  isplitr; · iapply (inv_recv RF CF K0 (peer c 3) c 0); iexact HR
  isplitl [Htd20]; · iexact Htd20
  isplitr; · iapply (inv_send RF CF K0 c 2 1); iexact HR
  isplitl [Hts21]; · iexact Hts21
  isplitr; · iapply (reached_send RF CF K0 c 2 1); iexact HR
  isplitl [Hats21]; · iexact Hats21
  isplitr; · iapply (inv_recv RF CF K0 (peer c 3) c 1); iexact HR
  isplitl [Htd21]; · iexact Htd21
  isplitr; · iapply (inv_send RF CF K0 c 2 2); iexact HR
  isplitl [Hts22]; · iexact Hts22
  isplitr; · iapply (reached_send RF CF K0 c 2 2); iexact HR
  isplitl [Hats22]; · iexact Hats22
  isplitr; · iapply (inv_recv RF CF K0 (peer c 3) c 2); iexact HR
  isplitl [Htd22]; · iexact Htd22
  isplitr; · iapply (inv_send RF CF K0 c 2 3); iexact HR
  isplitl [Hts23]; · iexact Hts23
  isplitr; · iapply (reached_send RF CF K0 c 2 3); iexact HR
  isplitl [Hats23]; · iexact Hats23
  isplitr; · iapply (inv_recv RF CF K0 (peer c 3) c 3); iexact HR
  isplitl [Htd23]; · iexact Htd23
  isplitr; · iapply (inv_recv RF CF K0 c (peer c 1) 0); iexact HR
  isplitl [Hatr10]; · iexact Hatr10
  isplitl [Hcr10]; · iexact Hcr10
  isplitr; · iapply (inv_recv RF CF K0 c (peer c 1) 1); iexact HR
  isplitl [Hatr11]; · iexact Hatr11
  isplitl [Hcr11]; · iexact Hcr11
  isplitr; · iapply (inv_recv RF CF K0 c (peer c 1) 2); iexact HR
  isplitl [Hatr12]; · iexact Hatr12
  isplitl [Hcr12]; · iexact Hcr12
  isplitr; · iapply (inv_recv RF CF K0 c (peer c 1) 3); iexact HR
  isplitl [Hatr13]; · iexact Hatr13
  isplitl [Hcr13]; · iexact Hcr13
  isplitr; · iapply (inv_recv RF CF K0 c (peer c 2) 0); iexact HR
  isplitl [Hatr20]; · iexact Hatr20
  isplitl [Hcr20]; · iexact Hcr20
  isplitr; · iapply (inv_recv RF CF K0 c (peer c 2) 1); iexact HR
  isplitl [Hatr21]; · iexact Hatr21
  isplitl [Hcr21]; · iexact Hcr21
  isplitr; · iapply (inv_recv RF CF K0 c (peer c 2) 2); iexact HR
  isplitl [Hatr22]; · iexact Hatr22
  isplitl [Hcr22]; · iexact Hcr22
  isplitr; · iapply (inv_recv RF CF K0 c (peer c 2) 3); iexact HR
  isplitl [Hatr23]; · iexact Hatr23
  isplitl [Hcr23]; · iexact Hcr23
  isplitr; · iapply (inv_recv RF CF K0 c (peer c 3) 0); iexact HR
  isplitl [Hatr30]; · iexact Hatr30
  isplitl [Hcr30]; · iexact Hcr30
  isplitr; · iapply (inv_recv RF CF K0 c (peer c 3) 1); iexact HR
  isplitl [Hatr31]; · iexact Hatr31
  isplitl [Hcr31]; · iexact Hcr31
  isplitr; · iapply (inv_recv RF CF K0 c (peer c 3) 2); iexact HR
  isplitl [Hatr32]; · iexact Hatr32
  isplitl [Hcr32]; · iexact Hcr32
  isplitr; · iapply (inv_recv RF CF K0 c (peer c 3) 3); iexact HR
  isplitl [Hatr33]; · iexact Hatr33
  iexact Hcr33

variable (ρ : Dev nD → PrngReg)
variable (OUT : (c : Dev nD) → (cc0_stg0_0 : Ref sig .tc).ty.Contents (Elt F))

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

def bodyPost (c : Dev nD) : sProp 𝕄 :=
  iprop(Φ₁ m c ∗ (dats m ρ RF CF OUT 0 c).owesAt () t0_0.succ ∗ stg c cc0_stg0_0 (OUT c))

-- The body obligation follows from the body's lemma over that conjunction.
set_option maxRecDepth 16384 in
theorem body_obligation_of_flat
    (hflat : ∀ (c : Dev nD) (W : Waits sig Unit) (K : GSem nD τ sig → ℕ) (f2 : Bf (F := F) c (Memref.whole cc0_stg0_0))
        (f3 : Bf (F := F) c (Memref.whole cc0_scratch0)) (f4 : Bf (F := F) c (Memref.whole cc0_scratch1)) (f5 : Bf (F := F) c (Memref.whole cc0_scratch2))
        (f6 : (c : Dev nD) → Buf (Elt F) ((c : Thread nD τ).loc cc0_scratch3)),
      flatPre RF CF c W K (m ((c : Thread nD τ).loc main_arg0)) (m ((c : Thread nD τ).loc main_arg1)) f2 f3 f4 f5 f6
        ⊢ wp frame (wpE (defs₀ (F := F)) 𝒱₀ c none) Set.univ (bodyAt0 (F := F) t0_0) (fun _ => bodyPost (RF := RF) (CF := CF) (m := m) (ρ := ρ) (OUT := OUT) c))
    (c : Dev nD) : BodyObligation (dats (F := F) m ρ RF CF OUT 0 c) (defs₀ (F := F)) 𝒱₀ () Set.univ := fun t => by
  rw [fin_N0 t]
  rw [bigSep_W0, bigSep_W0]
  simp only [owns_whole_eq]
  rw [show (dats m ρ RF CF OUT 0 c).Φ t0_0.castSucc = Φ₀ m RF CF c from rfl,
    show (dats m ρ RF CF OUT 0 c).Φ t0_0.succ = Φ₁ m c from rfl,
    show (dats m ρ RF CF OUT 0 c).after 0 t0_0 = OUT c from by dsimp only [dats]]
  rw [show defs₀ (F := F) Proc.tc 0 (t0_0, cfg0.slots t0_0) = bodyAt0 (F := F) t0_0 from rfl]
  unfold Φ₀ start scratch ghost Dat.owesAt Pipeline.owesWithin
  iintro ⟨⟨⟨⟨%K0, HR, Hlin⟩, Hcr, Hlev, Hloc, Harg⟩, ⟨%f3, H3⟩, ⟨%f4, H4⟩, ⟨%f5, H5⟩, ⟨%f, H6⟩⟩, ⟨%W, -, HO⟩, ⟨%d, %f2, -, H2⟩⟩
  obtain ⟨f6, rfl⟩ : ∃ f6 : (d : Dev nD) → Buf (Elt F) ((d : Thread nD τ).loc cc0_scratch3), f6 c = f :=
    ⟨Function.update RF c f, Function.update_self c f RF⟩
  iapply (hflat c W (Kx K0) f2 f3 f4 f5 f6)
  iapply (flat_intro (RF := RF) (CF := CF) (m := m) c W K0 f2 f3 f4 f5 f6)
  isplitl [HR]; · iexact HR
  isplitl [Hlin]; · iexact Hlin
  isplitl [Hcr]; · iexact Hcr
  isplitl [Hlev]; · iexact Hlev
  isplitl [Hloc]; · iexact Hloc
  isplitl [Harg]; · iexact Harg
  isplitl [H2]; · iexact H2
  isplitl [H3]; · iexact H3
  isplitl [H4]; · iexact H4
  isplitl [H5]; · iexact H5
  isplitl [H6]; · iexact H6
  iexact HO

end Cert.KernelIdeal.A2A
end
-- ==== Proof.Steps.lean ====
import proofs.«900531_g7700000000000532_dist_gemm_a2a_m4096_k4096_n2048_f32_gelu_v7x_i4_1_alg».proof.Proof.Data

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (RF : (c : Dev nD) → Buf (Elt F) ((c : Thread nD τ).loc cc0_scratch3))
variable (CF : (c : Dev nD) → Buf (Elt F) ((c : Thread nD τ).loc cc0_scratch2))

theorem chunk_credit : ∀ (s : Fin 3) (r : Fin 4), (chunkSlot s r).view.dmaCredit = N := by decide
theorem recv_credit : ∀ (src r : Fin 4), (recvSlot src r).view.dmaCredit = N := by decide

theorem routes_all : ∀ c d : Dev nD, τ.routes (c : Thread nD τ) (d : Thread nD τ) = true := by decide
theorem inb_sendSem : ∀ (s : Fin 3) (r : Fin 4), ∀ a, (![s.val, r.val] : Fin 2 → ℕ) a + S1x1.size a ≤ S3x4.size a := by decide
theorem sendSem_lit : ∀ (s : Fin 3) (r : Fin 4),
    ((cc0_scratch6.slice (Rect.unit (s := S3x4) ![s.val, r.val] S1x1.size (inb_sendSem s r))).squeeze S_ squeezes_S1x1_S_).sem = sendQ s r := by decide
theorem sendSem_eq (off : Fin 2 → ℕ) (h : ∀ a, off a + S1x1.size a ≤ S3x4.size a) (s : Fin 3) (r : Fin 4) (ho : off = ![s.val, r.val]) :
    ((cc0_scratch6.slice (Rect.unit (s := S3x4) off S1x1.size h)).squeeze S_ squeezes_S1x1_S_).sem = sendQ s r := by
  subst ho; exact sendSem_lit s r

theorem chunk_eq (off : Fin 3 → ℕ) (h : ∀ a, off a + S1x256x512.size a ≤ S3x1024x512.size a) (s : Fin 3) (r : Fin 4) (ho : off = ![s.val, 256 * r.val, 0]) :
    ((Memref.whole cc0_scratch2 : Memref sig .tc .vmem S3x1024x512 .bf16).slice (Rect.unit (s := S3x1024x512) off S1x256x512.size h) (fun _ => rfl)).squeeze S256x512 squeezes_S1x256x512_S256x512
      = chunkSlot s r := by
  subst ho; rfl

theorem ne_dest : ∀ (c : Dev nD) (s : Fin 3), c ≠ peer c (offOf s) := by decide

-- One remote transfer of a slot: the source is lent until the send wait, the landing is paid to the destination's receive cell.
theorem send_slot {κ₁ κ₂ : ℕ} (c : Dev nD) (s : Fin 3) (r : Fin 4) (n : Dev nD) (hn : n = peer c (offOf s))
    {src : Memref sig .tc .vmem S256x512 .bf16} {dst : Memref sig (Dev.tc n : Thread nD τ).2.kind .vmem S256x512 .bf16} {qs qr : DmaSem sig}
    (hsrcE : src = chunkSlot s r) (hdstE : dst = recvSlot c r) (hqs : qs = sendQ s r) (hqr : qr = recvQ c r)
    {hsc : dst.view.ref.isScScratch = false} {hsrc : src.view.WordExact} {hdst : dst.view.WordExact}
    {hsem : DmaTarget.Typed .vmem (.dma qr) (.remote (Dev.tc n : Thread nD τ) dst (.dma qs) hsc)}
    {α : Type} {Q : α → sProp 𝕄} {kk : PUnit → Prog (TpuEff nD τ sig (Elt F) Λ₀ .tc) α}
    (fs : Buf (Elt F) ((chunkSlot s r).view.loc (c : Thread nD τ))) (fn : Buf (Elt F) ((recvSlot c r).view.loc (n : Thread nD τ)))
    (hfs : ∀ i ∈ (chunkSlot s r).view.set, fs i = CFs CF c s r i)
    (hval : ∀ i ∈ (recvSlot c r).view.set, (recvSlot c r).view.write (Elt F) fn ((chunkSlot s r).view.read (Elt F) fs) Finset.univ i = RFs RF n c r i)
    (O : CellTallies nD τ sig Unit) (W : Waits sig Unit) :
    iprop(cellInv ER (a2aRd RF CF) κ₁ (sendCell c s r) ∗ cellInv ER (a2aRd RF CF) κ₂ (recvCell n c r)
        ∗ ((chunkSlot s r).view.loc (c : Thread nD τ) ↦[(chunkSlot s r).view.set]{fullShare} fs)
        ∗ ((recvSlot c r).view.loc (n : Thread nD τ) ↦[(recvSlot c r).view.set]{fullShare} fn)
        ∗ owes (c : Thread nD τ) (O + tallyAt (recvCell n c r) () N) W
        ∗ dutyTok ER (sendCell c s r) 0 c ∗ reached ER (sendCell c s r) 0
        ∗ dutyTok ER (recvCell n c r) 0 c ∗ reached ER (recvCell n c r) 0)
      ⊢ iprop(((cred (tallyAt (sendCell c s r) () N) ∗ owes (c : Thread nD τ) O W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc n : Thread nD τ) dst (.dma qs) hsc) (.dma qr) hsrc hdst hsem) kk) Q) := by
  subst hsrcE hdstE hqs hqr
  exact Rounds.wp_send_pointsTo 𝒱₀ ER (a2aRd RF CF) (c : Thread nD τ) none (c' := (n : Thread nD τ)) (src := chunkSlot s r) (dst := recvSlot c r)
    (sS := .dma (sendQ s r)) (sem := .dma (recvQ c r)) (q := fullShare) (fs := fs) (fd := fn) (κ₁ := κ₁) (κ₂ := κ₂) (r₁ := 0) (r₂ := 0) (d₁ := c) (d₂ := c)
    (by rw [duties_send]; exact Finset.mem_singleton_self _)
    (by rw [duties_recv RF CF n c r (hn ▸ ne_dest c s)]; exact Finset.mem_singleton_self _)
    () () N (recv_credit c r) (amount_send RF CF c s r c) (amount_recv RF CF n c r c) O rfl (W := W)
    (by rw [payload_send]; unfold sendPay; exact Entails.of_eq (pointsTo_congr hfs))
    (by rw [payload_recv]; unfold recvPay; exact Entails.of_eq (pointsTo_congr hval))
    (routes_all c n)

theorem close_send {κ : ℕ} (c : Dev nD) (s : Fin 3) (r : Fin 4) :
    iprop(cellInv ER (a2aRd RF CF) κ (sendCell c s r) ∗ atPos ER (sendCell c s r) 1 ∅ 0) ⊢ iprop(|={Set.univ}=> semVal (sendCell c s r) 0 : sProp 𝕄) :=
  Rounds.cell_close ER (a2aRd RF CF) (Set.mem_univ κ) (fun h => h) (R := 1) (duties_later RF CF (sendCell c s r))

theorem close_recv {κ : ℕ} (c : Dev nD) (src r : Fin 4) :
    iprop(cellInv ER (a2aRd RF CF) κ (recvCell c src r) ∗ atPos ER (recvCell c src r) 1 ∅ 0) ⊢ iprop(|={Set.univ}=> semVal (recvCell c src r) 0 : sProp 𝕄) :=
  Rounds.cell_close ER (a2aRd RF CF) (Set.mem_univ κ) (fun h => h) (R := 1) (duties_later RF CF (recvCell c src r))

theorem close_recv_own {κ : ℕ} (c : Dev nD) (r : Fin 4) :
    iprop(cellInv ER (a2aRd RF CF) κ (recvCell c c r) ∗ atPos ER (recvCell c c r) 0 ∅ 0) ⊢ iprop(|={Set.univ}=> semVal (recvCell c c r) 0 : sProp 𝕄) :=
  Rounds.cell_close ER (a2aRd RF CF) (Set.mem_univ κ) (fun h => h) (R := 0) (fun r' _ => duties_recv_own RF CF c r r')

end Cert.KernelIdeal.A2A
end
-- ==== Proof.Disj.lean ====
import proofs.«900531_g7700000000000532_dist_gemm_a2a_m4096_k4096_n2048_f32_gelu_v7x_i4_1_alg».proof.Proof.Gen.KernelIdeal

noncomputable section

namespace Cert.KernelIdeal.A2A

open Cert.KernelIdeal Cert.KernelIdeal.Gen
open Idealize.ShloMosaic

theorem disj_cols (off off' : Fin 2 → Nat)
    (inb : ∀ a, off a + S2048x512.size a ≤ S4096x2048.size a) (inb' : ∀ a, off' a + S2048x512.size a ≤ S4096x2048.size a)
    (h : off 1 + 512 ≤ off' 1 ∨ off' 1 + 512 ≤ off 1) :
    Disjoint
      ((Memref.whole main_arg1 : Memref sig .tc .hbm S4096x2048 .f32).slice (Rect.unit (s := S4096x2048) off S2048x512.size inb) (fun _ => rfl)).view.set
      ((Memref.whole main_arg1 : Memref sig .tc .hbm S4096x2048 .f32).slice (Rect.unit (s := S4096x2048) off' S2048x512.size inb') (fun _ => rfl)).view.set := by
  show Disjoint ((View.whole main_arg1).slice (Rect.unit (s := S4096x2048) off S2048x512.size inb)).set
    ((View.whole main_arg1).slice (Rect.unit (s := S4096x2048) off' S2048x512.size inb')).set
  rw [View.set_slice_whole, View.set_slice_whole]
  exact Rect.unit_disjoint 1 h

theorem sep_1_1_1_2 : ∀ d0 : Dev nD,
    (k0_off1 d0 1#32) 1 + 512 ≤ (k0_off1 d0 2#32) 1 ∨ (k0_off1 d0 2#32) 1 + 512 ≤ (k0_off1 d0 1#32) 1 := by decide +kernel
theorem sep_1_1_2_2 : ∀ d0 : Dev nD,
    (k0_off1 d0 1#32) 1 + 512 ≤ (k0_off2 d0 2#32) 1 ∨ (k0_off2 d0 2#32) 1 + 512 ≤ (k0_off1 d0 1#32) 1 := by decide +kernel
theorem sep_2_1_1_2 : ∀ d0 : Dev nD,
    (k0_off2 d0 1#32) 1 + 512 ≤ (k0_off1 d0 2#32) 1 ∨ (k0_off1 d0 2#32) 1 + 512 ≤ (k0_off2 d0 1#32) 1 := by decide +kernel
theorem sep_2_1_2_2 : ∀ d0 : Dev nD,
    (k0_off2 d0 1#32) 1 + 512 ≤ (k0_off2 d0 2#32) 1 ∨ (k0_off2 d0 2#32) 1 + 512 ≤ (k0_off2 d0 1#32) 1 := by decide +kernel
theorem sep_1_3_1_1 : ∀ d0 : Dev nD,
    (k0_off1 d0 3#32) 1 + 512 ≤ (k0_off1 d0 1#32) 1 ∨ (k0_off1 d0 1#32) 1 + 512 ≤ (k0_off1 d0 3#32) 1 := by decide +kernel
theorem sep_1_3_2_1 : ∀ d0 : Dev nD,
    (k0_off1 d0 3#32) 1 + 512 ≤ (k0_off2 d0 1#32) 1 ∨ (k0_off2 d0 1#32) 1 + 512 ≤ (k0_off1 d0 3#32) 1 := by decide +kernel
theorem sep_2_3_1_1 : ∀ d0 : Dev nD,
    (k0_off2 d0 3#32) 1 + 512 ≤ (k0_off1 d0 1#32) 1 ∨ (k0_off1 d0 1#32) 1 + 512 ≤ (k0_off2 d0 3#32) 1 := by decide +kernel
theorem sep_2_3_2_1 : ∀ d0 : Dev nD,
    (k0_off2 d0 3#32) 1 + 512 ≤ (k0_off2 d0 1#32) 1 ∨ (k0_off2 d0 1#32) 1 + 512 ≤ (k0_off2 d0 3#32) 1 := by decide +kernel
theorem sep_1_0_1_3 : ∀ d0 : Dev nD,
    (k0_off1 d0 0#32) 1 + 512 ≤ (k0_off1 d0 3#32) 1 ∨ (k0_off1 d0 3#32) 1 + 512 ≤ (k0_off1 d0 0#32) 1 := by decide +kernel
theorem sep_1_0_2_3 : ∀ d0 : Dev nD,
    (k0_off1 d0 0#32) 1 + 512 ≤ (k0_off2 d0 3#32) 1 ∨ (k0_off2 d0 3#32) 1 + 512 ≤ (k0_off1 d0 0#32) 1 := by decide +kernel
theorem sep_2_0_1_3 : ∀ d0 : Dev nD,
    (k0_off2 d0 0#32) 1 + 512 ≤ (k0_off1 d0 3#32) 1 ∨ (k0_off1 d0 3#32) 1 + 512 ≤ (k0_off2 d0 0#32) 1 := by decide +kernel
theorem sep_2_0_2_3 : ∀ d0 : Dev nD,
    (k0_off2 d0 0#32) 1 + 512 ≤ (k0_off2 d0 3#32) 1 ∨ (k0_off2 d0 3#32) 1 + 512 ≤ (k0_off2 d0 0#32) 1 := by decide +kernel

end Cert.KernelIdeal.A2A

end
-- ==== Proof.Bridge.lean ====
import proofs.«900531_g7700000000000532_dist_gemm_a2a_m4096_k4096_n2048_f32_gelu_v7x_i4_1_alg».proof.Proof.Contents

noncomputable section

namespace Cert.KernelIdeal.A2A

open Cert.KernelIdeal Cert.KernelIdeal.Gen
open Idealize.ShloMosaic Idealize.ShloMosaic.TcCoe Idealize.ShloMosaic.ValueIdx

variable {F : FTy → Type} [FloatOps F]

theorem off1_peer : ∀ (d0 : Dev nD) (k : Fin 4),
    k0_off1 d0 (BitVec.ofNat 32 k.val) = ![2048 * (0 : Fin 2).val, 512 * (peer d0 k.val).val] := by decide +kernel

theorem off2_peer : ∀ (d0 : Dev nD) (k : Fin 4),
    k0_off2 d0 (BitVec.ofNat 32 k.val) = ![2048 * (1 : Fin 2).val, 512 * (peer d0 k.val).val] := by decide +kernel

variable (m : (ℓ : Loc nD τ sig) → Buf (Elt F) ℓ)

-- Reading row group r of the left argument gives rows 256 r … 256 r + 255 of the launch memory.
theorem xRows_read (c : Dev nD) (r : Fin 4) (off : Fin 2 → Nat) (hoff : off = ![256 * r.val, 0])
    (inb : ∀ a, off a + S256x4096.size a ≤ S1024x4096.size a) :
    ((Memref.whole main_arg0 : Memref sig .tc .hbm S1024x4096 .f32).slice
        (Rect.unit (s := S1024x4096) off S256x4096.size inb) (fun _ => rfl)).view.read (Elt F)
        (m ((c : Thread nD τ).loc main_arg0)) = xRows m c r := by
  subst hoff
  funext j
  rw [View.read_apply]
  show m ((c : Thread nD τ).loc main_arg0) _ = m ((c : Thread nD τ).loc main_arg0) _
  congr 1
  funext a
  apply Fin.ext
  match a with
  | ⟨0, _⟩ =>
    show 256 * r.val + 1 * (j 0).val = 256 * r.val + (j 0).val
    omega
  | ⟨1, _⟩ =>
    show 0 + 1 * (j 1).val = (j 1).val
    omega

theorem xRows_read0 (c : Dev nD) :
    ((Memref.whole main_arg0 : Memref sig .tc .hbm S1024x4096 .f32).slice
        (Rect.unit (s := S1024x4096) ![0, 0] S256x4096.size inb_S1024x4096_S256x4096_0_0) (fun _ => rfl)).view.read (Elt F)
        (m ((c : Thread nD τ).loc main_arg0)) = xRows m c 0 :=
  xRows_read m c 0 _ rfl _
theorem xRows_read1 (c : Dev nD) :
    ((Memref.whole main_arg0 : Memref sig .tc .hbm S1024x4096 .f32).slice
        (Rect.unit (s := S1024x4096) ![256, 0] S256x4096.size inb_S1024x4096_S256x4096_256_0) (fun _ => rfl)).view.read (Elt F)
        (m ((c : Thread nD τ).loc main_arg0)) = xRows m c 1 :=
  xRows_read m c 1 _ rfl _
theorem xRows_read2 (c : Dev nD) :
    ((Memref.whole main_arg0 : Memref sig .tc .hbm S1024x4096 .f32).slice
        (Rect.unit (s := S1024x4096) ![512, 0] S256x4096.size inb_S1024x4096_S256x4096_512_0) (fun _ => rfl)).view.read (Elt F)
        (m ((c : Thread nD τ).loc main_arg0)) = xRows m c 2 :=
  xRows_read m c 2 _ rfl _
theorem xRows_read3 (c : Dev nD) :
    ((Memref.whole main_arg0 : Memref sig .tc .hbm S1024x4096 .f32).slice
        (Rect.unit (s := S1024x4096) ![768, 0] S256x4096.size inb_S1024x4096_S256x4096_768_0) (fun _ => rfl)).view.read (Elt F)
        (m ((c : Thread nD τ).loc main_arg0)) = xRows m c 3 :=
  xRows_read m c 3 _ rfl _

theorem xAll_rows (c : Dev nD) (r : Fin 4) (p : Fin 256) (k : Fin 4096) :
    xAll m c (ix2 (⟨256 * r.val + p.val, by have := p.isLt; have := r.isLt; omega⟩ : Fin 1024) k)
      = xRows m c r (ix2 p k) := rfl

def wHalf (c dst : Dev nD) (h : Fin 2) : Vec F S2048x512 .f32 :=
  fun j => wCols m c dst (ix3 (0 : Fin 1)
    (⟨2048 * h.val + (j 0).val, by have := idx2_lt0 j; have := h.isLt; omega⟩ : Fin 4096) (j 1))

theorem wHalf_apply (c dst : Dev nD) (h : Fin 2) (p : Fin 2048) (q : Fin 512) :
    wHalf m c dst h (ix2 p q) = wCols m c dst (ix3 (0 : Fin 1)
      (⟨2048 * h.val + p.val, by have := p.isLt; have := h.isLt; omega⟩ : Fin 4096) q) := rfl

theorem wHalf_read (c dst : Dev nD) (h : Fin 2) (off : Fin 2 → Nat) (hoff : off = ![2048 * h.val, 512 * dst.val])
    (inb : ∀ a, off a + S2048x512.size a ≤ S4096x2048.size a) :
    ((Memref.whole main_arg1 : Memref sig .tc .hbm S4096x2048 .f32).slice
        (Rect.unit (s := S4096x2048) off S2048x512.size inb) (fun _ => rfl)).view.read (Elt F)
        (m ((c : Thread nD τ).loc main_arg1)) = wHalf m c dst h := by
  subst hoff
  funext j
  rw [View.read_apply]
  show m ((c : Thread nD τ).loc main_arg1) _ = m ((c : Thread nD τ).loc main_arg1) _
  congr 1
  funext a
  apply Fin.ext
  match a with
  | ⟨0, _⟩ =>
    show 2048 * h.val + 1 * (j 0).val = 2048 * h.val + (j 0).val
    omega
  | ⟨1, _⟩ =>
    show 512 * dst.val + 1 * (j 1).val = 512 * dst.val + (j 1).val
    omega

theorem wHalf_read_off1 (c : Dev nD) (k : Fin 4) :
    ((Memref.whole main_arg1 : Memref sig .tc .hbm S4096x2048 .f32).slice
        (Rect.unit (s := S4096x2048) (k0_off1 c (BitVec.ofNat 32 k.val)) S2048x512.size (k0_off1_inb c k)) (fun _ => rfl)).view.read (Elt F)
        (m ((c : Thread nD τ).loc main_arg1)) = wHalf m c (peer c k.val) 0 :=
  wHalf_read m c (peer c k.val) 0 _ (off1_peer c k) _

theorem wHalf_read_off2 (c : Dev nD) (k : Fin 4) :
    ((Memref.whole main_arg1 : Memref sig .tc .hbm S4096x2048 .f32).slice
        (Rect.unit (s := S4096x2048) (k0_off2 c (BitVec.ofNat 32 k.val)) S2048x512.size (k0_off2_inb c k)) (fun _ => rfl)).view.read (Elt F)
        (m ((c : Thread nD τ).loc main_arg1)) = wHalf m c (peer c k.val) 1 :=
  wHalf_read m c (peer c k.val) 1 _ (off2_peer c k) _

theorem wHalf_read_off1_2 (c : Dev nD) :
    ((Memref.whole main_arg1 : Memref sig .tc .hbm S4096x2048 .f32).slice
        (Rect.unit (s := S4096x2048) (k0_off1 c 2#32) S2048x512.size (k0_off1_inb c 2)) (fun _ => rfl)).view.read (Elt F)
        (m ((c : Thread nD τ).loc main_arg1)) = wHalf m c (peer c 2) 0 :=
  wHalf_read_off1 m c 2
theorem wHalf_read_off2_2 (c : Dev nD) :
    ((Memref.whole main_arg1 : Memref sig .tc .hbm S4096x2048 .f32).slice
        (Rect.unit (s := S4096x2048) (k0_off2 c 2#32) S2048x512.size (k0_off2_inb c 2)) (fun _ => rfl)).view.read (Elt F)
        (m ((c : Thread nD τ).loc main_arg1)) = wHalf m c (peer c 2) 1 :=
  wHalf_read_off2 m c 2
theorem wHalf_read_off1_1 (c : Dev nD) :
    ((Memref.whole main_arg1 : Memref sig .tc .hbm S4096x2048 .f32).slice
        (Rect.unit (s := S4096x2048) (k0_off1 c 1#32) S2048x512.size (k0_off1_inb c 1)) (fun _ => rfl)).view.read (Elt F)
        (m ((c : Thread nD τ).loc main_arg1)) = wHalf m c (peer c 1) 0 :=
  wHalf_read_off1 m c 1
theorem wHalf_read_off2_1 (c : Dev nD) :
    ((Memref.whole main_arg1 : Memref sig .tc .hbm S4096x2048 .f32).slice
        (Rect.unit (s := S4096x2048) (k0_off2 c 1#32) S2048x512.size (k0_off2_inb c 1)) (fun _ => rfl)).view.read (Elt F)
        (m ((c : Thread nD τ).loc main_arg1)) = wHalf m c (peer c 1) 1 :=
  wHalf_read_off2 m c 1
theorem wHalf_read_off1_3 (c : Dev nD) :
    ((Memref.whole main_arg1 : Memref sig .tc .hbm S4096x2048 .f32).slice
        (Rect.unit (s := S4096x2048) (k0_off1 c 3#32) S2048x512.size (k0_off1_inb c 3)) (fun _ => rfl)).view.read (Elt F)
        (m ((c : Thread nD τ).loc main_arg1)) = wHalf m c (peer c 3) 0 :=
  wHalf_read_off1 m c 3
theorem wHalf_read_off2_3 (c : Dev nD) :
    ((Memref.whole main_arg1 : Memref sig .tc .hbm S4096x2048 .f32).slice
        (Rect.unit (s := S4096x2048) (k0_off2 c 3#32) S2048x512.size (k0_off2_inb c 3)) (fun _ => rfl)).view.read (Elt F)
        (m ((c : Thread nD τ).loc main_arg1)) = wHalf m c (peer c 3) 1 :=
  wHalf_read_off2 m c 3
theorem wHalf_read_off1_0 (c : Dev nD) :
    ((Memref.whole main_arg1 : Memref sig .tc .hbm S4096x2048 .f32).slice
        (Rect.unit (s := S4096x2048) (k0_off1 c 0#32) S2048x512.size (k0_off1_inb c 0)) (fun _ => rfl)).view.read (Elt F)
        (m ((c : Thread nD τ).loc main_arg1)) = wHalf m c (peer c 0) 0 :=
  wHalf_read_off1 m c 0
theorem wHalf_read_off2_0 (c : Dev nD) :
    ((Memref.whole main_arg1 : Memref sig .tc .hbm S4096x2048 .f32).slice
        (Rect.unit (s := S4096x2048) (k0_off2 c 0#32) S2048x512.size (k0_off2_inb c 0)) (fun _ => rfl)).view.read (Elt F)
        (m ((c : Thread nD τ).loc main_arg1)) = wHalf m c (peer c 0) 1 :=
  wHalf_read_off2 m c 0

end Cert.KernelIdeal.A2A

end
-- ==== Proof.BridgeDst.lean ====
import proofs.«900531_g7700000000000532_dist_gemm_a2a_m4096_k4096_n2048_f32_gelu_v7x_i4_1_alg».proof.Proof.Bridge

noncomputable section

namespace Cert.KernelIdeal.A2A

open Cert.KernelIdeal Cert.KernelIdeal.Gen
open Idealize.ShloMosaic Idealize.ShloMosaic.TcCoe Idealize.ShloMosaic.ValueIdx

variable {F : FTy → Type} [FloatOps F]

theorem reshape_2048x512 (hnum : S2048x512.numel = S1x2048x512.numel) (k : Fin 2048) (q : Fin 512) :
    Shape.reshapeEquiv (s := S1x2048x512) (s' := S2048x512) hnum (ix2 k q) = ix3 (0 : Fin 1) k q :=
  Shape.reshapeEquiv_eq_of_rowMajor hnum (by
    rw [Shape.rowMajor_val_three, Shape.rowMajor_val_two]
    show (0 * 2048 + k.val) * 512 + q.val = k.val * 512 + q.val
    omega)

theorem wdst_emb (slot h : Fin 2) (off : Fin 3 → Nat) (hoff : off = ![slot.val, 2048 * h.val, 0])
    (inb : ∀ a, off a + S1x2048x512.size a ≤ S2x4096x512.size a) (k : Fin 2048) (q : Fin 512) :
    (((Memref.whole cc0_scratch1 : Memref sig .tc .vmem S2x4096x512 .f32).slice
        (Rect.unit (s := S2x4096x512) off S1x2048x512.size inb) (fun _ => rfl)).squeeze S2048x512
        squeezes_S1x2048x512_S2048x512).view.emb (ix2 k q)
      = (ix3 slot (⟨2048 * h.val + k.val, by have := k.isLt; have := h.isLt; omega⟩ : Fin 4096) q : S2x4096x512.Idx) := by
  subst hoff
  simp only [Memref.view_squeeze, Memref.view_slice, Memref.view_whole, View.emb_reshape, View.emb_slice, View.emb_whole,
    Function.Embedding.trans_apply, Equiv.coe_toEmbedding, Function.Embedding.refl_apply]
  rw [reshape_2048x512]
  funext a
  apply Fin.ext
  match a with
  | ⟨0, _⟩ =>
    show slot.val + 1 * 0 = slot.val
    omega
  | ⟨1, _⟩ =>
    show 2048 * h.val + 1 * k.val = 2048 * h.val + k.val
    omega
  | ⟨2, _⟩ =>
    show 0 + 1 * q.val = q.val
    omega

theorem wload_emb (slot : Fin 2) (off : Fin 3 → Nat) (hoff : off = ![slot.val, 0, 0])
    (inb : ∀ a, off a + S1x4096x512.size a ≤ S2x4096x512.size a) (a0 : Fin 1) (k : Fin 4096) (q : Fin 512) :
    ((Memref.whole cc0_scratch1 : Memref sig .tc .vmem S2x4096x512 .f32).access
        (Rect.unit (s := S2x4096x512) off S1x4096x512.size inb)).emb (ix3 a0 k q)
      = (ix3 slot k q : S2x4096x512.Idx) := by
  subst hoff
  simp only [Memref.view_whole, View.emb_slice, View.emb_whole, Function.Embedding.trans_apply, Function.Embedding.refl_apply]
  funext a
  apply Fin.ext
  match a with
  | ⟨0, _⟩ =>
    show slot.val + 1 * a0.val = slot.val
    have := a0.isLt
    omega
  | ⟨1, _⟩ =>
    show 0 + 1 * k.val = k.val
    omega
  | ⟨2, _⟩ =>
    show 0 + 1 * q.val = q.val
    omega

variable (m : (ℓ : Loc nD τ sig) → Buf (Elt F) ℓ)

theorem wdst_write (c : Dev nD) (slot h : Fin 2) (off : Fin 3 → Nat) (hoff : off = ![slot.val, 2048 * h.val, 0])
    (inb : ∀ a, off a + S1x2048x512.size a ≤ S2x4096x512.size a)
    (fd : Buf (Elt F) ((c : Thread nD τ).loc cc0_scratch1)) (w : Vec F S2048x512 .f32) (k : Fin 2048) (q : Fin 512) :
    (((Memref.whole cc0_scratch1 : Memref sig .tc .vmem S2x4096x512 .f32).slice
        (Rect.unit (s := S2x4096x512) off S1x2048x512.size inb) (fun _ => rfl)).squeeze S2048x512
        squeezes_S1x2048x512_S2048x512).view.write (Elt F) fd w Finset.univ
      (ix3 slot (⟨2048 * h.val + k.val, by have := k.isLt; have := h.isLt; omega⟩ : Fin 4096) q : S2x4096x512.Idx)
      = w (ix2 k q) := by
  rw [← wdst_emb slot h off hoff inb k q, View.write_emb_of_mem _ _ (Finset.mem_univ _)]
  rfl

-- A plane of the local copy of the right argument, written half by half, reads back as the destination's column block.
theorem wload_eq (c dst : Dev nD) (slot : Fin 2) (f : Buf (Elt F) ((c : Thread nD τ).loc cc0_scratch1))
    (hf : ∀ (h : Fin 2) (k : Fin 2048) (q : Fin 512),
      f (ix3 slot (⟨2048 * h.val + k.val, by have := k.isLt; have := h.isLt; omega⟩ : Fin 4096) q : S2x4096x512.Idx)
        = wHalf m c dst h (ix2 k q))
    (off : Fin 3 → Nat) (hoff : off = ![slot.val, 0, 0]) (inb : ∀ a, off a + S1x4096x512.size a ≤ S2x4096x512.size a) :
    (Memref.whole cc0_scratch1 : Memref sig .tc .vmem S2x4096x512 .f32).view.readAt (Elt F)
        (Rect.unit (s := S2x4096x512) off S1x4096x512.size inb).toLoadRect f = wCols m c dst := by
  funext j
  obtain ⟨a0, k, q, rfl⟩ : ∃ (a0 : Fin 1) (k : Fin 4096) (q : Fin 512), j = ix3 a0 k q := ⟨j 0, j 1, j 2, eq_ix3 j⟩
  show ((Memref.whole cc0_scratch1 : Memref sig .tc .vmem S2x4096x512 .f32).access
      (Rect.unit (s := S2x4096x512) off S1x4096x512.size inb)).read (Elt F) f (ix3 a0 k q) = _
  rw [View.read_apply, wload_emb slot off hoff inb a0 k q]
  show f (ix3 slot k q : S2x4096x512.Idx) = _
  obtain ⟨h, k', rfl⟩ : ∃ (h : Fin 2) (k' : Fin 2048),
      k = (⟨2048 * h.val + k'.val, by have := k'.isLt; have := h.isLt; omega⟩ : Fin 4096) :=
    ⟨⟨k.val / 2048, by have := k.isLt; omega⟩, ⟨k.val % 2048, Nat.mod_lt _ (by decide)⟩,
      Fin.ext (by show k.val = 2048 * (k.val / 2048) + k.val % 2048; omega)⟩
  rw [hf h k' q, wHalf_apply]
  have ha : a0 = 0 := Subsingleton.elim _ _
  subst ha
  rfl

theorem xload_eq (c : Dev nD) (f : Buf (Elt F) ((c : Thread nD τ).loc cc0_scratch0))
    (hf : ∀ (r : Fin 4) (p : Fin 256) (k : Fin 4096),
      f (ix2 (⟨256 * r.val + p.val, by have := p.isLt; have := r.isLt; omega⟩ : Fin 1024) k : S1024x4096.Idx)
        = xRows m c r (ix2 p k))
    (off : Fin 2 → Nat) (hoff : off = ![0, 0]) (inb : ∀ a, off a + S1024x4096.size a ≤ S1024x4096.size a) :
    (Memref.whole cc0_scratch0 : Memref sig .tc .vmem S1024x4096 .f32).view.readAt (Elt F)
        (Rect.unit (s := S1024x4096) off S1024x4096.size inb).toLoadRect f = xAll m c := by
  subst hoff
  refine (Memref.readAt_unit_zero (Elt F) cc0_scratch0 (off := ![0, 0])
    (funext fun a => by match a with | ⟨0, _⟩ => rfl | ⟨1, _⟩ => rfl) inb f).trans ?_
  funext j
  obtain ⟨P, k, rfl⟩ : ∃ (P : Fin 1024) (k : Fin 4096), j = ix2 P k := ⟨j 0, j 1, eq_ix2 j⟩
  obtain ⟨r, p, rfl⟩ : ∃ (r : Fin 4) (p : Fin 256),
      P = (⟨256 * r.val + p.val, by have := p.isLt; have := r.isLt; omega⟩ : Fin 1024) :=
    ⟨⟨P.val / 256, by have := P.isLt; omega⟩, ⟨P.val % 256, Nat.mod_lt _ (by decide)⟩,
      Fin.ext (by show P.val = 256 * (P.val / 256) + P.val % 256; omega)⟩
  rw [hf r p k, xAll_rows]

theorem RFv_tile (c : Dev nD) (s g : Fin 4) (p : Fin 256) (q : Fin 512) :
    RFv m c (ix3 s (⟨256 * g.val + p.val, by have := p.isLt; have := g.isLt; omega⟩ : Fin 1024) q)
      = ys m s c g (ix3 (0 : Fin 1) p q) := by
  rw [← rfTile_apply m c s g 0 p q, rfTile_eq]

theorem CFv_tile (c : Dev nD) (s : Fin 3) (r : Fin 4) (p : Fin 256) (q : Fin 512) :
    CFv m c (ix3 s (⟨256 * r.val + p.val, by have := p.isLt; have := r.isLt; omega⟩ : Fin 1024) q)
      = ys m c (peer c (offOf s)) r (ix3 (0 : Fin 1) p q) := by
  rw [CFv_apply]
  have e1 : (⟨(256 * r.val + p.val) / 256, by have := p.isLt; have := r.isLt; omega⟩ : Fin 4) = r :=
    Fin.ext (by have := p.isLt; show (256 * r.val + p.val) / 256 = r.val; omega)
  have e2 : (⟨(256 * r.val + p.val) % 256, Nat.mod_lt _ (by decide)⟩ : Fin 256) = p :=
    Fin.ext (by have := p.isLt; show (256 * r.val + p.val) % 256 = p.val; omega)
  rw [e1, e2]

end Cert.KernelIdeal.A2A

end
-- ==== Proof.SendValue.lean ====
import proofs.«900531_g7700000000000532_dist_gemm_a2a_m4096_k4096_n2048_f32_gelu_v7x_i4_1_alg».proof.Proof.Proto
import proofs.«900531_g7700000000000532_dist_gemm_a2a_m4096_k4096_n2048_f32_gelu_v7x_i4_1_alg».proof.Proof.Contents
import proofs.«900531_g7700000000000532_dist_gemm_a2a_m4096_k4096_n2048_f32_gelu_v7x_i4_1_alg».proof.Proof.Bridge
import proofs.«900531_g7700000000000532_dist_gemm_a2a_m4096_k4096_n2048_f32_gelu_v7x_i4_1_alg».proof.Proof.BridgeDst
import Idealize.ShloMosaic.Lib.Writes

noncomputable section

namespace Cert.KernelIdeal.A2A

open Cert.KernelIdeal Cert.KernelIdeal.Gen
open Idealize.ShloMosaic Idealize.ShloMosaic.TcCoe Idealize.ShloMosaic.ValueIdx

variable {F : FTy → Type} [FloatOps F]

theorem reshape_256x512 (hnum : S256x512.numel = S1x256x512.numel) (p : Fin 256) (q : Fin 512) :
    Shape.reshapeEquiv (s := S1x256x512) (s' := S256x512) hnum (ix2 p q) = ix3 (0 : Fin 1) p q :=
  Shape.reshapeEquiv_eq_of_rowMajor hnum (by
    rw [Shape.rowMajor_val_three, Shape.rowMajor_val_two]
    show (0 * 256 + p.val) * 512 + q.val = p.val * 512 + q.val
    omega)

theorem chunkSlot_emb (s : Fin 3) (r : Fin 4) (p : Fin 256) (q : Fin 512) :
    (chunkSlot s r).view.emb (ix2 p q)
      = (ix3 s (⟨256 * r.val + p.val, by have := p.isLt; have := r.isLt; omega⟩ : Fin 1024) q : S3x1024x512.Idx) := by
  unfold chunkSlot
  simp only [Memref.view_squeeze, Memref.view_slice, Memref.view_whole, View.emb_reshape, View.emb_slice, View.emb_whole,
    Function.Embedding.trans_apply, Equiv.coe_toEmbedding, Function.Embedding.refl_apply]
  rw [reshape_256x512]
  funext a
  apply Fin.ext
  match a with
  | ⟨0, _⟩ =>
    show s.val + 1 * 0 = s.val
    omega
  | ⟨1, _⟩ =>
    show 256 * r.val + 1 * p.val = 256 * r.val + p.val
    omega
  | ⟨2, _⟩ =>
    show 0 + 1 * q.val = q.val
    omega

theorem recvSlot_emb (src r : Fin 4) (p : Fin 256) (q : Fin 512) :
    (recvSlot src r).view.emb (ix2 p q)
      = (ix3 src (⟨256 * r.val + p.val, by have := p.isLt; have := r.isLt; omega⟩ : Fin 1024) q : S4x1024x512.Idx) := by
  unfold recvSlot
  simp only [Memref.view_squeeze, Memref.view_slice, Memref.view_whole, View.emb_reshape, View.emb_slice, View.emb_whole,
    Function.Embedding.trans_apply, Equiv.coe_toEmbedding, Function.Embedding.refl_apply]
  rw [reshape_256x512]
  funext a
  apply Fin.ext
  match a with
  | ⟨0, _⟩ =>
    show src.val + 1 * 0 = src.val
    omega
  | ⟨1, _⟩ =>
    show 256 * r.val + 1 * p.val = 256 * r.val + p.val
    omega
  | ⟨2, _⟩ =>
    show 0 + 1 * q.val = q.val
    omega

theorem chunk_piece_emb (s : Fin 3) (r : Fin 4) (off : Fin 3 → Nat) (hoff : off = ![s.val, 256 * r.val, 0])
    (inb : ∀ a, off a + S1x256x512.size a ≤ S3x1024x512.size a) (a0 : Fin 1) (p : Fin 256) (q : Fin 512) :
    ((View.whole cc0_scratch2).slice (Rect.unit (s := S3x1024x512) off S1x256x512.size inb)).emb (ix3 a0 p q)
      = (ix3 s (⟨256 * r.val + p.val, by have := p.isLt; have := r.isLt; omega⟩ : Fin 1024) q : S3x1024x512.Idx) := by
  subst hoff
  simp only [View.emb_slice, View.emb_whole, Function.Embedding.trans_apply, Function.Embedding.refl_apply]
  funext a
  apply Fin.ext
  match a with
  | ⟨0, _⟩ =>
    show s.val + 1 * a0.val = s.val
    have := a0.isLt
    omega
  | ⟨1, _⟩ =>
    show 256 * r.val + 1 * p.val = 256 * r.val + p.val
    omega
  | ⟨2, _⟩ =>
    show 0 + 1 * q.val = q.val
    omega

variable (m : (ℓ : Loc nD τ sig) → Buf (Elt F) ℓ)

-- A tile just written over its slot is what the slot reads, whatever was written before.
theorem chunk_head (c : Dev nD) (s : Fin 3) (r : Fin 4) (f : Buf (Elt F) ((c : Thread nD τ).loc cc0_scratch2))
    (L : List (View.Piece (Elt F) S3x1024x512 .bf16)) (P : FVec F S1x256x512 .bf16)
    (off : Fin 3 → Nat) (hoff : off = ![s.val, 256 * r.val, 0])
    (inb : ∀ a, off a + S1x256x512.size a ≤ S3x1024x512.size a)
    (hP : P = ys m c (peer c (offOf s)) r) :
    ∀ i ∈ (chunkSlot s r).view.set,
      ((Memref.whole cc0_scratch2 : Memref sig .tc .vmem S3x1024x512 .bf16).view.writes (Elt F) f
        ((⟨Rect.unit (s := S3x1024x512) off S1x256x512.size inb, P⟩ : View.Piece (Elt F) S3x1024x512 .bf16) :: L)) i
        = CFs (CFv m) c s r i := by
  intro i hi
  obtain ⟨y, -, rfl⟩ := Finset.mem_map.mp hi
  obtain ⟨p, q, rfl⟩ : ∃ (p : Fin 256) (q : Fin 512), y = ix2 p q := ⟨y 0, y 1, eq_ix2 y⟩
  rw [chunkSlot_emb]
  show _ = CFv m c (ix3 s (⟨256 * r.val + p.val, by have := p.isLt; have := r.isLt; omega⟩ : Fin 1024) q)
  rw [CFv_tile, ← hP]
  show ((View.whole cc0_scratch2).slice (Rect.unit (s := S3x1024x512) off S1x256x512.size inb)).write (Elt F) _ P Finset.univ _ = _
  rw [← chunk_piece_emb s r off hoff inb 0 p q, View.write_emb_of_mem _ _ (Finset.mem_univ _)]
  rfl

theorem hval_of (c : Dev nD) (s : Fin 3) (r : Fin 4)
    (fs : Buf (Elt F) ((chunkSlot s r).view.loc (c : Thread nD τ)))
    (hfs : ∀ i ∈ (chunkSlot s r).view.set, fs i = CFs (CFv m) c s r i)
    (fn : Buf (Elt F) ((recvSlot c r).view.loc ((peer c (offOf s) : Dev nD) : Thread nD τ))) :
    ∀ i ∈ (recvSlot c r).view.set,
      (recvSlot c r).view.write (Elt F) fn ((chunkSlot s r).view.read (Elt F) fs) Finset.univ i
        = RFs (RFv m) (peer c (offOf s)) c r i := by
  intro i hi
  obtain ⟨y, -, rfl⟩ := Finset.mem_map.mp hi
  obtain ⟨p, q, rfl⟩ : ∃ (p : Fin 256) (q : Fin 512), y = ix2 p q := ⟨y 0, y 1, eq_ix2 y⟩
  rw [View.write_emb_of_mem _ _ (Finset.mem_univ _)]
  show (chunkSlot s r).view.read (Elt F) fs (ix2 p q) = RFv m (peer c (offOf s)) ((recvSlot c r).view.emb (ix2 p q))
  rw [recvSlot_emb, RFv_tile, View.read_apply]
  show fs ((chunkSlot s r).view.emb (ix2 p q)) = _
  rw [hfs _ (View.emb_mem_set _ _)]
  show CFv m c ((chunkSlot s r).view.emb (ix2 p q)) = _
  rw [chunkSlot_emb, CFv_tile]

end Cert.KernelIdeal.A2A

end
-- ==== Proof.PayValue.lean ====
import proofs.«900531_g7700000000000532_dist_gemm_a2a_m4096_k4096_n2048_f32_gelu_v7x_i4_1_alg».proof.Proof.SendValue
import Idealize.ShloMosaic.Lib.Pipeline.FrameBody

noncomputable section

namespace Cert.KernelIdeal.A2A

open Cert.KernelIdeal Cert.KernelIdeal.Gen
open Idealize.ShloMosaic Idealize.ShloMosaic.TcCoe Idealize.ShloMosaic.ValueIdx

variable {F : FTy → Type} [FloatOps F]
variable (m : (ℓ : Loc nD τ sig) → Buf (Elt F) ℓ)

-- The local copy of the left argument after its four row groups were copied in, as the list of pieces written.
abbrev xPieces (c : Dev nD) (f0 : Buf (Elt F) ((c : Thread nD τ).loc main_arg0)) : List (View.Piece (Elt F) S1024x4096 .f32) :=
  [(⟨Rect.unit (s := S1024x4096) ![768, 0] S256x4096.size inb_S1024x4096_S256x4096_768_0,
        ReadAs.same.apply (View.read (Elt F) ((Memref.whole main_arg0 : Memref sig .tc .hbm S1024x4096 .f32).slice
          (Rect.unit (s := S1024x4096) ![768, 0] S256x4096.size inb_S1024x4096_S256x4096_768_0) (fun _ => rfl)).view f0)⟩ : View.Piece (Elt F) S1024x4096 .f32),
      (⟨Rect.unit (s := S1024x4096) ![512, 0] S256x4096.size inb_S1024x4096_S256x4096_512_0,
        ReadAs.same.apply (View.read (Elt F) ((Memref.whole main_arg0 : Memref sig .tc .hbm S1024x4096 .f32).slice
          (Rect.unit (s := S1024x4096) ![512, 0] S256x4096.size inb_S1024x4096_S256x4096_512_0) (fun _ => rfl)).view f0)⟩ : View.Piece (Elt F) S1024x4096 .f32),
      (⟨Rect.unit (s := S1024x4096) ![256, 0] S256x4096.size inb_S1024x4096_S256x4096_256_0,
        ReadAs.same.apply (View.read (Elt F) ((Memref.whole main_arg0 : Memref sig .tc .hbm S1024x4096 .f32).slice
          (Rect.unit (s := S1024x4096) ![256, 0] S256x4096.size inb_S1024x4096_S256x4096_256_0) (fun _ => rfl)).view f0)⟩ : View.Piece (Elt F) S1024x4096 .f32),
      (⟨Rect.unit (s := S1024x4096) ![0, 0] S256x4096.size inb_S1024x4096_S256x4096_0_0,
        ReadAs.same.apply (View.read (Elt F) ((Memref.whole main_arg0 : Memref sig .tc .hbm S1024x4096 .f32).slice
          (Rect.unit (s := S1024x4096) ![0, 0] S256x4096.size inb_S1024x4096_S256x4096_0_0) (fun _ => rfl)).view f0)⟩ : View.Piece (Elt F) S1024x4096 .f32)]

abbrev xLd (c : Dev nD) (f0 : Buf (Elt F) ((c : Thread nD τ).loc main_arg0)) (R : Rect S1024x4096) :=
  (Memref.whole cc0_scratch0 : Memref sig .tc .vmem S1024x4096 .f32).view.readCov (xPieces c f0) R.toLoadRect

-- One half of a plane of the local copy of the right argument.
abbrev wSq (off : Fin 3 → Nat) (inb : ∀ a, off a + S1x2048x512.size a ≤ S2x4096x512.size a) : Memref sig .tc .vmem S2048x512 .f32 :=
  ((Memref.whole cc0_scratch1 : Memref sig .tc .vmem S2x4096x512 .f32).slice
    (Rect.unit (s := S2x4096x512) off S1x2048x512.size inb) (fun _ => rfl)).squeeze S2048x512 squeezes_S1x2048x512_S2048x512

abbrev wRd (c : Dev nD) (f1 : Buf (Elt F) ((c : Thread nD τ).loc main_arg1)) (off : Fin 2 → Nat)
    (inb : ∀ a, off a + S2048x512.size a ≤ S4096x2048.size a) :=
  ReadAs.same.apply (View.read (Elt F) ((Memref.whole main_arg1 : Memref sig .tc .hbm S4096x2048 .f32).slice
    (Rect.unit (s := S4096x2048) off S2048x512.size inb) (fun _ => rfl)).view f1)

-- A plane of that copy read back after four half-plane writes.
abbrev wLd4 (c : Dev nD) (g : Buf (Elt F) ((c : Thread nD τ).loc cc0_scratch1))
    (oL : Fin 3 → Nat) (inbL : ∀ a, oL a + S1x4096x512.size a ≤ S2x4096x512.size a)
    (o0 : Fin 3 → Nat) (inb0 : ∀ a, o0 a + S1x2048x512.size a ≤ S2x4096x512.size a)
    (o1 : Fin 3 → Nat) (inb1 : ∀ a, o1 a + S1x2048x512.size a ≤ S2x4096x512.size a)
    (o2 : Fin 3 → Nat) (inb2 : ∀ a, o2 a + S1x2048x512.size a ≤ S2x4096x512.size a)
    (o3 : Fin 3 → Nat) (inb3 : ∀ a, o3 a + S1x2048x512.size a ≤ S2x4096x512.size a)
    (A B C D : Vec F S2048x512 .f32) :=
  View.readAt (Elt F) (Memref.whole cc0_scratch1 : Memref sig .tc .vmem S2x4096x512 .f32).view
    (Rect.unit (s := S2x4096x512) oL S1x4096x512.size inbL).toLoadRect
    ((wSq o3 inb3).view.write (Elt F) ((wSq o2 inb2).view.write (Elt F) ((wSq o1 inb1).view.write (Elt F)
      ((wSq o0 inb0).view.write (Elt F) g A Finset.univ) B Finset.univ) C Finset.univ) D Finset.univ)

theorem readCov_drop {sg : RefSig} {κ : Kind} {sp : Space} {s : Shape} {e : EltTy} (v : View sg κ sp s e) (r : Rect s)
    (w : r.shape.Idx → Elt F e) (L : List (View.Piece (Elt F) s e)) (B : LoadRect s) (h : Disjoint r.set B.set) :
    v.readCov ((⟨r, w⟩ : View.Piece (Elt F) s e) :: L) B = v.readCov L B :=
  View.readCov_cons_of_disjoint v ⟨r, w⟩ L B h

theorem xrows_disj (o o' : Nat) (inb inb') (h : o + 256 ≤ o' ∨ o' + 256 ≤ o) :
    Disjoint (Rect.unit (s := S1024x4096) ![o, 0] S256x4096.size inb).set
      (Rect.unit (s := S1024x4096) ![o', 0] S256x4096.size inb').toLoadRect.set :=
  Rect.unit_disjoint 0 h

theorem xload_cov_0 (c : Dev nD) (f0 : Buf (Elt F) ((c : Thread nD τ).loc main_arg0))
    (hf0 : f0 = m ((c : Thread nD τ).loc main_arg0)) :
    xLd c f0 (Rect.unit (s := S1024x4096) ![0, 0] S256x4096.size inb_S1024x4096_S256x4096_0_0)
      = xRows m c 0 := by
  subst hf0
  unfold xLd xPieces
  rw [readCov_drop _ _ _ _ _ (xrows_disj 768 0 _ _ (by decide)), readCov_drop _ _ _ _ _ (xrows_disj 512 0 _ _ (by decide)), readCov_drop _ _ _ _ _ (xrows_disj 256 0 _ _ (by decide)), View.readCov_cons_toLoadRect]
  exact xRows_read0 m c

theorem xload_cov_1 (c : Dev nD) (f0 : Buf (Elt F) ((c : Thread nD τ).loc main_arg0))
    (hf0 : f0 = m ((c : Thread nD τ).loc main_arg0)) :
    xLd c f0 (Rect.unit (s := S1024x4096) ![256, 0] S256x4096.size inb_S1024x4096_S256x4096_256_0)
      = xRows m c 1 := by
  subst hf0
  unfold xLd xPieces
  rw [readCov_drop _ _ _ _ _ (xrows_disj 768 256 _ _ (by decide)), readCov_drop _ _ _ _ _ (xrows_disj 512 256 _ _ (by decide)), View.readCov_cons_toLoadRect]
  exact xRows_read1 m c

theorem xload_cov_2 (c : Dev nD) (f0 : Buf (Elt F) ((c : Thread nD τ).loc main_arg0))
    (hf0 : f0 = m ((c : Thread nD τ).loc main_arg0)) :
    xLd c f0 (Rect.unit (s := S1024x4096) ![512, 0] S256x4096.size inb_S1024x4096_S256x4096_512_0)
      = xRows m c 2 := by
  subst hf0
  unfold xLd xPieces
  rw [readCov_drop _ _ _ _ _ (xrows_disj 768 512 _ _ (by decide)), View.readCov_cons_toLoadRect]
  exact xRows_read2 m c

theorem xload_cov_3 (c : Dev nD) (f0 : Buf (Elt F) ((c : Thread nD τ).loc main_arg0))
    (hf0 : f0 = m ((c : Thread nD τ).loc main_arg0)) :
    xLd c f0 (Rect.unit (s := S1024x4096) ![768, 0] S256x4096.size inb_S1024x4096_S256x4096_768_0)
      = xRows m c 3 := by
  subst hf0
  unfold xLd xPieces
  rw [View.readCov_cons_toLoadRect]
  exact xRows_read3 m c

theorem wdst_write_ne (c : Dev nD) (slot' h' slot h : Fin 2) (hne : slot' ≠ slot ∨ h' ≠ h)
    (off : Fin 3 → Nat) (hoff : off = ![slot'.val, 2048 * h'.val, 0])
    (inb : ∀ a, off a + S1x2048x512.size a ≤ S2x4096x512.size a)
    (fd : Buf (Elt F) ((c : Thread nD τ).loc cc0_scratch1)) (w : Vec F S2048x512 .f32) (k : Fin 2048) (q : Fin 512) :
    (wSq off inb).view.write (Elt F) fd w Finset.univ
      (ix3 slot (⟨2048 * h.val + k.val, by have := k.isLt; have := h.isLt; omega⟩ : Fin 4096) q : S2x4096x512.Idx)
      = fd (ix3 slot (⟨2048 * h.val + k.val, by have := k.isLt; have := h.isLt; omega⟩ : Fin 4096) q : S2x4096x512.Idx) := by
  apply View.write_of_not_mem
  rw [View.setOn_univ]
  intro hmem
  obtain ⟨y, -, hy⟩ := Finset.mem_map.mp hmem
  obtain ⟨k', q', rfl⟩ : ∃ (k' : Fin 2048) (q' : Fin 512), y = ix2 k' q' := ⟨y 0, y 1, eq_ix2 y⟩
  rw [wdst_emb slot' h' off hoff inb k' q'] at hy
  have h0 : slot'.val = slot.val := congrArg (fun i : S2x4096x512.Idx => (i 0).val) hy
  have h1 : 2048 * h'.val + k'.val = 2048 * h.val + k.val := congrArg (fun i : S2x4096x512.Idx => (i 1).val) hy
  rcases hne with hs | hh
  · exact hs (Fin.ext h0)
  · exact hh (Fin.ext (by have := k.isLt; have := k'.isLt; omega))

theorem wslot_after (c dst : Dev nD) (slot : Fin 2) (g : Buf (Elt F) ((c : Thread nD τ).loc cc0_scratch1))
    (A B : Vec F S2048x512 .f32) (hA : A = wHalf m c dst 0) (hB : B = wHalf m c dst 1)
    (o0 o1 : Fin 3 → Nat) (ho0 : o0 = ![slot.val, 0, 0]) (ho1 : o1 = ![slot.val, 2048, 0])
    (inb0 : ∀ a, o0 a + S1x2048x512.size a ≤ S2x4096x512.size a) (inb1 : ∀ a, o1 a + S1x2048x512.size a ≤ S2x4096x512.size a)
    (h : Fin 2) (k : Fin 2048) (q : Fin 512) :
    (wSq o1 inb1).view.write (Elt F)
        ((wSq o0 inb0).view.write (Elt F) g A Finset.univ) B Finset.univ
      (ix3 slot (⟨2048 * h.val + k.val, by have := k.isLt; have := h.isLt; omega⟩ : Fin 4096) q : S2x4096x512.Idx)
      = wHalf m c dst h (ix2 k q) := by
  have ho0' : o0 = ![slot.val, 2048 * (0 : Fin 2).val, 0] := ho0
  have ho1' : o1 = ![slot.val, 2048 * (1 : Fin 2).val, 0] := ho1
  have h01 : h = 0 ∨ h = 1 := by
    rcases h with ⟨v, hv⟩
    have hv' : v = 0 ∨ v = 1 := by omega
    rcases hv' with rfl | rfl
    · exact Or.inl rfl
    · exact Or.inr rfl
  rcases h01 with rfl | rfl
  · rw [wdst_write_ne c slot 1 slot 0 (Or.inr (by decide)) o1 ho1' inb1, wdst_write c slot 0 o0 ho0' inb0, hA]
  · rw [wdst_write c slot 1 o1 ho1' inb1, hB]

theorem wload_P0 (c dst : Dev nD) (slot : Fin 2) (g : Buf (Elt F) ((c : Thread nD τ).loc cc0_scratch1))
    (A B : Vec F S2048x512 .f32) (hA : A = wHalf m c dst 0) (hB : B = wHalf m c dst 1)
    (o0 o1 oL : Fin 3 → Nat) (ho0 : o0 = ![slot.val, 0, 0]) (ho1 : o1 = ![slot.val, 2048, 0]) (hoL : oL = ![slot.val, 0, 0])
    (inb0 : ∀ a, o0 a + S1x2048x512.size a ≤ S2x4096x512.size a) (inb1 : ∀ a, o1 a + S1x2048x512.size a ≤ S2x4096x512.size a)
    (inbL : ∀ a, oL a + S1x4096x512.size a ≤ S2x4096x512.size a) :
    View.readAt (Elt F) (Memref.whole cc0_scratch1 : Memref sig .tc .vmem S2x4096x512 .f32).view
        (Rect.unit (s := S2x4096x512) oL S1x4096x512.size inbL).toLoadRect
        ((wSq o1 inb1).view.write (Elt F)
          ((wSq o0 inb0).view.write (Elt F) g A Finset.univ) B Finset.univ)
      = wCols m c dst :=
  wload_eq m c dst slot _ (fun h k q => wslot_after m c dst slot g A B hA hB o0 o1 ho0 ho1 inb0 inb1 h k q) oL hoL inbL

theorem wload_P2 (c dst : Dev nD) (slot other : Fin 2) (hother : other ≠ slot)
    (g : Buf (Elt F) ((c : Thread nD τ).loc cc0_scratch1))
    (A B C D : Vec F S2048x512 .f32) (hA : A = wHalf m c dst 0) (hB : B = wHalf m c dst 1)
    (o0 o1 o2 o3 oL : Fin 3 → Nat) (ho0 : o0 = ![slot.val, 0, 0]) (ho1 : o1 = ![slot.val, 2048, 0])
    (ho2 : o2 = ![other.val, 0, 0]) (ho3 : o3 = ![other.val, 2048, 0]) (hoL : oL = ![slot.val, 0, 0])
    (inb0 : ∀ a, o0 a + S1x2048x512.size a ≤ S2x4096x512.size a) (inb1 : ∀ a, o1 a + S1x2048x512.size a ≤ S2x4096x512.size a)
    (inb2 : ∀ a, o2 a + S1x2048x512.size a ≤ S2x4096x512.size a) (inb3 : ∀ a, o3 a + S1x2048x512.size a ≤ S2x4096x512.size a)
    (inbL : ∀ a, oL a + S1x4096x512.size a ≤ S2x4096x512.size a) :
    wLd4 c g oL inbL o0 inb0 o1 inb1 o2 inb2 o3 inb3 A B C D = wCols m c dst := by
  have ho2' : o2 = ![other.val, 2048 * (0 : Fin 2).val, 0] := ho2
  have ho3' : o3 = ![other.val, 2048 * (1 : Fin 2).val, 0] := ho3
  refine wload_eq m c dst slot _ (fun h k q => ?_) oL hoL inbL
  rw [wdst_write_ne c other 1 slot h (Or.inl hother) o3 ho3' inb3, wdst_write_ne c other 0 slot h (Or.inl hother) o2 ho2' inb2]
  exact wslot_after m c dst slot g A B hA hB o0 o1 ho0 ho1 inb0 inb1 h k q

theorem hfs_0_0 (c : Dev nD) (f : Buf (Elt F) ((c : Thread nD τ).loc cc0_scratch2))
    (L : List (View.Piece (Elt F) S3x1024x512 .bf16))
    (f0 : Buf (Elt F) ((c : Thread nD τ).loc main_arg0)) (hf0 : f0 = m ((c : Thread nD τ).loc main_arg0))
    (f1 : Buf (Elt F) ((c : Thread nD τ).loc main_arg1)) (hf1 : f1 = m ((c : Thread nD τ).loc main_arg1))
    (g : Buf (Elt F) ((c : Thread nD τ).loc cc0_scratch1)) (C D : Vec F S2048x512 .f32) :
    ∀ i ∈ (chunkSlot 0 0).view.set,
      ((Memref.whole cc0_scratch2 : Memref sig .tc .vmem S3x1024x512 .bf16).view.writes (Elt F) f
        ((⟨Rect.unit (s := S3x1024x512) ![0, 0, 0] S1x256x512.size inb_S3x1024x512_S1x256x512_0_0_0,
          k0_pay3 (k0_pay2 (xLd c f0 (Rect.unit (s := S1024x4096) ![0, 0] S256x4096.size inb_S1024x4096_S256x4096_0_0)) (wLd4 c g ![0, 0, 0] inb_S2x4096x512_S1x4096x512_0_0_0 ![0, 0, 0] inb_S2x4096x512_S1x2048x512_0_0_0 ![0, 2048, 0] inb_S2x4096x512_S1x2048x512_0_2048_0 ![1, 0, 0] inb_S2x4096x512_S1x2048x512_1_0_0 ![1, 2048, 0] inb_S2x4096x512_S1x2048x512_1_2048_0 (wRd c f1 (k0_off1 c 2#32) (k0_off1_inb c 2)) (wRd c f1 (k0_off2 c 2#32) (k0_off2_inb c 2)) C D))⟩ : View.Piece (Elt F) S3x1024x512 .bf16) :: L)) i
        = CFs (CFv m) c 0 0 i :=
  chunk_head m c 0 0 f L _ _ rfl _ (by
    rw [xload_cov_0 m c f0 hf0,
      wload_P2 m c (peer c 2) 0 1 (by decide) g _ _ C D
        (by subst hf1; exact wHalf_read_off1_2 m c) (by subst hf1; exact wHalf_read_off2_2 m c)
        ![0, 0, 0] ![0, 2048, 0] ![1, 0, 0] ![1, 2048, 0] ![0, 0, 0] rfl rfl rfl rfl rfl]
    exact pay3_pay2_eq15 _ _)

theorem hfs_0_1 (c : Dev nD) (f : Buf (Elt F) ((c : Thread nD τ).loc cc0_scratch2))
    (L : List (View.Piece (Elt F) S3x1024x512 .bf16))
    (f0 : Buf (Elt F) ((c : Thread nD τ).loc main_arg0)) (hf0 : f0 = m ((c : Thread nD τ).loc main_arg0))
    (f1 : Buf (Elt F) ((c : Thread nD τ).loc main_arg1)) (hf1 : f1 = m ((c : Thread nD τ).loc main_arg1))
    (g : Buf (Elt F) ((c : Thread nD τ).loc cc0_scratch1)) (C D : Vec F S2048x512 .f32) :
    ∀ i ∈ (chunkSlot 0 1).view.set,
      ((Memref.whole cc0_scratch2 : Memref sig .tc .vmem S3x1024x512 .bf16).view.writes (Elt F) f
        ((⟨Rect.unit (s := S3x1024x512) ![0, 256, 0] S1x256x512.size inb_S3x1024x512_S1x256x512_0_256_0,
          k0_pay7 (k0_pay5 (xLd c f0 (Rect.unit (s := S1024x4096) ![256, 0] S256x4096.size inb_S1024x4096_S256x4096_256_0)) (wLd4 c g ![0, 0, 0] inb_S2x4096x512_S1x4096x512_0_0_0 ![0, 0, 0] inb_S2x4096x512_S1x2048x512_0_0_0 ![0, 2048, 0] inb_S2x4096x512_S1x2048x512_0_2048_0 ![1, 0, 0] inb_S2x4096x512_S1x2048x512_1_0_0 ![1, 2048, 0] inb_S2x4096x512_S1x2048x512_1_2048_0 (wRd c f1 (k0_off1 c 2#32) (k0_off1_inb c 2)) (wRd c f1 (k0_off2 c 2#32) (k0_off2_inb c 2)) C D)) (k0_pay6 (xLd c f0 (Rect.unit (s := S1024x4096) ![256, 0] S256x4096.size inb_S1024x4096_S256x4096_256_0)) (wLd4 c g ![0, 0, 0] inb_S2x4096x512_S1x4096x512_0_0_0 ![0, 0, 0] inb_S2x4096x512_S1x2048x512_0_0_0 ![0, 2048, 0] inb_S2x4096x512_S1x2048x512_0_2048_0 ![1, 0, 0] inb_S2x4096x512_S1x2048x512_1_0_0 ![1, 2048, 0] inb_S2x4096x512_S1x2048x512_1_2048_0 (wRd c f1 (k0_off1 c 2#32) (k0_off1_inb c 2)) (wRd c f1 (k0_off2 c 2#32) (k0_off2_inb c 2)) C D)) (Scalar.ofBits .f32 0x3F800000#32)⟩ : View.Piece (Elt F) S3x1024x512 .bf16) :: L)) i
        = CFs (CFv m) c 0 1 i :=
  chunk_head m c 0 1 f L _ _ rfl _ (by
    rw [xload_cov_1 m c f0 hf0,
      wload_P2 m c (peer c 2) 0 1 (by decide) g _ _ C D
        (by subst hf1; exact wHalf_read_off1_2 m c) (by subst hf1; exact wHalf_read_off2_2 m c)
        ![0, 0, 0] ![0, 2048, 0] ![1, 0, 0] ![1, 2048, 0] ![0, 0, 0] rfl rfl rfl rfl rfl]
    exact pay7_eq15 _ _)

theorem hfs_0_2 (c : Dev nD) (f : Buf (Elt F) ((c : Thread nD τ).loc cc0_scratch2))
    (L : List (View.Piece (Elt F) S3x1024x512 .bf16))
    (f0 : Buf (Elt F) ((c : Thread nD τ).loc main_arg0)) (hf0 : f0 = m ((c : Thread nD τ).loc main_arg0))
    (f1 : Buf (Elt F) ((c : Thread nD τ).loc main_arg1)) (hf1 : f1 = m ((c : Thread nD τ).loc main_arg1))
    (g : Buf (Elt F) ((c : Thread nD τ).loc cc0_scratch1)) (C D : Vec F S2048x512 .f32) :
    ∀ i ∈ (chunkSlot 0 2).view.set,
      ((Memref.whole cc0_scratch2 : Memref sig .tc .vmem S3x1024x512 .bf16).view.writes (Elt F) f
        ((⟨Rect.unit (s := S3x1024x512) ![0, 512, 0] S1x256x512.size inb_S3x1024x512_S1x256x512_0_512_0,
          k0_pay11 (k0_pay8 (xLd c f0 (Rect.unit (s := S1024x4096) ![512, 0] S256x4096.size inb_S1024x4096_S256x4096_512_0)) (wLd4 c g ![0, 0, 0] inb_S2x4096x512_S1x4096x512_0_0_0 ![0, 0, 0] inb_S2x4096x512_S1x2048x512_0_0_0 ![0, 2048, 0] inb_S2x4096x512_S1x2048x512_0_2048_0 ![1, 0, 0] inb_S2x4096x512_S1x2048x512_1_0_0 ![1, 2048, 0] inb_S2x4096x512_S1x2048x512_1_2048_0 (wRd c f1 (k0_off1 c 2#32) (k0_off1_inb c 2)) (wRd c f1 (k0_off2 c 2#32) (k0_off2_inb c 2)) C D)) (k0_pay9 (xLd c f0 (Rect.unit (s := S1024x4096) ![512, 0] S256x4096.size inb_S1024x4096_S256x4096_512_0)) (wLd4 c g ![0, 0, 0] inb_S2x4096x512_S1x4096x512_0_0_0 ![0, 0, 0] inb_S2x4096x512_S1x2048x512_0_0_0 ![0, 2048, 0] inb_S2x4096x512_S1x2048x512_0_2048_0 ![1, 0, 0] inb_S2x4096x512_S1x2048x512_1_0_0 ![1, 2048, 0] inb_S2x4096x512_S1x2048x512_1_2048_0 (wRd c f1 (k0_off1 c 2#32) (k0_off1_inb c 2)) (wRd c f1 (k0_off2 c 2#32) (k0_off2_inb c 2)) C D)) (k0_pay10 (xLd c f0 (Rect.unit (s := S1024x4096) ![512, 0] S256x4096.size inb_S1024x4096_S256x4096_512_0)) (wLd4 c g ![0, 0, 0] inb_S2x4096x512_S1x4096x512_0_0_0 ![0, 0, 0] inb_S2x4096x512_S1x2048x512_0_0_0 ![0, 2048, 0] inb_S2x4096x512_S1x2048x512_0_2048_0 ![1, 0, 0] inb_S2x4096x512_S1x2048x512_1_0_0 ![1, 2048, 0] inb_S2x4096x512_S1x2048x512_1_2048_0 (wRd c f1 (k0_off1 c 2#32) (k0_off1_inb c 2)) (wRd c f1 (k0_off2 c 2#32) (k0_off2_inb c 2)) C D))⟩ : View.Piece (Elt F) S3x1024x512 .bf16) :: L)) i
        = CFs (CFv m) c 0 2 i :=
  chunk_head m c 0 2 f L _ _ rfl _ (by
    rw [xload_cov_2 m c f0 hf0,
      wload_P2 m c (peer c 2) 0 1 (by decide) g _ _ C D
        (by subst hf1; exact wHalf_read_off1_2 m c) (by subst hf1; exact wHalf_read_off2_2 m c)
        ![0, 0, 0] ![0, 2048, 0] ![1, 0, 0] ![1, 2048, 0] ![0, 0, 0] rfl rfl rfl rfl rfl]
    exact pay11_eq15 _ _)

theorem hfs_0_3 (c : Dev nD) (f : Buf (Elt F) ((c : Thread nD τ).loc cc0_scratch2))
    (L : List (View.Piece (Elt F) S3x1024x512 .bf16))
    (f0 : Buf (Elt F) ((c : Thread nD τ).loc main_arg0)) (hf0 : f0 = m ((c : Thread nD τ).loc main_arg0))
    (f1 : Buf (Elt F) ((c : Thread nD τ).loc main_arg1)) (hf1 : f1 = m ((c : Thread nD τ).loc main_arg1))
    (g : Buf (Elt F) ((c : Thread nD τ).loc cc0_scratch1)) (C D : Vec F S2048x512 .f32) :
    ∀ i ∈ (chunkSlot 0 3).view.set,
      ((Memref.whole cc0_scratch2 : Memref sig .tc .vmem S3x1024x512 .bf16).view.writes (Elt F) f
        ((⟨Rect.unit (s := S3x1024x512) ![0, 768, 0] S1x256x512.size inb_S3x1024x512_S1x256x512_0_768_0,
          k0_pay14 (k0_pay12 (xLd c f0 (Rect.unit (s := S1024x4096) ![768, 0] S256x4096.size inb_S1024x4096_S256x4096_768_0)) (wLd4 c g ![0, 0, 0] inb_S2x4096x512_S1x4096x512_0_0_0 ![0, 0, 0] inb_S2x4096x512_S1x2048x512_0_0_0 ![0, 2048, 0] inb_S2x4096x512_S1x2048x512_0_2048_0 ![1, 0, 0] inb_S2x4096x512_S1x2048x512_1_0_0 ![1, 2048, 0] inb_S2x4096x512_S1x2048x512_1_2048_0 (wRd c f1 (k0_off1 c 2#32) (k0_off1_inb c 2)) (wRd c f1 (k0_off2 c 2#32) (k0_off2_inb c 2)) C D)) (k0_pay13 (F := F))⟩ : View.Piece (Elt F) S3x1024x512 .bf16) :: L)) i
        = CFs (CFv m) c 0 3 i :=
  chunk_head m c 0 3 f L _ _ rfl _ (by
    rw [xload_cov_3 m c f0 hf0,
      wload_P2 m c (peer c 2) 0 1 (by decide) g _ _ C D
        (by subst hf1; exact wHalf_read_off1_2 m c) (by subst hf1; exact wHalf_read_off2_2 m c)
        ![0, 0, 0] ![0, 2048, 0] ![1, 0, 0] ![1, 2048, 0] ![0, 0, 0] rfl rfl rfl rfl rfl]
    exact pay14_eq15 _ _)

theorem hfs_1_0 (c : Dev nD) (f : Buf (Elt F) ((c : Thread nD τ).loc cc0_scratch2))
    (L : List (View.Piece (Elt F) S3x1024x512 .bf16))
    (f0 : Buf (Elt F) ((c : Thread nD τ).loc main_arg0)) (hf0 : f0 = m ((c : Thread nD τ).loc main_arg0))
    (f1 : Buf (Elt F) ((c : Thread nD τ).loc main_arg1)) (hf1 : f1 = m ((c : Thread nD τ).loc main_arg1))
    (g : Buf (Elt F) ((c : Thread nD τ).loc cc0_scratch1)) (C D : Vec F S2048x512 .f32) :
    ∀ i ∈ (chunkSlot 1 0).view.set,
      ((Memref.whole cc0_scratch2 : Memref sig .tc .vmem S3x1024x512 .bf16).view.writes (Elt F) f
        ((⟨Rect.unit (s := S3x1024x512) ![1, 0, 0] S1x256x512.size inb_S3x1024x512_S1x256x512_1_0_0,
          k0_pay15 (xLd c f0 (Rect.unit (s := S1024x4096) ![0, 0] S256x4096.size inb_S1024x4096_S256x4096_0_0)) (wLd4 c g ![1, 0, 0] inb_S2x4096x512_S1x4096x512_1_0_0 ![1, 0, 0] inb_S2x4096x512_S1x2048x512_1_0_0 ![1, 2048, 0] inb_S2x4096x512_S1x2048x512_1_2048_0 ![0, 0, 0] inb_S2x4096x512_S1x2048x512_0_0_0 ![0, 2048, 0] inb_S2x4096x512_S1x2048x512_0_2048_0 (wRd c f1 (k0_off1 c 1#32) (k0_off1_inb c 1)) (wRd c f1 (k0_off2 c 1#32) (k0_off2_inb c 1)) C D)⟩ : View.Piece (Elt F) S3x1024x512 .bf16) :: L)) i
        = CFs (CFv m) c 1 0 i :=
  chunk_head m c 1 0 f L _ _ rfl _ (by
    rw [xload_cov_0 m c f0 hf0,
      wload_P2 m c (peer c 1) 1 0 (by decide) g _ _ C D
        (by subst hf1; exact wHalf_read_off1_1 m c) (by subst hf1; exact wHalf_read_off2_1 m c)
        ![1, 0, 0] ![1, 2048, 0] ![0, 0, 0] ![0, 2048, 0] ![1, 0, 0] rfl rfl rfl rfl rfl]
    rfl)

theorem hfs_1_1 (c : Dev nD) (f : Buf (Elt F) ((c : Thread nD τ).loc cc0_scratch2))
    (L : List (View.Piece (Elt F) S3x1024x512 .bf16))
    (f0 : Buf (Elt F) ((c : Thread nD τ).loc main_arg0)) (hf0 : f0 = m ((c : Thread nD τ).loc main_arg0))
    (f1 : Buf (Elt F) ((c : Thread nD τ).loc main_arg1)) (hf1 : f1 = m ((c : Thread nD τ).loc main_arg1))
    (g : Buf (Elt F) ((c : Thread nD τ).loc cc0_scratch1)) (C D : Vec F S2048x512 .f32) :
    ∀ i ∈ (chunkSlot 1 1).view.set,
      ((Memref.whole cc0_scratch2 : Memref sig .tc .vmem S3x1024x512 .bf16).view.writes (Elt F) f
        ((⟨Rect.unit (s := S3x1024x512) ![1, 256, 0] S1x256x512.size inb_S3x1024x512_S1x256x512_1_256_0,
          k0_pay16 (xLd c f0 (Rect.unit (s := S1024x4096) ![256, 0] S256x4096.size inb_S1024x4096_S256x4096_256_0)) (wLd4 c g ![1, 0, 0] inb_S2x4096x512_S1x4096x512_1_0_0 ![1, 0, 0] inb_S2x4096x512_S1x2048x512_1_0_0 ![1, 2048, 0] inb_S2x4096x512_S1x2048x512_1_2048_0 ![0, 0, 0] inb_S2x4096x512_S1x2048x512_0_0_0 ![0, 2048, 0] inb_S2x4096x512_S1x2048x512_0_2048_0 (wRd c f1 (k0_off1 c 1#32) (k0_off1_inb c 1)) (wRd c f1 (k0_off2 c 1#32) (k0_off2_inb c 1)) C D)⟩ : View.Piece (Elt F) S3x1024x512 .bf16) :: L)) i
        = CFs (CFv m) c 1 1 i :=
  chunk_head m c 1 1 f L _ _ rfl _ (by
    rw [xload_cov_1 m c f0 hf0,
      wload_P2 m c (peer c 1) 1 0 (by decide) g _ _ C D
        (by subst hf1; exact wHalf_read_off1_1 m c) (by subst hf1; exact wHalf_read_off2_1 m c)
        ![1, 0, 0] ![1, 2048, 0] ![0, 0, 0] ![0, 2048, 0] ![1, 0, 0] rfl rfl rfl rfl rfl]
    exact pay16_eq15 _ _)

theorem hfs_1_2 (c : Dev nD) (f : Buf (Elt F) ((c : Thread nD τ).loc cc0_scratch2))
    (L : List (View.Piece (Elt F) S3x1024x512 .bf16))
    (f0 : Buf (Elt F) ((c : Thread nD τ).loc main_arg0)) (hf0 : f0 = m ((c : Thread nD τ).loc main_arg0))
    (f1 : Buf (Elt F) ((c : Thread nD τ).loc main_arg1)) (hf1 : f1 = m ((c : Thread nD τ).loc main_arg1))
    (g : Buf (Elt F) ((c : Thread nD τ).loc cc0_scratch1)) (C D : Vec F S2048x512 .f32) :
    ∀ i ∈ (chunkSlot 1 2).view.set,
      ((Memref.whole cc0_scratch2 : Memref sig .tc .vmem S3x1024x512 .bf16).view.writes (Elt F) f
        ((⟨Rect.unit (s := S3x1024x512) ![1, 512, 0] S1x256x512.size inb_S3x1024x512_S1x256x512_1_512_0,
          k0_pay17 (xLd c f0 (Rect.unit (s := S1024x4096) ![512, 0] S256x4096.size inb_S1024x4096_S256x4096_512_0)) (wLd4 c g ![1, 0, 0] inb_S2x4096x512_S1x4096x512_1_0_0 ![1, 0, 0] inb_S2x4096x512_S1x2048x512_1_0_0 ![1, 2048, 0] inb_S2x4096x512_S1x2048x512_1_2048_0 ![0, 0, 0] inb_S2x4096x512_S1x2048x512_0_0_0 ![0, 2048, 0] inb_S2x4096x512_S1x2048x512_0_2048_0 (wRd c f1 (k0_off1 c 1#32) (k0_off1_inb c 1)) (wRd c f1 (k0_off2 c 1#32) (k0_off2_inb c 1)) C D)⟩ : View.Piece (Elt F) S3x1024x512 .bf16) :: L)) i
        = CFs (CFv m) c 1 2 i :=
  chunk_head m c 1 2 f L _ _ rfl _ (by
    rw [xload_cov_2 m c f0 hf0,
      wload_P2 m c (peer c 1) 1 0 (by decide) g _ _ C D
        (by subst hf1; exact wHalf_read_off1_1 m c) (by subst hf1; exact wHalf_read_off2_1 m c)
        ![1, 0, 0] ![1, 2048, 0] ![0, 0, 0] ![0, 2048, 0] ![1, 0, 0] rfl rfl rfl rfl rfl]
    exact pay17_eq15 _ _)

theorem hfs_1_3 (c : Dev nD) (f : Buf (Elt F) ((c : Thread nD τ).loc cc0_scratch2))
    (L : List (View.Piece (Elt F) S3x1024x512 .bf16))
    (f0 : Buf (Elt F) ((c : Thread nD τ).loc main_arg0)) (hf0 : f0 = m ((c : Thread nD τ).loc main_arg0))
    (f1 : Buf (Elt F) ((c : Thread nD τ).loc main_arg1)) (hf1 : f1 = m ((c : Thread nD τ).loc main_arg1))
    (g : Buf (Elt F) ((c : Thread nD τ).loc cc0_scratch1)) (C D : Vec F S2048x512 .f32) :
    ∀ i ∈ (chunkSlot 1 3).view.set,
      ((Memref.whole cc0_scratch2 : Memref sig .tc .vmem S3x1024x512 .bf16).view.writes (Elt F) f
        ((⟨Rect.unit (s := S3x1024x512) ![1, 768, 0] S1x256x512.size inb_S3x1024x512_S1x256x512_1_768_0,
          k0_pay18 (xLd c f0 (Rect.unit (s := S1024x4096) ![768, 0] S256x4096.size inb_S1024x4096_S256x4096_768_0)) (wLd4 c g ![1, 0, 0] inb_S2x4096x512_S1x4096x512_1_0_0 ![1, 0, 0] inb_S2x4096x512_S1x2048x512_1_0_0 ![1, 2048, 0] inb_S2x4096x512_S1x2048x512_1_2048_0 ![0, 0, 0] inb_S2x4096x512_S1x2048x512_0_0_0 ![0, 2048, 0] inb_S2x4096x512_S1x2048x512_0_2048_0 (wRd c f1 (k0_off1 c 1#32) (k0_off1_inb c 1)) (wRd c f1 (k0_off2 c 1#32) (k0_off2_inb c 1)) C D)⟩ : View.Piece (Elt F) S3x1024x512 .bf16) :: L)) i
        = CFs (CFv m) c 1 3 i :=
  chunk_head m c 1 3 f L _ _ rfl _ (by
    rw [xload_cov_3 m c f0 hf0,
      wload_P2 m c (peer c 1) 1 0 (by decide) g _ _ C D
        (by subst hf1; exact wHalf_read_off1_1 m c) (by subst hf1; exact wHalf_read_off2_1 m c)
        ![1, 0, 0] ![1, 2048, 0] ![0, 0, 0] ![0, 2048, 0] ![1, 0, 0] rfl rfl rfl rfl rfl]
    exact pay18_eq15 _ _)

theorem hfs_2_0 (c : Dev nD) (f : Buf (Elt F) ((c : Thread nD τ).loc cc0_scratch2))
    (L : List (View.Piece (Elt F) S3x1024x512 .bf16))
    (f0 : Buf (Elt F) ((c : Thread nD τ).loc main_arg0)) (hf0 : f0 = m ((c : Thread nD τ).loc main_arg0))
    (f1 : Buf (Elt F) ((c : Thread nD τ).loc main_arg1)) (hf1 : f1 = m ((c : Thread nD τ).loc main_arg1))
    (g : Buf (Elt F) ((c : Thread nD τ).loc cc0_scratch1)) (C D : Vec F S2048x512 .f32) :
    ∀ i ∈ (chunkSlot 2 0).view.set,
      ((Memref.whole cc0_scratch2 : Memref sig .tc .vmem S3x1024x512 .bf16).view.writes (Elt F) f
        ((⟨Rect.unit (s := S3x1024x512) ![2, 0, 0] S1x256x512.size inb_S3x1024x512_S1x256x512_2_0_0,
          k0_pay20 (k0_pay19 (xLd c f0 (Rect.unit (s := S1024x4096) ![0, 0] S256x4096.size inb_S1024x4096_S256x4096_0_0)) (wLd4 c g ![0, 0, 0] inb_S2x4096x512_S1x4096x512_0_0_0 ![0, 0, 0] inb_S2x4096x512_S1x2048x512_0_0_0 ![0, 2048, 0] inb_S2x4096x512_S1x2048x512_0_2048_0 ![1, 0, 0] inb_S2x4096x512_S1x2048x512_1_0_0 ![1, 2048, 0] inb_S2x4096x512_S1x2048x512_1_2048_0 (wRd c f1 (k0_off1 c 3#32) (k0_off1_inb c 3)) (wRd c f1 (k0_off2 c 3#32) (k0_off2_inb c 3)) C D))⟩ : View.Piece (Elt F) S3x1024x512 .bf16) :: L)) i
        = CFs (CFv m) c 2 0 i :=
  chunk_head m c 2 0 f L _ _ rfl _ (by
    rw [xload_cov_0 m c f0 hf0,
      wload_P2 m c (peer c 3) 0 1 (by decide) g _ _ C D
        (by subst hf1; exact wHalf_read_off1_3 m c) (by subst hf1; exact wHalf_read_off2_3 m c)
        ![0, 0, 0] ![0, 2048, 0] ![1, 0, 0] ![1, 2048, 0] ![0, 0, 0] rfl rfl rfl rfl rfl]
    exact pay20_pay19_eq15 _ _)

theorem hfs_2_1 (c : Dev nD) (f : Buf (Elt F) ((c : Thread nD τ).loc cc0_scratch2))
    (L : List (View.Piece (Elt F) S3x1024x512 .bf16))
    (f0 : Buf (Elt F) ((c : Thread nD τ).loc main_arg0)) (hf0 : f0 = m ((c : Thread nD τ).loc main_arg0))
    (f1 : Buf (Elt F) ((c : Thread nD τ).loc main_arg1)) (hf1 : f1 = m ((c : Thread nD τ).loc main_arg1))
    (g : Buf (Elt F) ((c : Thread nD τ).loc cc0_scratch1)) (C D : Vec F S2048x512 .f32) :
    ∀ i ∈ (chunkSlot 2 1).view.set,
      ((Memref.whole cc0_scratch2 : Memref sig .tc .vmem S3x1024x512 .bf16).view.writes (Elt F) f
        ((⟨Rect.unit (s := S3x1024x512) ![2, 256, 0] S1x256x512.size inb_S3x1024x512_S1x256x512_2_256_0,
          k0_pay22 (k0_pay21 (xLd c f0 (Rect.unit (s := S1024x4096) ![256, 0] S256x4096.size inb_S1024x4096_S256x4096_256_0)) (wLd4 c g ![0, 0, 0] inb_S2x4096x512_S1x4096x512_0_0_0 ![0, 0, 0] inb_S2x4096x512_S1x2048x512_0_0_0 ![0, 2048, 0] inb_S2x4096x512_S1x2048x512_0_2048_0 ![1, 0, 0] inb_S2x4096x512_S1x2048x512_1_0_0 ![1, 2048, 0] inb_S2x4096x512_S1x2048x512_1_2048_0 (wRd c f1 (k0_off1 c 3#32) (k0_off1_inb c 3)) (wRd c f1 (k0_off2 c 3#32) (k0_off2_inb c 3)) C D))⟩ : View.Piece (Elt F) S3x1024x512 .bf16) :: L)) i
        = CFs (CFv m) c 2 1 i :=
  chunk_head m c 2 1 f L _ _ rfl _ (by
    rw [xload_cov_1 m c f0 hf0,
      wload_P2 m c (peer c 3) 0 1 (by decide) g _ _ C D
        (by subst hf1; exact wHalf_read_off1_3 m c) (by subst hf1; exact wHalf_read_off2_3 m c)
        ![0, 0, 0] ![0, 2048, 0] ![1, 0, 0] ![1, 2048, 0] ![0, 0, 0] rfl rfl rfl rfl rfl]
    exact pay22_pay21_eq15 _ _)

theorem hfs_2_2 (c : Dev nD) (f : Buf (Elt F) ((c : Thread nD τ).loc cc0_scratch2))
    (L : List (View.Piece (Elt F) S3x1024x512 .bf16))
    (f0 : Buf (Elt F) ((c : Thread nD τ).loc main_arg0)) (hf0 : f0 = m ((c : Thread nD τ).loc main_arg0))
    (f1 : Buf (Elt F) ((c : Thread nD τ).loc main_arg1)) (hf1 : f1 = m ((c : Thread nD τ).loc main_arg1))
    (g : Buf (Elt F) ((c : Thread nD τ).loc cc0_scratch1)) (C D : Vec F S2048x512 .f32) :
    ∀ i ∈ (chunkSlot 2 2).view.set,
      ((Memref.whole cc0_scratch2 : Memref sig .tc .vmem S3x1024x512 .bf16).view.writes (Elt F) f
        ((⟨Rect.unit (s := S3x1024x512) ![2, 512, 0] S1x256x512.size inb_S3x1024x512_S1x256x512_2_512_0,
          k0_pay23 (xLd c f0 (Rect.unit (s := S1024x4096) ![512, 0] S256x4096.size inb_S1024x4096_S256x4096_512_0)) (wLd4 c g ![0, 0, 0] inb_S2x4096x512_S1x4096x512_0_0_0 ![0, 0, 0] inb_S2x4096x512_S1x2048x512_0_0_0 ![0, 2048, 0] inb_S2x4096x512_S1x2048x512_0_2048_0 ![1, 0, 0] inb_S2x4096x512_S1x2048x512_1_0_0 ![1, 2048, 0] inb_S2x4096x512_S1x2048x512_1_2048_0 (wRd c f1 (k0_off1 c 3#32) (k0_off1_inb c 3)) (wRd c f1 (k0_off2 c 3#32) (k0_off2_inb c 3)) C D)⟩ : View.Piece (Elt F) S3x1024x512 .bf16) :: L)) i
        = CFs (CFv m) c 2 2 i :=
  chunk_head m c 2 2 f L _ _ rfl _ (by
    rw [xload_cov_2 m c f0 hf0,
      wload_P2 m c (peer c 3) 0 1 (by decide) g _ _ C D
        (by subst hf1; exact wHalf_read_off1_3 m c) (by subst hf1; exact wHalf_read_off2_3 m c)
        ![0, 0, 0] ![0, 2048, 0] ![1, 0, 0] ![1, 2048, 0] ![0, 0, 0] rfl rfl rfl rfl rfl]
    exact pay23_eq15 _ _)

theorem hfs_2_3 (c : Dev nD) (f : Buf (Elt F) ((c : Thread nD τ).loc cc0_scratch2))
    (L : List (View.Piece (Elt F) S3x1024x512 .bf16))
    (f0 : Buf (Elt F) ((c : Thread nD τ).loc main_arg0)) (hf0 : f0 = m ((c : Thread nD τ).loc main_arg0))
    (f1 : Buf (Elt F) ((c : Thread nD τ).loc main_arg1)) (hf1 : f1 = m ((c : Thread nD τ).loc main_arg1))
    (g : Buf (Elt F) ((c : Thread nD τ).loc cc0_scratch1)) (C D : Vec F S2048x512 .f32) :
    ∀ i ∈ (chunkSlot 2 3).view.set,
      ((Memref.whole cc0_scratch2 : Memref sig .tc .vmem S3x1024x512 .bf16).view.writes (Elt F) f
        ((⟨Rect.unit (s := S3x1024x512) ![2, 768, 0] S1x256x512.size inb_S3x1024x512_S1x256x512_2_768_0,
          k0_pay24 (xLd c f0 (Rect.unit (s := S1024x4096) ![768, 0] S256x4096.size inb_S1024x4096_S256x4096_768_0)) (wLd4 c g ![0, 0, 0] inb_S2x4096x512_S1x4096x512_0_0_0 ![0, 0, 0] inb_S2x4096x512_S1x2048x512_0_0_0 ![0, 2048, 0] inb_S2x4096x512_S1x2048x512_0_2048_0 ![1, 0, 0] inb_S2x4096x512_S1x2048x512_1_0_0 ![1, 2048, 0] inb_S2x4096x512_S1x2048x512_1_2048_0 (wRd c f1 (k0_off1 c 3#32) (k0_off1_inb c 3)) (wRd c f1 (k0_off2 c 3#32) (k0_off2_inb c 3)) C D)⟩ : View.Piece (Elt F) S3x1024x512 .bf16) :: L)) i
        = CFs (CFv m) c 2 3 i :=
  chunk_head m c 2 3 f L _ _ rfl _ (by
    rw [xload_cov_3 m c f0 hf0,
      wload_P2 m c (peer c 3) 0 1 (by decide) g _ _ C D
        (by subst hf1; exact wHalf_read_off1_3 m c) (by subst hf1; exact wHalf_read_off2_3 m c)
        ![0, 0, 0] ![0, 2048, 0] ![1, 0, 0] ![1, 2048, 0] ![0, 0, 0] rfl rfl rfl rfl rfl]
    exact pay24_eq15 _ _)

end Cert.KernelIdeal.A2A

end
-- ==== Proof.PayValue2.lean ====
import proofs.«900531_g7700000000000532_dist_gemm_a2a_m4096_k4096_n2048_f32_gelu_v7x_i4_1_alg».proof.Proof.PayValue

noncomputable section

namespace Cert.KernelIdeal.A2A

open Cert.KernelIdeal Cert.KernelIdeal.Gen
open Idealize.ShloMosaic Idealize.ShloMosaic.TcCoe Idealize.ShloMosaic.ValueIdx

variable {F : FTy → Type} [FloatOps F]
variable (m : (ℓ : Loc nD τ sig) → Buf (Elt F) ℓ)

theorem xload_all_of_rows (c : Dev nD) (W : Buf (Elt F) ((c : Thread nD τ).loc cc0_scratch0))
    (h0 : (Memref.whole cc0_scratch0 : Memref sig .tc .vmem S1024x4096 .f32).view.readAt (Elt F) (Rect.unit (s := S1024x4096) ![0, 0] S256x4096.size inb_S1024x4096_S256x4096_0_0).toLoadRect W = xRows m c 0)
    (h1 : (Memref.whole cc0_scratch0 : Memref sig .tc .vmem S1024x4096 .f32).view.readAt (Elt F) (Rect.unit (s := S1024x4096) ![256, 0] S256x4096.size inb_S1024x4096_S256x4096_256_0).toLoadRect W = xRows m c 1)
    (h2 : (Memref.whole cc0_scratch0 : Memref sig .tc .vmem S1024x4096 .f32).view.readAt (Elt F) (Rect.unit (s := S1024x4096) ![512, 0] S256x4096.size inb_S1024x4096_S256x4096_512_0).toLoadRect W = xRows m c 2)
    (h3 : (Memref.whole cc0_scratch0 : Memref sig .tc .vmem S1024x4096 .f32).view.readAt (Elt F) (Rect.unit (s := S1024x4096) ![768, 0] S256x4096.size inb_S1024x4096_S256x4096_768_0).toLoadRect W = xRows m c 3) :
    (Memref.whole cc0_scratch0 : Memref sig .tc .vmem S1024x4096 .f32).view.readAt (Elt F)
      (Rect.unit (s := S1024x4096) ![0, 0] S1024x4096.size inb_S1024x4096_S1024x4096_0_0).toLoadRect W = xAll m c := by
  refine xload_eq m c W (fun r p k => ?_) ![0, 0] rfl _
  have h4 : r = 0 ∨ r = 1 ∨ r = 2 ∨ r = 3 := by
    rcases r with ⟨v, hv⟩
    have hv' : v = 0 ∨ v = 1 ∨ v = 2 ∨ v = 3 := by omega
    rcases hv' with rfl | rfl | rfl | rfl
    · exact Or.inl rfl
    · exact Or.inr (Or.inl rfl)
    · exact Or.inr (Or.inr (Or.inl rfl))
    · exact Or.inr (Or.inr (Or.inr rfl))
  rcases h4 with rfl | rfl | rfl | rfl
  ·
    have hc := congrFun h0 (ix2 p k)
    rw [View.readAt_apply, View.read_apply] at hc
    rw [← hc]
    show W _ = W _
    congr 1
    funext a
    apply Fin.ext
    match a with
    | ⟨0, _⟩ =>
      show 256 * 0 + p.val = 0 + 1 * p.val
      omega
    | ⟨1, _⟩ =>
      show k.val = 0 + 1 * k.val
      omega
  ·
    have hc := congrFun h1 (ix2 p k)
    rw [View.readAt_apply, View.read_apply] at hc
    rw [← hc]
    show W _ = W _
    congr 1
    funext a
    apply Fin.ext
    match a with
    | ⟨0, _⟩ =>
      show 256 * 1 + p.val = 256 + 1 * p.val
      omega
    | ⟨1, _⟩ =>
      show k.val = 0 + 1 * k.val
      omega
  ·
    have hc := congrFun h2 (ix2 p k)
    rw [View.readAt_apply, View.read_apply] at hc
    rw [← hc]
    show W _ = W _
    congr 1
    funext a
    apply Fin.ext
    match a with
    | ⟨0, _⟩ =>
      show 256 * 2 + p.val = 512 + 1 * p.val
      omega
    | ⟨1, _⟩ =>
      show k.val = 0 + 1 * k.val
      omega
  ·
    have hc := congrFun h3 (ix2 p k)
    rw [View.readAt_apply, View.read_apply] at hc
    rw [← hc]
    show W _ = W _
    congr 1
    funext a
    apply Fin.ext
    match a with
    | ⟨0, _⟩ =>
      show 256 * 3 + p.val = 768 + 1 * p.val
      omega
    | ⟨1, _⟩ =>
      show k.val = 0 + 1 * k.val
      omega

theorem xload_cov_all (c : Dev nD) (f0 : Buf (Elt F) ((c : Thread nD τ).loc main_arg0))
    (hf0 : f0 = m ((c : Thread nD τ).loc main_arg0)) :
    (xLd c f0 (Rect.unit (s := S1024x4096) ![0, 0] S1024x4096.size inb_S1024x4096_S1024x4096_0_0)) = xAll m c :=
  xload_all_of_rows m c _ (xload_cov_0 m c f0 hf0) (xload_cov_1 m c f0 hf0) (xload_cov_2 m c f0 hf0) (xload_cov_3 m c f0 hf0)

theorem wload_own (c : Dev nD) (f1 : Buf (Elt F) ((c : Thread nD τ).loc main_arg1))
    (hf1 : f1 = m ((c : Thread nD τ).loc main_arg1)) (g : Buf (Elt F) ((c : Thread nD τ).loc cc0_scratch1)) :
    (View.readAt (Elt F) (Memref.whole cc0_scratch1 : Memref sig .tc .vmem S2x4096x512 .f32).view
      (Rect.unit (s := S2x4096x512) ![1, 0, 0] S1x4096x512.size inb_S2x4096x512_S1x4096x512_1_0_0).toLoadRect
      ((wSq ![1, 2048, 0] inb_S2x4096x512_S1x2048x512_1_2048_0).view.write (Elt F)
        ((wSq ![1, 0, 0] inb_S2x4096x512_S1x2048x512_1_0_0).view.write (Elt F) g
          (wRd c f1 (k0_off1 c 0#32) (k0_off1_inb c 0)) Finset.univ)
        (wRd c f1 (k0_off2 c 0#32) (k0_off2_inb c 0)) Finset.univ)) = wCols m c c := by
  subst hf1
  have h := wload_P0 m c (peer c 0) 1 g _ _ (wHalf_read_off1_0 m c) (wHalf_read_off2_0 m c)
    ![1, 0, 0] ![1, 2048, 0] ![1, 0, 0] rfl rfl rfl
    inb_S2x4096x512_S1x2048x512_1_0_0 inb_S2x4096x512_S1x2048x512_1_2048_0 inb_S2x4096x512_S1x4096x512_1_0_0
  rw [peer_zero] at h
  exact h

theorem own_pay (c : Dev nD) (f0 : Buf (Elt F) ((c : Thread nD τ).loc main_arg0))
    (hf0 : f0 = m ((c : Thread nD τ).loc main_arg0))
    (f1 : Buf (Elt F) ((c : Thread nD τ).loc main_arg1)) (hf1 : f1 = m ((c : Thread nD τ).loc main_arg1))
    (g : Buf (Elt F) ((c : Thread nD τ).loc cc0_scratch1)) :
    k0_pay25 (xLd c f0 (Rect.unit (s := S1024x4096) ![0, 0] S1024x4096.size inb_S1024x4096_S1024x4096_0_0))
      (View.readAt (Elt F) (Memref.whole cc0_scratch1 : Memref sig .tc .vmem S2x4096x512 .f32).view
      (Rect.unit (s := S2x4096x512) ![1, 0, 0] S1x4096x512.size inb_S2x4096x512_S1x4096x512_1_0_0).toLoadRect
      ((wSq ![1, 2048, 0] inb_S2x4096x512_S1x2048x512_1_2048_0).view.write (Elt F)
        ((wSq ![1, 0, 0] inb_S2x4096x512_S1x2048x512_1_0_0).view.write (Elt F) g
          (wRd c f1 (k0_off1 c 0#32) (k0_off1_inb c 0)) Finset.univ)
        (wRd c f1 (k0_off2 c 0#32) (k0_off2_inb c 0)) Finset.univ))
      = k0_pay25 (xAll m c) (wCols m c c) := by
  rw [xload_cov_all m c f0 hf0, wload_own m c f1 hf1 g]

end Cert.KernelIdeal.A2A

end
-- ==== Proof.RecvSteps.lean ====
import proofs.«900531_g7700000000000532_dist_gemm_a2a_m4096_k4096_n2048_f32_gelu_v7x_i4_1_alg».proof.Proof.Slots
import proofs.«900531_g7700000000000532_dist_gemm_a2a_m4096_k4096_n2048_f32_gelu_v7x_i4_1_alg».proof.Proof.Data
import proofs.«900531_g7700000000000532_dist_gemm_a2a_m4096_k4096_n2048_f32_gelu_v7x_i4_1_alg».proof.Proof.Contents

noncomputable section

namespace Cert.KernelIdeal.A2A

open Cert.KernelIdeal Cert.KernelIdeal.Gen
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

namespace Slots

variable {F : FTy → Type} [FloatOps F]

local notation "𝕄" => MT nD τ sig Unit (Elt F) ℕ UU ℕ

theorem off13_w1 : ∀ d0 : Dev nD, k0_off13 d0 1#32 = ![(d0.val + 1) % 4, 0, 0] := by decide +kernel
theorem off14_w1 : ∀ d0 : Dev nD, k0_off14 d0 1#32 = ![(d0.val + 1) % 4, 0, 0] := by decide +kernel
theorem off13_w2 : ∀ d0 : Dev nD, k0_off13 d0 2#32 = ![(d0.val + 2) % 4, 0, 0] := by decide +kernel
theorem off14_w2 : ∀ d0 : Dev nD, k0_off14 d0 2#32 = ![(d0.val + 2) % 4, 0, 0] := by decide +kernel
theorem off13_w3 : ∀ d0 : Dev nD, k0_off13 d0 3#32 = ![(d0.val + 3) % 4, 0, 0] := by decide +kernel
theorem off14_w3 : ∀ d0 : Dev nD, k0_off14 d0 3#32 = ![(d0.val + 3) % 4, 0, 0] := by decide +kernel
theorem off17_w1 : ∀ d0 : Dev nD, k0_off17 d0 1#32 = ![(d0.val + 1) % 4, 256, 0] := by decide +kernel
theorem off18_w1 : ∀ d0 : Dev nD, k0_off18 d0 1#32 = ![(d0.val + 1) % 4, 256, 0] := by decide +kernel
theorem off17_w2 : ∀ d0 : Dev nD, k0_off17 d0 2#32 = ![(d0.val + 2) % 4, 256, 0] := by decide +kernel
theorem off18_w2 : ∀ d0 : Dev nD, k0_off18 d0 2#32 = ![(d0.val + 2) % 4, 256, 0] := by decide +kernel
theorem off17_w3 : ∀ d0 : Dev nD, k0_off17 d0 3#32 = ![(d0.val + 3) % 4, 256, 0] := by decide +kernel
theorem off18_w3 : ∀ d0 : Dev nD, k0_off18 d0 3#32 = ![(d0.val + 3) % 4, 256, 0] := by decide +kernel
theorem off20_w1 : ∀ d0 : Dev nD, k0_off20 d0 1#32 = ![(d0.val + 1) % 4, 512, 0] := by decide +kernel
theorem off21_w1 : ∀ d0 : Dev nD, k0_off21 d0 1#32 = ![(d0.val + 1) % 4, 512, 0] := by decide +kernel
theorem off20_w2 : ∀ d0 : Dev nD, k0_off20 d0 2#32 = ![(d0.val + 2) % 4, 512, 0] := by decide +kernel
theorem off21_w2 : ∀ d0 : Dev nD, k0_off21 d0 2#32 = ![(d0.val + 2) % 4, 512, 0] := by decide +kernel
theorem off20_w3 : ∀ d0 : Dev nD, k0_off20 d0 3#32 = ![(d0.val + 3) % 4, 512, 0] := by decide +kernel
theorem off21_w3 : ∀ d0 : Dev nD, k0_off21 d0 3#32 = ![(d0.val + 3) % 4, 512, 0] := by decide +kernel
theorem off23_w1 : ∀ d0 : Dev nD, k0_off23 d0 1#32 = ![(d0.val + 1) % 4, 768, 0] := by decide +kernel
theorem off24_w1 : ∀ d0 : Dev nD, k0_off24 d0 1#32 = ![(d0.val + 1) % 4, 768, 0] := by decide +kernel
theorem off23_w2 : ∀ d0 : Dev nD, k0_off23 d0 2#32 = ![(d0.val + 2) % 4, 768, 0] := by decide +kernel
theorem off24_w2 : ∀ d0 : Dev nD, k0_off24 d0 2#32 = ![(d0.val + 2) % 4, 768, 0] := by decide +kernel
theorem off23_w3 : ∀ d0 : Dev nD, k0_off23 d0 3#32 = ![(d0.val + 3) % 4, 768, 0] := by decide +kernel
theorem off24_w3 : ∀ d0 : Dev nD, k0_off24 d0 3#32 = ![(d0.val + 3) % 4, 768, 0] := by decide +kernel
theorem off15_w1_r0 : ∀ d0 : Dev nD, k0_off15 d0 1#32 0#32 = ![1024 * ((d0.val + 1) % 4) + 0, 0] := by decide +kernel
theorem off15_w2_r0 : ∀ d0 : Dev nD, k0_off15 d0 2#32 0#32 = ![1024 * ((d0.val + 2) % 4) + 0, 0] := by decide +kernel
theorem off15_w3_r0 : ∀ d0 : Dev nD, k0_off15 d0 3#32 0#32 = ![1024 * ((d0.val + 3) % 4) + 0, 0] := by decide +kernel
theorem off15_w1_r1 : ∀ d0 : Dev nD, k0_off15 d0 1#32 256#32 = ![1024 * ((d0.val + 1) % 4) + 256, 0] := by decide +kernel
theorem off15_w2_r1 : ∀ d0 : Dev nD, k0_off15 d0 2#32 256#32 = ![1024 * ((d0.val + 2) % 4) + 256, 0] := by decide +kernel
theorem off15_w3_r1 : ∀ d0 : Dev nD, k0_off15 d0 3#32 256#32 = ![1024 * ((d0.val + 3) % 4) + 256, 0] := by decide +kernel
theorem off15_w1_r2 : ∀ d0 : Dev nD, k0_off15 d0 1#32 512#32 = ![1024 * ((d0.val + 1) % 4) + 512, 0] := by decide +kernel
theorem off15_w2_r2 : ∀ d0 : Dev nD, k0_off15 d0 2#32 512#32 = ![1024 * ((d0.val + 2) % 4) + 512, 0] := by decide +kernel
theorem off15_w3_r2 : ∀ d0 : Dev nD, k0_off15 d0 3#32 512#32 = ![1024 * ((d0.val + 3) % 4) + 512, 0] := by decide +kernel
theorem off15_w1_r3 : ∀ d0 : Dev nD, k0_off15 d0 1#32 768#32 = ![1024 * ((d0.val + 1) % 4) + 768, 0] := by decide +kernel
theorem off15_w2_r3 : ∀ d0 : Dev nD, k0_off15 d0 2#32 768#32 = ![1024 * ((d0.val + 2) % 4) + 768, 0] := by decide +kernel
theorem off15_w3_r3 : ∀ d0 : Dev nD, k0_off15 d0 3#32 768#32 = ![1024 * ((d0.val + 3) % 4) + 768, 0] := by decide +kernel

theorem inb_out : ∀ s r : Fin 4, ∀ a, (![1024 * s.val + 256 * r.val, 0] : Fin 2 → Nat) a + S256x512.size a ≤ S4096x512.size a := by decide

def outRect (s r : Fin 4) : Rect S4096x512 :=
  Rect.unit (s := S4096x512) ![1024 * s.val + 256 * r.val, 0] S256x512.size (inb_out s r)

theorem recvSem_w1_r0 : ∀ c : Dev nD, ((cc0_scratch7.slice (Rect.unit (s := S4x4) (k0_off12 c 1#32) S1x1.size (k0_off12_inb c 0))).squeeze S_ squeezes_S1x1_S_).sem = recvQ (peer c 1) 0 := by decide +kernel
theorem recvSem_w1_r1 : ∀ c : Dev nD, ((cc0_scratch7.slice (Rect.unit (s := S4x4) (k0_off16 c 1#32) S1x1.size (k0_off16_inb c 0))).squeeze S_ squeezes_S1x1_S_).sem = recvQ (peer c 1) 1 := by decide +kernel
theorem recvSem_w1_r2 : ∀ c : Dev nD, ((cc0_scratch7.slice (Rect.unit (s := S4x4) (k0_off19 c 1#32) S1x1.size (k0_off19_inb c 0))).squeeze S_ squeezes_S1x1_S_).sem = recvQ (peer c 1) 2 := by decide +kernel
theorem recvSem_w1_r3 : ∀ c : Dev nD, ((cc0_scratch7.slice (Rect.unit (s := S4x4) (k0_off22 c 1#32) S1x1.size (k0_off22_inb c 0))).squeeze S_ squeezes_S1x1_S_).sem = recvQ (peer c 1) 3 := by decide +kernel
theorem recvSem_w2_r0 : ∀ c : Dev nD, ((cc0_scratch7.slice (Rect.unit (s := S4x4) (k0_off12 c 2#32) S1x1.size (k0_off12_inb c 1))).squeeze S_ squeezes_S1x1_S_).sem = recvQ (peer c 2) 0 := by decide +kernel
theorem recvSem_w2_r1 : ∀ c : Dev nD, ((cc0_scratch7.slice (Rect.unit (s := S4x4) (k0_off16 c 2#32) S1x1.size (k0_off16_inb c 1))).squeeze S_ squeezes_S1x1_S_).sem = recvQ (peer c 2) 1 := by decide +kernel
theorem recvSem_w2_r2 : ∀ c : Dev nD, ((cc0_scratch7.slice (Rect.unit (s := S4x4) (k0_off19 c 2#32) S1x1.size (k0_off19_inb c 1))).squeeze S_ squeezes_S1x1_S_).sem = recvQ (peer c 2) 2 := by decide +kernel
theorem recvSem_w2_r3 : ∀ c : Dev nD, ((cc0_scratch7.slice (Rect.unit (s := S4x4) (k0_off22 c 2#32) S1x1.size (k0_off22_inb c 1))).squeeze S_ squeezes_S1x1_S_).sem = recvQ (peer c 2) 3 := by decide +kernel
theorem recvSem_w3_r0 : ∀ c : Dev nD, ((cc0_scratch7.slice (Rect.unit (s := S4x4) (k0_off12 c 3#32) S1x1.size (k0_off12_inb c 2))).squeeze S_ squeezes_S1x1_S_).sem = recvQ (peer c 3) 0 := by decide +kernel
theorem recvSem_w3_r1 : ∀ c : Dev nD, ((cc0_scratch7.slice (Rect.unit (s := S4x4) (k0_off16 c 3#32) S1x1.size (k0_off16_inb c 2))).squeeze S_ squeezes_S1x1_S_).sem = recvQ (peer c 3) 1 := by decide +kernel
theorem recvSem_w3_r2 : ∀ c : Dev nD, ((cc0_scratch7.slice (Rect.unit (s := S4x4) (k0_off19 c 3#32) S1x1.size (k0_off19_inb c 2))).squeeze S_ squeezes_S1x1_S_).sem = recvQ (peer c 3) 2 := by decide +kernel
theorem recvSem_w3_r3 : ∀ c : Dev nD, ((cc0_scratch7.slice (Rect.unit (s := S4x4) (k0_off22 c 3#32) S1x1.size (k0_off22_inb c 2))).squeeze S_ squeezes_S1x1_S_).sem = recvQ (peer c 3) 3 := by decide +kernel
theorem recvDst_w1_r0 (c : Dev nD) : ((Memref.whole cc0_scratch3 : Memref sig .tc .vmem S4x1024x512 .bf16).slice (Rect.unit (s := S4x1024x512) (k0_off13 c 1#32) S1x256x512.size (k0_off13_inb c 0)) (fun _ => rfl)).squeeze S256x512 squeezes_S1x256x512_S256x512 = recvSlot (peer c 1) 0 :=
  congrArg (fun m : Memref sig .tc .vmem S1x256x512 .bf16 => m.squeeze S256x512 squeezes_S1x256x512_S256x512) (Memref.slice_unit_congr _ (off13_w1 c : k0_off13 c 1#32 = ![(peer c 1).val, 256 * (0 : Fin 4).val, 0]) _ _ _ _)
theorem recvDst_w1_r1 (c : Dev nD) : ((Memref.whole cc0_scratch3 : Memref sig .tc .vmem S4x1024x512 .bf16).slice (Rect.unit (s := S4x1024x512) (k0_off17 c 1#32) S1x256x512.size (k0_off17_inb c 0)) (fun _ => rfl)).squeeze S256x512 squeezes_S1x256x512_S256x512 = recvSlot (peer c 1) 1 :=
  congrArg (fun m : Memref sig .tc .vmem S1x256x512 .bf16 => m.squeeze S256x512 squeezes_S1x256x512_S256x512) (Memref.slice_unit_congr _ (off17_w1 c : k0_off17 c 1#32 = ![(peer c 1).val, 256 * (1 : Fin 4).val, 0]) _ _ _ _)
theorem recvDst_w1_r2 (c : Dev nD) : ((Memref.whole cc0_scratch3 : Memref sig .tc .vmem S4x1024x512 .bf16).slice (Rect.unit (s := S4x1024x512) (k0_off20 c 1#32) S1x256x512.size (k0_off20_inb c 0)) (fun _ => rfl)).squeeze S256x512 squeezes_S1x256x512_S256x512 = recvSlot (peer c 1) 2 :=
  congrArg (fun m : Memref sig .tc .vmem S1x256x512 .bf16 => m.squeeze S256x512 squeezes_S1x256x512_S256x512) (Memref.slice_unit_congr _ (off20_w1 c : k0_off20 c 1#32 = ![(peer c 1).val, 256 * (2 : Fin 4).val, 0]) _ _ _ _)
theorem recvDst_w1_r3 (c : Dev nD) : ((Memref.whole cc0_scratch3 : Memref sig .tc .vmem S4x1024x512 .bf16).slice (Rect.unit (s := S4x1024x512) (k0_off23 c 1#32) S1x256x512.size (k0_off23_inb c 0)) (fun _ => rfl)).squeeze S256x512 squeezes_S1x256x512_S256x512 = recvSlot (peer c 1) 3 :=
  congrArg (fun m : Memref sig .tc .vmem S1x256x512 .bf16 => m.squeeze S256x512 squeezes_S1x256x512_S256x512) (Memref.slice_unit_congr _ (off23_w1 c : k0_off23 c 1#32 = ![(peer c 1).val, 256 * (3 : Fin 4).val, 0]) _ _ _ _)
theorem recvDst_w2_r0 (c : Dev nD) : ((Memref.whole cc0_scratch3 : Memref sig .tc .vmem S4x1024x512 .bf16).slice (Rect.unit (s := S4x1024x512) (k0_off13 c 2#32) S1x256x512.size (k0_off13_inb c 1)) (fun _ => rfl)).squeeze S256x512 squeezes_S1x256x512_S256x512 = recvSlot (peer c 2) 0 :=
  congrArg (fun m : Memref sig .tc .vmem S1x256x512 .bf16 => m.squeeze S256x512 squeezes_S1x256x512_S256x512) (Memref.slice_unit_congr _ (off13_w2 c : k0_off13 c 2#32 = ![(peer c 2).val, 256 * (0 : Fin 4).val, 0]) _ _ _ _)
theorem recvDst_w2_r1 (c : Dev nD) : ((Memref.whole cc0_scratch3 : Memref sig .tc .vmem S4x1024x512 .bf16).slice (Rect.unit (s := S4x1024x512) (k0_off17 c 2#32) S1x256x512.size (k0_off17_inb c 1)) (fun _ => rfl)).squeeze S256x512 squeezes_S1x256x512_S256x512 = recvSlot (peer c 2) 1 :=
  congrArg (fun m : Memref sig .tc .vmem S1x256x512 .bf16 => m.squeeze S256x512 squeezes_S1x256x512_S256x512) (Memref.slice_unit_congr _ (off17_w2 c : k0_off17 c 2#32 = ![(peer c 2).val, 256 * (1 : Fin 4).val, 0]) _ _ _ _)
theorem recvDst_w2_r2 (c : Dev nD) : ((Memref.whole cc0_scratch3 : Memref sig .tc .vmem S4x1024x512 .bf16).slice (Rect.unit (s := S4x1024x512) (k0_off20 c 2#32) S1x256x512.size (k0_off20_inb c 1)) (fun _ => rfl)).squeeze S256x512 squeezes_S1x256x512_S256x512 = recvSlot (peer c 2) 2 :=
  congrArg (fun m : Memref sig .tc .vmem S1x256x512 .bf16 => m.squeeze S256x512 squeezes_S1x256x512_S256x512) (Memref.slice_unit_congr _ (off20_w2 c : k0_off20 c 2#32 = ![(peer c 2).val, 256 * (2 : Fin 4).val, 0]) _ _ _ _)
theorem recvDst_w2_r3 (c : Dev nD) : ((Memref.whole cc0_scratch3 : Memref sig .tc .vmem S4x1024x512 .bf16).slice (Rect.unit (s := S4x1024x512) (k0_off23 c 2#32) S1x256x512.size (k0_off23_inb c 1)) (fun _ => rfl)).squeeze S256x512 squeezes_S1x256x512_S256x512 = recvSlot (peer c 2) 3 :=
  congrArg (fun m : Memref sig .tc .vmem S1x256x512 .bf16 => m.squeeze S256x512 squeezes_S1x256x512_S256x512) (Memref.slice_unit_congr _ (off23_w2 c : k0_off23 c 2#32 = ![(peer c 2).val, 256 * (3 : Fin 4).val, 0]) _ _ _ _)
theorem recvDst_w3_r0 (c : Dev nD) : ((Memref.whole cc0_scratch3 : Memref sig .tc .vmem S4x1024x512 .bf16).slice (Rect.unit (s := S4x1024x512) (k0_off13 c 3#32) S1x256x512.size (k0_off13_inb c 2)) (fun _ => rfl)).squeeze S256x512 squeezes_S1x256x512_S256x512 = recvSlot (peer c 3) 0 :=
  congrArg (fun m : Memref sig .tc .vmem S1x256x512 .bf16 => m.squeeze S256x512 squeezes_S1x256x512_S256x512) (Memref.slice_unit_congr _ (off13_w3 c : k0_off13 c 3#32 = ![(peer c 3).val, 256 * (0 : Fin 4).val, 0]) _ _ _ _)
theorem recvDst_w3_r1 (c : Dev nD) : ((Memref.whole cc0_scratch3 : Memref sig .tc .vmem S4x1024x512 .bf16).slice (Rect.unit (s := S4x1024x512) (k0_off17 c 3#32) S1x256x512.size (k0_off17_inb c 2)) (fun _ => rfl)).squeeze S256x512 squeezes_S1x256x512_S256x512 = recvSlot (peer c 3) 1 :=
  congrArg (fun m : Memref sig .tc .vmem S1x256x512 .bf16 => m.squeeze S256x512 squeezes_S1x256x512_S256x512) (Memref.slice_unit_congr _ (off17_w3 c : k0_off17 c 3#32 = ![(peer c 3).val, 256 * (1 : Fin 4).val, 0]) _ _ _ _)
theorem recvDst_w3_r2 (c : Dev nD) : ((Memref.whole cc0_scratch3 : Memref sig .tc .vmem S4x1024x512 .bf16).slice (Rect.unit (s := S4x1024x512) (k0_off20 c 3#32) S1x256x512.size (k0_off20_inb c 2)) (fun _ => rfl)).squeeze S256x512 squeezes_S1x256x512_S256x512 = recvSlot (peer c 3) 2 :=
  congrArg (fun m : Memref sig .tc .vmem S1x256x512 .bf16 => m.squeeze S256x512 squeezes_S1x256x512_S256x512) (Memref.slice_unit_congr _ (off20_w3 c : k0_off20 c 3#32 = ![(peer c 3).val, 256 * (2 : Fin 4).val, 0]) _ _ _ _)
theorem recvDst_w3_r3 (c : Dev nD) : ((Memref.whole cc0_scratch3 : Memref sig .tc .vmem S4x1024x512 .bf16).slice (Rect.unit (s := S4x1024x512) (k0_off23 c 3#32) S1x256x512.size (k0_off23_inb c 2)) (fun _ => rfl)).squeeze S256x512 squeezes_S1x256x512_S256x512 = recvSlot (peer c 3) 3 :=
  congrArg (fun m : Memref sig .tc .vmem S1x256x512 .bf16 => m.squeeze S256x512 squeezes_S1x256x512_S256x512) (Memref.slice_unit_congr _ (off23_w3 c : k0_off23 c 3#32 = ![(peer c 3).val, 256 * (3 : Fin 4).val, 0]) _ _ _ _)
theorem recvSlot_setOn (src r : Fin 4) :
    (Memref.whole cc0_scratch3 : Memref sig .tc .vmem S4x1024x512 .bf16).view.setOn (recvRect src r).toLoadRect.set
      = (recvSlot src r).view.set :=
  ((recvSlot_set_access src r).trans (View.set_slice _ _)).symm

-- A load of a received slot, from that slot's own points-to, reads the slot's final contents.
theorem load_recv {Λ : Labels} {defs : Defs nD τ sig (Elt F) Λ} (𝒱 : Variants) (c : Dev nD) (bd : Option 𝒱.V)
    {Γ : PendingWaitsCtx sig Unit} (E : Set ℕ) {α : Type} {Q : α → sProp (MT nD τ sig Unit (Elt F) ℕ UU ℕ)}
    (RF : (c : Dev nD) → Buf (Elt F) ((c : Thread nD τ).loc cc0_scratch3)) (src r : Fin 4)
    {hl : (Memref.whole cc0_scratch3 : Memref sig .tc .vmem S4x1024x512 .bf16).view.LoadsAt (recvRect src r).toLoadRect}
    {kont : ((recvRect src r).toLoadRect.shape.Idx → Elt F .bf16) → Prog (TpuEff nD τ sig (Elt F) Λ (c : Thread nD τ).2) α} :
    (recvPay (F := F) RF c src r)
      ⊢ iprop(((recvPay (F := F) RF c src r) -∗ wp frame (wpE' defs 𝒱 (c : Thread nD τ) bd Γ) E
            (kont ((Memref.whole cc0_scratch3 : Memref sig .tc .vmem S4x1024x512 .bf16).view.readAt (Elt F) (recvRect src r).toLoadRect (RF c))) Q)
        -∗ wp frame (wpE' defs 𝒱 (c : Thread nD τ) bd Γ) E
            (.op (.load (Memref.whole cc0_scratch3 : Memref sig .tc .vmem S4x1024x512 .bf16) (recvRect src r).toLoadRect hl) kont) Q) := by
  unfold recvPay RFs
  exact wp_load 𝒱 (c : Thread nD τ) bd E (m := (Memref.whole cc0_scratch3 : Memref sig .tc .vmem S4x1024x512 .bf16))
    (r := (recvRect src r).toLoadRect) (le_of_eq (recvSlot_setOn src r))

theorem readAt_recvRect (m : (ℓ : Loc nD τ sig) → Buf (Elt F) ℓ) (c : Dev nD) (src r : Fin 4) :
    (Memref.whole cc0_scratch3 : Memref sig .tc .vmem S4x1024x512 .bf16).view.readAt (Elt F) (recvRect src r).toLoadRect (RFv m c)
      = rfTile m c src r := by
  funext j
  obtain ⟨a, p, q, rfl⟩ : ∃ (a : Fin 1) (p : Fin 256) (q : Fin 512), j = ix3 a p q := ⟨j 0, j 1, j 2, eq_ix3 j⟩
  rw [rfTile_apply]
  show RFv m c ((recvRect src r).toLoadRect.idx (ix3 a p q)) = _
  congr 1
  have ha : a = 0 := Subsingleton.elim _ _
  subst ha
  funext ax
  match ax with
  | ⟨0, _⟩ => exact Fin.ext (by show src.val + 1 * 0 = src.val; omega)
  | ⟨1, _⟩ => exact Fin.ext (by show 256 * r.val + 1 * p.val = 256 * r.val + p.val; omega)
  | ⟨2, _⟩ => exact Fin.ext (by show 0 + 1 * q.val = q.val; omega)

theorem load_recv_off {Λ : Labels} {defs : Defs nD τ sig (Elt F) Λ} (𝒱 : Variants) (c : Dev nD) (bd : Option 𝒱.V)
    {Γ : PendingWaitsCtx sig Unit} (E : Set ℕ) {α : Type} {Q : α → sProp (MT nD τ sig Unit (Elt F) ℕ UU ℕ)}
    (RF : (c : Dev nD) → Buf (Elt F) ((c : Thread nD τ).loc cc0_scratch3)) (src r : Fin 4)
    {off : Fin 3 → Nat} (hoff : off = ![src.val, 256 * r.val, 0]) {inb : ∀ a, off a + S1x256x512.size a ≤ S4x1024x512.size a}
    {hl : (Memref.whole cc0_scratch3 : Memref sig .tc .vmem S4x1024x512 .bf16).view.LoadsAt
      (Rect.unit (s := S4x1024x512) off S1x256x512.size inb).toLoadRect}
    {kont : ((Rect.unit (s := S4x1024x512) off S1x256x512.size inb).toLoadRect.shape.Idx → Elt F .bf16)
      → Prog (TpuEff nD τ sig (Elt F) Λ (c : Thread nD τ).2) α} :
    (recvPay (F := F) RF c src r)
      ⊢ iprop(((recvPay (F := F) RF c src r) -∗ wp frame (wpE' defs 𝒱 (c : Thread nD τ) bd Γ) E
            (kont ((Memref.whole cc0_scratch3 : Memref sig .tc .vmem S4x1024x512 .bf16).view.readAt (Elt F)
              (Rect.unit (s := S4x1024x512) off S1x256x512.size inb).toLoadRect (RF c))) Q)
        -∗ wp frame (wpE' defs 𝒱 (c : Thread nD τ) bd Γ) E
            (.op (.load (Memref.whole cc0_scratch3 : Memref sig .tc .vmem S4x1024x512 .bf16)
              (Rect.unit (s := S4x1024x512) off S1x256x512.size inb).toLoadRect hl) kont) Q) := by
  subst hoff
  exact load_recv 𝒱 c bd E RF src r

theorem readAt_recv_off (m : (ℓ : Loc nD τ sig) → Buf (Elt F) ℓ) (c : Dev nD) (src r : Fin 4)
    {off : Fin 3 → Nat} (hoff : off = ![src.val, 256 * r.val, 0]) (inb : ∀ a, off a + S1x256x512.size a ≤ S4x1024x512.size a) :
    (Memref.whole cc0_scratch3 : Memref sig .tc .vmem S4x1024x512 .bf16).view.readAt (Elt F)
        (Rect.unit (s := S4x1024x512) off S1x256x512.size inb).toLoadRect (RFv m c)
      = rfTile m c src r := by
  subst hoff
  exact readAt_recvRect m c src r

def peerEquiv (c : Dev nD) : Fin 4 ≃ Fin 4 where
  toFun k := peer c k.val
  invFun d := ⟨(d.val + 4 - c.val) % 4, Nat.mod_lt _ (by decide)⟩
  left_inv := fun k => by revert c k; decide
  right_inv := fun d => by revert c d; decide

set_option quotPrecheck false in
local notation "RS[" c ", " s ", " r ", " f "]" =>
  (pointsTo ((recvSlot s r).view.loc (c : Thread nD τ)) (recvSlot s r).view.set fullShare f : sProp 𝕄)

theorem recv_join_peers (c : Dev nD) (fs : Fin 4 × Fin 4 → Buf (Elt F) ((c : Thread nD τ).loc cc0_scratch3)) :
    (iprop((RS[c, c, 0, fs (0, 0)] ∗ RS[c, c, 1, fs (0, 1)] ∗ RS[c, c, 2, fs (0, 2)] ∗ RS[c, c, 3, fs (0, 3)])
          ∗ (RS[c, peer c 1, 0, fs (1, 0)] ∗ RS[c, peer c 1, 1, fs (1, 1)] ∗ RS[c, peer c 1, 2, fs (1, 2)] ∗ RS[c, peer c 1, 3, fs (1, 3)])
          ∗ (RS[c, peer c 2, 0, fs (2, 0)] ∗ RS[c, peer c 2, 1, fs (2, 1)] ∗ RS[c, peer c 2, 2, fs (2, 2)] ∗ RS[c, peer c 2, 3, fs (2, 3)])
          ∗ (RS[c, peer c 3, 0, fs (3, 0)] ∗ RS[c, peer c 3, 1, fs (3, 1)] ∗ RS[c, peer c 3, 2, fs (3, 2)] ∗ RS[c, peer c 3, 3, fs (3, 3)])) : sProp 𝕄)
      ⊢ iprop(∃ g : Buf (Elt F) ((c : Thread nD τ).loc cc0_scratch3),
          ⌜∀ kr : Fin 4 × Fin 4, ∀ i ∈ (recvSlot (peer c kr.1.val) kr.2).view.set, g i = fs kr i⌝
            ∗ ((c : Thread nD τ).loc cc0_scratch3 ↦{fullShare} g)) := by
  have e : (bigSep Finset.univ fun sr : Fin 4 × Fin 4 =>
        (pointsTo ((recvSlot sr.1 sr.2).view.loc (c : Thread nD τ)) (recvSlot sr.1 sr.2).view.set fullShare
          (fs ((peerEquiv c).symm sr.1, sr.2)) : sProp 𝕄))
      = iprop((RS[c, peer c 0, 0, fs (0, 0)] ∗ RS[c, peer c 0, 1, fs (0, 1)] ∗ RS[c, peer c 0, 2, fs (0, 2)] ∗ RS[c, peer c 0, 3, fs (0, 3)])
          ∗ (RS[c, peer c 1, 0, fs (1, 0)] ∗ RS[c, peer c 1, 1, fs (1, 1)] ∗ RS[c, peer c 1, 2, fs (1, 2)] ∗ RS[c, peer c 1, 3, fs (1, 3)])
          ∗ (RS[c, peer c 2, 0, fs (2, 0)] ∗ RS[c, peer c 2, 1, fs (2, 1)] ∗ RS[c, peer c 2, 2, fs (2, 2)] ∗ RS[c, peer c 2, 3, fs (2, 3)])
          ∗ (RS[c, peer c 3, 0, fs (3, 0)] ∗ RS[c, peer c 3, 1, fs (3, 1)] ∗ RS[c, peer c 3, 2, fs (3, 2)] ∗ RS[c, peer c 3, 3, fs (3, 3)])) := by
    rw [bigSep_univ_prod, bigSep_univ_equiv (peerEquiv c), bigSep_fin4, bigSep_fin4, bigSep_fin4, bigSep_fin4, bigSep_fin4]
    simp only [Equiv.symm_apply_apply]
    rfl
  rw [peer_zero] at e
  rw [← e]
  refine (recv_join c fun sr => fs ((peerEquiv c).symm sr.1, sr.2)).trans ?_
  iintro ⟨%g, %hg, H⟩
  iexists g
  isplitr
  · ipureintro
    intro kr i hi
    have := hg (peerEquiv c kr.1, kr.2) i hi
    rw [this]
    show fs ((peerEquiv c).symm (peerEquiv c kr.1), kr.2) i = fs kr i
    rw [Equiv.symm_apply_apply]
  · iexact H

theorem recv_join_own_others (c : Dev nD) (f₀ g : Buf (Elt F) ((c : Thread nD τ).loc cc0_scratch3)) :
    (iprop((RS[c, c, 0, f₀] ∗ RS[c, c, 1, f₀] ∗ RS[c, c, 2, f₀] ∗ RS[c, c, 3, f₀])
          ∗ (RS[c, peer c 1, 0, g] ∗ RS[c, peer c 1, 1, g] ∗ RS[c, peer c 1, 2, g] ∗ RS[c, peer c 1, 3, g])
          ∗ (RS[c, peer c 2, 0, g] ∗ RS[c, peer c 2, 1, g] ∗ RS[c, peer c 2, 2, g] ∗ RS[c, peer c 2, 3, g])
          ∗ (RS[c, peer c 3, 0, g] ∗ RS[c, peer c 3, 1, g] ∗ RS[c, peer c 3, 2, g] ∗ RS[c, peer c 3, 3, g])) : sProp 𝕄)
      ⊢ iprop(∃ h : Buf (Elt F) ((c : Thread nD τ).loc cc0_scratch3), (c : Thread nD τ).loc cc0_scratch3 ↦{fullShare} h) := by
  have h := recv_join_peers (F := F) c fun kr => if kr.1 = 0 then f₀ else g
  refine (show _ ⊢ _ from h).trans ?_
  iintro ⟨%h', -, H⟩
  iexists h'
  iexact H

theorem chunk_join_all (c : Dev nD) (f : Buf (Elt F) ((c : Thread nD τ).loc cc0_scratch2)) :
    (iprop((((chunkSlot 0 0).view.loc (c : Thread nD τ) ↦[(chunkSlot 0 0).view.set]{fullShare} f)
          ∗ ((chunkSlot 0 1).view.loc (c : Thread nD τ) ↦[(chunkSlot 0 1).view.set]{fullShare} f)
          ∗ ((chunkSlot 0 2).view.loc (c : Thread nD τ) ↦[(chunkSlot 0 2).view.set]{fullShare} f)
          ∗ ((chunkSlot 0 3).view.loc (c : Thread nD τ) ↦[(chunkSlot 0 3).view.set]{fullShare} f))
        ∗ (((chunkSlot 1 0).view.loc (c : Thread nD τ) ↦[(chunkSlot 1 0).view.set]{fullShare} f)
          ∗ ((chunkSlot 1 1).view.loc (c : Thread nD τ) ↦[(chunkSlot 1 1).view.set]{fullShare} f)
          ∗ ((chunkSlot 1 2).view.loc (c : Thread nD τ) ↦[(chunkSlot 1 2).view.set]{fullShare} f)
          ∗ ((chunkSlot 1 3).view.loc (c : Thread nD τ) ↦[(chunkSlot 1 3).view.set]{fullShare} f))
        ∗ (((chunkSlot 2 0).view.loc (c : Thread nD τ) ↦[(chunkSlot 2 0).view.set]{fullShare} f)
          ∗ ((chunkSlot 2 1).view.loc (c : Thread nD τ) ↦[(chunkSlot 2 1).view.set]{fullShare} f)
          ∗ ((chunkSlot 2 2).view.loc (c : Thread nD τ) ↦[(chunkSlot 2 2).view.set]{fullShare} f)
          ∗ ((chunkSlot 2 3).view.loc (c : Thread nD τ) ↦[(chunkSlot 2 3).view.set]{fullShare} f))) : sProp (MT nD τ sig Unit (Elt F) ℕ UU ℕ))
      ⊢ ((c : Thread nD τ).loc cc0_scratch2 ↦{fullShare} f) :=
  Entails.of_eq (chunk_split12 c f).symm

theorem scratch_intro (c : Dev nD) :
    (iprop((∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)
        ∗ (∃ f : Buf (Elt F) ((c : Thread nD τ).loc cc0_scratch2), ((c : Thread nD τ).loc cc0_scratch2) ↦{fullShare} f)
        ∗ (∃ f : Buf (Elt F) ((c : Thread nD τ).loc cc0_scratch3), ((c : Thread nD τ).loc cc0_scratch3) ↦{fullShare} f))
      : sProp (MT nD τ sig Unit (Elt F) ℕ UU ℕ)) ⊢ scratch (F := F) c := by
  unfold scratch
  exact .rfl

end Slots

end Cert.KernelIdeal.A2A
end
-- ==== Proof.BodyExit.lean ====
import proofs.«900531_g7700000000000532_dist_gemm_a2a_m4096_k4096_n2048_f32_gelu_v7x_i4_1_alg».proof.Proof.BodyGlue
import proofs.«900531_g7700000000000532_dist_gemm_a2a_m4096_k4096_n2048_f32_gelu_v7x_i4_1_alg».proof.Proof.RecvSteps

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (RF : (c : Dev nD) → Buf (Elt F) ((c : Thread nD τ).loc cc0_scratch3))
variable (CF : (c : Dev nD) → Buf (Elt F) ((c : Thread nD τ).loc cc0_scratch2))
variable (m : (ℓ : Loc nD τ sig) → Buf (Elt F) ℓ) (ρ : Dev nD → PrngReg)
variable (OUT : (c : Dev nD) → (cc0_stg0_0 : Ref sig .tc).ty.Contents (Elt F))

def bSend (s : Fin 3) (r : Fin 4) : Fin 28 := ⟨4 * s.val + r.val, by have := s.isLt; have := r.isLt; omega⟩
def bRecv (src r : Fin 4) : Fin 28 := ⟨12 + 4 * src.val + r.val, by have := src.isLt; have := r.isLt; omega⟩

theorem bSend_succ : ∀ (s : Fin 3) (r : Fin 4), (bSend s r).succ = ckSend s r := by decide
theorem bRecv_succ : ∀ (src r : Fin 4), (bRecv src r).succ = ckRecv src r := by decide

theorem kcell_bsend (d : Dev nD) (s : Fin 3) (r : Fin 4) : kcell (d, (bSend s r).succ) = sendCell d s r := by
  rw [bSend_succ]; exact kcell_send d s r
theorem kcell_brecv (d : Dev nD) (src r : Fin 4) : kcell (d, (bRecv src r).succ) = recvCell d src r := by
  rw [bRecv_succ]; exact kcell_recv d src r

theorem dma_nodup : ∀ c : Dev nD, ([bSend 0 0, bSend 0 1, bSend 0 2, bSend 0 3, bSend 1 0, bSend 1 1, bSend 1 2, bSend 1 3, bSend 2 0, bSend 2 1, bSend 2 2, bSend 2 3, bRecv (peer c 1) 0, bRecv (peer c 1) 1, bRecv (peer c 1) 2, bRecv (peer c 1) 3, bRecv (peer c 2) 0, bRecv (peer c 2) 1, bRecv (peer c 2) 2, bRecv (peer c 2) 3, bRecv (peer c 3) 0, bRecv (peer c 3) 1, bRecv (peer c 3) 2, bRecv (peer c 3) 3, bRecv c 0, bRecv c 1, bRecv c 2, bRecv c 3] : List (Fin 28)).Nodup := by decide
theorem dma_all : ∀ c : Dev nD, (Finset.univ : Finset (Fin 28)) = ([bSend 0 0, bSend 0 1, bSend 0 2, bSend 0 3, bSend 1 0, bSend 1 1, bSend 1 2, bSend 1 3, bSend 2 0, bSend 2 1, bSend 2 2, bSend 2 3, bRecv (peer c 1) 0, bRecv (peer c 1) 1, bRecv (peer c 1) 2, bRecv (peer c 1) 3, bRecv (peer c 2) 0, bRecv (peer c 2) 1, bRecv (peer c 2) 2, bRecv (peer c 2) 3, bRecv (peer c 3) 0, bRecv (peer c 3) 1, bRecv (peer c 3) 2, bRecv (peer c 3) 3, bRecv c 0, bRecv c 1, bRecv c 2, bRecv c 3] : List (Fin 28)).toFinset := by decide

omit [FloatOps F] in
theorem dma_cells (c : Dev nD) :
    (iprop(semVal (sendCell c 0 0) 0
        ∗ semVal (sendCell c 0 1) 0
        ∗ semVal (sendCell c 0 2) 0
        ∗ semVal (sendCell c 0 3) 0
        ∗ semVal (sendCell c 1 0) 0
        ∗ semVal (sendCell c 1 1) 0
        ∗ semVal (sendCell c 1 2) 0
        ∗ semVal (sendCell c 1 3) 0
        ∗ semVal (sendCell c 2 0) 0
        ∗ semVal (sendCell c 2 1) 0
        ∗ semVal (sendCell c 2 2) 0
        ∗ semVal (sendCell c 2 3) 0
        ∗ semVal (recvCell c (peer c 1) 0) 0
        ∗ semVal (recvCell c (peer c 1) 1) 0
        ∗ semVal (recvCell c (peer c 1) 2) 0
        ∗ semVal (recvCell c (peer c 1) 3) 0
        ∗ semVal (recvCell c (peer c 2) 0) 0
        ∗ semVal (recvCell c (peer c 2) 1) 0
        ∗ semVal (recvCell c (peer c 2) 2) 0
        ∗ semVal (recvCell c (peer c 2) 3) 0
        ∗ semVal (recvCell c (peer c 3) 0) 0
        ∗ semVal (recvCell c (peer c 3) 1) 0
        ∗ semVal (recvCell c (peer c 3) 2) 0
        ∗ semVal (recvCell c (peer c 3) 3) 0
        ∗ semVal (recvCell c c 0) 0
        ∗ semVal (recvCell c c 1) 0
        ∗ semVal (recvCell c c 2) 0
        ∗ semVal (recvCell c c 3) 0) : sProp 𝕄)
      ⊢ bigSep Finset.univ fun b : Fin 28 => semVal (kcell (c, b.succ)) 0 := by
  rw [bigSep_univ_eq_bigSepL _ (dma_all c) (dma_nodup c)]
  refine Entails.of_eq ?_
  rw [← kcell_bsend c 0 0, ← kcell_bsend c 0 1, ← kcell_bsend c 0 2, ← kcell_bsend c 0 3, ← kcell_bsend c 1 0, ← kcell_bsend c 1 1, ← kcell_bsend c 1 2, ← kcell_bsend c 1 3, ← kcell_bsend c 2 0, ← kcell_bsend c 2 1, ← kcell_bsend c 2 2, ← kcell_bsend c 2 3, ← kcell_brecv c (peer c 1) 0, ← kcell_brecv c (peer c 1) 1, ← kcell_brecv c (peer c 1) 2, ← kcell_brecv c (peer c 1) 3, ← kcell_brecv c (peer c 2) 0, ← kcell_brecv c (peer c 2) 1, ← kcell_brecv c (peer c 2) 2, ← kcell_brecv c (peer c 2) 3, ← kcell_brecv c (peer c 3) 0, ← kcell_brecv c (peer c 3) 1, ← kcell_brecv c (peer c 3) 2, ← kcell_brecv c (peer c 3) 3, ← kcell_brecv c c 0, ← kcell_brecv c c 1, ← kcell_brecv c c 2, ← kcell_brecv c c 3]
  rfl

omit [FloatOps F] in
theorem locals_intro (c : Dev nD) :
    (iprop(semVal ((c : Thread nD τ), .dma (xS 0)) 0
        ∗ semVal ((c : Thread nD τ), .dma (xS 1)) 0
        ∗ semVal ((c : Thread nD τ), .dma (xS 2)) 0
        ∗ semVal ((c : Thread nD τ), .dma (xS 3)) 0
        ∗ semVal ((c : Thread nD τ), .dma (wS 0 0)) 0
        ∗ semVal ((c : Thread nD τ), .dma (wS 0 1)) 0
        ∗ semVal ((c : Thread nD τ), .dma (wS 1 0)) 0
        ∗ semVal ((c : Thread nD τ), .dma (wS 1 1)) 0) : sProp 𝕄) ⊢ locals0 (F := F) c := by
  unfold locals0
  rw [bigSep_univ_eq_bigSepL [0, 1, 2, 3, 4, 5, 6, 7] (by decide) (by decide)]
  exact Entails.of_eq rfl

omit [FloatOps F] in
theorem ownSems_intro (c : Dev nD) :
    iprop(locals0 (F := F) c ∗ bigSep Finset.univ fun b : Fin 28 => semVal (kcell (c, b.succ)) 0)
      ⊢ (bigSep Finset.univ fun j : Fin 36 => semVal ((c : Thread nD τ), .dma (ownQ j)) 0 : sProp 𝕄) :=
  (Entails.of_eq (ownSems0_eq (F := F) c).symm).trans (Entails.of_eq rfl)

-- What the body returns with regroups into the grid point's postcondition.
set_option maxHeartbeats 1600000 in
theorem bodyPost_intro (c : Dev nD) (W' : Waits sig Unit)
    (X3 : Bf (F := F) c (Memref.whole cc0_scratch0)) (X4 : Bf (F := F) c (Memref.whole cc0_scratch1))
    (S : Finset (Idx ((c : Thread nD τ).loc cc0_scratch2))) (X5 : Buf (Elt F) ((c : Thread nD τ).loc cc0_scratch2))
    (f6 : (c : Dev nD) → Buf (Elt F) ((c : Thread nD τ).loc cc0_scratch3)) :
    iprop(pt c (Memref.whole main_arg0) (m ((c : Thread nD τ).loc main_arg0))
        ∗ pt c (Memref.whole main_arg1) (m ((c : Thread nD τ).loc main_arg1))
        ∗ pt c (Memref.whole cc0_scratch0) X3
        ∗ pt c (Memref.whole cc0_scratch1) X4
        ∗ ((c : Thread nD τ).loc cc0_scratch2 ↦[S]{fullShare} X5)
        ∗ sendPay CF c 0 0
        ∗ sendPay CF c 0 1
        ∗ sendPay CF c 0 2
        ∗ sendPay CF c 0 3
        ∗ sendPay CF c 1 0
        ∗ sendPay CF c 1 1
        ∗ sendPay CF c 1 2
        ∗ sendPay CF c 1 3
        ∗ sendPay CF c 2 0
        ∗ sendPay CF c 2 1
        ∗ sendPay CF c 2 2
        ∗ sendPay CF c 2 3
        ∗ ((recvSlot c 0).view.loc (c : Thread nD τ) ↦[(recvSlot c 0).view.set]{fullShare} RFs f6 c c 0)
        ∗ ((recvSlot c 1).view.loc (c : Thread nD τ) ↦[(recvSlot c 1).view.set]{fullShare} RFs f6 c c 1)
        ∗ ((recvSlot c 2).view.loc (c : Thread nD τ) ↦[(recvSlot c 2).view.set]{fullShare} RFs f6 c c 2)
        ∗ ((recvSlot c 3).view.loc (c : Thread nD τ) ↦[(recvSlot c 3).view.set]{fullShare} RFs f6 c c 3)
        ∗ recvPay RF c (peer c 1) 0
        ∗ recvPay RF c (peer c 1) 1
        ∗ recvPay RF c (peer c 1) 2
        ∗ recvPay RF c (peer c 1) 3
        ∗ recvPay RF c (peer c 2) 0
        ∗ recvPay RF c (peer c 2) 1
        ∗ recvPay RF c (peer c 2) 2
        ∗ recvPay RF c (peer c 2) 3
        ∗ recvPay RF c (peer c 3) 0
        ∗ recvPay RF c (peer c 3) 1
        ∗ recvPay RF c (peer c 3) 2
        ∗ recvPay RF c (peer c 3) 3
        ∗ semVal ((c : Thread nD τ), .dma (xS 0)) 0
        ∗ semVal ((c : Thread nD τ), .dma (xS 1)) 0
        ∗ semVal ((c : Thread nD τ), .dma (xS 2)) 0
        ∗ semVal ((c : Thread nD τ), .dma (xS 3)) 0
        ∗ semVal ((c : Thread nD τ), .dma (wS 0 0)) 0
        ∗ semVal ((c : Thread nD τ), .dma (wS 0 1)) 0
        ∗ semVal ((c : Thread nD τ), .dma (wS 1 0)) 0
        ∗ semVal ((c : Thread nD τ), .dma (wS 1 1)) 0
        ∗ semVal (sendCell c 0 0) 0
        ∗ semVal (sendCell c 0 1) 0
        ∗ semVal (sendCell c 0 2) 0
        ∗ semVal (sendCell c 0 3) 0
        ∗ semVal (sendCell c 1 0) 0
        ∗ semVal (sendCell c 1 1) 0
        ∗ semVal (sendCell c 1 2) 0
        ∗ semVal (sendCell c 1 3) 0
        ∗ semVal (sendCell c 2 0) 0
        ∗ semVal (sendCell c 2 1) 0
        ∗ semVal (sendCell c 2 2) 0
        ∗ semVal (sendCell c 2 3) 0
        ∗ semVal (recvCell c (peer c 1) 0) 0
        ∗ semVal (recvCell c (peer c 1) 1) 0
        ∗ semVal (recvCell c (peer c 1) 2) 0
        ∗ semVal (recvCell c (peer c 1) 3) 0
        ∗ semVal (recvCell c (peer c 2) 0) 0
        ∗ semVal (recvCell c (peer c 2) 1) 0
        ∗ semVal (recvCell c (peer c 2) 2) 0
        ∗ semVal (recvCell c (peer c 2) 3) 0
        ∗ semVal (recvCell c (peer c 3) 0) 0
        ∗ semVal (recvCell c (peer c 3) 1) 0
        ∗ semVal (recvCell c (peer c 3) 2) 0
        ∗ semVal (recvCell c (peer c 3) 3) 0
        ∗ semVal (recvCell c c 0) 0
        ∗ semVal (recvCell c c 1) 0
        ∗ semVal (recvCell c c 2) 0
        ∗ semVal (recvCell c c 3) 0
        ∗ owes (c : Thread nD τ) 0 W'
        ∗ pt c (Memref.whole cc0_stg0_0) (OUT c))
      ⊢ bodyPost (RF := RF) (CF := CF) (m := m) (ρ := ρ) (OUT := OUT) c := by
  unfold bodyPost Φ₁ args Dat.owesAt Pipeline.owesWithin sendPay recvPay
  iintro ⟨H0, H1, H3, H4, -, Hsp00, Hsp01, Hsp02, Hsp03, Hsp10, Hsp11, Hsp12, Hsp13, Hsp20, Hsp21, Hsp22, Hsp23, Hown0, Hown1, Hown2, Hown3, Hrp10, Hrp11, Hrp12, Hrp13, Hrp20, Hrp21, Hrp22, Hrp23, Hrp30, Hrp31, Hrp32, Hrp33, Hx0, Hx1, Hx2, Hx3, Hw00, Hw01, Hw10, Hw11, Hzs00, Hzs01, Hzs02, Hzs03, Hzs10, Hzs11, Hzs12, Hzs13, Hzs20, Hzs21, Hzs22, Hzs23, Hzr10, Hzr11, Hzr12, Hzr13, Hzr20, Hzr21, Hzr22, Hzr23, Hzr30, Hzr31, Hzr32, Hzr33, Hzr00, Hzr01, Hzr02, Hzr03, HO, H2⟩
  isplitr [HO H2]
  ·
    isplitl [H0 H1]
    · isplitl [H0]; · iexact H0
      iexact H1
    isplitr [Hx0 Hx1 Hx2 Hx3 Hw00 Hw01 Hw10 Hw11 Hzs00 Hzs01 Hzs02 Hzs03 Hzs10 Hzs11 Hzs12 Hzs13 Hzs20 Hzs21 Hzs22 Hzs23 Hzr10 Hzr11 Hzr12 Hzr13 Hzr20 Hzr21 Hzr22 Hzr23 Hzr30 Hzr31 Hzr32 Hzr33 Hzr00 Hzr01 Hzr02 Hzr03]
    · iapply (Slots.scratch_intro (F := F) c)
      isplitl [H3]; · iexists X3; iexact H3
      isplitl [H4]; · iexists X4; iexact H4
      isplitl [Hsp00 Hsp01 Hsp02 Hsp03 Hsp10 Hsp11 Hsp12 Hsp13 Hsp20 Hsp21 Hsp22 Hsp23]
      · iexists (CF c)
        iapply (Slots.chunk_join_all (F := F) c (CF c))
        isplitl [Hsp00 Hsp01 Hsp02 Hsp03]
        · isplitl [Hsp00]; · iexact Hsp00
          isplitl [Hsp01]; · iexact Hsp01
          isplitl [Hsp02]; · iexact Hsp02
          iexact Hsp03
        isplitl [Hsp10 Hsp11 Hsp12 Hsp13]
        · isplitl [Hsp10]; · iexact Hsp10
          isplitl [Hsp11]; · iexact Hsp11
          isplitl [Hsp12]; · iexact Hsp12
          iexact Hsp13
        isplitl [Hsp20]; · iexact Hsp20
        isplitl [Hsp21]; · iexact Hsp21
        isplitl [Hsp22]; · iexact Hsp22
        iexact Hsp23

      · iapply (Slots.recv_join_own_others (F := F) c (f6 c) (RF c))
        isplitl [Hown0 Hown1 Hown2 Hown3]
        · isplitl [Hown0]; · iexact Hown0
          isplitl [Hown1]; · iexact Hown1
          isplitl [Hown2]; · iexact Hown2
          iexact Hown3
        isplitl [Hrp10 Hrp11 Hrp12 Hrp13]
        · isplitl [Hrp10]; · iexact Hrp10
          isplitl [Hrp11]; · iexact Hrp11
          isplitl [Hrp12]; · iexact Hrp12
          iexact Hrp13
        isplitl [Hrp20 Hrp21 Hrp22 Hrp23]
        · isplitl [Hrp20]; · iexact Hrp20
          isplitl [Hrp21]; · iexact Hrp21
          isplitl [Hrp22]; · iexact Hrp22
          iexact Hrp23
        isplitl [Hrp30]; · iexact Hrp30
        isplitl [Hrp31]; · iexact Hrp31
        isplitl [Hrp32]; · iexact Hrp32
        iexact Hrp33

    · iapply (ownSems_intro (F := F) c)
      isplitl [Hx0 Hx1 Hx2 Hx3 Hw00 Hw01 Hw10 Hw11]
      · iapply (locals_intro (F := F) c)
        isplitl [Hx0]; · iexact Hx0
        isplitl [Hx1]; · iexact Hx1
        isplitl [Hx2]; · iexact Hx2
        isplitl [Hx3]; · iexact Hx3
        isplitl [Hw00]; · iexact Hw00
        isplitl [Hw01]; · iexact Hw01
        isplitl [Hw10]; · iexact Hw10
        iexact Hw11

      · iapply (dma_cells (F := F) c)
        isplitl [Hzs00]; · iexact Hzs00
        isplitl [Hzs01]; · iexact Hzs01
        isplitl [Hzs02]; · iexact Hzs02
        isplitl [Hzs03]; · iexact Hzs03
        isplitl [Hzs10]; · iexact Hzs10
        isplitl [Hzs11]; · iexact Hzs11
        isplitl [Hzs12]; · iexact Hzs12
        isplitl [Hzs13]; · iexact Hzs13
        isplitl [Hzs20]; · iexact Hzs20
        isplitl [Hzs21]; · iexact Hzs21
        isplitl [Hzs22]; · iexact Hzs22
        isplitl [Hzs23]; · iexact Hzs23
        isplitl [Hzr10]; · iexact Hzr10
        isplitl [Hzr11]; · iexact Hzr11
        isplitl [Hzr12]; · iexact Hzr12
        isplitl [Hzr13]; · iexact Hzr13
        isplitl [Hzr20]; · iexact Hzr20
        isplitl [Hzr21]; · iexact Hzr21
        isplitl [Hzr22]; · iexact Hzr22
        isplitl [Hzr23]; · iexact Hzr23
        isplitl [Hzr30]; · iexact Hzr30
        isplitl [Hzr31]; · iexact Hzr31
        isplitl [Hzr32]; · iexact Hzr32
        isplitl [Hzr33]; · iexact Hzr33
        isplitl [Hzr00]; · iexact Hzr00
        isplitl [Hzr01]; · iexact Hzr01
        isplitl [Hzr02]; · iexact Hzr02
        iexact Hzr03

  · isplitl [HO]
    · iexists W'
      isplitr; · ipureintro; exact fun _ _ => Or.inl trivial
      iexact HO
    · iexists (OUT c)
      isplitr; · ipureintro; rfl
      iexact H2

end Cert.KernelIdeal.A2A
end
-- ==== Proof.OutValue.lean ====
import proofs.«900531_g7700000000000532_dist_gemm_a2a_m4096_k4096_n2048_f32_gelu_v7x_i4_1_alg».proof.Proof.RecvSteps
import Idealize.ShloMosaic.Lib.Writes
import proofs.«900531_g7700000000000532_dist_gemm_a2a_m4096_k4096_n2048_f32_gelu_v7x_i4_1_alg».proof.Proof.Contents

noncomputable section

namespace Cert.KernelIdeal.A2A

open Cert.KernelIdeal Cert.KernelIdeal.Gen
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

namespace Slots

variable {F : FTy → Type} [FloatOps F]

local notation "𝕄" => MT nD τ sig Unit (Elt F) ℕ UU ℕ

theorem inb_own : ∀ c : Dev nD, ∀ a, (![1024 * c.val, 0] : Fin 2 → Nat) a + S1024x512.size a ≤ S4096x512.size a := by decide

def ownRect (c : Dev nD) : Rect S4096x512 := Rect.unit (s := S4096x512) ![1024 * c.val, 0] S1024x512.size (inb_own c)

theorem peer_ne_self' : ∀ (c : Dev nD) (k : ℕ), (k = 1 ∨ k = 2 ∨ k = 3) → peer c k ≠ c := by
  intro c k hk; rcases hk with rfl | rfl | rfl <;> revert c <;> decide

theorem others_peer : ∀ c s : Fin 4, s ≠ c → s = peer c 1 ∨ s = peer c 2 ∨ s = peer c 3 := by decide

theorem own_piece (m : (ℓ : Loc nD τ sig) → Buf (Elt F) ℓ) (c : Dev nD) (x : (ownRect c).shape.Idx) :
    k0_pay25 (xAll m c) (wCols m c c) x = OUTv m c ((ownRect c).emb x) := by
  obtain ⟨p, q, rfl⟩ : ∃ (p : Fin 1024) (q : Fin 512), x = ix2 p q := ⟨x 0, x 1, eq_ix2 x⟩
  rw [← OUTv_own m c p q]
  congr 1
  funext a
  match a with
  | ⟨0, _⟩ => exact Fin.ext (by show 1024 * c.val + p.val = 1024 * c.val + 1 * p.val; omega)
  | ⟨1, _⟩ => exact Fin.ext (by show q.val = 0 + 1 * q.val; omega)

theorem other_piece (m : (ℓ : Loc nD τ sig) → Buf (Elt F) ℓ) (c s : Dev nD) (hs : s ≠ c) (g : Fin 4) (x : (outRect s g).shape.Idx) :
    k0_pay1 (rfTile m c s g) x = OUTv m c ((outRect s g).emb x) := by
  obtain ⟨p, q, rfl⟩ : ∃ (p : Fin 256) (q : Fin 512), x = ix2 p q := ⟨x 0, x 1, eq_ix2 x⟩
  rw [rfTile_eq, ← OUTv_other m c s hs g p q]
  congr 1
  funext a
  match a with
  | ⟨0, _⟩ => exact Fin.ext (by show 1024 * s.val + 256 * g.val + p.val = 1024 * s.val + 256 * g.val + 1 * p.val; omega)
  | ⟨1, _⟩ => exact Fin.ext (by show q.val = 0 + 1 * q.val; omega)

theorem mem_outRect (s g : Fin 4) (y : S4096x512.Idx) (hs : (y 0).val / 1024 = s.val) (hg : (y 0).val % 1024 / 256 = g.val) :
    y ∈ (outRect s g).set := by
  have h1 : (y 1).val < 512 := (y 1).isLt
  unfold outRect
  rw [Rect.mem_set_unit]
  intro a
  fin_cases a
  · show 1024 * s.val + 256 * g.val ≤ (y 0).val ∧ (y 0).val < 1024 * s.val + 256 * g.val + 256; omega
  · show 0 ≤ (y 1).val ∧ (y 1).val < 0 + 512; omega

theorem mem_ownRect (c : Dev nD) (y : S4096x512.Idx) (hs : (y 0).val / 1024 = c.val) : y ∈ (ownRect c).set := by
  have h1 : (y 1).val < 512 := (y 1).isLt
  unfold ownRect
  rw [Rect.mem_set_unit]
  intro a
  fin_cases a
  · show 1024 * c.val ≤ (y 0).val ∧ (y 0).val < 1024 * c.val + 1024; omega
  · show 0 ≤ (y 1).val ∧ (y 1).val < 0 + 512; omega

def outPieces (m : (ℓ : Loc nD τ sig) → Buf (Elt F) ℓ) (c : Dev nD) : List (View.Piece (Elt F) S4096x512 .f32) :=
  [⟨outRect (peer c 1) 3, k0_pay1 (rfTile m c (peer c 1) 3)⟩,
   ⟨outRect (peer c 1) 2, k0_pay1 (rfTile m c (peer c 1) 2)⟩,
   ⟨outRect (peer c 1) 1, k0_pay1 (rfTile m c (peer c 1) 1)⟩,
   ⟨outRect (peer c 1) 0, k0_pay1 (rfTile m c (peer c 1) 0)⟩,
   ⟨outRect (peer c 3) 3, k0_pay1 (rfTile m c (peer c 3) 3)⟩,
   ⟨outRect (peer c 3) 2, k0_pay1 (rfTile m c (peer c 3) 2)⟩,
   ⟨outRect (peer c 3) 1, k0_pay1 (rfTile m c (peer c 3) 1)⟩,
   ⟨outRect (peer c 3) 0, k0_pay1 (rfTile m c (peer c 3) 0)⟩,
   ⟨outRect (peer c 2) 3, k0_pay1 (rfTile m c (peer c 2) 3)⟩,
   ⟨outRect (peer c 2) 2, k0_pay1 (rfTile m c (peer c 2) 2)⟩,
   ⟨outRect (peer c 2) 1, k0_pay1 (rfTile m c (peer c 2) 1)⟩,
   ⟨outRect (peer c 2) 0, k0_pay1 (rfTile m c (peer c 2) 0)⟩,
   ⟨ownRect c, k0_pay25 (xAll m c) (wCols m c c)⟩]

theorem outPieces_cover (m : (ℓ : Loc nD τ sig) → Buf (Elt F) ℓ) (c : Dev nD) (y : S4096x512.Idx) :
    ∃ p ∈ outPieces m c, y ∈ p.1.set := by
  have h0 : (y 0).val < 4096 := (y 0).isLt
  by_cases hc : (y 0).val / 1024 = c.val
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), mem_ownRect c y hc⟩
  · obtain ⟨s, hs⟩ : ∃ s : Fin 4, (y 0).val / 1024 = s.val := ⟨⟨(y 0).val / 1024, by omega⟩, rfl⟩
    obtain ⟨g, hg⟩ : ∃ g : Fin 4, (y 0).val % 1024 / 256 = g.val := ⟨⟨(y 0).val % 1024 / 256, by omega⟩, rfl⟩
    have hsc : s ≠ c := fun e => hc (by rw [hs, e])
    rcases others_peer c s hsc with rfl | rfl | rfl <;> fin_cases g
    · exact ⟨_, List.mem_cons_of_mem _ (List.mem_cons_of_mem _ (List.mem_cons_of_mem _ (List.mem_cons_self))), mem_outRect (peer c 1) 0 y (by rw [hs]) (by rw [hg]; rfl)⟩
    · exact ⟨_, List.mem_cons_of_mem _ (List.mem_cons_of_mem _ (List.mem_cons_self)), mem_outRect (peer c 1) 1 y (by rw [hs]) (by rw [hg]; rfl)⟩
    · exact ⟨_, List.mem_cons_of_mem _ (List.mem_cons_self), mem_outRect (peer c 1) 2 y (by rw [hs]) (by rw [hg]; rfl)⟩
    · exact ⟨_, List.mem_cons_self, mem_outRect (peer c 1) 3 y (by rw [hs]) (by rw [hg]; rfl)⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), mem_outRect (peer c 2) 0 y (by rw [hs]) (by rw [hg]; rfl)⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem_outRect (peer c 2) 1 y (by rw [hs]) (by rw [hg]; rfl)⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem_outRect (peer c 2) 2 y (by rw [hs]) (by rw [hg]; rfl)⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_outRect (peer c 2) 3 y (by rw [hs]) (by rw [hg]; rfl)⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_outRect (peer c 3) 0 y (by rw [hs]) (by rw [hg]; rfl)⟩
    · exact ⟨_, List.mem_cons_of_mem _ (List.mem_cons_of_mem _ (List.mem_cons_of_mem _ (List.mem_cons_of_mem _ (List.mem_cons_of_mem _ (List.mem_cons_of_mem _ (List.mem_cons_self)))))), mem_outRect (peer c 3) 1 y (by rw [hs]) (by rw [hg]; rfl)⟩
    · exact ⟨_, List.mem_cons_of_mem _ (List.mem_cons_of_mem _ (List.mem_cons_of_mem _ (List.mem_cons_of_mem _ (List.mem_cons_of_mem _ (List.mem_cons_self))))), mem_outRect (peer c 3) 2 y (by rw [hs]) (by rw [hg]; rfl)⟩
    · exact ⟨_, List.mem_cons_of_mem _ (List.mem_cons_of_mem _ (List.mem_cons_of_mem _ (List.mem_cons_of_mem _ (List.mem_cons_self)))), mem_outRect (peer c 3) 3 y (by rw [hs]) (by rw [hg]; rfl)⟩

theorem outPieces_val (m : (ℓ : Loc nD τ sig) → Buf (Elt F) ℓ) (c : Dev nD) :
    ∀ p ∈ outPieces m c, ∀ x : p.1.shape.Idx, p.2 x = OUTv m c (p.1.emb x) :=
  List.forall_mem_cons.mpr ⟨other_piece m c (peer c 1) (peer_ne_self' c 1 (by decide)) 3, List.forall_mem_cons.mpr ⟨other_piece m c (peer c 1) (peer_ne_self' c 1 (by decide)) 2, List.forall_mem_cons.mpr ⟨other_piece m c (peer c 1) (peer_ne_self' c 1 (by decide)) 1, List.forall_mem_cons.mpr ⟨other_piece m c (peer c 1) (peer_ne_self' c 1 (by decide)) 0, List.forall_mem_cons.mpr ⟨other_piece m c (peer c 3) (peer_ne_self' c 3 (by decide)) 3, List.forall_mem_cons.mpr ⟨other_piece m c (peer c 3) (peer_ne_self' c 3 (by decide)) 2, List.forall_mem_cons.mpr ⟨other_piece m c (peer c 3) (peer_ne_self' c 3 (by decide)) 1, List.forall_mem_cons.mpr ⟨other_piece m c (peer c 3) (peer_ne_self' c 3 (by decide)) 0, List.forall_mem_cons.mpr ⟨other_piece m c (peer c 2) (peer_ne_self' c 2 (by decide)) 3, List.forall_mem_cons.mpr ⟨other_piece m c (peer c 2) (peer_ne_self' c 2 (by decide)) 2, List.forall_mem_cons.mpr ⟨other_piece m c (peer c 2) (peer_ne_self' c 2 (by decide)) 1, List.forall_mem_cons.mpr ⟨other_piece m c (peer c 2) (peer_ne_self' c 2 (by decide)) 0, List.forall_mem_cons.mpr ⟨own_piece m c, fun _ h => absurd h List.not_mem_nil⟩⟩⟩⟩⟩⟩⟩⟩⟩⟩⟩⟩⟩

theorem writes_outPieces (m : (ℓ : Loc nD τ sig) → Buf (Elt F) ℓ) (c : Dev nD) (f2 : (cc0_stg0_0 : Ref sig .tc).ty.Contents (Elt F)) :
    (Memref.whole cc0_stg0_0 : Memref sig .tc .vmem S4096x512 .f32).view.writes (Elt F) f2 (outPieces m c) = OUTv m c := by
  funext y
  have h := View.read_writes_apply_of_pieces (Memref.whole cc0_stg0_0 : Memref sig .tc .vmem S4096x512 .f32).view f2 (OUTv m c) (outPieces m c) (outPieces_val m c) y
    (outPieces_cover m c y)
  have key : ∀ g : (cc0_stg0_0 : Ref sig .tc).ty.Contents (Elt F), (Memref.whole cc0_stg0_0 : Memref sig .tc .vmem S4096x512 .f32).view.read (Elt F) g y = g y := fun g => rfl
  exact (key _).symm.trans h

-- The thirteen pieces written into the result cover it, and each agrees with OUT on its rows.
theorem out_value (m : (ℓ : Loc nD τ sig) → Buf (Elt F) ℓ) (c : Dev nD) (f2 : (cc0_stg0_0 : Ref sig .tc).ty.Contents (Elt F))
    {o0 : Fin 2 → Nat} (h0 : o0 = ![1024 * c.val, 0]) {i0 : ∀ a, o0 a + S1024x512.size a ≤ S4096x512.size a}
    {P0 : S1024x512.Idx → Elt F .f32} (hP0 : P0 = k0_pay25 (xAll m c) (wCols m c c))
    {o1 : Fin 2 → Nat} (h1 : o1 = ![1024 * (peer c 2).val + 256 * (0 : Fin 4).val, 0]) {i1 : ∀ a, o1 a + S256x512.size a ≤ S4096x512.size a}
    {P1 : S256x512.Idx → Elt F .f32} (hP1 : P1 = k0_pay1 (rfTile m c (peer c 2) 0))
    {o2 : Fin 2 → Nat} (h2 : o2 = ![1024 * (peer c 2).val + 256 * (1 : Fin 4).val, 0]) {i2 : ∀ a, o2 a + S256x512.size a ≤ S4096x512.size a}
    {P2 : S256x512.Idx → Elt F .f32} (hP2 : P2 = k0_pay1 (rfTile m c (peer c 2) 1))
    {o3 : Fin 2 → Nat} (h3 : o3 = ![1024 * (peer c 2).val + 256 * (2 : Fin 4).val, 0]) {i3 : ∀ a, o3 a + S256x512.size a ≤ S4096x512.size a}
    {P3 : S256x512.Idx → Elt F .f32} (hP3 : P3 = k0_pay1 (rfTile m c (peer c 2) 2))
    {o4 : Fin 2 → Nat} (h4 : o4 = ![1024 * (peer c 2).val + 256 * (3 : Fin 4).val, 0]) {i4 : ∀ a, o4 a + S256x512.size a ≤ S4096x512.size a}
    {P4 : S256x512.Idx → Elt F .f32} (hP4 : P4 = k0_pay1 (rfTile m c (peer c 2) 3))
    {o5 : Fin 2 → Nat} (h5 : o5 = ![1024 * (peer c 3).val + 256 * (0 : Fin 4).val, 0]) {i5 : ∀ a, o5 a + S256x512.size a ≤ S4096x512.size a}
    {P5 : S256x512.Idx → Elt F .f32} (hP5 : P5 = k0_pay1 (rfTile m c (peer c 3) 0))
    {o6 : Fin 2 → Nat} (h6 : o6 = ![1024 * (peer c 3).val + 256 * (1 : Fin 4).val, 0]) {i6 : ∀ a, o6 a + S256x512.size a ≤ S4096x512.size a}
    {P6 : S256x512.Idx → Elt F .f32} (hP6 : P6 = k0_pay1 (rfTile m c (peer c 3) 1))
    {o7 : Fin 2 → Nat} (h7 : o7 = ![1024 * (peer c 3).val + 256 * (2 : Fin 4).val, 0]) {i7 : ∀ a, o7 a + S256x512.size a ≤ S4096x512.size a}
    {P7 : S256x512.Idx → Elt F .f32} (hP7 : P7 = k0_pay1 (rfTile m c (peer c 3) 2))
    {o8 : Fin 2 → Nat} (h8 : o8 = ![1024 * (peer c 3).val + 256 * (3 : Fin 4).val, 0]) {i8 : ∀ a, o8 a + S256x512.size a ≤ S4096x512.size a}
    {P8 : S256x512.Idx → Elt F .f32} (hP8 : P8 = k0_pay1 (rfTile m c (peer c 3) 3))
    {o9 : Fin 2 → Nat} (h9 : o9 = ![1024 * (peer c 1).val + 256 * (0 : Fin 4).val, 0]) {i9 : ∀ a, o9 a + S256x512.size a ≤ S4096x512.size a}
    {P9 : S256x512.Idx → Elt F .f32} (hP9 : P9 = k0_pay1 (rfTile m c (peer c 1) 0))
    {o10 : Fin 2 → Nat} (h10 : o10 = ![1024 * (peer c 1).val + 256 * (1 : Fin 4).val, 0]) {i10 : ∀ a, o10 a + S256x512.size a ≤ S4096x512.size a}
    {P10 : S256x512.Idx → Elt F .f32} (hP10 : P10 = k0_pay1 (rfTile m c (peer c 1) 1))
    {o11 : Fin 2 → Nat} (h11 : o11 = ![1024 * (peer c 1).val + 256 * (2 : Fin 4).val, 0]) {i11 : ∀ a, o11 a + S256x512.size a ≤ S4096x512.size a}
    {P11 : S256x512.Idx → Elt F .f32} (hP11 : P11 = k0_pay1 (rfTile m c (peer c 1) 2))
    {o12 : Fin 2 → Nat} (h12 : o12 = ![1024 * (peer c 1).val + 256 * (3 : Fin 4).val, 0]) {i12 : ∀ a, o12 a + S256x512.size a ≤ S4096x512.size a}
    {P12 : S256x512.Idx → Elt F .f32} (hP12 : P12 = k0_pay1 (rfTile m c (peer c 1) 3))
    :
    (((Memref.whole cc0_stg0_0 : Memref sig .tc .vmem S4096x512 .f32).access (Rect.unit (s := S4096x512) o12 S256x512.size i12)).write (Elt F)
      (((Memref.whole cc0_stg0_0 : Memref sig .tc .vmem S4096x512 .f32).access (Rect.unit (s := S4096x512) o11 S256x512.size i11)).write (Elt F)
      (((Memref.whole cc0_stg0_0 : Memref sig .tc .vmem S4096x512 .f32).access (Rect.unit (s := S4096x512) o10 S256x512.size i10)).write (Elt F)
      (((Memref.whole cc0_stg0_0 : Memref sig .tc .vmem S4096x512 .f32).access (Rect.unit (s := S4096x512) o9 S256x512.size i9)).write (Elt F)
      (((Memref.whole cc0_stg0_0 : Memref sig .tc .vmem S4096x512 .f32).access (Rect.unit (s := S4096x512) o8 S256x512.size i8)).write (Elt F)
      (((Memref.whole cc0_stg0_0 : Memref sig .tc .vmem S4096x512 .f32).access (Rect.unit (s := S4096x512) o7 S256x512.size i7)).write (Elt F)
      (((Memref.whole cc0_stg0_0 : Memref sig .tc .vmem S4096x512 .f32).access (Rect.unit (s := S4096x512) o6 S256x512.size i6)).write (Elt F)
      (((Memref.whole cc0_stg0_0 : Memref sig .tc .vmem S4096x512 .f32).access (Rect.unit (s := S4096x512) o5 S256x512.size i5)).write (Elt F)
      (((Memref.whole cc0_stg0_0 : Memref sig .tc .vmem S4096x512 .f32).access (Rect.unit (s := S4096x512) o4 S256x512.size i4)).write (Elt F)
      (((Memref.whole cc0_stg0_0 : Memref sig .tc .vmem S4096x512 .f32).access (Rect.unit (s := S4096x512) o3 S256x512.size i3)).write (Elt F)
      (((Memref.whole cc0_stg0_0 : Memref sig .tc .vmem S4096x512 .f32).access (Rect.unit (s := S4096x512) o2 S256x512.size i2)).write (Elt F)
      (((Memref.whole cc0_stg0_0 : Memref sig .tc .vmem S4096x512 .f32).access (Rect.unit (s := S4096x512) o1 S256x512.size i1)).write (Elt F)
      (((Memref.whole cc0_stg0_0 : Memref sig .tc .vmem S4096x512 .f32).access (Rect.unit (s := S4096x512) o0 S1024x512.size i0)).write (Elt F)
      f2 P0 Finset.univ) P1 Finset.univ) P2 Finset.univ) P3 Finset.univ) P4 Finset.univ) P5 Finset.univ) P6 Finset.univ) P7 Finset.univ) P8 Finset.univ) P9 Finset.univ) P10 Finset.univ) P11 Finset.univ) P12 Finset.univ)
      = OUTv m c := by
  subst h0 hP0; subst h1 hP1; subst h2 hP2; subst h3 hP3; subst h4 hP4; subst h5 hP5; subst h6 hP6; subst h7 hP7; subst h8 hP8; subst h9 hP9; subst h10 hP10; subst h11 hP11; subst h12 hP12
  exact writes_outPieces m c f2

theorem out_value_printed (m : (ℓ : Loc nD τ sig) → Buf (Elt F) ℓ) (c : Dev nD) (f2 : (cc0_stg0_0 : Ref sig .tc).ty.Contents (Elt F))
    {P0 : S1024x512.Idx → Elt F .f32} (hP0 : P0 = k0_pay25 (xAll m c) (wCols m c c)) :
    (((Memref.whole cc0_stg0_0 : Memref sig .tc .vmem S4096x512 .f32).access (Rect.unit (s := S4096x512) (k0_off15 c 1#32 768#32) S256x512.size (k0_off15_inb c 0 3))).write (Elt F)
      (((Memref.whole cc0_stg0_0 : Memref sig .tc .vmem S4096x512 .f32).access (Rect.unit (s := S4096x512) (k0_off15 c 1#32 512#32) S256x512.size (k0_off15_inb c 0 2))).write (Elt F)
      (((Memref.whole cc0_stg0_0 : Memref sig .tc .vmem S4096x512 .f32).access (Rect.unit (s := S4096x512) (k0_off15 c 1#32 256#32) S256x512.size (k0_off15_inb c 0 1))).write (Elt F)
      (((Memref.whole cc0_stg0_0 : Memref sig .tc .vmem S4096x512 .f32).access (Rect.unit (s := S4096x512) (k0_off15 c 1#32 0#32) S256x512.size (k0_off15_inb c 0 0))).write (Elt F)
      (((Memref.whole cc0_stg0_0 : Memref sig .tc .vmem S4096x512 .f32).access (Rect.unit (s := S4096x512) (k0_off15 c 3#32 768#32) S256x512.size (k0_off15_inb c 2 3))).write (Elt F)
      (((Memref.whole cc0_stg0_0 : Memref sig .tc .vmem S4096x512 .f32).access (Rect.unit (s := S4096x512) (k0_off15 c 3#32 512#32) S256x512.size (k0_off15_inb c 2 2))).write (Elt F)
      (((Memref.whole cc0_stg0_0 : Memref sig .tc .vmem S4096x512 .f32).access (Rect.unit (s := S4096x512) (k0_off15 c 3#32 256#32) S256x512.size (k0_off15_inb c 2 1))).write (Elt F)
      (((Memref.whole cc0_stg0_0 : Memref sig .tc .vmem S4096x512 .f32).access (Rect.unit (s := S4096x512) (k0_off15 c 3#32 0#32) S256x512.size (k0_off15_inb c 2 0))).write (Elt F)
      (((Memref.whole cc0_stg0_0 : Memref sig .tc .vmem S4096x512 .f32).access (Rect.unit (s := S4096x512) (k0_off15 c 2#32 768#32) S256x512.size (k0_off15_inb c 1 3))).write (Elt F)
      (((Memref.whole cc0_stg0_0 : Memref sig .tc .vmem S4096x512 .f32).access (Rect.unit (s := S4096x512) (k0_off15 c 2#32 512#32) S256x512.size (k0_off15_inb c 1 2))).write (Elt F)
      (((Memref.whole cc0_stg0_0 : Memref sig .tc .vmem S4096x512 .f32).access (Rect.unit (s := S4096x512) (k0_off15 c 2#32 256#32) S256x512.size (k0_off15_inb c 1 1))).write (Elt F)
      (((Memref.whole cc0_stg0_0 : Memref sig .tc .vmem S4096x512 .f32).access (Rect.unit (s := S4096x512) (k0_off15 c 2#32 0#32) S256x512.size (k0_off15_inb c 1 0))).write (Elt F)
      (((Memref.whole cc0_stg0_0 : Memref sig .tc .vmem S4096x512 .f32).access (Rect.unit (s := S4096x512) (k0_off11 c) S1024x512.size (k0_off11_inb c))).write (Elt F) f2 P0 Finset.univ)
      (k0_pay26 ((Memref.whole cc0_scratch3 : Memref sig .tc .vmem S4x1024x512 .bf16).view.readAt (Elt F) (Rect.unit (s := S4x1024x512) (k0_off14 c 2#32) S1x256x512.size (k0_off14_inb c 1)).toLoadRect (RFv m c))) Finset.univ)
      (k0_pay27 ((Memref.whole cc0_scratch3 : Memref sig .tc .vmem S4x1024x512 .bf16).view.readAt (Elt F) (Rect.unit (s := S4x1024x512) (k0_off18 c 2#32) S1x256x512.size (k0_off18_inb c 1)).toLoadRect (RFv m c))) Finset.univ)
      (k0_pay28 ((Memref.whole cc0_scratch3 : Memref sig .tc .vmem S4x1024x512 .bf16).view.readAt (Elt F) (Rect.unit (s := S4x1024x512) (k0_off21 c 2#32) S1x256x512.size (k0_off21_inb c 1)).toLoadRect (RFv m c))) Finset.univ)
      (k0_pay29 ((Memref.whole cc0_scratch3 : Memref sig .tc .vmem S4x1024x512 .bf16).view.readAt (Elt F) (Rect.unit (s := S4x1024x512) (k0_off24 c 2#32) S1x256x512.size (k0_off24_inb c 1)).toLoadRect (RFv m c))) Finset.univ)
      (k0_pay30 ((Memref.whole cc0_scratch3 : Memref sig .tc .vmem S4x1024x512 .bf16).view.readAt (Elt F) (Rect.unit (s := S4x1024x512) (k0_off14 c 3#32) S1x256x512.size (k0_off14_inb c 2)).toLoadRect (RFv m c))) Finset.univ)
      (k0_pay31 ((Memref.whole cc0_scratch3 : Memref sig .tc .vmem S4x1024x512 .bf16).view.readAt (Elt F) (Rect.unit (s := S4x1024x512) (k0_off18 c 3#32) S1x256x512.size (k0_off18_inb c 2)).toLoadRect (RFv m c))) Finset.univ)
      (k0_pay32 ((Memref.whole cc0_scratch3 : Memref sig .tc .vmem S4x1024x512 .bf16).view.readAt (Elt F) (Rect.unit (s := S4x1024x512) (k0_off21 c 3#32) S1x256x512.size (k0_off21_inb c 2)).toLoadRect (RFv m c))) Finset.univ)
      (k0_pay33 ((Memref.whole cc0_scratch3 : Memref sig .tc .vmem S4x1024x512 .bf16).view.readAt (Elt F) (Rect.unit (s := S4x1024x512) (k0_off24 c 3#32) S1x256x512.size (k0_off24_inb c 2)).toLoadRect (RFv m c))) Finset.univ)
      (k0_pay34 ((Memref.whole cc0_scratch3 : Memref sig .tc .vmem S4x1024x512 .bf16).view.readAt (Elt F) (Rect.unit (s := S4x1024x512) (k0_off14 c 1#32) S1x256x512.size (k0_off14_inb c 0)).toLoadRect (RFv m c))) Finset.univ)
      (k0_pay35 ((Memref.whole cc0_scratch3 : Memref sig .tc .vmem S4x1024x512 .bf16).view.readAt (Elt F) (Rect.unit (s := S4x1024x512) (k0_off18 c 1#32) S1x256x512.size (k0_off18_inb c 0)).toLoadRect (RFv m c))) Finset.univ)
      (k0_pay36 ((Memref.whole cc0_scratch3 : Memref sig .tc .vmem S4x1024x512 .bf16).view.readAt (Elt F) (Rect.unit (s := S4x1024x512) (k0_off21 c 1#32) S1x256x512.size (k0_off21_inb c 0)).toLoadRect (RFv m c))) Finset.univ)
      (k0_pay1 ((Memref.whole cc0_scratch3 : Memref sig .tc .vmem S4x1024x512 .bf16).view.readAt (Elt F) (Rect.unit (s := S4x1024x512) (k0_off24 c 1#32) S1x256x512.size (k0_off24_inb c 0)).toLoadRect (RFv m c))) Finset.univ)
      = OUTv m c :=
  out_value m c f2 (k0_off11_eq c) hP0
    (off15_w2_r0 c) (congrArg k0_pay1 (readAt_recv_off m c (peer c 2) 0 (off14_w2 c) _))
    (off15_w2_r1 c) (congrArg k0_pay1 (readAt_recv_off m c (peer c 2) 1 (off18_w2 c) _))
    (off15_w2_r2 c) (congrArg k0_pay1 (readAt_recv_off m c (peer c 2) 2 (off21_w2 c) _))
    (off15_w2_r3 c) (congrArg k0_pay1 (readAt_recv_off m c (peer c 2) 3 (off24_w2 c) _))
    (off15_w3_r0 c) (congrArg k0_pay1 (readAt_recv_off m c (peer c 3) 0 (off14_w3 c) _))
    (off15_w3_r1 c) (congrArg k0_pay1 (readAt_recv_off m c (peer c 3) 1 (off18_w3 c) _))
    (off15_w3_r2 c) (congrArg k0_pay1 (readAt_recv_off m c (peer c 3) 2 (off21_w3 c) _))
    (off15_w3_r3 c) (congrArg k0_pay1 (readAt_recv_off m c (peer c 3) 3 (off24_w3 c) _))
    (off15_w1_r0 c) (congrArg k0_pay1 (readAt_recv_off m c (peer c 1) 0 (off14_w1 c) _))
    (off15_w1_r1 c) (congrArg k0_pay1 (readAt_recv_off m c (peer c 1) 1 (off18_w1 c) _))
    (off15_w1_r2 c) (congrArg k0_pay1 (readAt_recv_off m c (peer c 1) 2 (off21_w1 c) _))
    (off15_w1_r3 c) (congrArg k0_pay1 (readAt_recv_off m c (peer c 1) 3 (off24_w1 c) _))

theorem out_value_list (m : (ℓ : Loc nD τ sig) → Buf (Elt F) ℓ) (c : Dev nD) (f2 : (cc0_stg0_0 : Ref sig .tc).ty.Contents (Elt F))
    {P0 : S1024x512.Idx → Elt F .f32} (hP0 : P0 = k0_pay25 (xAll m c) (wCols m c c)) :
    (Memref.whole cc0_stg0_0 : Memref sig .tc .vmem S4096x512 .f32).view.writes (Elt F) f2
      [(⟨Rect.unit (s := S4096x512) (k0_off15 c 1#32 768#32) S256x512.size (k0_off15_inb c 0 3),
        k0_pay1 ((Memref.whole cc0_scratch3 : Memref sig .tc .vmem S4x1024x512 .bf16).view.readAt (Elt F) (Rect.unit (s := S4x1024x512) (k0_off24 c 1#32) S1x256x512.size (k0_off24_inb c 0)).toLoadRect (RFv m c))⟩ : View.Piece (Elt F) S4096x512 .f32),
       (⟨Rect.unit (s := S4096x512) (k0_off15 c 1#32 512#32) S256x512.size (k0_off15_inb c 0 2),
        k0_pay36 ((Memref.whole cc0_scratch3 : Memref sig .tc .vmem S4x1024x512 .bf16).view.readAt (Elt F) (Rect.unit (s := S4x1024x512) (k0_off21 c 1#32) S1x256x512.size (k0_off21_inb c 0)).toLoadRect (RFv m c))⟩ : View.Piece (Elt F) S4096x512 .f32),
       (⟨Rect.unit (s := S4096x512) (k0_off15 c 1#32 256#32) S256x512.size (k0_off15_inb c 0 1),
        k0_pay35 ((Memref.whole cc0_scratch3 : Memref sig .tc .vmem S4x1024x512 .bf16).view.readAt (Elt F) (Rect.unit (s := S4x1024x512) (k0_off18 c 1#32) S1x256x512.size (k0_off18_inb c 0)).toLoadRect (RFv m c))⟩ : View.Piece (Elt F) S4096x512 .f32),
       (⟨Rect.unit (s := S4096x512) (k0_off15 c 1#32 0#32) S256x512.size (k0_off15_inb c 0 0),
        k0_pay34 ((Memref.whole cc0_scratch3 : Memref sig .tc .vmem S4x1024x512 .bf16).view.readAt (Elt F) (Rect.unit (s := S4x1024x512) (k0_off14 c 1#32) S1x256x512.size (k0_off14_inb c 0)).toLoadRect (RFv m c))⟩ : View.Piece (Elt F) S4096x512 .f32),
       (⟨Rect.unit (s := S4096x512) (k0_off15 c 3#32 768#32) S256x512.size (k0_off15_inb c 2 3),
        k0_pay33 ((Memref.whole cc0_scratch3 : Memref sig .tc .vmem S4x1024x512 .bf16).view.readAt (Elt F) (Rect.unit (s := S4x1024x512) (k0_off24 c 3#32) S1x256x512.size (k0_off24_inb c 2)).toLoadRect (RFv m c))⟩ : View.Piece (Elt F) S4096x512 .f32),
       (⟨Rect.unit (s := S4096x512) (k0_off15 c 3#32 512#32) S256x512.size (k0_off15_inb c 2 2),
        k0_pay32 ((Memref.whole cc0_scratch3 : Memref sig .tc .vmem S4x1024x512 .bf16).view.readAt (Elt F) (Rect.unit (s := S4x1024x512) (k0_off21 c 3#32) S1x256x512.size (k0_off21_inb c 2)).toLoadRect (RFv m c))⟩ : View.Piece (Elt F) S4096x512 .f32),
       (⟨Rect.unit (s := S4096x512) (k0_off15 c 3#32 256#32) S256x512.size (k0_off15_inb c 2 1),
        k0_pay31 ((Memref.whole cc0_scratch3 : Memref sig .tc .vmem S4x1024x512 .bf16).view.readAt (Elt F) (Rect.unit (s := S4x1024x512) (k0_off18 c 3#32) S1x256x512.size (k0_off18_inb c 2)).toLoadRect (RFv m c))⟩ : View.Piece (Elt F) S4096x512 .f32),
       (⟨Rect.unit (s := S4096x512) (k0_off15 c 3#32 0#32) S256x512.size (k0_off15_inb c 2 0),
        k0_pay30 ((Memref.whole cc0_scratch3 : Memref sig .tc .vmem S4x1024x512 .bf16).view.readAt (Elt F) (Rect.unit (s := S4x1024x512) (k0_off14 c 3#32) S1x256x512.size (k0_off14_inb c 2)).toLoadRect (RFv m c))⟩ : View.Piece (Elt F) S4096x512 .f32),
       (⟨Rect.unit (s := S4096x512) (k0_off15 c 2#32 768#32) S256x512.size (k0_off15_inb c 1 3),
        k0_pay29 ((Memref.whole cc0_scratch3 : Memref sig .tc .vmem S4x1024x512 .bf16).view.readAt (Elt F) (Rect.unit (s := S4x1024x512) (k0_off24 c 2#32) S1x256x512.size (k0_off24_inb c 1)).toLoadRect (RFv m c))⟩ : View.Piece (Elt F) S4096x512 .f32),
       (⟨Rect.unit (s := S4096x512) (k0_off15 c 2#32 512#32) S256x512.size (k0_off15_inb c 1 2),
        k0_pay28 ((Memref.whole cc0_scratch3 : Memref sig .tc .vmem S4x1024x512 .bf16).view.readAt (Elt F) (Rect.unit (s := S4x1024x512) (k0_off21 c 2#32) S1x256x512.size (k0_off21_inb c 1)).toLoadRect (RFv m c))⟩ : View.Piece (Elt F) S4096x512 .f32),
       (⟨Rect.unit (s := S4096x512) (k0_off15 c 2#32 256#32) S256x512.size (k0_off15_inb c 1 1),
        k0_pay27 ((Memref.whole cc0_scratch3 : Memref sig .tc .vmem S4x1024x512 .bf16).view.readAt (Elt F) (Rect.unit (s := S4x1024x512) (k0_off18 c 2#32) S1x256x512.size (k0_off18_inb c 1)).toLoadRect (RFv m c))⟩ : View.Piece (Elt F) S4096x512 .f32),
       (⟨Rect.unit (s := S4096x512) (k0_off15 c 2#32 0#32) S256x512.size (k0_off15_inb c 1 0),
        k0_pay26 ((Memref.whole cc0_scratch3 : Memref sig .tc .vmem S4x1024x512 .bf16).view.readAt (Elt F) (Rect.unit (s := S4x1024x512) (k0_off14 c 2#32) S1x256x512.size (k0_off14_inb c 1)).toLoadRect (RFv m c))⟩ : View.Piece (Elt F) S4096x512 .f32),
       (⟨Rect.unit (s := S4096x512) (k0_off11 c) S1024x512.size (k0_off11_inb c), P0⟩ : View.Piece (Elt F) S4096x512 .f32)]
      = OUTv m c :=
  out_value_printed m c f2 hP0

end Slots

end Cert.KernelIdeal.A2A
end
-- ==== Proof.Body.lean ====
import proofs.«900531_g7700000000000532_dist_gemm_a2a_m4096_k4096_n2048_f32_gelu_v7x_i4_1_alg».proof.Proof.BodyGlue
import proofs.«900531_g7700000000000532_dist_gemm_a2a_m4096_k4096_n2048_f32_gelu_v7x_i4_1_alg».proof.Proof.Steps
import proofs.«900531_g7700000000000532_dist_gemm_a2a_m4096_k4096_n2048_f32_gelu_v7x_i4_1_alg».proof.Proof.Disj
import proofs.«900531_g7700000000000532_dist_gemm_a2a_m4096_k4096_n2048_f32_gelu_v7x_i4_1_alg».proof.Proof.SendValue
import proofs.«900531_g7700000000000532_dist_gemm_a2a_m4096_k4096_n2048_f32_gelu_v7x_i4_1_alg».proof.Proof.PayValue
import proofs.«900531_g7700000000000532_dist_gemm_a2a_m4096_k4096_n2048_f32_gelu_v7x_i4_1_alg».proof.Proof.PayValue2
import proofs.«900531_g7700000000000532_dist_gemm_a2a_m4096_k4096_n2048_f32_gelu_v7x_i4_1_alg».proof.Proof.RecvSteps
import proofs.«900531_g7700000000000532_dist_gemm_a2a_m4096_k4096_n2048_f32_gelu_v7x_i4_1_alg».proof.Proof.BodyExit
import proofs.«900531_g7700000000000532_dist_gemm_a2a_m4096_k4096_n2048_f32_gelu_v7x_i4_1_alg».proof.Proof.OutValue

noncomputable section

namespace Cert.KernelIdeal.A2A

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (RF : (c : Dev nD) → Buf (Elt F) ((c : Thread nD τ).loc cc0_scratch3))
variable (CF : (c : Dev nD) → Buf (Elt F) ((c : Thread nD τ).loc cc0_scratch2))

theorem duties_bar_lit (c : Dev nD) : (a2aRd (F := F) RF CF).duties (barCell c) 0 = {peer c 1, peer c 2, peer c 3} := by
  rw [duties_bar]; revert c; decide
theorem mem_bar (c : Dev nD) (k : ℕ) (hk : k = 1 ∨ k = 2 ∨ k = 3) : c ∈ (a2aRd (F := F) RF CF).duties (barCell (peer c k)) 0 := by
  rw [duties_bar]; rcases hk with rfl | rfl | rfl <;> (revert c; decide)
theorem mem_bar1 (c : Dev nD) : c ∈ (a2aRd (F := F) RF CF).duties (barCell (peer c 1)) 0 := mem_bar RF CF c 1 (.inl rfl)
theorem mem_bar2 (c : Dev nD) : c ∈ (a2aRd (F := F) RF CF).duties (barCell (peer c 2)) 0 := mem_bar RF CF c 2 (.inr (.inl rfl))
theorem mem_bar3 (c : Dev nD) : c ∈ (a2aRd (F := F) RF CF).duties (barCell (peer c 3)) 0 := mem_bar RF CF c 3 (.inr (.inr rfl))
theorem peer12 (c : Dev nD) : peer c 1 ≠ peer c 2 := by revert c; decide
theorem peer13 (c : Dev nD) : peer c 1 ≠ peer c 3 := by revert c; decide
theorem peer23 (c : Dev nD) : peer c 2 ≠ peer c 3 := by revert c; decide

theorem mem_lit1 (c : Dev nD) : c ∈ ({peer (peer c 1) 1, peer (peer c 1) 2, peer (peer c 1) 3} : Finset (Fin 4)) := by revert c; decide
theorem mem_lit2 (c : Dev nD) : c ∈ ({peer (peer c 2) 1, peer (peer c 2) 2, peer (peer c 2) 3} : Finset (Fin 4)) := by revert c; decide
theorem mem_lit3 (c : Dev nD) : c ∈ ({peer (peer c 3) 1, peer (peer c 3) 2, peer (peer c 3) 3} : Finset (Fin 4)) := by revert c; decide

attribute [local sl_rounds] mem_lit1 mem_lit2 mem_lit3 duties_bar_lit mem_bar1 mem_bar2 mem_bar3 peer12 peer13 peer23 amount_bar amount_send amount_recv expect_bar expect_send
  payload_bar payload_send payload_recv duties_send barPay landing recvPay sendPay

theorem canon_recv0 (c : Dev nD) : ((Memref.whole cc0_scratch3 : Memref sig .tc .vmem S4x1024x512 .bf16).slice (Rect.unit (s := S4x1024x512) (k0_off4 c) S1x256x512.size (k0_off4_inb c)) (fun _ => rfl)).squeeze S256x512 squeezes_S1x256x512_S256x512 = recvSlot c 0 := by
  unfold recvSlot; exact congrArg (fun M => Memref.squeeze M S256x512 squeezes_S1x256x512_S256x512) (Memref.slice_unit_congr _ (k0_off4_eq c) _ _ _ fun _ => rfl)
theorem canon_recv1 (c : Dev nD) : ((Memref.whole cc0_scratch3 : Memref sig .tc .vmem S4x1024x512 .bf16).slice (Rect.unit (s := S4x1024x512) (k0_off6 c) S1x256x512.size (k0_off6_inb c)) (fun _ => rfl)).squeeze S256x512 squeezes_S1x256x512_S256x512 = recvSlot c 1 := by
  unfold recvSlot; exact congrArg (fun M => Memref.squeeze M S256x512 squeezes_S1x256x512_S256x512) (Memref.slice_unit_congr _ (k0_off6_eq c) _ _ _ fun _ => rfl)
theorem canon_recv2 (c : Dev nD) : ((Memref.whole cc0_scratch3 : Memref sig .tc .vmem S4x1024x512 .bf16).slice (Rect.unit (s := S4x1024x512) (k0_off8 c) S1x256x512.size (k0_off8_inb c)) (fun _ => rfl)).squeeze S256x512 squeezes_S1x256x512_S256x512 = recvSlot c 2 := by
  unfold recvSlot; exact congrArg (fun M => Memref.squeeze M S256x512 squeezes_S1x256x512_S256x512) (Memref.slice_unit_congr _ (k0_off8_eq c) _ _ _ fun _ => rfl)
theorem canon_recv3 (c : Dev nD) : ((Memref.whole cc0_scratch3 : Memref sig .tc .vmem S4x1024x512 .bf16).slice (Rect.unit (s := S4x1024x512) (k0_off10 c) S1x256x512.size (k0_off10_inb c)) (fun _ => rfl)).squeeze S256x512 squeezes_S1x256x512_S256x512 = recvSlot c 3 := by
  unfold recvSlot; exact congrArg (fun M => Memref.squeeze M S256x512 squeezes_S1x256x512_S256x512) (Memref.slice_unit_congr _ (k0_off10_eq c) _ _ _ fun _ => rfl)
theorem canon_rsem0 : ∀ c : Dev nD, ((cc0_scratch7.slice (Rect.unit (s := S4x4) (k0_off3 c) S1x1.size (k0_off3_inb c))).squeeze S_ squeezes_S1x1_S_).sem = recvQ c 0 := by decide +kernel
theorem canon_rsem1 : ∀ c : Dev nD, ((cc0_scratch7.slice (Rect.unit (s := S4x4) (k0_off5 c) S1x1.size (k0_off5_inb c))).squeeze S_ squeezes_S1x1_S_).sem = recvQ c 1 := by decide +kernel
theorem canon_rsem2 : ∀ c : Dev nD, ((cc0_scratch7.slice (Rect.unit (s := S4x4) (k0_off7 c) S1x1.size (k0_off7_inb c))).squeeze S_ squeezes_S1x1_S_).sem = recvQ c 2 := by decide +kernel
theorem canon_rsem3 : ∀ c : Dev nD, ((cc0_scratch7.slice (Rect.unit (s := S4x4) (k0_off9 c) S1x1.size (k0_off9_inb c))).squeeze S_ squeezes_S1x1_S_).sem = recvQ c 3 := by decide +kernel

theorem pk_ne1 (c : Dev nD) : peer c 1 ≠ c := by revert c; decide
theorem pk_ne2 (c : Dev nD) : peer c 2 ≠ c := by revert c; decide
theorem pk_ne3 (c : Dev nD) : peer c 3 ≠ c := by revert c; decide
theorem expect_recv1 (c : Dev nD) (r : Fin 4) : (a2aRd (F := F) RF CF).expect (recvCell c (peer c 1) r) 0 = N := expect_recv RF CF c _ r (pk_ne1 c)
theorem expect_recv2 (c : Dev nD) (r : Fin 4) : (a2aRd (F := F) RF CF).expect (recvCell c (peer c 2) r) 0 = N := expect_recv RF CF c _ r (pk_ne2 c)
theorem expect_recv3 (c : Dev nD) (r : Fin 4) : (a2aRd (F := F) RF CF).expect (recvCell c (peer c 3) r) 0 = N := expect_recv RF CF c _ r (pk_ne3 c)
theorem duties_recv1 (c : Dev nD) (r : Fin 4) : (a2aRd (F := F) RF CF).duties (recvCell c (peer c 1) r) 0 = {peer c 1} := duties_recv RF CF c _ r (pk_ne1 c)
theorem duties_recv2 (c : Dev nD) (r : Fin 4) : (a2aRd (F := F) RF CF).duties (recvCell c (peer c 2) r) 0 = {peer c 2} := duties_recv RF CF c _ r (pk_ne2 c)
theorem duties_recv3 (c : Dev nD) (r : Fin 4) : (a2aRd (F := F) RF CF).duties (recvCell c (peer c 3) r) 0 = {peer c 3} := duties_recv RF CF c _ r (pk_ne3 c)

attribute [local sl_rounds] expect_recv1 expect_recv2 expect_recv3 duties_recv1 duties_recv2 duties_recv3 recv_credit chunk_credit

omit [FloatOps F] in
theorem stg_respell (c : Dev nD) (T X : Bf (F := F) c (Memref.whole cc0_stg0_0)) (h : T = X) :
    pt c (Memref.whole cc0_stg0_0) T ⊢ pt c (Memref.whole cc0_stg0_0) X := h ▸ .rfl

omit [FloatOps F] in
theorem sep3_respell {P Q R : sProp 𝕄} : (BI.sep P (BI.sep Q R) : sProp 𝕄) ⊢ iprop(P ∗ Q ∗ R) := .rfl
omit [FloatOps F] in
theorem chunk_sub (c : Dev nD) (s : Fin 3) (r : Fin 4) (prev : List (Fin 3 × Fin 4)) (hp : ∀ p ∈ prev, p ≠ (s, r)) :
    ((chunkSlot s r).view.set : Finset (Idx ((chunkSlot s r).view.loc (c : Thread nD τ))))
      ⊆ (prev.map fun p => ((chunkSlot p.1 p.2).view.set : Finset (Idx ((chunkSlot s r).view.loc (c : Thread nD τ))))).foldl (· \ ·) Finset.univ := by
  suffices h : ∀ (S : Finset (Idx ((chunkSlot s r).view.loc (c : Thread nD τ)))), (chunkSlot s r).view.set ⊆ S →
      (chunkSlot s r).view.set ⊆ (prev.map fun p => ((chunkSlot p.1 p.2).view.set : Finset (Idx ((chunkSlot s r).view.loc (c : Thread nD τ))))).foldl (· \ ·) S from h _ (Finset.subset_univ _)
  induction prev with
  | nil => intro S hS; exact hS
  | cons p ps ih =>
    intro S hS
    show (chunkSlot s r).view.set ⊆ (ps.map fun p => ((chunkSlot p.1 p.2).view.set : Finset (Idx ((chunkSlot s r).view.loc (c : Thread nD τ))))).foldl (· \ ·) (S \ (chunkSlot p.1 p.2).view.set)
    refine ih (fun q hq => hp q (List.mem_cons_of_mem _ hq)) _ (Finset.subset_sdiff.mpr ⟨hS, ?_⟩)
    exact Slots.chunkSlot_disjoint (sr := (s, r)) (sr' := p) (fun h => hp p (List.mem_cons_self) h.symm)

attribute [local sl_canon] Slots.recvSem_w1_r0 Slots.recvDst_w1_r0 Slots.recvSem_w1_r1 Slots.recvDst_w1_r1 Slots.recvSem_w1_r2 Slots.recvDst_w1_r2 Slots.recvSem_w1_r3 Slots.recvDst_w1_r3 Slots.recvSem_w2_r0 Slots.recvDst_w2_r0 Slots.recvSem_w2_r1 Slots.recvDst_w2_r1 Slots.recvSem_w2_r2 Slots.recvDst_w2_r2 Slots.recvSem_w2_r3 Slots.recvDst_w2_r3 Slots.recvSem_w3_r0 Slots.recvDst_w3_r0 Slots.recvSem_w3_r1 Slots.recvDst_w3_r1 Slots.recvSem_w3_r2 Slots.recvDst_w3_r2 Slots.recvSem_w3_r3 Slots.recvDst_w3_r3
attribute [local sl_canon] canon_recv0 canon_recv1 canon_recv2 canon_recv3 canon_rsem0 canon_rsem1 canon_rsem2 canon_rsem3

attribute [local irreducible] peer recvSlot offOf

-- The body: copies in, barrier, three steps of multiply, round and send, the own tile, then twelve received tiles widened into the result.
set_option sl_exec.dmaWindow true in
set_option maxHeartbeats 16000000 in
theorem flat (m : (ℓ : Loc nD τ sig) → Buf (Elt F) ℓ) (ρ : Dev nD → PrngReg) (c : Dev nD) (W : Waits sig Unit) (K : GSem nD τ sig → ℕ)
    (f2 : Bf (F := F) c (Memref.whole cc0_stg0_0)) (f3 : Bf (F := F) c (Memref.whole cc0_scratch0)) (f4 : Bf (F := F) c (Memref.whole cc0_scratch1))
    (f5 : Bf (F := F) c (Memref.whole cc0_scratch2)) (f6 : (c : Dev nD) → Buf (Elt F) ((c : Thread nD τ).loc cc0_scratch3)) :
    flatPre (RFv m) (CFv m) c W K (m ((c : Thread nD τ).loc main_arg0)) (m ((c : Thread nD τ).loc main_arg1)) f2 f3 f4 f5 f6
      ⊢ wp frame (wpE (defs₀ (F := F)) 𝒱₀ c none) Set.univ (bodyAt0 (F := F) t0_0) (fun _ => bodyPost (RFv m) (CFv m) m ρ (OUTv m) c) := by
  unfold flatPre
  iintro ⟨H0, H1, H2, H3, H4, H5, Hown0, Hown1, Hown2, Hown3, #HIro0, Hatro0, #HIro1, Hatro1, #HIro2, Hatro2, #HIro3, Hatro3, Hl10, Hl11, Hl12, Hl13, Hl20, Hl21, Hl22, Hl23, Hl30, Hl31, Hl32, Hl33, Hx0, Hx1, Hx2, Hx3, Hw00, Hw01, Hw10, Hw11, HO, #Hlev, #HIb0, Hatb, Hcb, #HIb1, Htb1, #Hrb1, #HIb2, Htb2, #Hrb2, #HIb3, Htb3, #Hrb3, #Hrr10, #Hrr11, #Hrr12, #Hrr13, #Hrr20, #Hrr21, #Hrr22, #Hrr23, #Hrr30, #Hrr31, #Hrr32, #Hrr33, #HIs00, Hts00, #Hrs00, Hats00, #HId00, Htd00, #HIs01, Hts01, #Hrs01, Hats01, #HId01, Htd01, #HIs02, Hts02, #Hrs02, Hats02, #HId02, Htd02, #HIs03, Hts03, #Hrs03, Hats03, #HId03, Htd03, #HIs10, Hts10, #Hrs10, Hats10, #HId10, Htd10, #HIs11, Hts11, #Hrs11, Hats11, #HId11, Htd11, #HIs12, Hts12, #Hrs12, Hats12, #HId12, Htd12, #HIs13, Hts13, #Hrs13, Hats13, #HId13, Htd13, #HIs20, Hts20, #Hrs20, Hats20, #HId20, Htd20, #HIs21, Hts21, #Hrs21, Hats21, #HId21, Htd21, #HIs22, Hts22, #Hrs22, Hats22, #HId22, Htd22, #HIs23, Hts23, #Hrs23, Hats23, #HId23, Htd23, #HIr10, Hatr10, Hcr10, #HIr11, Hatr11, Hcr11, #HIr12, Hatr12, Hcr12, #HIr13, Hatr13, Hcr13, #HIr20, Hatr20, Hcr20, #HIr21, Hatr21, Hcr21, #HIr22, Hatr22, Hcr22, #HIr23, Hatr23, Hcr23, #HIr30, Hatr30, Hcr30, #HIr31, Hatr31, Hcr31, #HIr32, Hatr32, Hcr32, #HIr33, Hatr33, Hcr33⟩
  unfold bodyAt0 O₀ owedStep owedBar
  simp only [offOf_zero, offOf_one, offOf_two]
  have hmwbar := mw_bar (F := F) c
  have hd_1_1_1_2 := disj_cols (k0_off1 c 1#32) (k0_off1 c 2#32) (k0_off1_inb c 1) (k0_off1_inb c 2) (sep_1_1_1_2 c)
  have hd_1_1_2_2 := disj_cols (k0_off1 c 1#32) (k0_off2 c 2#32) (k0_off1_inb c 1) (k0_off2_inb c 2) (sep_1_1_2_2 c)
  have hd_2_1_1_2 := disj_cols (k0_off2 c 1#32) (k0_off1 c 2#32) (k0_off2_inb c 1) (k0_off1_inb c 2) (sep_2_1_1_2 c)
  have hd_2_1_2_2 := disj_cols (k0_off2 c 1#32) (k0_off2 c 2#32) (k0_off2_inb c 1) (k0_off2_inb c 2) (sep_2_1_2_2 c)
  have hd_1_3_1_1 := disj_cols (k0_off1 c 3#32) (k0_off1 c 1#32) (k0_off1_inb c 3) (k0_off1_inb c 1) (sep_1_3_1_1 c)
  have hd_1_3_2_1 := disj_cols (k0_off1 c 3#32) (k0_off2 c 1#32) (k0_off1_inb c 3) (k0_off2_inb c 1) (sep_1_3_2_1 c)
  have hd_2_3_1_1 := disj_cols (k0_off2 c 3#32) (k0_off1 c 1#32) (k0_off2_inb c 3) (k0_off1_inb c 1) (sep_2_3_1_1 c)
  have hd_2_3_2_1 := disj_cols (k0_off2 c 3#32) (k0_off2 c 1#32) (k0_off2_inb c 3) (k0_off2_inb c 1) (sep_2_3_2_1 c)
  have hd_1_0_1_3 := disj_cols (k0_off1 c 0#32) (k0_off1 c 3#32) (k0_off1_inb c 0) (k0_off1_inb c 3) (sep_1_0_1_3 c)
  have hd_1_0_2_3 := disj_cols (k0_off1 c 0#32) (k0_off2 c 3#32) (k0_off1_inb c 0) (k0_off2_inb c 3) (sep_1_0_2_3 c)
  have hd_2_0_1_3 := disj_cols (k0_off2 c 0#32) (k0_off1 c 3#32) (k0_off2_inb c 0) (k0_off1_inb c 3) (sep_2_0_1_3 c)
  have hd_2_0_2_3 := disj_cols (k0_off2 c 0#32) (k0_off2 c 3#32) (k0_off2_inb c 0) (k0_off2_inb c 3) (sep_2_0_2_3 c)
  have hmw := fun (q : DmaSem sig) (hq : q.val < 9) => mw_local_0 (F := F) c q hq
  sl_exec_parts (disch := simp only [dev4_eq, dev5_eq, dev6_eq, dev7_eq, dev8_eq, dev9_eq, dev10_eq, dev11_eq, dev12_eq, dev13_eq, dev14_eq, dev15_eq])
  clear hmw
  ihave Hpay := sep3_respell $$ Hatb_pay1
  icases Hpay with ⟨⟨⟨%g10, Hd10⟩, ⟨%g11, Hd11⟩, ⟨%g12, Hd12⟩, ⟨%g13, Hd13⟩, #Hrd10, #Hrd11, #Hrd12, #Hrd13⟩, ⟨⟨%g20, Hd20⟩, ⟨%g21, Hd21⟩, ⟨%g22, Hd22⟩, ⟨%g23, Hd23⟩, #Hrd20, #Hrd21, #Hrd22, #Hrd23⟩, ⟨⟨%g30, Hd30⟩, ⟨%g31, Hd31⟩, ⟨%g32, Hd32⟩, ⟨%g33, Hd33⟩, #Hrd30, #Hrd31, #Hrd32, #Hrd33⟩⟩

  ihave Hsp := (pointsTo_split_subset (I := (((Memref.whole cc0_scratch2 : Memref sig .tc .vmem S3x1024x512 .bf16).slice (Rect.unit (s := S3x1024x512) ![0, 0, 0] S1x256x512.size inb_S3x1024x512_S1x256x512_0_0_0) (fun _ => rfl)).squeeze S256x512 squeezes_S1x256x512_S256x512).view.set) (chunk_sub c 0 0 [] (by decide))).1 $$ H5
  icases Hsp with ⟨Hc00, H5⟩
  rw [show (tallyAt (recvCell (peer c 3) c 0) () N + tallyAt (recvCell (peer c 3) c 1) () N + tallyAt (recvCell (peer c 3) c 2) () N + tallyAt (recvCell (peer c 3) c 3) () N + tallyAt (recvCell (peer c 1) c 0) () N + tallyAt (recvCell (peer c 1) c 1) () N + tallyAt (recvCell (peer c 1) c 2) () N + tallyAt (recvCell (peer c 1) c 3) () N + tallyAt (recvCell (peer c 2) c 0) () N + tallyAt (recvCell (peer c 2) c 1) () N + tallyAt (recvCell (peer c 2) c 2) () N + tallyAt (recvCell (peer c 2) c 3) () N) = (tallyAt (recvCell (peer c 3) c 0) () N + tallyAt (recvCell (peer c 3) c 1) () N + tallyAt (recvCell (peer c 3) c 2) () N + tallyAt (recvCell (peer c 3) c 3) () N + tallyAt (recvCell (peer c 1) c 0) () N + tallyAt (recvCell (peer c 1) c 1) () N + tallyAt (recvCell (peer c 1) c 2) () N + tallyAt (recvCell (peer c 1) c 3) () N + tallyAt (recvCell (peer c 2) c 1) () N + tallyAt (recvCell (peer c 2) c 2) () N + tallyAt (recvCell (peer c 2) c 3) () N) + tallyAt (recvCell (peer c 2) c 0) () N from by ac_rfl]
  iapply (send_slot (RFv m) (CFv m) c 0 0 (peer c 2) (by rw [offOf_zero]) (chunk_eq _ _ 0 0 rfl) rfl (sendSem_eq _ _ 0 0 rfl) rfl _ g20 ?_ ?_ (tallyAt (recvCell (peer c 3) c 0) () N + tallyAt (recvCell (peer c 3) c 1) () N + tallyAt (recvCell (peer c 3) c 2) () N + tallyAt (recvCell (peer c 3) c 3) () N + tallyAt (recvCell (peer c 1) c 0) () N + tallyAt (recvCell (peer c 1) c 1) () N + tallyAt (recvCell (peer c 1) c 2) () N + tallyAt (recvCell (peer c 1) c 3) () N + tallyAt (recvCell (peer c 2) c 1) () N + tallyAt (recvCell (peer c 2) c 2) () N + tallyAt (recvCell (peer c 2) c 3) () N) _) $$ [Hc00 Hd20 HO Hts00 Htd00]
  rotate_left 2
  · isplitr; · iexact HIs00
    isplitr; · iexact HId00
    isplitl [Hc00]; · iexact Hc00
    isplitl [Hd20]; · iexact Hd20
    isplitl [HO]; · iexact HO
    isplitl [Hts00]; · iexact Hts00
    isplitr; · iexact Hrs00
    isplitl [Htd00]; · iexact Htd00
    iexact Hrd20
  rotate_left 1
  · intro i hi; sl_unfold_run_names; exact hfs_0_0 m c _ _ _ rfl _ rfl _ _ _ i hi
  · have hv := hval_of m c 0 0; simp only [offOf_zero, offOf_one, offOf_two] at hv; exact hv _ (by intro i hi; sl_unfold_run_names; exact hfs_0_0 m c _ _ _ rfl _ rfl _ _ _ i hi) _
  iintro ⟨Hcs00, HO⟩
  have hmw := fun (q : DmaSem sig) (hq : q.val < 9) => mw_local_1 (F := F) c q hq
  sl_exec_parts (disch := simp only [dev4_eq, dev5_eq, dev6_eq, dev7_eq, dev8_eq, dev9_eq, dev10_eq, dev11_eq, dev12_eq, dev13_eq, dev14_eq, dev15_eq])
  clear hmw

  ihave Hsp := (pointsTo_split_subset (I := (((Memref.whole cc0_scratch2 : Memref sig .tc .vmem S3x1024x512 .bf16).slice (Rect.unit (s := S3x1024x512) ![0, 256, 0] S1x256x512.size inb_S3x1024x512_S1x256x512_0_256_0) (fun _ => rfl)).squeeze S256x512 squeezes_S1x256x512_S256x512).view.set) (chunk_sub c 0 1 [(0, 0)] (by decide))).1 $$ H5
  icases Hsp with ⟨Hc01, H5⟩
  rw [show (tallyAt (recvCell (peer c 3) c 0) () N + tallyAt (recvCell (peer c 3) c 1) () N + tallyAt (recvCell (peer c 3) c 2) () N + tallyAt (recvCell (peer c 3) c 3) () N + tallyAt (recvCell (peer c 1) c 0) () N + tallyAt (recvCell (peer c 1) c 1) () N + tallyAt (recvCell (peer c 1) c 2) () N + tallyAt (recvCell (peer c 1) c 3) () N + tallyAt (recvCell (peer c 2) c 1) () N + tallyAt (recvCell (peer c 2) c 2) () N + tallyAt (recvCell (peer c 2) c 3) () N) = (tallyAt (recvCell (peer c 3) c 0) () N + tallyAt (recvCell (peer c 3) c 1) () N + tallyAt (recvCell (peer c 3) c 2) () N + tallyAt (recvCell (peer c 3) c 3) () N + tallyAt (recvCell (peer c 1) c 0) () N + tallyAt (recvCell (peer c 1) c 1) () N + tallyAt (recvCell (peer c 1) c 2) () N + tallyAt (recvCell (peer c 1) c 3) () N + tallyAt (recvCell (peer c 2) c 2) () N + tallyAt (recvCell (peer c 2) c 3) () N) + tallyAt (recvCell (peer c 2) c 1) () N from by ac_rfl]
  iapply (send_slot (RFv m) (CFv m) c 0 1 (peer c 2) (by rw [offOf_zero]) (chunk_eq _ _ 0 1 rfl) rfl (sendSem_eq _ _ 0 1 rfl) rfl _ g21 ?_ ?_ (tallyAt (recvCell (peer c 3) c 0) () N + tallyAt (recvCell (peer c 3) c 1) () N + tallyAt (recvCell (peer c 3) c 2) () N + tallyAt (recvCell (peer c 3) c 3) () N + tallyAt (recvCell (peer c 1) c 0) () N + tallyAt (recvCell (peer c 1) c 1) () N + tallyAt (recvCell (peer c 1) c 2) () N + tallyAt (recvCell (peer c 1) c 3) () N + tallyAt (recvCell (peer c 2) c 2) () N + tallyAt (recvCell (peer c 2) c 3) () N) _) $$ [Hc01 Hd21 HO Hts01 Htd01]
  rotate_left 2
  · isplitr; · iexact HIs01
    isplitr; · iexact HId01
    isplitl [Hc01]; · iexact Hc01
    isplitl [Hd21]; · iexact Hd21
    isplitl [HO]; · iexact HO
    isplitl [Hts01]; · iexact Hts01
    isplitr; · iexact Hrs01
    isplitl [Htd01]; · iexact Htd01
    iexact Hrd21
  rotate_left 1
  · intro i hi; sl_unfold_run_names; exact hfs_0_1 m c _ _ _ rfl _ rfl _ _ _ i hi
  · have hv := hval_of m c 0 1; simp only [offOf_zero, offOf_one, offOf_two] at hv; exact hv _ (by intro i hi; sl_unfold_run_names; exact hfs_0_1 m c _ _ _ rfl _ rfl _ _ _ i hi) _
  iintro ⟨Hcs01, HO⟩
  have hmw := fun (q : DmaSem sig) (hq : q.val < 9) => mw_local_2 (F := F) c q hq
  sl_exec_parts (disch := simp only [dev4_eq, dev5_eq, dev6_eq, dev7_eq, dev8_eq, dev9_eq, dev10_eq, dev11_eq, dev12_eq, dev13_eq, dev14_eq, dev15_eq])
  clear hmw

  ihave Hsp := (pointsTo_split_subset (I := (((Memref.whole cc0_scratch2 : Memref sig .tc .vmem S3x1024x512 .bf16).slice (Rect.unit (s := S3x1024x512) ![0, 512, 0] S1x256x512.size inb_S3x1024x512_S1x256x512_0_512_0) (fun _ => rfl)).squeeze S256x512 squeezes_S1x256x512_S256x512).view.set) (chunk_sub c 0 2 [(0, 0), (0, 1)] (by decide))).1 $$ H5
  icases Hsp with ⟨Hc02, H5⟩
  rw [show (tallyAt (recvCell (peer c 3) c 0) () N + tallyAt (recvCell (peer c 3) c 1) () N + tallyAt (recvCell (peer c 3) c 2) () N + tallyAt (recvCell (peer c 3) c 3) () N + tallyAt (recvCell (peer c 1) c 0) () N + tallyAt (recvCell (peer c 1) c 1) () N + tallyAt (recvCell (peer c 1) c 2) () N + tallyAt (recvCell (peer c 1) c 3) () N + tallyAt (recvCell (peer c 2) c 2) () N + tallyAt (recvCell (peer c 2) c 3) () N) = (tallyAt (recvCell (peer c 3) c 0) () N + tallyAt (recvCell (peer c 3) c 1) () N + tallyAt (recvCell (peer c 3) c 2) () N + tallyAt (recvCell (peer c 3) c 3) () N + tallyAt (recvCell (peer c 1) c 0) () N + tallyAt (recvCell (peer c 1) c 1) () N + tallyAt (recvCell (peer c 1) c 2) () N + tallyAt (recvCell (peer c 1) c 3) () N + tallyAt (recvCell (peer c 2) c 3) () N) + tallyAt (recvCell (peer c 2) c 2) () N from by ac_rfl]
  iapply (send_slot (RFv m) (CFv m) c 0 2 (peer c 2) (by rw [offOf_zero]) (chunk_eq _ _ 0 2 rfl) rfl (sendSem_eq _ _ 0 2 rfl) rfl _ g22 ?_ ?_ (tallyAt (recvCell (peer c 3) c 0) () N + tallyAt (recvCell (peer c 3) c 1) () N + tallyAt (recvCell (peer c 3) c 2) () N + tallyAt (recvCell (peer c 3) c 3) () N + tallyAt (recvCell (peer c 1) c 0) () N + tallyAt (recvCell (peer c 1) c 1) () N + tallyAt (recvCell (peer c 1) c 2) () N + tallyAt (recvCell (peer c 1) c 3) () N + tallyAt (recvCell (peer c 2) c 3) () N) _) $$ [Hc02 Hd22 HO Hts02 Htd02]
  rotate_left 2
  · isplitr; · iexact HIs02
    isplitr; · iexact HId02
    isplitl [Hc02]; · iexact Hc02
    isplitl [Hd22]; · iexact Hd22
    isplitl [HO]; · iexact HO
    isplitl [Hts02]; · iexact Hts02
    isplitr; · iexact Hrs02
    isplitl [Htd02]; · iexact Htd02
    iexact Hrd22
  rotate_left 1
  · intro i hi; sl_unfold_run_names; exact hfs_0_2 m c _ _ _ rfl _ rfl _ _ _ i hi
  · have hv := hval_of m c 0 2; simp only [offOf_zero, offOf_one, offOf_two] at hv; exact hv _ (by intro i hi; sl_unfold_run_names; exact hfs_0_2 m c _ _ _ rfl _ rfl _ _ _ i hi) _
  iintro ⟨Hcs02, HO⟩
  have hmw := fun (q : DmaSem sig) (hq : q.val < 9) => mw_local_3 (F := F) c q hq
  sl_exec_parts (disch := simp only [dev4_eq, dev5_eq, dev6_eq, dev7_eq, dev8_eq, dev9_eq, dev10_eq, dev11_eq, dev12_eq, dev13_eq, dev14_eq, dev15_eq])
  clear hmw

  ihave Hsp := (pointsTo_split_subset (I := (((Memref.whole cc0_scratch2 : Memref sig .tc .vmem S3x1024x512 .bf16).slice (Rect.unit (s := S3x1024x512) ![0, 768, 0] S1x256x512.size inb_S3x1024x512_S1x256x512_0_768_0) (fun _ => rfl)).squeeze S256x512 squeezes_S1x256x512_S256x512).view.set) (chunk_sub c 0 3 [(0, 0), (0, 1), (0, 2)] (by decide))).1 $$ H5
  icases Hsp with ⟨Hc03, H5⟩
  rw [show (tallyAt (recvCell (peer c 3) c 0) () N + tallyAt (recvCell (peer c 3) c 1) () N + tallyAt (recvCell (peer c 3) c 2) () N + tallyAt (recvCell (peer c 3) c 3) () N + tallyAt (recvCell (peer c 1) c 0) () N + tallyAt (recvCell (peer c 1) c 1) () N + tallyAt (recvCell (peer c 1) c 2) () N + tallyAt (recvCell (peer c 1) c 3) () N + tallyAt (recvCell (peer c 2) c 3) () N) = (tallyAt (recvCell (peer c 3) c 0) () N + tallyAt (recvCell (peer c 3) c 1) () N + tallyAt (recvCell (peer c 3) c 2) () N + tallyAt (recvCell (peer c 3) c 3) () N + tallyAt (recvCell (peer c 1) c 0) () N + tallyAt (recvCell (peer c 1) c 1) () N + tallyAt (recvCell (peer c 1) c 2) () N + tallyAt (recvCell (peer c 1) c 3) () N) + tallyAt (recvCell (peer c 2) c 3) () N from by ac_rfl]
  iapply (send_slot (RFv m) (CFv m) c 0 3 (peer c 2) (by rw [offOf_zero]) (chunk_eq _ _ 0 3 rfl) rfl (sendSem_eq _ _ 0 3 rfl) rfl _ g23 ?_ ?_ (tallyAt (recvCell (peer c 3) c 0) () N + tallyAt (recvCell (peer c 3) c 1) () N + tallyAt (recvCell (peer c 3) c 2) () N + tallyAt (recvCell (peer c 3) c 3) () N + tallyAt (recvCell (peer c 1) c 0) () N + tallyAt (recvCell (peer c 1) c 1) () N + tallyAt (recvCell (peer c 1) c 2) () N + tallyAt (recvCell (peer c 1) c 3) () N) _) $$ [Hc03 Hd23 HO Hts03 Htd03]
  rotate_left 2
  · isplitr; · iexact HIs03
    isplitr; · iexact HId03
    isplitl [Hc03]; · iexact Hc03
    isplitl [Hd23]; · iexact Hd23
    isplitl [HO]; · iexact HO
    isplitl [Hts03]; · iexact Hts03
    isplitr; · iexact Hrs03
    isplitl [Htd03]; · iexact Htd03
    iexact Hrd23
  rotate_left 1
  · intro i hi; sl_unfold_run_names; exact hfs_0_3 m c _ _ _ rfl _ rfl _ _ _ i hi
  · have hv := hval_of m c 0 3; simp only [offOf_zero, offOf_one, offOf_two] at hv; exact hv _ (by intro i hi; sl_unfold_run_names; exact hfs_0_3 m c _ _ _ rfl _ rfl _ _ _ i hi) _
  iintro ⟨Hcs03, HO⟩
  have hmw := fun (q : DmaSem sig) (hq : q.val < 9) => mw_local_4 (F := F) c q hq
  sl_exec_parts (disch := simp only [dev4_eq, dev5_eq, dev6_eq, dev7_eq, dev8_eq, dev9_eq, dev10_eq, dev11_eq, dev12_eq, dev13_eq, dev14_eq, dev15_eq])
  clear hmw

  ihave Hsp := (pointsTo_split_subset (I := (((Memref.whole cc0_scratch2 : Memref sig .tc .vmem S3x1024x512 .bf16).slice (Rect.unit (s := S3x1024x512) ![1, 0, 0] S1x256x512.size inb_S3x1024x512_S1x256x512_1_0_0) (fun _ => rfl)).squeeze S256x512 squeezes_S1x256x512_S256x512).view.set) (chunk_sub c 1 0 [(0, 0), (0, 1), (0, 2), (0, 3)] (by decide))).1 $$ H5
  icases Hsp with ⟨Hc10, H5⟩
  rw [show (tallyAt (recvCell (peer c 3) c 0) () N + tallyAt (recvCell (peer c 3) c 1) () N + tallyAt (recvCell (peer c 3) c 2) () N + tallyAt (recvCell (peer c 3) c 3) () N + tallyAt (recvCell (peer c 1) c 0) () N + tallyAt (recvCell (peer c 1) c 1) () N + tallyAt (recvCell (peer c 1) c 2) () N + tallyAt (recvCell (peer c 1) c 3) () N) = (tallyAt (recvCell (peer c 3) c 0) () N + tallyAt (recvCell (peer c 3) c 1) () N + tallyAt (recvCell (peer c 3) c 2) () N + tallyAt (recvCell (peer c 3) c 3) () N + tallyAt (recvCell (peer c 1) c 1) () N + tallyAt (recvCell (peer c 1) c 2) () N + tallyAt (recvCell (peer c 1) c 3) () N) + tallyAt (recvCell (peer c 1) c 0) () N from by ac_rfl]
  iapply (send_slot (RFv m) (CFv m) c 1 0 (peer c 1) (by rw [offOf_one]) (chunk_eq _ _ 1 0 rfl) rfl (sendSem_eq _ _ 1 0 rfl) rfl _ g10 ?_ ?_ (tallyAt (recvCell (peer c 3) c 0) () N + tallyAt (recvCell (peer c 3) c 1) () N + tallyAt (recvCell (peer c 3) c 2) () N + tallyAt (recvCell (peer c 3) c 3) () N + tallyAt (recvCell (peer c 1) c 1) () N + tallyAt (recvCell (peer c 1) c 2) () N + tallyAt (recvCell (peer c 1) c 3) () N) _) $$ [Hc10 Hd10 HO Hts10 Htd10]
  rotate_left 2
  · isplitr; · iexact HIs10
    isplitr; · iexact HId10
    isplitl [Hc10]; · iexact Hc10
    isplitl [Hd10]; · iexact Hd10
    isplitl [HO]; · iexact HO
    isplitl [Hts10]; · iexact Hts10
    isplitr; · iexact Hrs10
    isplitl [Htd10]; · iexact Htd10
    iexact Hrd10
  rotate_left 1
  · intro i hi; sl_unfold_run_names; exact hfs_1_0 m c _ _ _ rfl _ rfl _ _ _ i hi
  · have hv := hval_of m c 1 0; simp only [offOf_zero, offOf_one, offOf_two] at hv; exact hv _ (by intro i hi; sl_unfold_run_names; exact hfs_1_0 m c _ _ _ rfl _ rfl _ _ _ i hi) _
  iintro ⟨Hcs10, HO⟩
  have hmw := fun (q : DmaSem sig) (hq : q.val < 9) => mw_local_5 (F := F) c q hq
  sl_exec_parts (disch := simp only [dev4_eq, dev5_eq, dev6_eq, dev7_eq, dev8_eq, dev9_eq, dev10_eq, dev11_eq, dev12_eq, dev13_eq, dev14_eq, dev15_eq])
  clear hmw

  ihave Hsp := (pointsTo_split_subset (I := (((Memref.whole cc0_scratch2 : Memref sig .tc .vmem S3x1024x512 .bf16).slice (Rect.unit (s := S3x1024x512) ![1, 256, 0] S1x256x512.size inb_S3x1024x512_S1x256x512_1_256_0) (fun _ => rfl)).squeeze S256x512 squeezes_S1x256x512_S256x512).view.set) (chunk_sub c 1 1 [(0, 0), (0, 1), (0, 2), (0, 3), (1, 0)] (by decide))).1 $$ H5
  icases Hsp with ⟨Hc11, H5⟩
  rw [show (tallyAt (recvCell (peer c 3) c 0) () N + tallyAt (recvCell (peer c 3) c 1) () N + tallyAt (recvCell (peer c 3) c 2) () N + tallyAt (recvCell (peer c 3) c 3) () N + tallyAt (recvCell (peer c 1) c 1) () N + tallyAt (recvCell (peer c 1) c 2) () N + tallyAt (recvCell (peer c 1) c 3) () N) = (tallyAt (recvCell (peer c 3) c 0) () N + tallyAt (recvCell (peer c 3) c 1) () N + tallyAt (recvCell (peer c 3) c 2) () N + tallyAt (recvCell (peer c 3) c 3) () N + tallyAt (recvCell (peer c 1) c 2) () N + tallyAt (recvCell (peer c 1) c 3) () N) + tallyAt (recvCell (peer c 1) c 1) () N from by ac_rfl]
  iapply (send_slot (RFv m) (CFv m) c 1 1 (peer c 1) (by rw [offOf_one]) (chunk_eq _ _ 1 1 rfl) rfl (sendSem_eq _ _ 1 1 rfl) rfl _ g11 ?_ ?_ (tallyAt (recvCell (peer c 3) c 0) () N + tallyAt (recvCell (peer c 3) c 1) () N + tallyAt (recvCell (peer c 3) c 2) () N + tallyAt (recvCell (peer c 3) c 3) () N + tallyAt (recvCell (peer c 1) c 2) () N + tallyAt (recvCell (peer c 1) c 3) () N) _) $$ [Hc11 Hd11 HO Hts11 Htd11]
  rotate_left 2
  · isplitr; · iexact HIs11
    isplitr; · iexact HId11
    isplitl [Hc11]; · iexact Hc11
    isplitl [Hd11]; · iexact Hd11
    isplitl [HO]; · iexact HO
    isplitl [Hts11]; · iexact Hts11
    isplitr; · iexact Hrs11
    isplitl [Htd11]; · iexact Htd11
    iexact Hrd11
  rotate_left 1
  · intro i hi; sl_unfold_run_names; exact hfs_1_1 m c _ _ _ rfl _ rfl _ _ _ i hi
  · have hv := hval_of m c 1 1; simp only [offOf_zero, offOf_one, offOf_two] at hv; exact hv _ (by intro i hi; sl_unfold_run_names; exact hfs_1_1 m c _ _ _ rfl _ rfl _ _ _ i hi) _
  iintro ⟨Hcs11, HO⟩
  have hmw := fun (q : DmaSem sig) (hq : q.val < 9) => mw_local_6 (F := F) c q hq
  sl_exec_parts (disch := simp only [dev4_eq, dev5_eq, dev6_eq, dev7_eq, dev8_eq, dev9_eq, dev10_eq, dev11_eq, dev12_eq, dev13_eq, dev14_eq, dev15_eq])
  clear hmw

  ihave Hsp := (pointsTo_split_subset (I := (((Memref.whole cc0_scratch2 : Memref sig .tc .vmem S3x1024x512 .bf16).slice (Rect.unit (s := S3x1024x512) ![1, 512, 0] S1x256x512.size inb_S3x1024x512_S1x256x512_1_512_0) (fun _ => rfl)).squeeze S256x512 squeezes_S1x256x512_S256x512).view.set) (chunk_sub c 1 2 [(0, 0), (0, 1), (0, 2), (0, 3), (1, 0), (1, 1)] (by decide))).1 $$ H5
  icases Hsp with ⟨Hc12, H5⟩
  rw [show (tallyAt (recvCell (peer c 3) c 0) () N + tallyAt (recvCell (peer c 3) c 1) () N + tallyAt (recvCell (peer c 3) c 2) () N + tallyAt (recvCell (peer c 3) c 3) () N + tallyAt (recvCell (peer c 1) c 2) () N + tallyAt (recvCell (peer c 1) c 3) () N) = (tallyAt (recvCell (peer c 3) c 0) () N + tallyAt (recvCell (peer c 3) c 1) () N + tallyAt (recvCell (peer c 3) c 2) () N + tallyAt (recvCell (peer c 3) c 3) () N + tallyAt (recvCell (peer c 1) c 3) () N) + tallyAt (recvCell (peer c 1) c 2) () N from by ac_rfl]
  iapply (send_slot (RFv m) (CFv m) c 1 2 (peer c 1) (by rw [offOf_one]) (chunk_eq _ _ 1 2 rfl) rfl (sendSem_eq _ _ 1 2 rfl) rfl _ g12 ?_ ?_ (tallyAt (recvCell (peer c 3) c 0) () N + tallyAt (recvCell (peer c 3) c 1) () N + tallyAt (recvCell (peer c 3) c 2) () N + tallyAt (recvCell (peer c 3) c 3) () N + tallyAt (recvCell (peer c 1) c 3) () N) _) $$ [Hc12 Hd12 HO Hts12 Htd12]
  rotate_left 2
  · isplitr; · iexact HIs12
    isplitr; · iexact HId12
    isplitl [Hc12]; · iexact Hc12
    isplitl [Hd12]; · iexact Hd12
    isplitl [HO]; · iexact HO
    isplitl [Hts12]; · iexact Hts12
    isplitr; · iexact Hrs12
    isplitl [Htd12]; · iexact Htd12
    iexact Hrd12
  rotate_left 1
  · intro i hi; sl_unfold_run_names; exact hfs_1_2 m c _ _ _ rfl _ rfl _ _ _ i hi
  · have hv := hval_of m c 1 2; simp only [offOf_zero, offOf_one, offOf_two] at hv; exact hv _ (by intro i hi; sl_unfold_run_names; exact hfs_1_2 m c _ _ _ rfl _ rfl _ _ _ i hi) _
  iintro ⟨Hcs12, HO⟩
  have hmw := fun (q : DmaSem sig) (hq : q.val < 9) => mw_local_7 (F := F) c q hq
  sl_exec_parts (disch := simp only [dev4_eq, dev5_eq, dev6_eq, dev7_eq, dev8_eq, dev9_eq, dev10_eq, dev11_eq, dev12_eq, dev13_eq, dev14_eq, dev15_eq])
  clear hmw

  ihave Hsp := (pointsTo_split_subset (I := (((Memref.whole cc0_scratch2 : Memref sig .tc .vmem S3x1024x512 .bf16).slice (Rect.unit (s := S3x1024x512) ![1, 768, 0] S1x256x512.size inb_S3x1024x512_S1x256x512_1_768_0) (fun _ => rfl)).squeeze S256x512 squeezes_S1x256x512_S256x512).view.set) (chunk_sub c 1 3 [(0, 0), (0, 1), (0, 2), (0, 3), (1, 0), (1, 1), (1, 2)] (by decide))).1 $$ H5
  icases Hsp with ⟨Hc13, H5⟩
  rw [show (tallyAt (recvCell (peer c 3) c 0) () N + tallyAt (recvCell (peer c 3) c 1) () N + tallyAt (recvCell (peer c 3) c 2) () N + tallyAt (recvCell (peer c 3) c 3) () N + tallyAt (recvCell (peer c 1) c 3) () N) = (tallyAt (recvCell (peer c 3) c 0) () N + tallyAt (recvCell (peer c 3) c 1) () N + tallyAt (recvCell (peer c 3) c 2) () N + tallyAt (recvCell (peer c 3) c 3) () N) + tallyAt (recvCell (peer c 1) c 3) () N from by ac_rfl]
  iapply (send_slot (RFv m) (CFv m) c 1 3 (peer c 1) (by rw [offOf_one]) (chunk_eq _ _ 1 3 rfl) rfl (sendSem_eq _ _ 1 3 rfl) rfl _ g13 ?_ ?_ (tallyAt (recvCell (peer c 3) c 0) () N + tallyAt (recvCell (peer c 3) c 1) () N + tallyAt (recvCell (peer c 3) c 2) () N + tallyAt (recvCell (peer c 3) c 3) () N) _) $$ [Hc13 Hd13 HO Hts13 Htd13]
  rotate_left 2
  · isplitr; · iexact HIs13
    isplitr; · iexact HId13
    isplitl [Hc13]; · iexact Hc13
    isplitl [Hd13]; · iexact Hd13
    isplitl [HO]; · iexact HO
    isplitl [Hts13]; · iexact Hts13
    isplitr; · iexact Hrs13
    isplitl [Htd13]; · iexact Htd13
    iexact Hrd13
  rotate_left 1
  · intro i hi; sl_unfold_run_names; exact hfs_1_3 m c _ _ _ rfl _ rfl _ _ _ i hi
  · have hv := hval_of m c 1 3; simp only [offOf_zero, offOf_one, offOf_two] at hv; exact hv _ (by intro i hi; sl_unfold_run_names; exact hfs_1_3 m c _ _ _ rfl _ rfl _ _ _ i hi) _
  iintro ⟨Hcs13, HO⟩
  have hmw := fun (q : DmaSem sig) (hq : q.val < 9) => mw_local_8 (F := F) c q hq
  sl_exec_parts (disch := simp only [dev4_eq, dev5_eq, dev6_eq, dev7_eq, dev8_eq, dev9_eq, dev10_eq, dev11_eq, dev12_eq, dev13_eq, dev14_eq, dev15_eq])
  clear hmw

  ihave Hsp := (pointsTo_split_subset (I := (((Memref.whole cc0_scratch2 : Memref sig .tc .vmem S3x1024x512 .bf16).slice (Rect.unit (s := S3x1024x512) ![2, 0, 0] S1x256x512.size inb_S3x1024x512_S1x256x512_2_0_0) (fun _ => rfl)).squeeze S256x512 squeezes_S1x256x512_S256x512).view.set) (chunk_sub c 2 0 [(0, 0), (0, 1), (0, 2), (0, 3), (1, 0), (1, 1), (1, 2), (1, 3)] (by decide))).1 $$ H5
  icases Hsp with ⟨Hc20, H5⟩
  rw [show (tallyAt (recvCell (peer c 3) c 0) () N + tallyAt (recvCell (peer c 3) c 1) () N + tallyAt (recvCell (peer c 3) c 2) () N + tallyAt (recvCell (peer c 3) c 3) () N) = (tallyAt (recvCell (peer c 3) c 1) () N + tallyAt (recvCell (peer c 3) c 2) () N + tallyAt (recvCell (peer c 3) c 3) () N) + tallyAt (recvCell (peer c 3) c 0) () N from by ac_rfl]
  iapply (send_slot (RFv m) (CFv m) c 2 0 (peer c 3) (by rw [offOf_two]) (chunk_eq _ _ 2 0 rfl) rfl (sendSem_eq _ _ 2 0 rfl) rfl _ g30 ?_ ?_ (tallyAt (recvCell (peer c 3) c 1) () N + tallyAt (recvCell (peer c 3) c 2) () N + tallyAt (recvCell (peer c 3) c 3) () N) _) $$ [Hc20 Hd30 HO Hts20 Htd20]
  rotate_left 2
  · isplitr; · iexact HIs20
    isplitr; · iexact HId20
    isplitl [Hc20]; · iexact Hc20
    isplitl [Hd30]; · iexact Hd30
    isplitl [HO]; · iexact HO
    isplitl [Hts20]; · iexact Hts20
    isplitr; · iexact Hrs20
    isplitl [Htd20]; · iexact Htd20
    iexact Hrd30
  rotate_left 1
  · intro i hi; sl_unfold_run_names; exact hfs_2_0 m c _ _ _ rfl _ rfl _ _ _ i hi
  · have hv := hval_of m c 2 0; simp only [offOf_zero, offOf_one, offOf_two] at hv; exact hv _ (by intro i hi; sl_unfold_run_names; exact hfs_2_0 m c _ _ _ rfl _ rfl _ _ _ i hi) _
  iintro ⟨Hcs20, HO⟩
  have hmw := fun (q : DmaSem sig) (hq : q.val < 9) => mw_local_9 (F := F) c q hq
  sl_exec_parts (disch := simp only [dev4_eq, dev5_eq, dev6_eq, dev7_eq, dev8_eq, dev9_eq, dev10_eq, dev11_eq, dev12_eq, dev13_eq, dev14_eq, dev15_eq])
  clear hmw

  ihave Hsp := (pointsTo_split_subset (I := (((Memref.whole cc0_scratch2 : Memref sig .tc .vmem S3x1024x512 .bf16).slice (Rect.unit (s := S3x1024x512) ![2, 256, 0] S1x256x512.size inb_S3x1024x512_S1x256x512_2_256_0) (fun _ => rfl)).squeeze S256x512 squeezes_S1x256x512_S256x512).view.set) (chunk_sub c 2 1 [(0, 0), (0, 1), (0, 2), (0, 3), (1, 0), (1, 1), (1, 2), (1, 3), (2, 0)] (by decide))).1 $$ H5
  icases Hsp with ⟨Hc21, H5⟩
  rw [show (tallyAt (recvCell (peer c 3) c 1) () N + tallyAt (recvCell (peer c 3) c 2) () N + tallyAt (recvCell (peer c 3) c 3) () N) = (tallyAt (recvCell (peer c 3) c 2) () N + tallyAt (recvCell (peer c 3) c 3) () N) + tallyAt (recvCell (peer c 3) c 1) () N from by ac_rfl]
  iapply (send_slot (RFv m) (CFv m) c 2 1 (peer c 3) (by rw [offOf_two]) (chunk_eq _ _ 2 1 rfl) rfl (sendSem_eq _ _ 2 1 rfl) rfl _ g31 ?_ ?_ (tallyAt (recvCell (peer c 3) c 2) () N + tallyAt (recvCell (peer c 3) c 3) () N) _) $$ [Hc21 Hd31 HO Hts21 Htd21]
  rotate_left 2
  · isplitr; · iexact HIs21
    isplitr; · iexact HId21
    isplitl [Hc21]; · iexact Hc21
    isplitl [Hd31]; · iexact Hd31
    isplitl [HO]; · iexact HO
    isplitl [Hts21]; · iexact Hts21
    isplitr; · iexact Hrs21
    isplitl [Htd21]; · iexact Htd21
    iexact Hrd31
  rotate_left 1
  · intro i hi; sl_unfold_run_names; exact hfs_2_1 m c _ _ _ rfl _ rfl _ _ _ i hi
  · have hv := hval_of m c 2 1; simp only [offOf_zero, offOf_one, offOf_two] at hv; exact hv _ (by intro i hi; sl_unfold_run_names; exact hfs_2_1 m c _ _ _ rfl _ rfl _ _ _ i hi) _
  iintro ⟨Hcs21, HO⟩
  have hmw := fun (q : DmaSem sig) (hq : q.val < 9) => mw_local_10 (F := F) c q hq
  sl_exec_parts (disch := simp only [dev4_eq, dev5_eq, dev6_eq, dev7_eq, dev8_eq, dev9_eq, dev10_eq, dev11_eq, dev12_eq, dev13_eq, dev14_eq, dev15_eq])
  clear hmw

  ihave Hsp := (pointsTo_split_subset (I := (((Memref.whole cc0_scratch2 : Memref sig .tc .vmem S3x1024x512 .bf16).slice (Rect.unit (s := S3x1024x512) ![2, 512, 0] S1x256x512.size inb_S3x1024x512_S1x256x512_2_512_0) (fun _ => rfl)).squeeze S256x512 squeezes_S1x256x512_S256x512).view.set) (chunk_sub c 2 2 [(0, 0), (0, 1), (0, 2), (0, 3), (1, 0), (1, 1), (1, 2), (1, 3), (2, 0), (2, 1)] (by decide))).1 $$ H5
  icases Hsp with ⟨Hc22, H5⟩
  rw [show (tallyAt (recvCell (peer c 3) c 2) () N + tallyAt (recvCell (peer c 3) c 3) () N) = (tallyAt (recvCell (peer c 3) c 3) () N) + tallyAt (recvCell (peer c 3) c 2) () N from by ac_rfl]
  iapply (send_slot (RFv m) (CFv m) c 2 2 (peer c 3) (by rw [offOf_two]) (chunk_eq _ _ 2 2 rfl) rfl (sendSem_eq _ _ 2 2 rfl) rfl _ g32 ?_ ?_ (tallyAt (recvCell (peer c 3) c 3) () N) _) $$ [Hc22 Hd32 HO Hts22 Htd22]
  rotate_left 2
  · isplitr; · iexact HIs22
    isplitr; · iexact HId22
    isplitl [Hc22]; · iexact Hc22
    isplitl [Hd32]; · iexact Hd32
    isplitl [HO]; · iexact HO
    isplitl [Hts22]; · iexact Hts22
    isplitr; · iexact Hrs22
    isplitl [Htd22]; · iexact Htd22
    iexact Hrd32
  rotate_left 1
  · intro i hi; sl_unfold_run_names; exact hfs_2_2 m c _ _ _ rfl _ rfl _ _ _ i hi
  · have hv := hval_of m c 2 2; simp only [offOf_zero, offOf_one, offOf_two] at hv; exact hv _ (by intro i hi; sl_unfold_run_names; exact hfs_2_2 m c _ _ _ rfl _ rfl _ _ _ i hi) _
  iintro ⟨Hcs22, HO⟩
  have hmw := fun (q : DmaSem sig) (hq : q.val < 9) => mw_local_11 (F := F) c q hq
  sl_exec_parts (disch := simp only [dev4_eq, dev5_eq, dev6_eq, dev7_eq, dev8_eq, dev9_eq, dev10_eq, dev11_eq, dev12_eq, dev13_eq, dev14_eq, dev15_eq])
  clear hmw

  ihave Hsp := (pointsTo_split_subset (I := (((Memref.whole cc0_scratch2 : Memref sig .tc .vmem S3x1024x512 .bf16).slice (Rect.unit (s := S3x1024x512) ![2, 768, 0] S1x256x512.size inb_S3x1024x512_S1x256x512_2_768_0) (fun _ => rfl)).squeeze S256x512 squeezes_S1x256x512_S256x512).view.set) (chunk_sub c 2 3 [(0, 0), (0, 1), (0, 2), (0, 3), (1, 0), (1, 1), (1, 2), (1, 3), (2, 0), (2, 1), (2, 2)] (by decide))).1 $$ H5
  icases Hsp with ⟨Hc23, H5⟩
  rw [show (tallyAt (recvCell (peer c 3) c 3) () N) = (0) + tallyAt (recvCell (peer c 3) c 3) () N from by ac_rfl]
  iapply (send_slot (RFv m) (CFv m) c 2 3 (peer c 3) (by rw [offOf_two]) (chunk_eq _ _ 2 3 rfl) rfl (sendSem_eq _ _ 2 3 rfl) rfl _ g33 ?_ ?_ (0) _) $$ [Hc23 Hd33 HO Hts23 Htd23]
  rotate_left 2
  · isplitr; · iexact HIs23
    isplitr; · iexact HId23
    isplitl [Hc23]; · iexact Hc23
    isplitl [Hd33]; · iexact Hd33
    isplitl [HO]; · iexact HO
    isplitl [Hts23]; · iexact Hts23
    isplitr; · iexact Hrs23
    isplitl [Htd23]; · iexact Htd23
    iexact Hrd33
  rotate_left 1
  · intro i hi; sl_unfold_run_names; exact hfs_2_3 m c _ _ _ rfl _ rfl _ _ _ i hi
  · have hv := hval_of m c 2 3; simp only [offOf_zero, offOf_one, offOf_two] at hv; exact hv _ (by intro i hi; sl_unfold_run_names; exact hfs_2_3 m c _ _ _ rfl _ rfl _ _ _ i hi) _
  iintro ⟨Hcs23, HO⟩
  have hmw := fun (q : DmaSem sig) (hq : q.val < 9) => mw_local_12 (F := F) c q hq
  sl_exec_parts (disch := simp only [dev4_eq, dev5_eq, dev6_eq, dev7_eq, dev8_eq, dev9_eq, dev10_eq, dev11_eq, dev12_eq, dev13_eq, dev14_eq, dev15_eq])
  clear hmw

  iapply (Slots.load_recv_off 𝒱₀ c none Set.univ (RFv m) (peer c 2) 0 (by rw [Slots.off14_w2]; with_unfolding_all rfl)) $$ [Hatr20_pay1]
  · unfold recvPay; iexact Hatr20_pay1
  iintro Hrp20
  have hmw := fun (q : DmaSem sig) (hq : q.val < 9) => mw_local_12 (F := F) c q hq
  sl_exec_parts (disch := simp only [dev4_eq, dev5_eq, dev6_eq, dev7_eq, dev8_eq, dev9_eq, dev10_eq, dev11_eq, dev12_eq, dev13_eq, dev14_eq, dev15_eq])
  clear hmw

  iapply (Slots.load_recv_off 𝒱₀ c none Set.univ (RFv m) (peer c 2) 1 (by rw [Slots.off18_w2]; with_unfolding_all rfl)) $$ [Hatr21_pay1]
  · unfold recvPay; iexact Hatr21_pay1
  iintro Hrp21
  have hmw := fun (q : DmaSem sig) (hq : q.val < 9) => mw_local_12 (F := F) c q hq
  sl_exec_parts (disch := simp only [dev4_eq, dev5_eq, dev6_eq, dev7_eq, dev8_eq, dev9_eq, dev10_eq, dev11_eq, dev12_eq, dev13_eq, dev14_eq, dev15_eq])
  clear hmw

  iapply (Slots.load_recv_off 𝒱₀ c none Set.univ (RFv m) (peer c 2) 2 (by rw [Slots.off21_w2]; with_unfolding_all rfl)) $$ [Hatr22_pay1]
  · unfold recvPay; iexact Hatr22_pay1
  iintro Hrp22
  have hmw := fun (q : DmaSem sig) (hq : q.val < 9) => mw_local_12 (F := F) c q hq
  sl_exec_parts (disch := simp only [dev4_eq, dev5_eq, dev6_eq, dev7_eq, dev8_eq, dev9_eq, dev10_eq, dev11_eq, dev12_eq, dev13_eq, dev14_eq, dev15_eq])
  clear hmw

  iapply (Slots.load_recv_off 𝒱₀ c none Set.univ (RFv m) (peer c 2) 3 (by rw [Slots.off24_w2]; with_unfolding_all rfl)) $$ [Hatr23_pay1]
  · unfold recvPay; iexact Hatr23_pay1
  iintro Hrp23
  have hmw := fun (q : DmaSem sig) (hq : q.val < 9) => mw_local_12 (F := F) c q hq
  sl_exec_parts (disch := simp only [dev4_eq, dev5_eq, dev6_eq, dev7_eq, dev8_eq, dev9_eq, dev10_eq, dev11_eq, dev12_eq, dev13_eq, dev14_eq, dev15_eq])
  clear hmw

  iapply (Slots.load_recv_off 𝒱₀ c none Set.univ (RFv m) (peer c 3) 0 (by rw [Slots.off14_w3]; with_unfolding_all rfl)) $$ [Hatr30_pay1]
  · unfold recvPay; iexact Hatr30_pay1
  iintro Hrp30
  have hmw := fun (q : DmaSem sig) (hq : q.val < 9) => mw_local_12 (F := F) c q hq
  sl_exec_parts (disch := simp only [dev4_eq, dev5_eq, dev6_eq, dev7_eq, dev8_eq, dev9_eq, dev10_eq, dev11_eq, dev12_eq, dev13_eq, dev14_eq, dev15_eq])
  clear hmw

  iapply (Slots.load_recv_off 𝒱₀ c none Set.univ (RFv m) (peer c 3) 1 (by rw [Slots.off18_w3]; with_unfolding_all rfl)) $$ [Hatr31_pay1]
  · unfold recvPay; iexact Hatr31_pay1
  iintro Hrp31
  have hmw := fun (q : DmaSem sig) (hq : q.val < 9) => mw_local_12 (F := F) c q hq
  sl_exec_parts (disch := simp only [dev4_eq, dev5_eq, dev6_eq, dev7_eq, dev8_eq, dev9_eq, dev10_eq, dev11_eq, dev12_eq, dev13_eq, dev14_eq, dev15_eq])
  clear hmw

  iapply (Slots.load_recv_off 𝒱₀ c none Set.univ (RFv m) (peer c 3) 2 (by rw [Slots.off21_w3]; with_unfolding_all rfl)) $$ [Hatr32_pay1]
  · unfold recvPay; iexact Hatr32_pay1
  iintro Hrp32
  have hmw := fun (q : DmaSem sig) (hq : q.val < 9) => mw_local_12 (F := F) c q hq
  sl_exec_parts (disch := simp only [dev4_eq, dev5_eq, dev6_eq, dev7_eq, dev8_eq, dev9_eq, dev10_eq, dev11_eq, dev12_eq, dev13_eq, dev14_eq, dev15_eq])
  clear hmw

  iapply (Slots.load_recv_off 𝒱₀ c none Set.univ (RFv m) (peer c 3) 3 (by rw [Slots.off24_w3]; with_unfolding_all rfl)) $$ [Hatr33_pay1]
  · unfold recvPay; iexact Hatr33_pay1
  iintro Hrp33
  have hmw := fun (q : DmaSem sig) (hq : q.val < 9) => mw_local_12 (F := F) c q hq
  sl_exec_parts (disch := simp only [dev4_eq, dev5_eq, dev6_eq, dev7_eq, dev8_eq, dev9_eq, dev10_eq, dev11_eq, dev12_eq, dev13_eq, dev14_eq, dev15_eq])
  clear hmw

  iapply (Slots.load_recv_off 𝒱₀ c none Set.univ (RFv m) (peer c 1) 0 (by rw [Slots.off14_w1]; with_unfolding_all rfl)) $$ [Hatr10_pay1]
  · unfold recvPay; iexact Hatr10_pay1
  iintro Hrp10
  have hmw := fun (q : DmaSem sig) (hq : q.val < 9) => mw_local_12 (F := F) c q hq
  sl_exec_parts (disch := simp only [dev4_eq, dev5_eq, dev6_eq, dev7_eq, dev8_eq, dev9_eq, dev10_eq, dev11_eq, dev12_eq, dev13_eq, dev14_eq, dev15_eq])
  clear hmw

  iapply (Slots.load_recv_off 𝒱₀ c none Set.univ (RFv m) (peer c 1) 1 (by rw [Slots.off18_w1]; with_unfolding_all rfl)) $$ [Hatr11_pay1]
  · unfold recvPay; iexact Hatr11_pay1
  iintro Hrp11
  have hmw := fun (q : DmaSem sig) (hq : q.val < 9) => mw_local_12 (F := F) c q hq
  sl_exec_parts (disch := simp only [dev4_eq, dev5_eq, dev6_eq, dev7_eq, dev8_eq, dev9_eq, dev10_eq, dev11_eq, dev12_eq, dev13_eq, dev14_eq, dev15_eq])
  clear hmw

  iapply (Slots.load_recv_off 𝒱₀ c none Set.univ (RFv m) (peer c 1) 2 (by rw [Slots.off21_w1]; with_unfolding_all rfl)) $$ [Hatr12_pay1]
  · unfold recvPay; iexact Hatr12_pay1
  iintro Hrp12
  have hmw := fun (q : DmaSem sig) (hq : q.val < 9) => mw_local_12 (F := F) c q hq
  sl_exec_parts (disch := simp only [dev4_eq, dev5_eq, dev6_eq, dev7_eq, dev8_eq, dev9_eq, dev10_eq, dev11_eq, dev12_eq, dev13_eq, dev14_eq, dev15_eq])
  clear hmw

  iapply (Slots.load_recv_off 𝒱₀ c none Set.univ (RFv m) (peer c 1) 3 (by rw [Slots.off24_w1]; with_unfolding_all rfl)) $$ [Hatr13_pay1]
  · unfold recvPay; iexact Hatr13_pay1
  iintro Hrp13
  have hmw := fun (q : DmaSem sig) (hq : q.val < 9) => mw_local_12 (F := F) c q hq
  sl_exec_parts (disch := simp only [dev4_eq, dev5_eq, dev6_eq, dev7_eq, dev8_eq, dev9_eq, dev10_eq, dev11_eq, dev12_eq, dev13_eq, dev14_eq, dev15_eq])
  clear hmw

  imod (close_send (RFv m) (CFv m) c 0 0) $$ [Hats00] with Hzs00
  · isplitr; · iexact HIs00
    iexact Hats00
  imod (close_send (RFv m) (CFv m) c 0 1) $$ [Hats01] with Hzs01
  · isplitr; · iexact HIs01
    iexact Hats01
  imod (close_send (RFv m) (CFv m) c 0 2) $$ [Hats02] with Hzs02
  · isplitr; · iexact HIs02
    iexact Hats02
  imod (close_send (RFv m) (CFv m) c 0 3) $$ [Hats03] with Hzs03
  · isplitr; · iexact HIs03
    iexact Hats03
  imod (close_send (RFv m) (CFv m) c 1 0) $$ [Hats10] with Hzs10
  · isplitr; · iexact HIs10
    iexact Hats10
  imod (close_send (RFv m) (CFv m) c 1 1) $$ [Hats11] with Hzs11
  · isplitr; · iexact HIs11
    iexact Hats11
  imod (close_send (RFv m) (CFv m) c 1 2) $$ [Hats12] with Hzs12
  · isplitr; · iexact HIs12
    iexact Hats12
  imod (close_send (RFv m) (CFv m) c 1 3) $$ [Hats13] with Hzs13
  · isplitr; · iexact HIs13
    iexact Hats13
  imod (close_send (RFv m) (CFv m) c 2 0) $$ [Hats20] with Hzs20
  · isplitr; · iexact HIs20
    iexact Hats20
  imod (close_send (RFv m) (CFv m) c 2 1) $$ [Hats21] with Hzs21
  · isplitr; · iexact HIs21
    iexact Hats21
  imod (close_send (RFv m) (CFv m) c 2 2) $$ [Hats22] with Hzs22
  · isplitr; · iexact HIs22
    iexact Hats22
  imod (close_send (RFv m) (CFv m) c 2 3) $$ [Hats23] with Hzs23
  · isplitr; · iexact HIs23
    iexact Hats23
  imod (close_recv (RFv m) (CFv m) c (peer c 1) 0) $$ [Hatr10] with Hzr10
  · isplitr; · iexact HIr10
    iexact Hatr10
  imod (close_recv (RFv m) (CFv m) c (peer c 1) 1) $$ [Hatr11] with Hzr11
  · isplitr; · iexact HIr11
    iexact Hatr11
  imod (close_recv (RFv m) (CFv m) c (peer c 1) 2) $$ [Hatr12] with Hzr12
  · isplitr; · iexact HIr12
    iexact Hatr12
  imod (close_recv (RFv m) (CFv m) c (peer c 1) 3) $$ [Hatr13] with Hzr13
  · isplitr; · iexact HIr13
    iexact Hatr13
  imod (close_recv (RFv m) (CFv m) c (peer c 2) 0) $$ [Hatr20] with Hzr20
  · isplitr; · iexact HIr20
    iexact Hatr20
  imod (close_recv (RFv m) (CFv m) c (peer c 2) 1) $$ [Hatr21] with Hzr21
  · isplitr; · iexact HIr21
    iexact Hatr21
  imod (close_recv (RFv m) (CFv m) c (peer c 2) 2) $$ [Hatr22] with Hzr22
  · isplitr; · iexact HIr22
    iexact Hatr22
  imod (close_recv (RFv m) (CFv m) c (peer c 2) 3) $$ [Hatr23] with Hzr23
  · isplitr; · iexact HIr23
    iexact Hatr23
  imod (close_recv (RFv m) (CFv m) c (peer c 3) 0) $$ [Hatr30] with Hzr30
  · isplitr; · iexact HIr30
    iexact Hatr30
  imod (close_recv (RFv m) (CFv m) c (peer c 3) 1) $$ [Hatr31] with Hzr31
  · isplitr; · iexact HIr31
    iexact Hatr31
  imod (close_recv (RFv m) (CFv m) c (peer c 3) 2) $$ [Hatr32] with Hzr32
  · isplitr; · iexact HIr32
    iexact Hatr32
  imod (close_recv (RFv m) (CFv m) c (peer c 3) 3) $$ [Hatr33] with Hzr33
  · isplitr; · iexact HIr33
    iexact Hatr33
  imod (close_recv_own (RFv m) (CFv m) c 0) $$ [Hatro0] with Hzo0
  · isplitr; · iexact HIro0
    iexact Hatro0
  imod (close_recv_own (RFv m) (CFv m) c 1) $$ [Hatro1] with Hzo1
  · isplitr; · iexact HIro1
    iexact Hatro1
  imod (close_recv_own (RFv m) (CFv m) c 2) $$ [Hatro2] with Hzo2
  · isplitr; · iexact HIro2
    iexact Hatro2
  imod (close_recv_own (RFv m) (CFv m) c 3) $$ [Hatro3] with Hzo3
  · isplitr; · iexact HIro3
    iexact Hatro3
  rw [wp_ret]
  imodintro
  iapply (bodyPost_intro (RF := RFv m) (CF := CFv m) (m := m) (ρ := ρ) (OUT := OUTv m) c _ _ _ _ _ f6)
  unfold sendPay recvPay
  isplitl [H0]; · iexact H0
  isplitl [H1]; · iexact H1
  isplitl [H3]; · iexact H3
  isplitl [H4]; · iexact H4
  isplitl [H5]; · iexact H5
  isplitl [Hats00_pay1]; · iexact Hats00_pay1
  isplitl [Hats01_pay1]; · iexact Hats01_pay1
  isplitl [Hats02_pay1]; · iexact Hats02_pay1
  isplitl [Hats03_pay1]; · iexact Hats03_pay1
  isplitl [Hats10_pay1]; · iexact Hats10_pay1
  isplitl [Hats11_pay1]; · iexact Hats11_pay1
  isplitl [Hats12_pay1]; · iexact Hats12_pay1
  isplitl [Hats13_pay1]; · iexact Hats13_pay1
  isplitl [Hats20_pay1]; · iexact Hats20_pay1
  isplitl [Hats21_pay1]; · iexact Hats21_pay1
  isplitl [Hats22_pay1]; · iexact Hats22_pay1
  isplitl [Hats23_pay1]; · iexact Hats23_pay1
  isplitl [Hown0]; · iexact Hown0
  isplitl [Hown1]; · iexact Hown1
  isplitl [Hown2]; · iexact Hown2
  isplitl [Hown3]; · iexact Hown3
  isplitl [Hrp10]; · iexact Hrp10
  isplitl [Hrp11]; · iexact Hrp11
  isplitl [Hrp12]; · iexact Hrp12
  isplitl [Hrp13]; · iexact Hrp13
  isplitl [Hrp20]; · iexact Hrp20
  isplitl [Hrp21]; · iexact Hrp21
  isplitl [Hrp22]; · iexact Hrp22
  isplitl [Hrp23]; · iexact Hrp23
  isplitl [Hrp30]; · iexact Hrp30
  isplitl [Hrp31]; · iexact Hrp31
  isplitl [Hrp32]; · iexact Hrp32
  isplitl [Hrp33]; · iexact Hrp33
  isplitl [Hx0]; · iexact Hx0
  isplitl [Hx1]; · iexact Hx1
  isplitl [Hx2]; · iexact Hx2
  isplitl [Hx3]; · iexact Hx3
  isplitl [Hw00]; · iexact Hw00
  isplitl [Hw01]; · iexact Hw01
  isplitl [Hw10]; · iexact Hw10
  isplitl [Hw11]; · iexact Hw11
  isplitl [Hzs00]; · iexact Hzs00
  isplitl [Hzs01]; · iexact Hzs01
  isplitl [Hzs02]; · iexact Hzs02
  isplitl [Hzs03]; · iexact Hzs03
  isplitl [Hzs10]; · iexact Hzs10
  isplitl [Hzs11]; · iexact Hzs11
  isplitl [Hzs12]; · iexact Hzs12
  isplitl [Hzs13]; · iexact Hzs13
  isplitl [Hzs20]; · iexact Hzs20
  isplitl [Hzs21]; · iexact Hzs21
  isplitl [Hzs22]; · iexact Hzs22
  isplitl [Hzs23]; · iexact Hzs23
  isplitl [Hzr10]; · iexact Hzr10
  isplitl [Hzr11]; · iexact Hzr11
  isplitl [Hzr12]; · iexact Hzr12
  isplitl [Hzr13]; · iexact Hzr13
  isplitl [Hzr20]; · iexact Hzr20
  isplitl [Hzr21]; · iexact Hzr21
  isplitl [Hzr22]; · iexact Hzr22
  isplitl [Hzr23]; · iexact Hzr23
  isplitl [Hzr30]; · iexact Hzr30
  isplitl [Hzr31]; · iexact Hzr31
  isplitl [Hzr32]; · iexact Hzr32
  isplitl [Hzr33]; · iexact Hzr33
  isplitl [Hzo0]; · iexact Hzo0
  isplitl [Hzo1]; · iexact Hzo1
  isplitl [Hzo2]; · iexact Hzo2
  isplitl [Hzo3]; · iexact Hzo3
  isplitl [HO]; · iexact HO
  iapply (stg_respell c _ (OUTv m c) ?_) $$ H2
  sl_unfold_run_names
  exact Slots.out_value_list m c f2 (own_pay m c _ rfl _ rfl _)

end Cert.KernelIdeal.A2A
end
-- ==== Proof.BodyFinal.lean ====
import proofs.«900531_g7700000000000532_dist_gemm_a2a_m4096_k4096_n2048_f32_gelu_v7x_i4_1_alg».proof.Proof.Body

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem body_obligation (m : (ℓ : Loc nD τ sig) → Buf (Elt F) ℓ) (ρ : Dev nD → PrngReg) (c : Dev nD) :
    BodyObligation (dats m ρ (RFv m) (CFv m) (OUTv m) 0 c) (defs₀ (F := F)) 𝒱₀ () Set.univ :=
  body_obligation_of_flat (RF := RFv m) (CF := CFv m) (m := m) (ρ := ρ) (OUT := OUTv m)
    (fun c W K f2 f3 f4 f5 f6 => flat m ρ c W K f2 f3 f4 f5 f6) c

end Cert.KernelIdeal.A2A
end
-- ==== Proof.Spec.lean ====
import Idealize.ShloMosaic.PureOps.Ideal
import Idealize.ShloMosaic.PureOps.Ideal.Laws
import Idealize.ShloMosaic.Lib.ValueIdx
import Idealize.ShloMosaic.Lib.Layout

noncomputable section

namespace Cert.GemmGelu

open Idealize.ShloMosaic Idealize.ShloMosaic.ValueIdx

-- The tanh form of gelu on the extended reals.
def gelu (y : EReal) : EReal :=
  (Ideal.ofBits .f32 0x3F000000#32 * y) *
    (Ideal.ofBits .f32 0x3F800000#32 +
      Ideal.tanh (Ideal.ofBits .f32 0x3F4C422A#32 * (y + ((Ideal.ofBits .f32 0x3D372713#32 * y) * y) * y)))

theorem gelu_eq_ref (y : EReal) :
    gelu y = (Ideal.ofBits .f32 0x3F000000#32 * y) *
      (Ideal.ofBits .f32 0x3F800000#32 +
        Ideal.tanh (Ideal.ofBits .f32 0x3F4C422A#32 * (y + Ideal.ofBits .f32 0x3D372713#32 * ((y * y) * y)))) := by
  unfold gelu
  rw [mul_assoc (Ideal.ofBits .f32 0x3D372713#32) y y, mul_assoc (Ideal.ofBits .f32 0x3D372713#32) (y * y) y]

-- gelu (X · W), entry by entry.
def refG (X : (⟨2, ![4096, 4096]⟩ : Shape).Idx → EReal) (W : (⟨2, ![4096, 2048]⟩ : Shape).Idx → EReal) :
    (⟨2, ![4096, 2048]⟩ : Shape).Idx → EReal :=
  fun i => gelu (∑ k : Fin 4096, X (ix2 (i 0) k) * W (ix2 k (i 1)))

-- Column block c of gelu (X · W) in terms of the four row blocks of X.
def outG (c : Fin 4) (xs : Fin 4 → (⟨2, ![1024, 4096]⟩ : Shape).Idx → EReal)
    (W : (⟨2, ![4096, 2048]⟩ : Shape).Idx → EReal) : (⟨2, ![4096, 512]⟩ : Shape).Idx → EReal :=
  fun i => gelu (∑ k : Fin 4096,
    xs ⟨(i 0).val / 1024, by have := idx2_lt0 i; omega⟩
        (ix2 (⟨(i 0).val % 1024, Nat.mod_lt _ (by decide)⟩ : Fin 1024) k)
      * W (ix2 k (⟨512 * c.val + (i 1).val, by have := idx2_lt1 i; have := c.isLt; omega⟩ : Fin 2048)))

def tileG (xr : (⟨2, ![256, 4096]⟩ : Shape).Idx → EReal) (ws : (⟨3, ![1, 4096, 512]⟩ : Shape).Idx → EReal) :
    (⟨3, ![1, 256, 512]⟩ : Shape).Idx → EReal :=
  fun i => gelu (∑ k : Fin 4096, xr (ix2 (i 1) k) * ws (ix3 (0 : Fin 1) k (i 2)))

def tileG1024 (xr : (⟨2, ![1024, 4096]⟩ : Shape).Idx → EReal) (ws : (⟨3, ![1, 4096, 512]⟩ : Shape).Idx → EReal) :
    (⟨2, ![1024, 512]⟩ : Shape).Idx → EReal :=
  fun i => gelu (∑ k : Fin 4096, xr (ix2 (i 0) k) * ws (ix3 (0 : Fin 1) k (i 1)))

theorem tileG_apply (xr : (⟨2, ![256, 4096]⟩ : Shape).Idx → EReal) (ws : (⟨3, ![1, 4096, 512]⟩ : Shape).Idx → EReal)
    (a : Fin 1) (p : Fin 256) (q : Fin 512) :
    tileG xr ws (ix3 a p q) = gelu (∑ k : Fin 4096, xr (ix2 p k) * ws (ix3 (0 : Fin 1) k q)) := rfl

theorem tileG1024_apply (xr : (⟨2, ![1024, 4096]⟩ : Shape).Idx → EReal) (ws : (⟨3, ![1, 4096, 512]⟩ : Shape).Idx → EReal)
    (p : Fin 1024) (q : Fin 512) :
    tileG1024 xr ws (ix2 p q) = gelu (∑ k : Fin 4096, xr (ix2 p k) * ws (ix3 (0 : Fin 1) k q)) := rfl

theorem refG_apply (X : (⟨2, ![4096, 4096]⟩ : Shape).Idx → EReal) (W : (⟨2, ![4096, 2048]⟩ : Shape).Idx → EReal)
    (p : Fin 4096) (q : Fin 2048) :
    refG X W (ix2 p q) = gelu (∑ k : Fin 4096, X (ix2 p k) * W (ix2 k q)) := rfl

end Cert.GemmGelu

end
-- ==== Proof.RefValue.lean ====
import proofs.«900531_g7700000000000532_dist_gemm_a2a_m4096_k4096_n2048_f32_gelu_v7x_i4_1_alg».proof.Defs
import proofs.«900531_g7700000000000532_dist_gemm_a2a_m4096_k4096_n2048_f32_gelu_v7x_i4_1_alg».proof.Proof.Gen.ReferenceIdeal
import proofs.«900531_g7700000000000532_dist_gemm_a2a_m4096_k4096_n2048_f32_gelu_v7x_i4_1_alg».proof.Proof.Gen.ReferenceIdeal.Run
import proofs.«900531_g7700000000000532_dist_gemm_a2a_m4096_k4096_n2048_f32_gelu_v7x_i4_1_alg».proof.Proof.Gen.ReferenceIdeal.Read
import proofs.«900531_g7700000000000532_dist_gemm_a2a_m4096_k4096_n2048_f32_gelu_v7x_i4_1_alg».proof.Proof.Gen.Pre_finite_inputs_ReferenceIdeal
import proofs.«900531_g7700000000000532_dist_gemm_a2a_m4096_k4096_n2048_f32_gelu_v7x_i4_1_alg».proof.Proof.Spec

noncomputable section

namespace Cert.GemmGelu

open Idealize.ShloMosaic Idealize.ShloMosaic.TcCoe Idealize.ShloMosaic.ValueIdx Idealize.SL.Sem
open Cert.ReferenceIdeal Cert.ReferenceIdeal.Gen Cert.ReferenceIdeal.Read

theorem lidx_eq (i : S4096x2048.Idx) (k : Fin 4096) : lidx_main_v0 i k = ix2 (i 0) k :=
  funext fun a => by match a with | ⟨0, _⟩ => rfl | ⟨1, _⟩ => rfl

theorem ridx_eq (i : S4096x2048.Idx) (k : Fin 4096) : ridx_main_v0 i k = ix2 k (i 1) :=
  funext fun a => by match a with | ⟨0, _⟩ => rfl | ⟨1, _⟩ => rfl

-- The reference's result is gelu (X · W); its cubic term is regrouped by associativity.
theorem ref_result_eq (x0 : (⟨S4096x4096, .f32⟩ : BufTy).Contents (Elt Ideal))
    (x1 : (⟨S4096x2048, .f32⟩ : BufTy).Contents (Elt Ideal)) :
    val_main_v13 (F := Ideal) x0 x1 = refG x0 x1 := by
  funext i
  rw [val_main_v13_apply, val_main_v2_apply, val_main_v12_apply, val_main_v1_apply, val_main_cst_apply,
    val_main_v11_apply, val_main_cst_2_apply, val_main_v10_apply, val_main_v9_apply, val_main_v8_apply,
    val_main_cst_1_apply, val_main_v7_apply, val_main_v6_apply, val_main_v5_apply, val_main_cst_0_apply,
    val_main_v4_apply, val_main_v3_apply, val_main_v0_apply]
  simp only [lidx_eq, ridx_eq, Ideal.mulf_def, Ideal.addf_def, Ideal.hostUnary_tanh_def, Ideal.ofBits_def]
  exact (gelu_eq_ref _).symm

theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v13)
          = refG (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((val_main_v13_eq (F := Ideal) _ _).trans (ref_result_eq _ _)), (h c).2⟩)
    (Cert.ReferenceIdeal.Value.run (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

end Cert.GemmGelu

end
-- ==== Proof.TileValue.lean ====
import proofs.«900531_g7700000000000532_dist_gemm_a2a_m4096_k4096_n2048_f32_gelu_v7x_i4_1_alg».proof.Proof.Gen.KernelIdeal.Skeleton
import proofs.«900531_g7700000000000532_dist_gemm_a2a_m4096_k4096_n2048_f32_gelu_v7x_i4_1_alg».proof.Proof.Spec
import Idealize.ShloMosaic.Lib.ValueLayout
import Idealize.ShloMosaic.Lib.Pipeline.Value
import Idealize.ShloMosaic.PureOps.Ideal.Laws

noncomputable section

namespace Cert.GemmGelu

open Idealize.ShloMosaic Idealize.ShloMosaic.ValueIdx
open Cert.KernelIdeal Cert.KernelIdeal.Gen

theorem lhs256_0 (i : S256x512.Idx) (q : dot_S256x4096_S4096x512_S256x512_1_0_0_1_n_n.contr.Idx) :
    (dot_S256x4096_S4096x512_S256x512_1_0_0_1_n_n.lhsIdx i q 0).val = (i 0).val := by
  unfold DotDims.lhsIdx
  rw [dif_neg (show ¬(0 : Fin S256x4096.rank) ∈ dot_S256x4096_S4096x512_S256x512_1_0_0_1_n_n.lhsBatch by decide), dif_pos (show (0 : Fin S256x4096.rank) ∈ dot_S256x4096_S4096x512_S256x512_1_0_0_1_n_n.lhsNonContracting by decide)]
  rfl
theorem lhs256_1 (i : S256x512.Idx) (q : dot_S256x4096_S4096x512_S256x512_1_0_0_1_n_n.contr.Idx) :
    (dot_S256x4096_S4096x512_S256x512_1_0_0_1_n_n.lhsIdx i q 1).val = (q ⟨0, by decide⟩).val :=
  dot_S256x4096_S4096x512_S256x512_1_0_0_1_n_n.lhsIdx_val_of_single rfl i q
theorem rhs256_0 (i : S256x512.Idx) (q : dot_S256x4096_S4096x512_S256x512_1_0_0_1_n_n.contr.Idx) :
    (dot_S256x4096_S4096x512_S256x512_1_0_0_1_n_n.rhsIdx i q 0).val = (q ⟨0, by decide⟩).val :=
  dot_S256x4096_S4096x512_S256x512_1_0_0_1_n_n.rhsIdx_val_of_single rfl i q
theorem rhs256_1 (i : S256x512.Idx) (q : dot_S256x4096_S4096x512_S256x512_1_0_0_1_n_n.contr.Idx) :
    (dot_S256x4096_S4096x512_S256x512_1_0_0_1_n_n.rhsIdx i q 1).val = (i 1).val := by
  unfold DotDims.rhsIdx
  rw [dif_neg (show ¬(1 : Fin S4096x512.rank) ∈ dot_S256x4096_S4096x512_S256x512_1_0_0_1_n_n.rhsBatch by decide), dif_pos (show (1 : Fin S4096x512.rank) ∈ dot_S256x4096_S4096x512_S256x512_1_0_0_1_n_n.rhsNonContracting by decide)]
  rfl

-- An entry of a matrix product is the sum over the contracted axis.
theorem mm256_apply (x : FVec Ideal S256x4096 .f32) (w : FVec Ideal S4096x512 .f32) (p : Fin 256) (q : Fin 512) :
    matmul dot_S256x4096_S4096x512_S256x512_1_0_0_1_n_n none x w (constant S256x512 .f32 0x00000000#32) (ix2 p q)
      = ∑ k : Fin 4096, x (ix2 p k) * w (ix2 k q) := by
  show FloatOps.matmul dot_S256x4096_S4096x512_S256x512_1_0_0_1_n_n none x w (constant S256x512 .f32 0x00000000#32) (ix2 p q) = _
  rw [Ideal.matmul_constant_zero_apply, ← Equiv.sum_comp (ValueIdx.contrEquiv1 dot_S256x4096_S4096x512_S256x512_1_0_0_1_n_n 4096 rfl rfl).symm]
  refine Finset.sum_congr rfl fun k _ => ?_
  have hk := ValueIdx.contrEquiv1_symm_val dot_S256x4096_S4096x512_S256x512_1_0_0_1_n_n 4096 rfl rfl k
  have el : dot_S256x4096_S4096x512_S256x512_1_0_0_1_n_n.lhsIdx (ix2 p q) ((ValueIdx.contrEquiv1 dot_S256x4096_S4096x512_S256x512_1_0_0_1_n_n 4096 rfl rfl).symm k) = ix2 p k := funext fun a => Fin.ext (by
    match a with
    | ⟨0, _⟩ => exact lhs256_0 _ _
    | ⟨1, _⟩ => exact (lhs256_1 _ _).trans hk)
  have er : dot_S256x4096_S4096x512_S256x512_1_0_0_1_n_n.rhsIdx (ix2 p q) ((ValueIdx.contrEquiv1 dot_S256x4096_S4096x512_S256x512_1_0_0_1_n_n 4096 rfl rfl).symm k) = ix2 k q := funext fun a => Fin.ext (by
    match a with
    | ⟨0, _⟩ => exact (rhs256_0 _ _).trans hk
    | ⟨1, _⟩ => exact rhs256_1 _ _)
  rw [el, er]

theorem pay4_apply (x : Vec Ideal S256x4096 .f32) (w : Vec Ideal S1x4096x512 .f32) (p : Fin 256) (q : Fin 512) :
    k0_pay4 (F := Ideal) x w (ix2 p q) = ∑ k : Fin 4096, x (ix2 p k) * w (ix3 (0 : Fin 1) k q) := by
  unfold k0_pay4
  rw [mm256_apply]
  refine Finset.sum_congr rfl fun k _ => ?_
  rw [shapeCast_1ab_ab_apply]

theorem tile_of_apply (f : (⟨3, ![1, 256, 512]⟩ : Shape).Idx → EReal) (x : Vec Ideal S256x4096 .f32)
    (w : Vec Ideal S1x4096x512 .f32)
    (h : ∀ (a : Fin 1) (p : Fin 256) (q : Fin 512), f (ix3 a p q) = gelu (k0_pay4 (F := Ideal) x w (ix2 p q))) :
    f = tileG x w := by
  funext i
  obtain ⟨a, p, q, rfl⟩ : ∃ (a : Fin 1) (p : Fin 256) (q : Fin 512), i = ix3 a p q := ⟨i 0, i 1, i 2, eq_ix3 i⟩
  rw [h, pay4_apply, tileG_apply]

-- A sent tile is gelu of a row group times a column block.
theorem pay15_eq (x : Vec Ideal S256x4096 .f32) (w : Vec Ideal S1x4096x512 .f32) :
    k0_pay15 (F := Ideal) x w = tileG x w :=
  tile_of_apply _ x w fun a p q => by
    unfold k0_pay15
    rw [shapeCast_ab_1ab_apply]
    rfl

theorem lhs1024_0 (i : S1024x512.Idx) (q : dot_S1024x4096_S4096x512_S1024x512_1_0_0_1_n_n.contr.Idx) :
    (dot_S1024x4096_S4096x512_S1024x512_1_0_0_1_n_n.lhsIdx i q 0).val = (i 0).val := by
  unfold DotDims.lhsIdx
  rw [dif_neg (show ¬(0 : Fin S1024x4096.rank) ∈ dot_S1024x4096_S4096x512_S1024x512_1_0_0_1_n_n.lhsBatch by decide), dif_pos (show (0 : Fin S1024x4096.rank) ∈ dot_S1024x4096_S4096x512_S1024x512_1_0_0_1_n_n.lhsNonContracting by decide)]
  rfl
theorem lhs1024_1 (i : S1024x512.Idx) (q : dot_S1024x4096_S4096x512_S1024x512_1_0_0_1_n_n.contr.Idx) :
    (dot_S1024x4096_S4096x512_S1024x512_1_0_0_1_n_n.lhsIdx i q 1).val = (q ⟨0, by decide⟩).val :=
  dot_S1024x4096_S4096x512_S1024x512_1_0_0_1_n_n.lhsIdx_val_of_single rfl i q
theorem rhs1024_0 (i : S1024x512.Idx) (q : dot_S1024x4096_S4096x512_S1024x512_1_0_0_1_n_n.contr.Idx) :
    (dot_S1024x4096_S4096x512_S1024x512_1_0_0_1_n_n.rhsIdx i q 0).val = (q ⟨0, by decide⟩).val :=
  dot_S1024x4096_S4096x512_S1024x512_1_0_0_1_n_n.rhsIdx_val_of_single rfl i q
theorem rhs1024_1 (i : S1024x512.Idx) (q : dot_S1024x4096_S4096x512_S1024x512_1_0_0_1_n_n.contr.Idx) :
    (dot_S1024x4096_S4096x512_S1024x512_1_0_0_1_n_n.rhsIdx i q 1).val = (i 1).val := by
  unfold DotDims.rhsIdx
  rw [dif_neg (show ¬(1 : Fin S4096x512.rank) ∈ dot_S1024x4096_S4096x512_S1024x512_1_0_0_1_n_n.rhsBatch by decide), dif_pos (show (1 : Fin S4096x512.rank) ∈ dot_S1024x4096_S4096x512_S1024x512_1_0_0_1_n_n.rhsNonContracting by decide)]
  rfl

theorem mm1024_apply (x : FVec Ideal S1024x4096 .f32) (w : FVec Ideal S4096x512 .f32) (p : Fin 1024) (q : Fin 512) :
    matmul dot_S1024x4096_S4096x512_S1024x512_1_0_0_1_n_n none x w (constant S1024x512 .f32 0x00000000#32) (ix2 p q)
      = ∑ k : Fin 4096, x (ix2 p k) * w (ix2 k q) := by
  show FloatOps.matmul dot_S1024x4096_S4096x512_S1024x512_1_0_0_1_n_n none x w (constant S1024x512 .f32 0x00000000#32) (ix2 p q) = _
  rw [Ideal.matmul_constant_zero_apply, ← Equiv.sum_comp (ValueIdx.contrEquiv1 dot_S1024x4096_S4096x512_S1024x512_1_0_0_1_n_n 4096 rfl rfl).symm]
  refine Finset.sum_congr rfl fun k _ => ?_
  have hk := ValueIdx.contrEquiv1_symm_val dot_S1024x4096_S4096x512_S1024x512_1_0_0_1_n_n 4096 rfl rfl k
  have el : dot_S1024x4096_S4096x512_S1024x512_1_0_0_1_n_n.lhsIdx (ix2 p q) ((ValueIdx.contrEquiv1 dot_S1024x4096_S4096x512_S1024x512_1_0_0_1_n_n 4096 rfl rfl).symm k) = ix2 p k := funext fun a => Fin.ext (by
    match a with
    | ⟨0, _⟩ => exact lhs1024_0 _ _
    | ⟨1, _⟩ => exact (lhs1024_1 _ _).trans hk)
  have er : dot_S1024x4096_S4096x512_S1024x512_1_0_0_1_n_n.rhsIdx (ix2 p q) ((ValueIdx.contrEquiv1 dot_S1024x4096_S4096x512_S1024x512_1_0_0_1_n_n 4096 rfl rfl).symm k) = ix2 k q := funext fun a => Fin.ext (by
    match a with
    | ⟨0, _⟩ => exact (rhs1024_0 _ _).trans hk
    | ⟨1, _⟩ => exact rhs1024_1 _ _)
  rw [el, er]

theorem pay25_eq (x : Vec Ideal S1024x4096 .f32) (w : Vec Ideal S1x4096x512 .f32) :
    k0_pay25 (F := Ideal) x w = tileG1024 x w := by
  funext i
  obtain ⟨p, q, rfl⟩ : ∃ (p : Fin 1024) (q : Fin 512), i = ix2 p q := ⟨i 0, i 1, eq_ix2 i⟩
  show gelu (matmul (F := Ideal) dot_S1024x4096_S4096x512_S1024x512_1_0_0_1_n_n none x (shapeCast S4096x512 w _) (constant S1024x512 .f32 0x00000000#32) (ix2 p q)) = _
  rw [mm1024_apply, tileG1024_apply]
  refine congrArg gelu (Finset.sum_congr rfl fun k _ => ?_)
  rw [shapeCast_1ab_ab_apply]

theorem pay1_apply (v : Vec Ideal S1x256x512 .bf16) (p : Fin 256) (q : Fin 512) :
    k0_pay1 (F := Ideal) v (ix2 p q) = v (ix3 (0 : Fin 1) p q) := shapeCast_1ab_ab_apply v _ p q
end Cert.GemmGelu

end
-- ==== Proof.OutTiles.lean ====
import proofs.«900531_g7700000000000532_dist_gemm_a2a_m4096_k4096_n2048_f32_gelu_v7x_i4_1_alg».proof.Proof.Spec

noncomputable section

namespace Cert.GemmGelu

open Idealize.ShloMosaic Idealize.ShloMosaic.ValueIdx

def rowsOf (xb : (⟨2, ![1024, 4096]⟩ : Shape).Idx → EReal) (r : Fin 4) : (⟨2, ![256, 4096]⟩ : Shape).Idx → EReal :=
  fun j => xb (ix2 (⟨256 * r.val + (j 0).val, by have := idx2_lt0 j; have := r.isLt; omega⟩ : Fin 1024) (j 1))

def colsOf (W : (⟨2, ![4096, 2048]⟩ : Shape).Idx → EReal) (c : Fin 4) : (⟨3, ![1, 4096, 512]⟩ : Shape).Idx → EReal :=
  fun j => W (ix2 (j 1) (⟨512 * c.val + (j 2).val, by
    have h : (j 2).val < 512 := (j 2).isLt
    have := c.isLt
    omega⟩ : Fin 2048))

theorem blocks_congr (xs : Fin 4 → (⟨2, ![1024, 4096]⟩ : Shape).Idx → EReal) {d d' : Fin 4} {j j' : Fin 1024}
    (k : Fin 4096) (hd : d.val = d'.val) (hj : j.val = j'.val) : xs d (ix2 j k) = xs d' (ix2 j' k) := by
  obtain rfl := Fin.ext hd
  obtain rfl := Fin.ext hj
  rfl

-- Rows 256 g … of row block s of column block c are the tile of that row group and that column block.
theorem outG_tile (c d r : Fin 4) (xs : Fin 4 → (⟨2, ![1024, 4096]⟩ : Shape).Idx → EReal)
    (W : (⟨2, ![4096, 2048]⟩ : Shape).Idx → EReal) (p : Fin 256) (q : Fin 512) :
    outG c xs W (ix2 (⟨1024 * d.val + 256 * r.val + p.val, by
        have := d.isLt; have := r.isLt; have := p.isLt; omega⟩ : Fin 4096) q)
      = tileG (rowsOf (xs d) r) (colsOf W c) (ix3 (0 : Fin 1) p q) := by
  rw [tileG_apply]
  refine congrArg gelu (Finset.sum_congr rfl fun k _ => ?_)
  have e1 : (1024 * d.val + 256 * r.val + p.val) / 1024 = d.val := by
    have := r.isLt; have := p.isLt; omega
  have e2 : (1024 * d.val + 256 * r.val + p.val) % 1024 = 256 * r.val + p.val := by
    have := r.isLt; have := p.isLt; omega
  exact congrArg₂ (· * ·) (blocks_congr xs k e1 e2) rfl

theorem outG_tile1024 (c d : Fin 4) (xs : Fin 4 → (⟨2, ![1024, 4096]⟩ : Shape).Idx → EReal)
    (W : (⟨2, ![4096, 2048]⟩ : Shape).Idx → EReal) (p : Fin 1024) (q : Fin 512) :
    outG c xs W (ix2 (⟨1024 * d.val + p.val, by have := d.isLt; have := p.isLt; omega⟩ : Fin 4096) q)
      = tileG1024 (xs d) (colsOf W c) (ix2 p q) := by
  rw [tileG1024_apply]
  refine congrArg gelu (Finset.sum_congr rfl fun k _ => ?_)
  have e1 : (1024 * d.val + p.val) / 1024 = d.val := by have := p.isLt; omega
  have e2 : (1024 * d.val + p.val) % 1024 = p.val := by have := p.isLt; omega
  exact congrArg₂ (· * ·) (blocks_congr xs k e1 e2) rfl

end Cert.GemmGelu

end
-- ==== Proof.ContentsValue.lean ====
import proofs.«900531_g7700000000000532_dist_gemm_a2a_m4096_k4096_n2048_f32_gelu_v7x_i4_1_alg».proof.Proof.Contents
import proofs.«900531_g7700000000000532_dist_gemm_a2a_m4096_k4096_n2048_f32_gelu_v7x_i4_1_alg».proof.Proof.TileValue
import proofs.«900531_g7700000000000532_dist_gemm_a2a_m4096_k4096_n2048_f32_gelu_v7x_i4_1_alg».proof.Proof.OutTiles

noncomputable section

namespace Cert.KernelIdeal.A2A

open Cert.KernelIdeal Cert.KernelIdeal.Gen Cert.GemmGelu
open Idealize.ShloMosaic Idealize.ShloMosaic.TcCoe Idealize.ShloMosaic.ValueIdx

variable (m : (ℓ : Loc nD τ sig) → Buf (Elt Ideal) ℓ)

theorem ys_eq (src dst : Dev nD) (r : Fin 4) :
    ys m src dst r = tileG (rowsOf (m ((src : Thread nD τ).loc main_arg0)) r) (colsOf (m ((src : Thread nD τ).loc main_arg1)) dst) :=
  pay15_eq _ _

theorem row_split (P : Fin 4096) : ∃ (s g : Fin 4) (p : Fin 256),
    P = (⟨1024 * s.val + 256 * g.val + p.val, by have := p.isLt; have := g.isLt; have := s.isLt; omega⟩ : Fin 4096) :=
  ⟨⟨P.val / 1024, by have := P.isLt; omega⟩, ⟨P.val % 1024 / 256, by have := P.isLt; omega⟩,
    ⟨P.val % 256, Nat.mod_lt _ (by decide)⟩, Fin.ext (by show P.val = 1024 * (P.val / 1024) + 256 * (P.val % 1024 / 256) + P.val % 256; omega)⟩

-- At exact reals the final result on c is column block c of gelu (X · W), given one W on all devices.
theorem OUTv_eq (c : Dev nD)
    (hW : ∀ c' : Dev nD, m ((c' : Thread nD τ).loc main_arg1) = m ((c : Thread nD τ).loc main_arg1)) :
    OUTv m c = outG c (fun (c' : Dev nD) => m ((c' : Thread nD τ).loc main_arg0)) (m ((c : Thread nD τ).loc main_arg1)) := by
  funext i
  obtain ⟨P, q, rfl⟩ : ∃ (P : Fin 4096) (q : Fin 512), i = ix2 P q := ⟨i 0, i 1, eq_ix2 i⟩
  obtain ⟨s, g, p, rfl⟩ := row_split P
  by_cases hs : s = c
  · subst hs
    have e : (⟨1024 * s.val + 256 * g.val + p.val, by have := p.isLt; have := g.isLt; have := s.isLt; omega⟩ : Fin 4096)
        = ⟨1024 * s.val + (⟨256 * g.val + p.val, by have := p.isLt; have := g.isLt; omega⟩ : Fin 1024).val, by
            have := p.isLt; have := g.isLt; have := s.isLt; show 1024 * s.val + (256 * g.val + p.val) < 4096; omega⟩ :=
      Fin.ext (Nat.add_assoc _ _ _)
    rw [e, OUTv_own, outG_tile1024, pay25_eq]
    rfl
  · rw [OUTv_other m c s hs g p q, pay1_apply, outG_tile c s g, ys_eq, hW s]

end Cert.KernelIdeal.A2A

end
-- ==== Proof.BlockValue.lean ====
import proofs.«900531_g7700000000000532_dist_gemm_a2a_m4096_k4096_n2048_f32_gelu_v7x_i4_1_alg».proof.Proof.Spec

noncomputable section

namespace Cert.GemmGelu

open Idealize.ShloMosaic Idealize.ShloMosaic.ValueIdx Idealize.ShloMosaic.Layout

theorem rows_idx (h : Tiles ⟨2, ![1024, 4096]⟩ ⟨2, ![4096, 4096]⟩ 0 4) (r : Fin 4096) (k : Fin 4096) :
    h.idx (⟨r.val / 1024, by have := r.isLt; omega⟩ : Fin 4)
        (ix2 (⟨r.val % 1024, Nat.mod_lt _ (by decide)⟩ : Fin 1024) k)
      = ix2 r k := by
  funext a
  apply Fin.ext
  match a with
  | ⟨0, _⟩ =>
    show r.val / 1024 * 1024 + r.val % 1024 = r.val
    omega
  | ⟨1, _⟩ => rfl

theorem cols_idx (h : Tiles ⟨2, ![4096, 512]⟩ ⟨2, ![4096, 2048]⟩ 1 4) (c : Fin 4)
    (i : (⟨2, ![4096, 512]⟩ : Shape).Idx) :
    h.idx c i = ix2 (⟨(i 0).val, idx2_lt0 i⟩ : Fin 4096)
      (⟨512 * c.val + (i 1).val, by have := idx2_lt1 i; have := c.isLt; omega⟩ : Fin 2048) := by
  funext a
  apply Fin.ext
  match a with
  | ⟨0, _⟩ => rfl
  | ⟨1, _⟩ =>
    show c.val * 512 + (i 1).val = 512 * c.val + (i 1).val
    omega

theorem out_block (c : Fin 4) (X' : (⟨2, ![4096, 4096]⟩ : Shape).Idx → EReal)
    (W' : (⟨2, ![4096, 2048]⟩ : Shape).Idx → EReal) :
    Layout.block ⟨2, ![4096, 512]⟩ ⟨2, ![4096, 2048]⟩ 1 4 c (refG X' W')
      = outG c (fun c' => Layout.block ⟨2, ![1024, 4096]⟩ ⟨2, ![4096, 4096]⟩ 0 4 c' X') W' := by
  funext i
  rw [block_apply, cols_idx, refG_apply]
  unfold outG
  simp only [block_apply]
  refine congrArg gelu (Finset.sum_congr rfl fun k _ => ?_)
  rw [rows_idx _ (⟨(i 0).val, idx2_lt0 i⟩ : Fin 4096) k]

end Cert.GemmGelu

end
-- ==== Proof.AlgebraicOf.lean ====
import proofs.«900531_g7700000000000532_dist_gemm_a2a_m4096_k4096_n2048_f32_gelu_v7x_i4_1_alg».proof.Defs
import proofs.«900531_g7700000000000532_dist_gemm_a2a_m4096_k4096_n2048_f32_gelu_v7x_i4_1_alg».proof.Proof.Gen.KernelIdeal
import proofs.«900531_g7700000000000532_dist_gemm_a2a_m4096_k4096_n2048_f32_gelu_v7x_i4_1_alg».proof.Proof.Gen.Pre_finite_inputs_Kernel
import proofs.«900531_g7700000000000532_dist_gemm_a2a_m4096_k4096_n2048_f32_gelu_v7x_i4_1_alg».proof.Proof.RefValue
import proofs.«900531_g7700000000000532_dist_gemm_a2a_m4096_k4096_n2048_f32_gelu_v7x_i4_1_alg».proof.Proof.BlockValue

noncomputable section

namespace Cert.GemmGelu

open Idealize.ShloMosaic Idealize.ShloMosaic.TcCoe Idealize.SL.Sem

-- Both runs end; the reference at gelu (X · W), device c at its column block.
theorem algebraic_of_kernel_run_under
    (OUT : ((ℓ : Loc Cert.KernelIdeal.nD Cert.KernelIdeal.τ Cert.KernelIdeal.sig) → Buf (Elt Ideal) ℓ) →
      (c : Dev Cert.KernelIdeal.nD) → Buf (Elt Ideal) ((c.tc : Thread Cert.KernelIdeal.nD Cert.KernelIdeal.τ).loc Cert.KernelIdeal.main_v1))
    (hOUT : ∀ (m : (ℓ : Loc Cert.KernelIdeal.nD Cert.KernelIdeal.τ Cert.KernelIdeal.sig) → Buf (Elt Ideal) ℓ),
      (∀ c c' : Dev Cert.KernelIdeal.nD,
        m ((c'.tc : Thread Cert.KernelIdeal.nD Cert.KernelIdeal.τ).loc Cert.KernelIdeal.main_arg1)
          = m ((c.tc : Thread Cert.KernelIdeal.nD Cert.KernelIdeal.τ).loc Cert.KernelIdeal.main_arg1)) →
      ∀ c : Dev Cert.KernelIdeal.nD, OUT m c
        = outG c (fun (c' : Dev Cert.KernelIdeal.nD) => m ((c'.tc : Thread Cert.KernelIdeal.nD Cert.KernelIdeal.τ).loc Cert.KernelIdeal.main_arg0))
            (m ((c.tc : Thread Cert.KernelIdeal.nD Cert.KernelIdeal.τ).loc Cert.KernelIdeal.main_arg1)))
    (hk : ∀ (m : (ℓ : Loc Cert.KernelIdeal.nD Cert.KernelIdeal.τ Cert.KernelIdeal.sig) → Buf (Elt Ideal) ℓ)
        (g : Dev Cert.KernelIdeal.nD → PrngReg), Cert.Pre_KernelIdeal m →
      θ_run (Cert.KernelIdeal.defs (F := Ideal)) (onTc (τ := Cert.KernelIdeal.τ) (Cert.KernelIdeal.main (F := Ideal)))
        ⟨m, fun _ => 0, g⟩ (fun r => ∀ c : Dev Cert.KernelIdeal.nD,
          r.2.mem ((c.tc : Thread Cert.KernelIdeal.nD Cert.KernelIdeal.τ).loc Cert.KernelIdeal.main_v1) = OUT m c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))) :
    Cert.algebraic_KernelIdeal_ReferenceIdeal := by
  intro m g m' g' hpre hagree
  have hW : ∀ c c' : Dev Cert.KernelIdeal.nD,
      m ((c'.tc : Thread Cert.KernelIdeal.nD Cert.KernelIdeal.τ).loc Cert.KernelIdeal.main_arg1)
        = m ((c.tc : Thread Cert.KernelIdeal.nD Cert.KernelIdeal.τ).loc Cert.KernelIdeal.main_arg1) :=
    fun c c' => (hagree c').2.trans (hagree c).2.symm
  refine ⟨refG (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · refine (θ_run _ _ _).mono (fun r h c => ⟨?_, (h c).2⟩) (hk m g hpre)
    refine (h c).1.trans ((hOUT m hW c).trans ?_)
    refine Eq.trans ?_ (out_block c _ _).symm
    congr 1
    · funext c'
      exact (hagree c').1
    · exact (hagree c).2
  · exact (θ_run _ _ _).mono (fun r h => h 0) (ref_run m' g')

end Cert.GemmGelu

end
-- ==== Proof.lean ====
/-
  gelu (X · W) on a mesh of four devices. X (4096 × 4096) is cut by rows, W (4096 × 2048) is whole on every device, and
  device c ends with column block c of gelu (X · W): it multiplies its rows of X by each device's columns of W, keeps its
  own tile and exchanges the other three, so that block c is assembled from the four devices' tiles. The run is proved
  once, for any float instance `F`; the two kernel frames are its instances at `Bits` and `Ideal`, and at `Ideal` its result
  is block c of the reference's gelu (X · W).
-/
import proofs.«900531_g7700000000000532_dist_gemm_a2a_m4096_k4096_n2048_f32_gelu_v7x_i4_1_alg».proof.Defs
import proofs.«900531_g7700000000000532_dist_gemm_a2a_m4096_k4096_n2048_f32_gelu_v7x_i4_1_alg».proof.Proof.Gen.Kernel
import proofs.«900531_g7700000000000532_dist_gemm_a2a_m4096_k4096_n2048_f32_gelu_v7x_i4_1_alg».proof.Proof.Gen.KernelIdeal
import proofs.«900531_g7700000000000532_dist_gemm_a2a_m4096_k4096_n2048_f32_gelu_v7x_i4_1_alg».proof.Proof.Gen.ReferenceIdeal
import proofs.«900531_g7700000000000532_dist_gemm_a2a_m4096_k4096_n2048_f32_gelu_v7x_i4_1_alg».proof.Proof.Gen.Pre_finite_inputs_Kernel
import proofs.«900531_g7700000000000532_dist_gemm_a2a_m4096_k4096_n2048_f32_gelu_v7x_i4_1_alg».proof.Proof.Gen.Pre_finite_inputs_ReferenceIdeal
import proofs.«900531_g7700000000000532_dist_gemm_a2a_m4096_k4096_n2048_f32_gelu_v7x_i4_1_alg».proof.Proof.Run
import proofs.«900531_g7700000000000532_dist_gemm_a2a_m4096_k4096_n2048_f32_gelu_v7x_i4_1_alg».proof.Proof.BodyFinal
import proofs.«900531_g7700000000000532_dist_gemm_a2a_m4096_k4096_n2048_f32_gelu_v7x_i4_1_alg».proof.Proof.RefValue
import proofs.«900531_g7700000000000532_dist_gemm_a2a_m4096_k4096_n2048_f32_gelu_v7x_i4_1_alg».proof.Proof.ContentsValue
import proofs.«900531_g7700000000000532_dist_gemm_a2a_m4096_k4096_n2048_f32_gelu_v7x_i4_1_alg».proof.Proof.AlgebraicOf

noncomputable section

namespace Cert.Proof

open Idealize.ShloMosaic Idealize.ShloMosaic.TcCoe Idealize.SL.Sem
open Cert.KernelIdeal.A2A

-- `Kernel` and `KernelIdeal` are the same term: their body tables agree label by label.
theorem defs₀_eq : (Cert.Kernel.defs₀ (F := Bits)) = (Cert.KernelIdeal.defs₀ (F := Bits)) := by
  unfold Cert.Kernel.defs₀ Cert.KernelIdeal.defs₀
  refine congrArg Defs.onTc (funext fun ℓ => funext fun a => ?_)
  match ℓ, a with
  | 0, (t, s) => rfl
  | ⟨n + 1, h⟩, _ => exact absurd h (Nat.not_lt.2 (Nat.le_add_left _ _))

theorem defs_eq : (Cert.Kernel.defs (F := Bits)) = (Cert.KernelIdeal.defs (F := Bits)) :=
  congrArg (Pipeline.defs Cert.KernelIdeal.pcfgs) defs₀_eq

-- So the frame of `Kernel` is the generic run at `F := Bits`.
theorem frame_kernel : Cert.frame_Kernel (hKernel := Cert.Kernel.Gen.facts)
    (hPre_finite_inputs_Kernel := Cert.Pre_finite_inputs_Kernel.Gen.facts) := by
  intro m g _
  have H := kernel_run (F := Bits) m g (body_obligation m g)
  rw [← defs_eq] at H
  exact (θ_run _ _ _).mono (fun _ h c => (h c).2) H

theorem claim : Cert.Claim :=
  ⟨Cert.Kernel.Gen.facts, Cert.KernelIdeal.Gen.facts, Cert.ReferenceIdeal.Gen.facts, Cert.Pre_finite_inputs_Kernel.Gen.facts, Cert.Pre_finite_inputs_ReferenceIdeal.Gen.facts,
    frame_kernel,
    fun m g _ => (θ_run _ _ _).mono (fun _ h c => (h c).2) (kernel_run m g (body_obligation m g)),
    Cert.GemmGelu.frame_ri,
    trivial,
    Cert.GemmGelu.algebraic_of_kernel_run_under (fun m c => OUTv m c) (fun m hW c => OUTv_eq m c (fun c' => hW c c'))
      (fun m g _ => kernel_run m g (body_obligation m g))⟩

end Cert.Proof

end
